-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x2048x1024 : Shape := ⟨3, ![1, 2048, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel

variable [Facts]

def fn {F : FTy → Type} [FloatOps F] (main_arg0 : FVec F S1x2048x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  main_v3
-- ==== Pre_finite_inputs_ReferenceIdeal.lean ====
abbrev S4x2048x1024 : Shape := ⟨3, ![4, 2048, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel

variable [Facts]

def fn {F : FTy → Type} [FloatOps F] (main_arg0 : FVec F S4x2048x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  main_v3
-- ==== Kernel.lean ====
abbrev S1x2048x1024 : Shape := ⟨3, ![1, 2048, 1024]⟩
abbrev S2048x1024 : Shape := ⟨2, ![2048, 1024]⟩
abbrev S2x3x2x128x1024 : Shape := ⟨5, ![2, 3, 2, 128, 1024]⟩
abbrev S2x6x2 : Shape := ⟨3, ![2, 6, 2]⟩
abbrev S_ : Shape := ⟨0, ![]⟩
abbrev S1x256x1024 : Shape := ⟨3, ![1, 256, 1024]⟩
abbrev S256x1024 : Shape := ⟨2, ![256, 1024]⟩
abbrev S1x1x1 : Shape := ⟨3, ![1, 1, 1]⟩
abbrev S1x1x1x128x1024 : Shape := ⟨5, ![1, 1, 1, 128, 1024]⟩
abbrev S128x1024 : Shape := ⟨2, ![128, 1024]⟩

abbrev nBuf : Space → Nat
  | .hbm => 2
  | .vmem => 3
  | .smem => 0
  | _ => 0

abbrev bufTy : (tb : Table) → Fin (tcTables nBuf tb) → BufTy
  | .hbm, ⟨0, _⟩ => ⟨S1x2048x1024, .f32⟩
  | .hbm, ⟨1, _⟩ => ⟨S2048x1024, .bf16⟩
  | .local _ .vmem, ⟨0, _⟩ => ⟨S1x2048x1024, .f32⟩
  | .local _ .vmem, ⟨1, _⟩ => ⟨S2048x1024, .bf16⟩
  | .local _ .vmem, ⟨2, _⟩ => ⟨S2x3x2x128x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14 : BitVec 32 := 1#32
  let v26 : BitVec 32 := Scalar.muli v24 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_17 : BitVec 32 := 1#32
  let v28 : BitVec 32 := Scalar.muli v13 c1_i32_17
  let v29 : BitVec 32 := Scalar.addi c0_i32_18 v28
  v29.toNat
def k0_off1 (d0 : Dev nD) (c0_i32_26 : BitVec 32) (c0_i32_19 : BitVec 32) : Fin 3 → Nat :=
  let c0 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v30 : BitVec 32 := Scalar.addi v2 c0_i32_19
  let c4_i32_20 : BitVec 32 := 4#32
  let c0_i32_21 : BitVec 32 := 0#32
  let v31 : BitVec 1 := Scalar.cmpi .eq c4_i32_20 c0_i32_21
  let c1_i32_22 : BitVec 32 := 1#32
  let v32 : BitVec 32 := Scalar.select v31 c1_i32_22 c4_i32_20
  let v33 : BitVec 32 := Scalar.remsi v30 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let c256_i32 : BitVec 32 := 256#32
  let v41 : BitVec 32 := Scalar.muli v40 c256_i32
  let v42 : BitVec 32 := Scalar.addi c0_i32_26 v41
  let v43 : Index := Scalar.indexCast v42
  let c0_27 : Index := 0#32
  ![0, v43.toNat, 0]
def k0_off2 (d0 : Dev nD) (c0_i32_26 : BitVec 32) (c0_i32_19 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v30 : BitVec 32 := Scalar.addi v2 c0_i32_19
  let c4_i32_20 : BitVec 32 := 4#32
  let c0_i32_21 : BitVec 32 := 0#32
  let v31 : BitVec 1 := Scalar.cmpi .eq c4_i32_20 c0_i32_21
  let c1_i32_22 : BitVec 32 := 1#32
  let v32 : BitVec 32 := Scalar.select v31 c1_i32_22 c4_i32_20
  let v33 : BitVec 32 := Scalar.remsi v30 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let c256_i32 : BitVec 32 := 256#32
  let v41 : BitVec 32 := Scalar.muli v40 c256_i32
  let v42 : BitVec 32 := Scalar.addi c0_i32_26 v41
  let v47 : Index := Scalar.indexCast v42
  let c0_28 : Index := 0#32
  ![v47.toNat, 0]
def k0_off3 (d0 : Dev nD) (c0_i32_34 : BitVec 32) (c0_i32_35 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_33 : BitVec 32 := 256#32
  let v57 : BitVec 32 := Scalar.muli v2 c256_i32_33
  let v58 : BitVec 32 := Scalar.addi c0_i32_34 v57
  let v59 : BitVec 32 := Scalar.addi v58 c0_i32_35
  let c0_i32_49 : BitVec 32 := 0#32
  ![v59.toNat, 0]
def k0_dev3 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_45 : BitVec 32 := 1#32
  let v60 : BitVec 32 := Scalar.muli v13 c1_i32_45
  let v61 : BitVec 32 := Scalar.addi c0_i32_46 v60
  v61.toNat
def k0_dev4 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_62 : BitVec 32 := 1#32
  let v72 : BitVec 32 := Scalar.muli v24 c1_i32_62
  let v73 : BitVec 32 := Scalar.addi c0_i32_63 v72
  v73.toNat
def k0_dev5 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_78 : BitVec 32 := 1#32
  let v84 : BitVec 32 := Scalar.muli v13 c1_i32_78
  let v85 : BitVec 32 := Scalar.addi c0_i32_79 v84
  v85.toNat
def k0_dev6 (d0 : Dev nD) : Nat :=
  let c0_i32_96 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_95 : BitVec 32 := 1#32
  let v96 : BitVec 32 := Scalar.muli v24 c1_i32_95
  let v97 : BitVec 32 := Scalar.addi c0_i32_96 v96
  v97.toNat
def k0_off4 (d0 : Dev nD) (c1_i32_164 : BitVec 32) (c0_i32_173 : BitVec 32) : Fin 2 → Nat :=
  let c0_i32_172 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v193 : BitVec 32 := Scalar.subi v2 c1_i32_164
  let c4_i32_165 : BitVec 32 := 4#32
  let c0_i32_166 : BitVec 32 := 0#32
  let v194 : BitVec 1 := Scalar.cmpi .eq c4_i32_165 c0_i32_166
  let c1_i32_167 : BitVec 32 := 1#32
  let v195 : BitVec 32 := Scalar.select v194 c1_i32_167 c4_i32_165
  let v196 : BitVec 32 := Scalar.remsi v193 v195
  let c0_i32_169 : BitVec 32 := 0#32
  let v198 : BitVec 1 := Scalar.cmpi .slt v196 c0_i32_169
  let c0_i32_170 : BitVec 32 := 0#32
  let v199 : BitVec 1 := Scalar.cmpi .slt v195 c0_i32_170
  let v200 : BitVec 1 := Scalar.xori v198 v199
  let c0_i32_168 : BitVec 32 := 0#32
  let v197 : BitVec 1 := Scalar.cmpi .ne v196 c0_i32_168
  let v201 : BitVec 1 := Scalar.andi v200 v197
  let v202 : BitVec 32 := Scalar.addi v196 v195
  let v203 : BitVec 32 := Scalar.select v201 v202 v196
  let c256_i32_171 : BitVec 32 := 256#32
  let v204 : BitVec 32 := Scalar.muli v203 c256_i32_171
  let v205 : BitVec 32 := Scalar.addi c0_i32_172 v204
  let v206 : BitVec 32 := Scalar.addi v205 c0_i32_173
  let v207 : Index := Scalar.indexCast v206
  let c0_174 : Index := 0#32
  ![v207.toNat, 0]
def k0_off5 (d0 : Dev nD) (c1_i32_164 : BitVec 32) (c0_i32_183 : BitVec 32) : Fin 2 → Nat :=
  let c0_i32_182 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v193 : BitVec 32 := Scalar.subi v2 c1_i32_164
  let c4_i32_165 : BitVec 32 := 4#32
  let c0_i32_166 : BitVec 32 := 0#32
  let v194 : BitVec 1 := Scalar.cmpi .eq c4_i32_165 c0_i32_166
  let c1_i32_167 : BitVec 32 := 1#32
  let v195 : BitVec 32 := Scalar.select v194 c1_i32_167 c4_i32_165
  let v196 : BitVec 32 := Scalar.remsi v193 v195
  let c0_i32_169 : BitVec 32 := 0#32
  let v198 : BitVec 1 := Scalar.cmpi .slt v196 c0_i32_169
  let c0_i32_170 : BitVec 32 := 0#32
  let v199 : BitVec 1 := Scalar.cmpi .slt v195 c0_i32_170
  let v200 : BitVec 1 := Scalar.xori v198 v199
  let c0_i32_168 : BitVec 32 := 0#32
  let v197 : BitVec 1 := Scalar.cmpi .ne v196 c0_i32_168
  let v201 : BitVec 1 := Scalar.andi v200 v197
  let v202 : BitVec 32 := Scalar.addi v196 v195
  let v203 : BitVec 32 := Scalar.select v201 v202 v196
  let c256_i32_181 : BitVec 32 := 256#32
  let v215 : BitVec 32 := Scalar.muli v203 c256_i32_181
  let v216 : BitVec 32 := Scalar.addi c0_i32_182 v215
  let v217 : BitVec 32 := Scalar.addi v216 c0_i32_183
  let c0_i32_197 : BitVec 32 := 0#32
  ![v217.toNat, 0]
def k0_dev7 (d0 : Dev nD) : Nat :=
  let c0_i32_194 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_193 : BitVec 32 := 1#32
  let v218 : BitVec 32 := Scalar.muli v13 c1_i32_193
  let v219 : BitVec 32 := Scalar.addi c0_i32_194 v218
  v219.toNat
def k0_off6 (d0 : Dev nD) (c1024_i32_220 : BitVec 32) (c1_i32_212 : BitVec 32) (c0_i32_221 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v234 : BitVec 32 := Scalar.addi v2 c1_i32_212
  let c4_i32_213 : BitVec 32 := 4#32
  let c0_i32_214 : BitVec 32 := 0#32
  let v235 : BitVec 1 := Scalar.cmpi .eq c4_i32_213 c0_i32_214
  let c1_i32_215 : BitVec 32 := 1#32
  let v236 : BitVec 32 := Scalar.select v235 c1_i32_215 c4_i32_213
  let v237 : BitVec 32 := Scalar.remsi v234 v236
  let c0_i32_217 : BitVec 32 := 0#32
  let v239 : BitVec 1 := Scalar.cmpi .slt v237 c0_i32_217
  let c0_i32_218 : BitVec 32 := 0#32
  let v240 : BitVec 1 := Scalar.cmpi .slt v236 c0_i32_218
  let v241 : BitVec 1 := Scalar.xori v239 v240
  let c0_i32_216 : BitVec 32 := 0#32
  let v238 : BitVec 1 := Scalar.cmpi .ne v237 c0_i32_216
  let v242 : BitVec 1 := Scalar.andi v241 v238
  let v243 : BitVec 32 := Scalar.addi v237 v236
  let v244 : BitVec 32 := Scalar.select v242 v243 v237
  let c256_i32_219 : BitVec 32 := 256#32
  let v245 : BitVec 32 := Scalar.muli v244 c256_i32_219
  let v246 : BitVec 32 := Scalar.addi c1024_i32_220 v245
  let v247 : BitVec 32 := Scalar.addi v246 c0_i32_221
  let v248 : Index := Scalar.indexCast v247
  let c0_222 : Index := 0#32
  ![v248.toNat, 0]
def k0_off6_at (r : Fin 8) : BitVec 32 × BitVec 32 × BitVec 32 :=
  if r.val < 4 then
    if r.val < 2 then
      if r.val < 1 then
        (1024#32, 1#32, 0#32)
      else
        (1024#32, 1#32, 128#32)
    else
      if r.val < 3 then
        (1024#32, 2#32, 0#32)
      else
        (1024#32, 2#32, 128#32)
  else
    if r.val < 6 then
      if r.val < 5 then
        (0#32, 1#32, 0#32)
      else
        (1024#32, 3#32, 0#32)
    else
      if r.val < 7 then
        (0#32, 1#32, 128#32)
      else
        (1024#32, 3#32, 128#32)
def k0_off7 (d0 : Dev nD) (c1024_i32_229 : BitVec 32) (c1_i32_212 : BitVec 32) (c0_i32_230 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v234 : BitVec 32 := Scalar.addi v2 c1_i32_212
  let c4_i32_213 : BitVec 32 := 4#32
  let c0_i32_214 : BitVec 32 := 0#32
  let v235 : BitVec 1 := Scalar.cmpi .eq c4_i32_213 c0_i32_214
  let c1_i32_215 : BitVec 32 := 1#32
  let v236 : BitVec 32 := Scalar.select v235 c1_i32_215 c4_i32_213
  let v237 : BitVec 32 := Scalar.remsi v234 v236
  let c0_i32_217 : BitVec 32 := 0#32
  let v239 : BitVec 1 := Scalar.cmpi .slt v237 c0_i32_217
  let c0_i32_218 : BitVec 32 := 0#32
  let v240 : BitVec 1 := Scalar.cmpi .slt v236 c0_i32_218
  let v241 : BitVec 1 := Scalar.xori v239 v240
  let c0_i32_216 : BitVec 32 := 0#32
  let v238 : BitVec 1 := Scalar.cmpi .ne v237 c0_i32_216
  let v242 : BitVec 1 := Scalar.andi v241 v238
  let v243 : BitVec 32 := Scalar.addi v237 v236
  let v244 : BitVec 32 := Scalar.select v242 v243 v237
  let c256_i32_228 : BitVec 32 := 256#32
  let v256 : BitVec 32 := Scalar.muli v244 c256_i32_228
  let v257 : BitVec 32 := Scalar.addi c1024_i32_229 v256
  let v258 : BitVec 32 := Scalar.addi v257 c0_i32_230
  let c0_i32_244 : BitVec 32 := 0#32
  ![v258.toNat, 0]
def k0_off7_at (r : Fin 8) : BitVec 32 × BitVec 32 × BitVec 32 :=
  if r.val < 4 then
    if r.val < 2 then
      if r.val < 1 then
        (1024#32, 1#32, 0#32)
      else
        (1024#32, 1#32, 128#32)
    else
      if r.val < 3 then
        (1024#32, 2#32, 0#32)
      else
        (1024#32, 2#32, 128#32)
  else
    if r.val < 6 then
      if r.val < 5 then
        (0#32, 1#32, 0#32)
      else
        (1024#32, 3#32, 0#32)
    else
      if r.val < 7 then
        (0#32, 1#32, 128#32)
      else
        (1024#32, 3#32, 128#32)
def k0_dev8 (d0 : Dev nD) : Nat :=
  let c0_i32_241 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_240 : BitVec 32 := 1#32
  let v259 : BitVec 32 := Scalar.muli v24 c1_i32_240
  let v260 : BitVec 32 := Scalar.addi c0_i32_241 v259
  v260.toNat
def k0_dev9 (d0 : Dev nD) : Nat :=
  let c0_i32_289 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_288 : BitVec 32 := 1#32
  let v300 : BitVec 32 := Scalar.muli v13 c1_i32_288
  let v301 : BitVec 32 := Scalar.addi c0_i32_289 v300
  v301.toNat
def k0_dev10 (d0 : Dev nD) : Nat :=
  let c0_i32_337 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_336 : BitVec 32 := 1#32
  let v341 : BitVec 32 := Scalar.muli v24 c1_i32_336
  let v342 : BitVec 32 := Scalar.addi c0_i32_337 v341
  v342.toNat
def k0_dev11 (d0 : Dev nD) : Nat :=
  let c0_i32_385 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_384 : BitVec 32 := 1#32
  let v382 : BitVec 32 := Scalar.muli v13 c1_i32_384
  let v383 : BitVec 32 := Scalar.addi c0_i32_385 v382
  v383.toNat
def k0_dev12 (d0 : Dev nD) : Nat :=
  let c0_i32_433 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_432 : BitVec 32 := 1#32
  let v423 : BitVec 32 := Scalar.muli v24 c1_i32_432
  let v424 : BitVec 32 := Scalar.addi c0_i32_433 v423
  v424.toNat
def k0_dev13 (d0 : Dev nD) : Nat :=
  let c0_i32_481 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_480 : BitVec 32 := 1#32
  let v464 : BitVec 32 := Scalar.muli v13 c1_i32_480
  let v465 : BitVec 32 := Scalar.addi c0_i32_481 v464
  v465.toNat
def k0_dev14 (d0 : Dev nD) : Nat :=
  let c0_i32_529 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_528 : BitVec 32 := 1#32
  let v505 : BitVec 32 := Scalar.muli v24 c1_i32_528
  let v506 : BitVec 32 := Scalar.addi c0_i32_529 v505
  v506.toNat
def k0_dev15 (d0 : Dev nD) : Nat :=
  let c0_i32_573 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_572 : BitVec 32 := 1#32
  let v546 : BitVec 32 := Scalar.muli v13 c1_i32_572
  let v547 : BitVec 32 := Scalar.addi c0_i32_573 v546
  v547.toNat
def k0_dev16 (d0 : Dev nD) : Nat :=
  let c0_i32_617 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_616 : BitVec 32 := 1#32
  let v586 : BitVec 32 := Scalar.muli v24 c1_i32_616
  let v587 : BitVec 32 := Scalar.addi c0_i32_617 v586
  v587.toNat
def k0_dev17 (d0 : Dev nD) : Nat :=
  let c0_i32_661 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_660 : BitVec 32 := 1#32
  let v626 : BitVec 32 := Scalar.muli v13 c1_i32_660
  let v627 : BitVec 32 := Scalar.addi c0_i32_661 v626
  v627.toNat
def k0_dev18 (d0 : Dev nD) : Nat :=
  let c0_i32_705 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_704 : BitVec 32 := 1#32
  let v666 : BitVec 32 := Scalar.muli v24 c1_i32_704
  let v667 : BitVec 32 := Scalar.addi c0_i32_705 v666
  v667.toNat
def k0_off8 (d0 : Dev nD) (c1_i32_719 : BitVec 32) (c0_i32_728 : BitVec 32) : Fin 2 → Nat :=
  let c0_i32_727 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_718 : BitVec 32 := 1#32
  let v680 : BitVec 32 := Scalar.addi v2 c1_i32_718
  let v681 : BitVec 32 := Scalar.subi v680 c1_i32_719
  let c4_i32_720 : BitVec 32 := 4#32
  let c0_i32_721 : BitVec 32 := 0#32
  let v682 : BitVec 1 := Scalar.cmpi .eq c4_i32_720 c0_i32_721
  let c1_i32_722 : BitVec 32 := 1#32
  let v683 : BitVec 32 := Scalar.select v682 c1_i32_722 c4_i32_720
  let v684 : BitVec 32 := Scalar.remsi v681 v683
  let c0_i32_724 : BitVec 32 := 0#32
  let v686 : BitVec 1 := Scalar.cmpi .slt v684 c0_i32_724
  let c0_i32_725 : BitVec 32 := 0#32
  let v687 : BitVec 1 := Scalar.cmpi .slt v683 c0_i32_725
  let v688 : BitVec 1 := Scalar.xori v686 v687
  let c0_i32_723 : BitVec 32 := 0#32
  let v685 : BitVec 1 := Scalar.cmpi .ne v684 c0_i32_723
  let v689 : BitVec 1 := Scalar.andi v688 v685
  let v690 : BitVec 32 := Scalar.addi v684 v683
  let v691 : BitVec 32 := Scalar.select v689 v690 v684
  let c256_i32_726 : BitVec 32 := 256#32
  let v692 : BitVec 32 := Scalar.muli v691 c256_i32_726
  let v693 : BitVec 32 := Scalar.addi c0_i32_727 v692
  let v694 : BitVec 32 := Scalar.addi v693 c0_i32_728
  let c0_i32_737 : BitVec 32 := 0#32
  ![v694.toNat, 0]
def k0_dev19 (d0 : Dev nD) : Nat :=
  let c0_i32_736 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_735 : BitVec 32 := 1#32
  let v695 : BitVec 32 := Scalar.muli v13 c1_i32_735
  let v696 : BitVec 32 := Scalar.addi c0_i32_736 v695
  v696.toNat
def k0_off9 (d0 : Dev nD) (c1_i32_750 : BitVec 32) (c0_i32_759 : BitVec 32) : Fin 2 → Nat :=
  let c1024_i32_758 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_749 : BitVec 32 := 3#32
  let v709 : BitVec 32 := Scalar.addi v2 c3_i32_749
  let v710 : BitVec 32 := Scalar.addi v709 c1_i32_750
  let c4_i32_751 : BitVec 32 := 4#32
  let c0_i32_752 : BitVec 32 := 0#32
  let v711 : BitVec 1 := Scalar.cmpi .eq c4_i32_751 c0_i32_752
  let c1_i32_753 : BitVec 32 := 1#32
  let v712 : BitVec 32 := Scalar.select v711 c1_i32_753 c4_i32_751
  let v713 : BitVec 32 := Scalar.remsi v710 v712
  let c0_i32_755 : BitVec 32 := 0#32
  let v715 : BitVec 1 := Scalar.cmpi .slt v713 c0_i32_755
  let c0_i32_756 : BitVec 32 := 0#32
  let v716 : BitVec 1 := Scalar.cmpi .slt v712 c0_i32_756
  let v717 : BitVec 1 := Scalar.xori v715 v716
  let c0_i32_754 : BitVec 32 := 0#32
  let v714 : BitVec 1 := Scalar.cmpi .ne v713 c0_i32_754
  let v718 : BitVec 1 := Scalar.andi v717 v714
  let v719 : BitVec 32 := Scalar.addi v713 v712
  let v720 : BitVec 32 := Scalar.select v718 v719 v713
  let c256_i32_757 : BitVec 32 := 256#32
  let v721 : BitVec 32 := Scalar.muli v720 c256_i32_757
  let v722 : BitVec 32 := Scalar.addi c1024_i32_758 v721
  let v723 : BitVec 32 := Scalar.addi v722 c0_i32_759
  let c0_i32_768 : BitVec 32 := 0#32
  ![v723.toNat, 0]
def k0_dev20 (d0 : Dev nD) : Nat :=
  let c0_i32_767 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_766 : BitVec 32 := 1#32
  let v724 : BitVec 32 := Scalar.muli v24 c1_i32_766
  let v725 : BitVec 32 := Scalar.addi c0_i32_767 v724
  v725.toNat
def k0_dev21 (d0 : Dev nD) : Nat :=
  let c0_i32_798 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_797 : BitVec 32 := 1#32
  let v753 : BitVec 32 := Scalar.muli v13 c1_i32_797
  let v754 : BitVec 32 := Scalar.addi c0_i32_798 v753
  v754.toNat
def k0_dev22 (d0 : Dev nD) : Nat :=
  let c0_i32_829 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_828 : BitVec 32 := 1#32
  let v782 : BitVec 32 := Scalar.muli v24 c1_i32_828
  let v783 : BitVec 32 := Scalar.addi c0_i32_829 v782
  v783.toNat
def k0_dev23 (d0 : Dev nD) : Nat :=
  let c0_i32_859 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_858 : BitVec 32 := 1#32
  let v811 : BitVec 32 := Scalar.muli v13 c1_i32_858
  let v812 : BitVec 32 := Scalar.addi c0_i32_859 v811
  v812.toNat
def k0_dev24 (d0 : Dev nD) : Nat :=
  let c0_i32_890 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_889 : BitVec 32 := 1#32
  let v840 : BitVec 32 := Scalar.muli v24 c1_i32_889
  let v841 : BitVec 32 := Scalar.addi c0_i32_890 v840
  v841.toNat
def k0_dev25 (d0 : Dev nD) : Nat :=
  let c0_i32_921 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_920 : BitVec 32 := 1#32
  let v869 : BitVec 32 := Scalar.muli v13 c1_i32_920
  let v870 : BitVec 32 := Scalar.addi c0_i32_921 v869
  v870.toNat
def k0_dev26 (d0 : Dev nD) : Nat :=
  let c0_i32_952 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_951 : BitVec 32 := 1#32
  let v898 : BitVec 32 := Scalar.muli v24 c1_i32_951
  let v899 : BitVec 32 := Scalar.addi c0_i32_952 v898
  v899.toNat
abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  h_S1x256x1024 : 0 < S1x256x1024.numel
  shapeCasts_S1x256x1024_S256x1024 : S1x256x1024.ShapeCasts S256x1024
  bitsLt_bf16_f32 : FTy.bits .bf16 < FTy.bits .f32
  h_S256x1024 : 0 < S256x1024.numel
  inb_S2x6x2_S1x1x1_0_0_0 : ∀ a, (![0, 0, 0] : Fin 3 → Nat) a + S1x1x1.size a ≤ S2x6x2.size a
  squeezes_S1x1x1_S_ : S1x1x1.Squeezes S_
  inb_S2x3x2x128x1024_S1x1x1x128x1024_0_0_0_0_0 : ∀ a, (![0, 0, 0, 0, 0] : Fin 5 → Nat) a + S1x1x1x128x1024.size a ≤ S2x3x2x128x1024.size a
  squeezes_S1x1x1x128x1024_S128x1024 : S1x1x1x128x1024.Squeezes S128x1024
  wordsbf16_S2x3x2x128x1024_S1x1x1x128x1024_0_0_0_0_0 : (Rect.unit (s := S2x3x2x128x1024) ![0, 0, 0, 0, 0] S1x1x1x128x1024.size inb_S2x3x2x128x1024_S1x1x1x128x1024_0_0_0_0_0).WholeWords (EltTy.packing .bf16)
  inb_S2x6x2_S1x1x1_1_0_0 : ∀ a, (![1, 0, 0] : Fin 3 → Nat) a + S1x1x1.size a ≤ S2x6x2.size a
  inb_S2x3x2x128x1024_S1x1x1x128x1024_1_0_0_0_0 : ∀ a, (![1, 0, 0, 0, 0] : Fin 5 → Nat) a + S1x1x1x128x1024.size a ≤ S2x3x2x128x1024.size a
  wordsbf16_S2x3x2x128x1024_S1x1x1x128x1024_1_0_0_0_0 : (Rect.unit (s := S2x3x2x128x1024) ![1, 0, 0, 0, 0] S1x1x1x128x1024.size inb_S2x3x2x128x1024_S1x1x1x128x1024_1_0_0_0_0).WholeWords (EltTy.packing .bf16)
  inb_S2x6x2_S1x1x1_0_0_1 : ∀ a, (![0, 0, 1] : Fin 3 → Nat) a + S1x1x1.size a ≤ S2x6x2.size a
  inb_S2x3x2x128x1024_S1x1x1x128x1024_0_0_1_0_0 : ∀ a, (![0, 0, 1, 0, 0] : Fin 5 → Nat) a + S1x1x1x128x1024.size a ≤ S2x3x2x128x1024.size a
  wordsbf16_S2x3x2x128x1024_S1x1x1x128x1024_0_0_1_0_0 : (Rect.unit (s := S2x3x2x128x1024) ![0, 0, 1, 0, 0] S1x1x1x128x1024.size inb_S2x3x2x128x1024_S1x1x1x128x1024_0_0_1_0_0).WholeWords (EltTy.packing .bf16)
  inb_S2x6x2_S1x1x1_1_0_1 : ∀ a, (![1, 0, 1] : Fin 3 → Nat) a + S1x1x1.size a ≤ S2x6x2.size a
  inb_S2x3x2x128x1024_S1x1x1x128x1024_1_0_1_0_0 : ∀ a, (![1, 0, 1, 0, 0] : Fin 5 → Nat) a + S1x1x1x128x1024.size a ≤ S2x3x2x128x1024.size a
  wordsbf16_S2x3x2x128x1024_S1x1x1x128x1024_1_0_1_0_0 : (Rect.unit (s := S2x3x2x128x1024) ![1, 0, 1, 0, 0] S1x1x1x128x1024.size inb_S2x3x2x128x1024_S1x1x1x128x1024_1_0_1_0_0).WholeWords (EltTy.packing .bf16)
  h_S128x1024 : 0 < S128x1024.numel
  shapeCasts_S128x1024_S128x1024 : S128x1024.ShapeCasts S128x1024
  h_S1x1x1x128x1024 : 0 < S1x1x1x128x1024.numel
  shapeCasts_S1x1x1x128x1024_S128x1024 : S1x1x1x128x1024.ShapeCasts S128x1024
  inb_S2x6x2_S1x1x1_0_1_0 : ∀ a, (![0, 1, 0] : Fin 3 → Nat) a + S1x1x1.size a ≤ S2x6x2.size a
  inb_S2x3x2x128x1024_S1x1x1x128x1024_0_1_0_0_0 : ∀ a, (![0, 1, 0, 0, 0] : Fin 5 → Nat) a + S1x1x1x128x1024.size a ≤ S2x3x2x128x1024.size a
  wordsbf16_S2x3x2x128x1024_S1x1x1x128x1024_0_1_0_0_0 : (Rect.unit (s := S2x3x2x128x1024) ![0, 1, 0, 0, 0] S1x1x1x128x1024.size inb_S2x3x2x128x1024_S1x1x1x128x1024_0_1_0_0_0).WholeWords (EltTy.packing .bf16)
  inb_S2x6x2_S1x1x1_1_1_0 : ∀ a, (![1, 1, 0] : Fin 3 → Nat) a + S1x1x1.size a ≤ S2x6x2.size a
  inb_S2x3x2x128x1024_S1x1x1x128x1024_1_1_0_0_0 : ∀ a, (![1, 1, 0, 0, 0] : Fin 5 → Nat) a + S1x1x1x128x1024.size a ≤ S2x3x2x128x1024.size a
  wordsbf16_S2x3x2x128x1024_S1x1x1x128x1024_1_1_0_0_0 : (Rect.unit (s := S2x3x2x128x1024) ![1, 1, 0, 0, 0] S1x1x1x128x1024.size inb_S2x3x2x128x1024_S1x1x1x128x1024_1_1_0_0_0).WholeWords (EltTy.packing .bf16)
  inb_S2x6x2_S1x1x1_0_1_1 : ∀ a, (![0, 1, 1] : Fin 3 → Nat) a + S1x1x1.size a ≤ S2x6x2.size a
  inb_S2x3x2x128x1024_S1x1x1x128x1024_0_1_1_0_0 : ∀ a, (![0, 1, 1, 0, 0] : Fin 5 → Nat) a + S1x1x1x128x1024.size a ≤ S2x3x2x128x1024.size a
  wordsbf16_S2x3x2x128x1024_S1x1x1x128x1024_0_1_1_0_0 : (Rect.unit (s := S2x3x2x128x1024) ![0, 1, 1, 0, 0] S1x1x1x128x1024.size inb_S2x3x2x128x1024_S1x1x1x128x1024_0_1_1_0_0).WholeWords (EltTy.packing .bf16)
  inb_S2x6x2_S1x1x1_1_1_1 : ∀ a, (![1, 1, 1] : Fin 3 → Nat) a + S1x1x1.size a ≤ S2x6x2.size a
  inb_S2x3x2x128x1024_S1x1x1x128x1024_1_1_1_0_0 : ∀ a, (![1, 1, 1, 0, 0] : Fin 5 → Nat) a + S1x1x1x128x1024.size a ≤ S2x3x2x128x1024.size a
  wordsbf16_S2x3x2x128x1024_S1x1x1x128x1024_1_1_1_0_0 : (Rect.unit (s := S2x3x2x128x1024) ![1, 1, 1, 0, 0] S1x1x1x128x1024.size inb_S2x3x2x128x1024_S1x1x1x128x1024_1_1_1_0_0).WholeWords (EltTy.packing .bf16)
  inb_S2x6x2_S1x1x1_0_2_0 : ∀ a, (![0, 2, 0] : Fin 3 → Nat) a + S1x1x1.size a ≤ S2x6x2.size a
  inb_S2x3x2x128x1024_S1x1x1x128x1024_0_2_0_0_0 : ∀ a, (![0, 2, 0, 0, 0] : Fin 5 → Nat) a + S1x1x1x128x1024.size a ≤ S2x3x2x128x1024.size a
  wordsbf16_S2x3x2x128x1024_S1x1x1x128x1024_0_2_0_0_0 : (Rect.unit (s := S2x3x2x128x1024) ![0, 2, 0, 0, 0] S1x1x1x128x1024.size inb_S2x3x2x128x1024_S1x1x1x128x1024_0_2_0_0_0).WholeWords (EltTy.packing .bf16)
  inb_S2x6x2_S1x1x1_1_2_0 : ∀ a, (![1, 2, 0] : Fin 3 → Nat) a + S1x1x1.size a ≤ S2x6x2.size a
  inb_S2x3x2x128x1024_S1x1x1x128x1024_1_2_0_0_0 : ∀ a, (![1, 2, 0, 0, 0] : Fin 5 → Nat) a + S1x1x1x128x1024.size a ≤ S2x3x2x128x1024.size a
  wordsbf16_S2x3x2x128x1024_S1x1x1x128x1024_1_2_0_0_0 : (Rect.unit (s := S2x3x2x128x1024) ![1, 2, 0, 0, 0] S1x1x1x128x1024.size inb_S2x3x2x128x1024_S1x1x1x128x1024_1_2_0_0_0).WholeWords (EltTy.packing .bf16)
  inb_S2x6x2_S1x1x1_0_2_1 : ∀ a, (![0, 2, 1] : Fin 3 → Nat) a + S1x1x1.size a ≤ S2x6x2.size a
  inb_S2x3x2x128x1024_S1x1x1x128x1024_0_2_1_0_0 : ∀ a, (![0, 2, 1, 0, 0] : Fin 5 → Nat) a + S1x1x1x128x1024.size a ≤ S2x3x2x128x1024.size a
  wordsbf16_S2x3x2x128x1024_S1x1x1x128x1024_0_2_1_0_0 : (Rect.unit (s := S2x3x2x128x1024) ![0, 2, 1, 0, 0] S1x1x1x128x1024.size inb_S2x3x2x128x1024_S1x1x1x128x1024_0_2_1_0_0).WholeWords (EltTy.packing .bf16)
  inb_S2x6x2_S1x1x1_1_2_1 : ∀ a, (![1, 2, 1] : Fin 3 → Nat) a + S1x1x1.size a ≤ S2x6x2.size a
  inb_S2x3x2x128x1024_S1x1x1x128x1024_1_2_1_0_0 : ∀ a, (![1, 2, 1, 0, 0] : Fin 5 → Nat) a + S1x1x1x128x1024.size a ≤ S2x3x2x128x1024.size a
  wordsbf16_S2x3x2x128x1024_S1x1x1x128x1024_1_2_1_0_0 : (Rect.unit (s := S2x3x2x128x1024) ![1, 2, 1, 0, 0] S1x1x1x128x1024.size inb_S2x3x2x128x1024_S1x1x1x128x1024_1_2_1_0_0).WholeWords (EltTy.packing .bf16)
  inb_S2x6x2_S1x1x1_0_3_0 : ∀ a, (![0, 3, 0] : Fin 3 → Nat) a + S1x1x1.size a ≤ S2x6x2.size a
  inb_S2x6x2_S1x1x1_1_3_0 : ∀ a, (![1, 3, 0] : Fin 3 → Nat) a + S1x1x1.size a ≤ S2x6x2.size a
  inb_S2x6x2_S1x1x1_0_3_1 : ∀ a, (![0, 3, 1] : Fin 3 → Nat) a + S1x1x1.size a ≤ S2x6x2.size a
  inb_S2x6x2_S1x1x1_1_3_1 : ∀ a, (![1, 3, 1] : Fin 3 → Nat) a + S1x1x1.size a ≤ S2x6x2.size a
  inb_S2x6x2_S1x1x1_0_4_0 : ∀ a, (![0, 4, 0] : Fin 3 → Nat) a + S1x1x1.size a ≤ S2x6x2.size a
  inb_S2x6x2_S1x1x1_1_4_0 : ∀ a, (![1, 4, 0] : Fin 3 → Nat) a + S1x1x1.size a ≤ S2x6x2.size a
  inb_S2x6x2_S1x1x1_0_4_1 : ∀ a, (![0, 4, 1] : Fin 3 → Nat) a + S1x1x1.size a ≤ S2x6x2.size a
  inb_S2x6x2_S1x1x1_1_4_1 : ∀ a, (![1, 4, 1] : Fin 3 → Nat) a + S1x1x1.size a ≤ S2x6x2.size a
  inb_S2x6x2_S1x1x1_0_5_0 : ∀ a, (![0, 5, 0] : Fin 3 → Nat) a + S1x1x1.size a ≤ S2x6x2.size a
  inb_S2x6x2_S1x1x1_1_5_0 : ∀ a, (![1, 5, 0] : Fin 3 → Nat) a + S1x1x1.size a ≤ S2x6x2.size a
  inb_S2x6x2_S1x1x1_0_5_1 : ∀ a, (![0, 5, 1] : Fin 3 → Nat) a + S1x1x1.size a ≤ S2x6x2.size a
  inb_S2x6x2_S1x1x1_1_5_1 : ∀ a, (![1, 5, 1] : Fin 3 → Nat) a + S1x1x1.size a ≤ S2x6x2.size a
  hcc0_scratch1 : 2 + S2x6x2.numel ≤ 50
  hcc0_scratch2 : 26 + S2x6x2.numel ≤ 50
  k0_dev1_lt : ∀ d0 : Dev nD, (k0_dev1 d0) < nD
  k0_dev2_lt : ∀ d0 : Dev nD, (k0_dev2 d0) < nD
  k0_off1_inb : ∀ d0 : Dev nD, ∀ (r₁ : Fin 2) (r₂ : Fin 4), ∀ a, (k0_off1 d0 (BitVec.ofNat 32 (1024 * r₁.val)) (BitVec.ofNat 32 r₂.val)) a + S1x256x1024.size a ≤ S1x2048x1024.size a
  k0_off2_inb : ∀ d0 : Dev nD, ∀ (r₁ : Fin 2) (r₂ : Fin 4), ∀ a, (k0_off2 d0 (BitVec.ofNat 32 (1024 * r₁.val)) (BitVec.ofNat 32 r₂.val)) a + S256x1024.size a ≤ S2048x1024.size a
  k0_off2_packedbf16 : ∀ d0 : Dev nD, ∀ (r₁ : Fin 2) (r₂ : Fin 4), (Rect.unit (s := S2048x1024) (k0_off2 d0 (BitVec.ofNat 32 (1024 * r₁.val)) (BitVec.ofNat 32 r₂.val)) S256x1024.size (k0_off2_inb d0 r₁ r₂)).PackedRows (EltTy.packing .bf16)
  k0_off3_inb : ∀ d0 : Dev nD, ∀ (r₁ : Fin 2) (r₂ : Fin 2), ∀ a, (k0_off3 d0 (BitVec.ofNat 32 (1024 * r₁.val)) (BitVec.ofNat 32 (128 * r₂.val))) a + S128x1024.size a ≤ S2048x1024.size a
  k0_off3_wordsbf16 : ∀ d0 : Dev nD, ∀ (r₁ : Fin 2) (r₂ : Fin 2), (Rect.unit (s := S2048x1024) (k0_off3 d0 (BitVec.ofNat 32 (1024 * r₁.val)) (BitVec.ofNat 32 (128 * r₂.val))) S128x1024.size (k0_off3_inb d0 r₁ r₂)).WholeWords (EltTy.packing .bf16)
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_off4_inb : ∀ d0 : Dev nD, ∀ (r₁ : Fin 2) (r₂ : Fin 2), ∀ a, (k0_off4 d0 (BitVec.ofNat 32 (1 + r₁.val)) (BitVec.ofNat 32 (128 * r₂.val))) a + S128x1024.size a ≤ S2048x1024.size a
  k0_off4_packedbf16 : ∀ d0 : Dev nD, ∀ (r₁ : Fin 2) (r₂ : Fin 2), (Rect.unit (s := S2048x1024) (k0_off4 d0 (BitVec.ofNat 32 (1 + r₁.val)) (BitVec.ofNat 32 (128 * r₂.val))) S128x1024.size (k0_off4_inb d0 r₁ r₂)).PackedRows (EltTy.packing .bf16)
  k0_off5_inb : ∀ d0 : Dev nD, ∀ (r₁ : Fin 2) (r₂ : Fin 2), ∀ a, (k0_off5 d0 (BitVec.ofNat 32 (1 + r₁.val)) (BitVec.ofNat 32 (128 * r₂.val))) a + S128x1024.size a ≤ S2048x1024.size a
  k0_off5_wordsbf16 : ∀ d0 : Dev nD, ∀ (r₁ : Fin 2) (r₂ : Fin 2), (Rect.unit (s := S2048x1024) (k0_off5 d0 (BitVec.ofNat 32 (1 + r₁.val)) (BitVec.ofNat 32 (128 * r₂.val))) S128x1024.size (k0_off5_inb d0 r₁ r₂)).WholeWords (EltTy.packing .bf16)
  k0_dev7_lt : ∀ d0 : Dev nD, (k0_dev7 d0) < nD
  k0_off6_inb : ∀ d0 : Dev nD, ∀ (r : Fin 8), ∀ a, (k0_off6 d0 (k0_off6_at r).1 (k0_off6_at r).2.1 (k0_off6_at r).2.2) a + S128x1024.size a ≤ S2048x1024.size a
  k0_off6_packedbf16 : ∀ d0 : Dev nD, ∀ (r : Fin 8), (Rect.unit (s := S2048x1024) (k0_off6 d0 (k0_off6_at r).1 (k0_off6_at r).2.1 (k0_off6_at r).2.2) S128x1024.size (k0_off6_inb d0 r)).PackedRows (EltTy.packing .bf16)
  k0_off7_inb : ∀ d0 : Dev nD, ∀ (r : Fin 8), ∀ a, (k0_off7 d0 (k0_off7_at r).1 (k0_off7_at r).2.1 (k0_off7_at r).2.2) a + S128x1024.size a ≤ S2048x1024.size a
  k0_off7_wordsbf16 : ∀ d0 : Dev nD, ∀ (r : Fin 8), (Rect.unit (s := S2048x1024) (k0_off7 d0 (k0_off7_at r).1 (k0_off7_at r).2.1 (k0_off7_at r).2.2) S128x1024.size (k0_off7_inb d0 r)).WholeWords (EltTy.packing .bf16)
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off8_inb : ∀ d0 : Dev nD, ∀ (r₁ : Fin 2) (r₂ : Fin 2), ∀ a, (k0_off8 d0 (BitVec.ofNat 32 (1 + r₁.val)) (BitVec.ofNat 32 (128 * r₂.val))) a + S128x1024.size a ≤ S2048x1024.size a
  k0_off8_wordsbf16 : ∀ d0 : Dev nD, ∀ (r₁ : Fin 2) (r₂ : Fin 2), (Rect.unit (s := S2048x1024) (k0_off8 d0 (BitVec.ofNat 32 (1 + r₁.val)) (BitVec.ofNat 32 (128 * r₂.val))) S128x1024.size (k0_off8_inb d0 r₁ r₂)).WholeWords (EltTy.packing .bf16)
  k0_dev19_lt : ∀ d0 : Dev nD, (k0_dev19 d0) < nD
  k0_off9_inb : ∀ d0 : Dev nD, ∀ (r₁ : Fin 2) (r₂ : Fin 2), ∀ a, (k0_off9 d0 (BitVec.ofNat 32 (1 + r₁.val)) (BitVec.ofNat 32 (128 * r₂.val))) a + S128x1024.size a ≤ S2048x1024.size a
  k0_off9_wordsbf16 : ∀ d0 : Dev nD, ∀ (r₁ : Fin 2) (r₂ : Fin 2), (Rect.unit (s := S2048x1024) (k0_off9 d0 (BitVec.ofNat 32 (1 + r₁.val)) (BitVec.ofNat 32 (128 * r₂.val))) S128x1024.size (k0_off9_inb d0 r₁ r₂)).WholeWords (EltTy.packing .bf16)
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  hstage0_0 : ∀ j, (stage0_0 j).IsWhole
  hstage0_1 : ∀ j, (stage0_1 j).IsWhole

variable [Facts₀]

abbrev cc0_scratch1 : DmaSems sig S2x6x2 := SemArray.consecutive 2 S2x6x2 hcc0_scratch1
abbrev cc0_scratch2 : DmaSems sig S2x6x2 := SemArray.consecutive 26 S2x6x2 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S_ : Shape := ⟨0, ![]⟩
abbrev S2048x1024 : Shape := ⟨2, ![2048, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S_, .f32⟩
  | .hbm, ⟨2, _⟩ => ⟨S2048x1024, .f32⟩
  | .hbm, ⟨3, _⟩ => ⟨S2048x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S4x2048x1024_S2048x1024_d0 : S4x2048x1024.ReducesTo [0] S2048x1024
  h_S_ : 0 < S_.numel
  bitsLt_bf16_f32 : FTy.bits .bf16 < FTy.bits .f32

variable [Facts₀]

class Facts : Prop extends Facts₀ where

variable [Facts]
-- ==== Proof.KernelRing.lean ====
import proofs.«900326_g7700000000000327_dist_treered_v7x_i4_m2048_n1024_bf16_1_alg».proof.Kernel

namespace Cert.KernelProof

open Cert.Kernel Idealize.ShloMosaic

def nxt (c : Dev nD) : Dev nD := ⟨(c.val + 1) % 4, Nat.mod_lt _ (by decide)⟩

def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

def dn (d : Fin 2) (c : Dev nD) : Dev nD := if d = 0 then nxt c else prv c

def up (d : Fin 2) (c : Dev nD) : Dev nD := if d = 0 then prv c else nxt c

theorem up_dn (d : Fin 2) (c : Dev nD) : up d (dn d c) = c := by revert d c; decide
theorem dn_up (d : Fin 2) (c : Dev nD) : dn d (up d c) = c := by revert d c; decide
theorem up_up_up (d : Fin 2) (c : Dev nD) : up d (up d (up d c)) = dn d c := by revert d c; decide

def chk (d : Fin 2) (c : Dev nD) (s : ℕ) : Fin 4 :=
  if d = 0 then ⟨(c.val + 4 - s % 4) % 4, Nat.mod_lt _ (by decide)⟩ else ⟨(c.val + s) % 4, Nat.mod_lt _ (by decide)⟩

theorem chk_dn (d : Fin 2) (c : Dev nD) (s : Fin 4) : chk d (dn d c) (s.val + 1) = chk d c s.val := by revert d c s; decide

end Cert.KernelProof
-- ==== Proof.KernelBase.lean ====
import proofs.«900326_g7700000000000327_dist_treered_v7x_i4_m2048_n1024_bf16_1_alg».proof.Proof.KernelRing

import proofs.«900326_g7700000000000327_dist_treered_v7x_i4_m2048_n1024_bf16_1_alg».proof.Proof.Gen.Kernel.Skeleton
import proofs.«900326_g7700000000000327_dist_treered_v7x_i4_m2048_n1024_bf16_1_alg».proof.Proof.Gen.Kernel.Launch
import Idealize.ShloMosaic.Lib.Pipeline.Launch
import Idealize.ShloMosaic.Lib.Pipeline.Kit
import Idealize.ShloMosaic.Lib.Memref
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev xM : Memref sig .tc .vmem S1x2048x1024 .f32 := Memref.whole cc0_stg0_0
abbrev oM : Memref sig .tc .vmem S2048x1024 .bf16 := Memref.whole cc0_stg1_0
abbrev rM : Memref sig .tc .vmem S2x3x2x128x1024 .bf16 := Memref.whole cc0_scratch0

/-- A function of the argument, result and landing arrays and the two semaphore arrays, at this kernel's own, whole. -/
abbrev atBufs {α : Sort _} (k : (a : Memref sig .tc .vmem S1x2048x1024 .f32) → a.IsWhole → (b : Memref sig .tc .vmem S2048x1024 .bf16) → b.IsWhole →
    (r : Memref sig .tc .vmem S2x3x2x128x1024 .bf16) → r.IsWhole → DmaSems sig S2x6x2 → DmaSems sig S2x6x2 → α) : α :=
  k xM (Memref.isWhole_whole _) oM (Memref.isWhole_whole _) rM (Memref.isWhole_whole _) cc0_scratch1 cc0_scratch2

def subOff (d : Fin 2) (ch : Fin 4) (j : Fin 2) : Fin 2 → ℕ := ![1024 * d.val + 256 * ch.val + 128 * j.val, 0]
theorem subOff_inb : ∀ (d : Fin 2) (ch : Fin 4) (j : Fin 2), ∀ a, subOff d ch j a + S128x1024.size a ≤ S2048x1024.size a := by decide
abbrev subR (d : Fin 2) (ch : Fin 4) (j : Fin 2) : Rect S2048x1024 := Rect.unit (s := S2048x1024) (subOff d ch j) S128x1024.size (subOff_inb d ch j)

abbrev sub (d : Fin 2) (ch : Fin 4) (j : Fin 2) : Memref sig .tc .vmem S128x1024 .bf16 := oM.slice (subR d ch j) (fun _ => rfl)

def rbOff (d : Fin 2) (s : Fin 3) (j : Fin 2) : Fin 5 → ℕ := ![d.val, s.val, j.val, 0, 0]
theorem rbOff_inb : ∀ (d : Fin 2) (s : Fin 3) (j : Fin 2), ∀ a, rbOff d s j a + S1x1x1x128x1024.size a ≤ S2x3x2x128x1024.size a := by decide
abbrev rbR (d : Fin 2) (s : Fin 3) (j : Fin 2) : Rect S2x3x2x128x1024 := Rect.unit (s := S2x3x2x128x1024) (rbOff d s j) S1x1x1x128x1024.size (rbOff_inb d s j)

abbrev rb (d : Fin 2) (s : Fin 3) (j : Fin 2) : Memref sig .tc .vmem S128x1024 .bf16 :=
  (rM.slice (rbR d s j) (fun _ => rfl)).squeeze S128x1024 squeezes_S1x1x1x128x1024_S128x1024

def semOff (d : Fin 2) (k : Fin 6) (j : Fin 2) : Fin 3 → ℕ := ![d.val, k.val, j.val]
theorem semOff_inb : ∀ (d : Fin 2) (k : Fin 6) (j : Fin 2), ∀ a, semOff d k j a + S1x1x1.size a ≤ S2x6x2.size a := by decide
abbrev semR (d : Fin 2) (k : Fin 6) (j : Fin 2) : Rect S2x6x2 := Rect.unit (s := S2x6x2) (semOff d k j) S1x1x1.size (semOff_inb d k j)
abbrev sendS (d : Fin 2) (k : Fin 6) (j : Fin 2) : DmaSems sig S_ := (cc0_scratch1.slice (semR d k j)).squeeze S_ squeezes_S1x1x1_S_
abbrev recvS (d : Fin 2) (k : Fin 6) (j : Fin 2) : DmaSems sig S_ := (cc0_scratch2.slice (semR d k j)).squeeze S_ squeezes_S1x1x1_S_

abbrev barS : Sem sig := (SemArray.scalar (sig.barrier 0 rfl) : Sems sig S_).sem

abbrev barCell (c : Dev nD) : GSem nD τ sig := ((c : Thread nD τ), .reg barS)
abbrev sendCell (c : Dev nD) (d : Fin 2) (k : Fin 6) (j : Fin 2) : GSem nD τ sig := ((c : Thread nD τ), .dma (sendS d k j).sem)
abbrev recvCell (c : Dev nD) (d : Fin 2) (k : Fin 6) (j : Fin 2) : GSem nD τ sig := ((c : Thread nD τ), .dma (recvS d k j).sem)

abbrev N : ℕ := (sub 0 0 0).view.dmaCredit
theorem N_pos : 0 < N := View.dmaCredit_pos _ (by decide)
theorem rb_credit (d : Fin 2) (s : Fin 3) (j : Fin 2) : (rb d s j).view.dmaCredit = N := rfl

theorem sendS_val : ∀ (d : Fin 2) (k : Fin 6) (j : Fin 2), ((sendS d k j).sem : DmaSem sig).val = 2 + 12 * d.val + 2 * k.val + j.val := by decide
theorem recvS_val : ∀ (d : Fin 2) (k : Fin 6) (j : Fin 2), ((recvS d k j).sem : DmaSem sig).val = 26 + 12 * d.val + 2 * k.val + j.val := by decide

end Cert.KernelProof

end
-- ==== Proof.KernelVals.lean ====
import proofs.«900326_g7700000000000327_dist_treered_v7x_i4_m2048_n1024_bf16_1_alg».proof.Proof.KernelBase

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

def slotRead {α : Type} (w : S128x1024.Idx → α) : S1x1x1x128x1024.Idx → α :=
  fun i => w ((Shape.reshapeEquiv squeezes_S1x1x1x128x1024_S128x1024.numel_eq).symm i)

variable (m : (ℓ : Loc nD τ sig) → Buf (Elt F) ℓ) (ρ : Dev nD → PrngReg)

def s₀ : MemSt nD τ sig (Elt F) := ⟨m, fun _ => 0, ρ⟩

def xstg (c : Dev nD) : (cc0_stg0_0 : Ref sig .tc).ty.Contents (Elt F) :=
  (win0_0.blk (0 : Fin 1)).view.read (Elt F) ((s₀ m ρ).mem ((c : Thread nD τ).loc main_arg0))

def xOff (d : Fin 2) (ch : Fin 4) : Fin 3 → ℕ := ![0, 1024 * d.val + 256 * ch.val, 0]
theorem xOff_inb : ∀ (d : Fin 2) (ch : Fin 4), ∀ a, xOff d ch a + S1x256x1024.size a ≤ S1x2048x1024.size a := by decide
abbrev xR (d : Fin 2) (ch : Fin 4) : Rect S1x2048x1024 := Rect.unit (s := S1x2048x1024) (xOff d ch) S1x256x1024.size (xOff_inb d ch)

def oOff256 (d : Fin 2) (ch : Fin 4) : Fin 2 → ℕ := ![1024 * d.val + 256 * ch.val, 0]
theorem oOff256_inb : ∀ (d : Fin 2) (ch : Fin 4), ∀ a, oOff256 d ch a + S256x1024.size a ≤ S2048x1024.size a := by decide
abbrev oR256 (d : Fin 2) (ch : Fin 4) : Rect S2048x1024 := Rect.unit (s := S2048x1024) (oOff256 d ch) S256x1024.size (oOff256_inb d ch)

def halfOff (j : Fin 2) : Fin 2 → ℕ := ![128 * j.val, 0]
theorem halfOff_inb : ∀ (j : Fin 2), ∀ a, halfOff j a + S128x1024.size a ≤ S256x1024.size a := by decide
abbrev halfR (j : Fin 2) : Rect S256x1024 := Rect.unit (s := S256x1024) (halfOff j) S128x1024.size (halfOff_inb j)

def x256 (c : Dev nD) (d : Fin 2) (ch : Fin 4) : Vec F S256x1024 .bf16 :=
  k0_pay1 (xM.view.readAt (Elt F) (xR d ch).toLoadRect (xstg m ρ c))

def xb (c : Dev nD) (d : Fin 2) (ch : Fin 4) (j : Fin 2) : Vec F S128x1024 .bf16 :=
  fun i => x256 m ρ c d ch ((halfR j).emb i)

def acc (a w : Vec F S128x1024 .bf16) : Vec F S128x1024 .bf16 := k0_pay9 a (slotRead w)

def val : ℕ → Dev nD → Fin 2 → Fin 2 → Vec F S128x1024 .bf16
  | 0, c, d, j => xb m ρ c d (chk d c 0) j
  | k + 1, c, d, j =>
    if k + 1 ≤ 3 then acc (xb m ρ c d (chk d c (k + 1)) j) (val k (up d c) d j) else val k (up d c) d j

theorem val_zero (c : Dev nD) (d j : Fin 2) : val m ρ 0 c d j = xb m ρ c d (chk d c 0) j := rfl
theorem val_acc (k : ℕ) (hk : k + 1 ≤ 3) (c : Dev nD) (d j : Fin 2) :
    val m ρ (k + 1) c d j = acc (xb m ρ c d (chk d c (k + 1)) j) (val m ρ k (up d c) d j) := by
  rw [val, if_pos hk]
theorem val_fwd (k : ℕ) (hk : ¬ k + 1 ≤ 3) (c : Dev nD) (d j : Fin 2) :
    val m ρ (k + 1) c d j = val m ρ k (up d c) d j := by
  rw [val, if_neg hk]

end Cert.KernelProof

end
-- ==== Proof.KernelSched.lean ====
import proofs.«900326_g7700000000000327_dist_treered_v7x_i4_m2048_n1024_bf16_1_alg».proof.Proof.KernelVals

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

def srcBlk (c : Dev nD) (d : Fin 2) (s : ℕ) (j : Fin 2) : sProp 𝕄 :=
  ownsTc c (sub d (chk d c s) j) fullShare (val m ρ s c d j)

def slot (c : Dev nD) (d : Fin 2) (s : Fin 3) (j : Fin 2) (v : Vec F S128x1024 .bf16) : sProp 𝕄 :=
  ownsTc c (rb d s j) fullShare v

def slots (c : Dev nD) (d : Fin 2) : sProp 𝕄 :=
  bigSep Finset.univ fun sj : Fin 3 × Fin 2 => iprop(∃ v, slot c d sj.1 sj.2 v)

def recvPay (c : Dev nD) (d : Fin 2) (k : Fin 6) (j : Fin 2) : sProp 𝕄 :=
  match k with
  | 0 => iprop(slot c d 0 j (val m ρ 0 (up d c) d j) ∗ srcBlk m ρ (up d c) d 0 j)
  | 1 => iprop(slot c d 1 j (val m ρ 1 (up d c) d j) ∗ srcBlk m ρ (up d c) d 1 j ∗ srcBlk m ρ (up d (up d c)) d 0 j)
  | 2 => iprop(slot c d 2 j (val m ρ 2 (up d c) d j) ∗ srcBlk m ρ (up d c) d 2 j ∗ srcBlk m ρ (up d (up d c)) d 1 j
            ∗ srcBlk m ρ (up d (up d (up d c))) d 0 j)
  | 3 => iprop(srcBlk m ρ c d 4 j ∗ srcBlk m ρ (up d (up d c)) d 2 j ∗ srcBlk m ρ (up d (up d (up d c))) d 1 j)
  | 4 => iprop(srcBlk m ρ c d 5 j ∗ srcBlk m ρ (up d (up d (up d c))) d 2 j)
  | 5 => srcBlk m ρ c d 6 j

def sendPay (c : Dev nD) (d : Fin 2) (k : Fin 6) (j : Fin 2) : sProp 𝕄 :=
  if k.val ≤ 2 then iprop(emp) else srcBlk m ρ c d k.val j

def barPay (c : Dev nD) (dty : Bool) : sProp 𝕄 := if dty then slots (nxt c) 0 else slots (prv c) 1

def decode (n : ℕ) : Fin 2 × Fin 6 × Fin 2 :=
  (⟨n / 12 % 2, Nat.mod_lt _ (by decide)⟩, ⟨n / 2 % 6, Nat.mod_lt _ (by decide)⟩, ⟨n % 2, Nat.mod_lt _ (by decide)⟩)
theorem decode_eq : ∀ (d : Fin 2) (k : Fin 6) (j : Fin 2), decode (12 * d.val + 2 * k.val + j.val) = (d, k, j) := by decide

def ringRd : Rounds.Schedule (GSem nD τ sig) Bool 𝕄 where
  duties g r :=
    if r = 0 ∧ g.1.2 = .tc then
      (match g.2 with
        | .reg s => if s = barS then Finset.univ else ∅
        | .dma q => if 2 ≤ q.val then {false} else ∅)
    else ∅
  amount g _ _ := match g.2 with | .reg _ => 1 | .dma _ => N
  payload g _ dty :=
    match g.2 with
    | .reg s => if s = barS then barPay g.1.1 dty else iprop(emp)
    | .dma q =>
      if 2 ≤ q.val ∧ q.val < 26 then sendPay m ρ g.1.1 (decode (q.val - 2)).1 (decode (q.val - 2)).2.1 (decode (q.val - 2)).2.2
      else if 26 ≤ q.val then recvPay m ρ g.1.1 (decode (q.val - 26)).1 (decode (q.val - 26)).2.1 (decode (q.val - 26)).2.2
      else iprop(emp)
  amount_pos g _ _ _ := by
    cases g.2 with
    | reg _ => exact Nat.one_pos
    | dma _ => exact N_pos

end Cert.KernelProof

end
-- ==== Proof.KernelLevels.lean ====
import proofs.«900326_g7700000000000327_dist_treered_v7x_i4_m2048_n1024_bf16_1_alg».proof.Proof.KernelSched
import Idealize.ShloMosaic.Lib.Pipeline.Launch
import Idealize.ShloMosaic.Lib.Rounds
import Mathlib.Algebra.BigOperators.Fin

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

def sendAt (n : ℕ) : Fin 2 × Fin 6 × Fin 2 :=
  (⟨n % 2, Nat.mod_lt _ (by decide)⟩, ⟨n / 4 % 6, Nat.mod_lt _ (by decide)⟩, ⟨n / 2 % 2, Nat.mod_lt _ (by decide)⟩)

def payCell (c : Dev nD) (n : ℕ) : GSem nD τ sig :=
  recvCell (dn (sendAt n).1 c) (sendAt n).1 (sendAt n).2.1 (sendAt n).2.2

def owedFrom (c : Dev nD) : ℕ → CellTallies nD τ sig Unit
  | 0 => 0
  | r + 1 => owedFrom c r + tallyAt (payCell c (23 - r)) () N

theorem owedFrom_succ (c : Dev nD) (r : ℕ) :
    owedFrom c (r + 1) = owedFrom c r + tallyAt (payCell c (23 - r)) () N := rfl

def O₁ (c : Dev nD) : CellTallies nD τ sig Unit := owedFrom c 24 + tallyAt (barCell (nxt c)) () 1
def O₀ (c : Dev nD) : CellTallies nD τ sig Unit := O₁ c + tallyAt (barCell (prv c)) () 1

def L (g : GSem nD τ sig) : Finset Unit := if g.1.2 = .tc then {()} else ∅

def lv (g : GSem nD τ sig) (_ : Unit) : ℕ :=
  match g.2 with
  | .reg s => if s = barS then 1 else 0
  | .dma q => if 26 ≤ q.val then 2 + (q.val - 26) / 2 % 6 else 0

theorem L_of_ne (g : GSem nD τ sig) (h : g.1.2 ≠ .tc) : L g = ∅ := if_neg h
theorem L_tc (c : Dev nD) (sm : SemLoc sig) : L ((c : Thread nD τ), sm) = {()} := if_pos rfl
theorem mem_L_tc (c : Dev nD) (sm : SemLoc sig) (u : Unit) : u ∈ L ((c : Thread nD τ), sm) := by
  rw [L_tc]; exact Finset.mem_singleton.mpr rfl

theorem lv_bar (c : Dev nD) : lv (barCell c) () = 1 := by
  show (if (barS : Sem sig) = barS then 1 else 0) = 1
  exact if_pos rfl

theorem lv_recv (c : Dev nD) (d : Fin 2) (k : Fin 6) (j : Fin 2) : lv (recvCell c d k j) () = 2 + k.val := by
  have h := recvS_val d k j
  have hd := d.isLt; have hk := k.isLt; have hj := j.isLt
  show (if 26 ≤ ((recvS d k j).sem : DmaSem sig).val then 2 + (((recvS d k j).sem : DmaSem sig).val - 26) / 2 % 6 else 0) = 2 + k.val
  rw [h, if_pos (by omega)]
  omega

theorem lv_pay (c : Dev nD) (n : ℕ) : lv (payCell c n) () = 2 + n / 4 % 6 := lv_recv _ _ _ _

theorem lv_stage (c : Dev nD) (q : DmaSem sig) (hq : q.val < 2) : lv ((c : Thread nD τ), .dma q) () = 0 :=
  if_neg (by omega)

theorem owedFrom_pos {c : Dev nD} {r : ℕ} (hr : r ≤ 24) {g : GSem nD τ sig} {u : Unit} (h : 0 < owedFrom c r g u) :
    ∃ n, 24 - r ≤ n ∧ n < 24 ∧ g = payCell c n := by
  induction r with
  | zero => exact absurd h (Nat.lt_irrefl 0)
  | succ r ih =>
    rw [owedFrom_succ] at h
    rcases Pipeline.add_pos_cases h with h | h
    · obtain ⟨n, h1, h2, h3⟩ := ih (by omega) h
      exact ⟨n, by omega, h2, h3⟩
    · exact ⟨23 - r, by omega, by omega, (Pipeline.tallyAt_pos h).1⟩

theorem O₀_pos {c : Dev nD} {g : GSem nD τ sig} {u : Unit} (h : 0 < O₀ c g u) :
    (∃ n, n < 24 ∧ g = payCell c n) ∨ g = barCell (nxt c) ∨ g = barCell (prv c) := by
  unfold O₀ O₁ at h
  rcases Pipeline.add_pos_cases h with h | h
  · rcases Pipeline.add_pos_cases h with h | h
    · obtain ⟨n, _, h2, h3⟩ := owedFrom_pos (Nat.le_refl 24) h
      exact Or.inl ⟨n, h2, h3⟩
    · exact Or.inr (Or.inl (Pipeline.tallyAt_pos h).1)
  · exact Or.inr (Or.inr (Pipeline.tallyAt_pos h).1)

omit [FloatOps F] in

theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (mem_L_tc c _ ()) fun g u hg => ?_
    rw [lv_stage c q hq]
    rcases O₀_pos hg with ⟨n, _, rfl⟩ | rfl | rfl
    · exact ⟨mem_L_tc _ _ u, by rw [lv_pay]; omega⟩
    · exact ⟨mem_L_tc _ _ u, by rw [lv_bar]; omega⟩
    · exact ⟨mem_L_tc _ _ u, by rw [lv_bar]; omega⟩
  · rw [MayWait_zero]; iintro -; iempintro

omit [FloatOps F] in

theorem mayWait_bar (c : Dev nD) :
    (levAts L lv : sProp 𝕄) ⊢ MayWait (c : Thread nD τ) (.reg barS) () (owedFrom c 24) := by
  refine Pipeline.mayWait_of_levAts (mem_L_tc c _ ()) fun g u hg => ?_
  obtain ⟨n, _, _, rfl⟩ := owedFrom_pos (Nat.le_refl 24) hg
  exact ⟨mem_L_tc _ _ u, by rw [show lv ((c : Thread nD τ), SemLoc.reg barS) () = 1 from lv_bar c, lv_pay]; omega⟩

omit [FloatOps F] in

theorem mayWait_recv (c : Dev nD) (d : Fin 2) (k : Fin 6) (j : Fin 2) (r : ℕ) (hr : r + 4 * (k.val + 1) ≤ 24) :
    (levAts L lv : sProp 𝕄) ⊢ MayWait (c : Thread nD τ) (.dma (recvS d k j).sem) () (owedFrom c r) := by
  refine Pipeline.mayWait_of_levAts (mem_L_tc c _ ()) fun g u hg => ?_
  obtain ⟨n, h1, h2, rfl⟩ := owedFrom_pos (by omega) hg
  exact ⟨mem_L_tc _ _ u, by
    rw [show lv ((c : Thread nD τ), SemLoc.dma (recvS d k j).sem) () = 2 + k.val from lv_recv c d k j, lv_pay]; omega⟩

def fireOf (i : Fin 24) : Fin 2 × Fin 6 × Fin 2 := sendAt (23 - i.val)
def fireInv (t : Fin 2 × Fin 6 × Fin 2) : Fin 24 :=
  ⟨23 - (4 * t.2.1.val + 2 * t.2.2.val + t.1.val), by omega⟩
theorem fireInv_fireOf : ∀ i : Fin 24, fireInv (fireOf i) = i := by decide
theorem fireOf_fireInv : ∀ t : Fin 2 × Fin 6 × Fin 2, fireOf (fireInv t) = t := by decide
def fireEquiv : Fin 24 ≃ Fin 2 × Fin 6 × Fin 2 := ⟨fireOf, fireInv, fireInv_fireOf, fireOf_fireInv⟩

theorem owedFrom_eq_sum (c : Dev nD) (r : ℕ) :
    owedFrom c r = ∑ i ∈ Finset.range r, (tallyAt (payCell c (23 - i)) () N : CellTallies nD τ sig Unit) := by
  induction r with
  | zero => rfl
  | succ r ih => rw [owedFrom_succ, Finset.sum_range_succ, ih]

theorem owedFrom_all (c : Dev nD) :
    owedFrom c 24 = ∑ t : Fin 2 × Fin 6 × Fin 2, (tallyAt (recvCell (dn t.1 c) t.1 t.2.1 t.2.2) () N : CellTallies nD τ sig Unit) := by
  rw [owedFrom_eq_sum]
  exact ((Fin.sum_univ_eq_sum_range (fun i => (tallyAt (payCell c (23 - i)) () N : CellTallies nD τ sig Unit)) 24).symm).trans
    (Equiv.sum_comp fireEquiv (fun t : Fin 2 × Fin 6 × Fin 2 => (tallyAt (recvCell (dn t.1 c) t.1 t.2.1 t.2.2) () N : CellTallies nD τ sig Unit)))

theorem O₀_eq : (O₀ : Dev nD → CellTallies nD τ sig Unit) = fun d =>
    ((∑ t : Fin 2 × Fin 6 × Fin 2, (tallyAt (recvCell (dn t.1 d) t.1 t.2.1 t.2.2) () N : CellTallies nD τ sig Unit))
      + tallyAt (barCell (nxt d)) () 1) + tallyAt (barCell (prv d)) () 1 :=
  funext fun d => by unfold O₀ O₁; rw [owedFrom_all]

omit [FloatOps F] in

theorem cred_bar_two (c : Dev nD) :
    iprop(cred (tallyAt (barCell c) () 1) ∗ cred (tallyAt (barCell c) () 1)) ⊢ (cred (tallyAt (barCell c) () 2) : sProp 𝕄) := by
  have h : iprop(cred (tallyAt (barCell c) () 1) ∗ cred (tallyAt (barCell c) () 1))
      ⊢ (cred (tallyAt (barCell c) () 1 + tallyAt (barCell c) () 1) : sProp 𝕄) := (cred_add _ _).2
  rw [tallyAt_add] at h
  exact h

omit [FloatOps F] in

theorem creds (c : Dev nD) :
    (Pipeline.launchCred O₀ c : sProp 𝕄) ⊢ iprop(cred (tallyAt (barCell c) () 2)
      ∗ bigSep Finset.univ fun t : Fin 2 × Fin 6 × Fin 2 => cred (tallyAt (recvCell c t.1 t.2.1 t.2.2) () N)) := by
  rw [O₀_eq, Pipeline.launchCred_add, Pipeline.launchCred_add, Pipeline.launchCred_sum]
  iintro ⟨⟨HR, HN⟩, HP⟩
  isplitl [HN HP]
  · iapply (cred_bar_two c)
    isplitl [HN]
    · iapply (Pipeline.launchCred_tallyAt (.reg barS) nxt prv nxt_prv prv_nxt () 1 c); iexact HN
    · iapply (Pipeline.launchCred_tallyAt (.reg barS) prv nxt prv_nxt nxt_prv () 1 c); iexact HP
  · have hR : (bigSep Finset.univ fun t : Fin 2 × Fin 6 × Fin 2 =>
          (Pipeline.launchCred (fun d => tallyAt (recvCell (dn t.1 d) t.1 t.2.1 t.2.2) () N) c : sProp 𝕄))
        ⊢ bigSep Finset.univ fun t : Fin 2 × Fin 6 × Fin 2 => cred (tallyAt (recvCell c t.1 t.2.1 t.2.2) () N) :=
      bigSep_mono fun t _ =>
        Pipeline.launchCred_tallyAt (.dma (recvS t.1 t.2.1 t.2.2).sem) (dn t.1) (up t.1) (dn_up t.1) (up_dn t.1) () N c
    iapply hR; iexact HR

end Cert.KernelProof

end
-- ==== Proof.KernelOut.lean ====
import proofs.«900326_g7700000000000327_dist_treered_v7x_i4_m2048_n1024_bf16_1_alg».proof.Proof.KernelVals
import Idealize.ShloMosaic.Lib.ValueIdx

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx (ix2 eq_ix2)

variable {F : FTy → Type} [FloatOps F]

def stepOf (d : Fin 2) (c : Dev nD) (ch : Fin 4) : ℕ :=
  if d = 0 then 3 + (c.val + 5 - ch.val) % 4 else 3 + (ch.val + 5 - c.val) % 4

theorem chk_stepOf : ∀ (d : Fin 2) (c : Dev nD) (ch : Fin 4), chk d c (stepOf d c ch) = ch := by decide

theorem stepOf_chk : ∀ (d : Fin 2) (c : Dev nD) (s : Fin 4), stepOf d c (chk d c (3 + s.val)) = 3 + s.val := by decide

def rowHalf (r : Fin 2048) : Fin 2 := ⟨r.val / 1024, by have := r.isLt; omega⟩

def rowChunk (r : Fin 2048) : Fin 4 := ⟨r.val % 1024 / 256, by omega⟩

def rowSub (r : Fin 2048) : Fin 2 := ⟨r.val % 256 / 128, by omega⟩

def rowIn (r : Fin 2048) : Fin 128 := ⟨r.val % 128, Nat.mod_lt _ (by decide)⟩

theorem row_split (d : Fin 2) (ch : Fin 4) (j : Fin 2) (p : Fin 128) (r : Fin 2048)
    (h : r.val = 1024 * d.val + 256 * ch.val + 128 * j.val + p.val) :
    rowHalf r = d ∧ rowChunk r = ch ∧ rowSub r = j ∧ rowIn r = p := by
  refine ⟨Fin.ext ?_, Fin.ext ?_, Fin.ext ?_, Fin.ext ?_⟩ <;> simp only [rowHalf, rowChunk, rowSub, rowIn] <;> omega

variable (m : (ℓ : Loc nD τ sig) → Buf (Elt F) ℓ) (ρ : Dev nD → PrngReg)

def outFinal (c : Dev nD) : Vec F S2048x1024 .bf16 := fun i =>
  val m ρ (stepOf (rowHalf (i 0)) c (rowChunk (i 0))) c (rowHalf (i 0)) (rowSub (i 0)) (ix2 (rowIn (i 0)) (i 1))

theorem outFinal_blk (c : Dev nD) (d : Fin 2) (ch : Fin 4) (j : Fin 2) :
    (fun i => outFinal m ρ c ((subR d ch j).emb i)) = val m ρ (stepOf d c ch) c d j := by
  funext (i : S128x1024.Idx)
  obtain ⟨hd, hch, hj, hp⟩ := row_split d ch j (i 0) ((subR d ch j).emb i 0) (by
    show subOff d ch j 0 + 1 * (i 0).val = _
    simp only [subOff, Matrix.cons_val_zero]; omega)
  have hq : (subR d ch j).emb i 1 = i 1 := Fin.ext (by
    show subOff d ch j 1 + 1 * (i 1).val = _
    simp only [subOff, Matrix.cons_val_one, Matrix.cons_val_zero]; omega)
  show val m ρ (stepOf (rowHalf ((subR d ch j).emb i 0)) c (rowChunk ((subR d ch j).emb i 0))) c
      (rowHalf ((subR d ch j).emb i 0)) (rowSub ((subR d ch j).emb i 0))
      (ix2 (rowIn ((subR d ch j).emb i 0)) ((subR d ch j).emb i 1)) = _
  rw [hd, hch, hj, hp, hq]
  exact congrArg _ (eq_ix2 i).symm

theorem outFinal_step (c : Dev nD) (d : Fin 2) (s : Fin 4) (j : Fin 2) :
    (fun i => outFinal m ρ c ((subR d (chk d c (3 + s.val)) j).emb i)) = val m ρ (3 + s.val) c d j := by
  rw [outFinal_blk, stepOf_chk]

end Cert.KernelProof

end
-- ==== Proof.KernelProto.lean ====
import proofs.«900326_g7700000000000327_dist_treered_v7x_i4_m2048_n1024_bf16_1_alg».proof.Proof.KernelSched

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

instance srcBlk_storable (c : Dev nD) (d : Fin 2) (s : ℕ) (j : Fin 2) : BI.Storable (upEmb : UEmb _ 𝕄) (srcBlk m ρ c d s j) := by
  unfold srcBlk; infer_instance
instance slot_storable (c : Dev nD) (d : Fin 2) (s : Fin 3) (j : Fin 2) (v) : BI.Storable (upEmb : UEmb _ 𝕄) (slot (F := F) c d s j v) := by
  unfold slot; infer_instance
instance slots_storable (c : Dev nD) (d : Fin 2) : BI.Storable (upEmb : UEmb _ 𝕄) (slots (F := F) c d) := by
  unfold slots; infer_instance
instance recvPay_storable (c : Dev nD) (d : Fin 2) (k : Fin 6) (j : Fin 2) : BI.Storable (upEmb : UEmb _ 𝕄) (recvPay m ρ c d k j) := by
  unfold recvPay; split <;> infer_instance
instance sendPay_storable (c : Dev nD) (d : Fin 2) (k : Fin 6) (j : Fin 2) : BI.Storable (upEmb : UEmb _ 𝕄) (sendPay m ρ c d k j) := by
  unfold sendPay; split <;> infer_instance
instance barPay_storable (c : Dev nD) (dty : Bool) : BI.Storable (upEmb : UEmb _ 𝕄) (barPay (F := F) c dty) := by
  unfold barPay; split <;> infer_instance
instance ringRd_payload_storable (g : GSem nD τ sig) (r : ℕ) (dty : Bool) :
    BI.Storable (upEmb : UEmb _ 𝕄) ((ringRd (F := F) m ρ).payload g r dty) := by
  dsimp only [ringRd]
  split
  · split <;> infer_instance
  · (repeat' split) <;> infer_instance

section Tables
variable (c : Dev nD) (d : Fin 2) (k : Fin 6) (j : Fin 2)

theorem duties_bar : (ringRd (F := F) m ρ).duties (barCell c) 0 = Finset.univ := by
  dsimp only [ringRd]; rw [if_pos ⟨rfl, rfl⟩, if_pos rfl]
theorem duties_send : (ringRd (F := F) m ρ).duties (sendCell c d k j) 0 = {false} := by
  dsimp only [ringRd]; rw [if_pos ⟨rfl, rfl⟩, if_pos (by rw [sendS_val]; omega)]
theorem duties_recv : (ringRd (F := F) m ρ).duties (recvCell c d k j) 0 = {false} := by
  dsimp only [ringRd]; rw [if_pos ⟨rfl, rfl⟩, if_pos (by rw [recvS_val]; omega)]
theorem duties_later (g : GSem nD τ sig) : ∀ r, 1 ≤ r → (ringRd (F := F) m ρ).duties g r = ∅ :=
  fun r hr => by dsimp only [ringRd]; rw [if_neg fun h => by omega]

theorem amount_bar (dty : Bool) : (ringRd (F := F) m ρ).amount (barCell c) 0 dty = 1 := rfl
theorem amount_send (dty : Bool) : (ringRd (F := F) m ρ).amount (sendCell c d k j) 0 dty = N := rfl
theorem amount_recv (dty : Bool) : (ringRd (F := F) m ρ).amount (recvCell c d k j) 0 dty = N := rfl

theorem expect_bar : (ringRd (F := F) m ρ).expect (barCell c) 0 = 2 := by
  unfold Schedule.expect Schedule.amountOf
  rw [duties_bar, Finset.sum_congr rfl fun dty _ => amount_bar m ρ c dty, Finset.sum_const, Finset.card_univ, Fintype.card_bool, smul_eq_mul]
theorem expect_send : (ringRd (F := F) m ρ).expect (sendCell c d k j) 0 = N := by
  unfold Schedule.expect Schedule.amountOf; rw [duties_send, Finset.sum_singleton, amount_send]
theorem expect_recv : (ringRd (F := F) m ρ).expect (recvCell c d k j) 0 = N := by
  unfold Schedule.expect Schedule.amountOf; rw [duties_recv, Finset.sum_singleton, amount_recv]

theorem payload_bar (dty : Bool) : (ringRd (F := F) m ρ).payload (barCell c) 0 dty = barPay c dty := by
  dsimp only [ringRd]; rw [if_pos rfl]
theorem payload_send (dty : Bool) : (ringRd (F := F) m ρ).payload (sendCell c d k j) 0 dty = sendPay m ρ c d k j := by
  dsimp only [ringRd]
  have hv := sendS_val d k j
  rw [if_pos (by rw [hv]; exact ⟨by omega, by have := d.isLt; have := k.isLt; have := j.isLt; omega⟩)]
  have e : ((sendS d k j).sem : DmaSem sig).val - 2 = 12 * d.val + 2 * k.val + j.val := by rw [hv]; omega
  rw [e, decode_eq]
theorem payload_recv (dty : Bool) : (ringRd (F := F) m ρ).payload (recvCell c d k j) 0 dty = recvPay m ρ c d k j := by
  dsimp only [ringRd]
  have hv := recvS_val d k j
  rw [if_neg (by rw [hv]; intro h; omega), if_pos (by rw [hv]; omega)]
  have e : ((recvS d k j).sem : DmaSem sig).val - 26 = 12 * d.val + 2 * k.val + j.val := by rw [hv]; omega
  rw [e, decode_eq]

theorem rest_bar : bigSep ((ringRd (F := F) m ρ).duties (barCell c) 0 \ ∅) (fun dty => (ringRd (F := F) m ρ).payload (barCell c) 0 dty)
    = iprop(slots (F := F) (prv c) 1 ∗ slots (F := F) (nxt c) 0) := by
  rw [Finset.sdiff_empty, duties_bar, bigSep_univ_eq_bigSepL [false, true] (by decide) (by decide), bigSepL_cons_cons, bigSepL_singleton,
    payload_bar, payload_bar]
  rfl
theorem rest_send : bigSep ((ringRd (F := F) m ρ).duties (sendCell c d k j) 0 \ ∅) (fun dty => (ringRd (F := F) m ρ).payload (sendCell c d k j) 0 dty)
    = sendPay m ρ c d k j := by
  rw [Finset.sdiff_empty, duties_send, bigSep_singleton, payload_send]
theorem rest_recv : bigSep ((ringRd (F := F) m ρ).duties (recvCell c d k j) 0 \ ∅) (fun dty => (ringRd (F := F) m ρ).payload (recvCell c d k j) 0 dty)
    = recvPay m ρ c d k j := by
  rw [Finset.sdiff_empty, duties_recv, bigSep_singleton, payload_recv]

end Tables

end Cert.KernelProof

end
-- ==== Proof.KernelGhost.lean ====
import proofs.«900326_g7700000000000327_dist_treered_v7x_i4_m2048_n1024_bf16_1_alg».proof.Proof.KernelLevels
import proofs.«900326_g7700000000000327_dist_treered_v7x_i4_m2048_n1024_bf16_1_alg».proof.Proof.KernelOut
import proofs.«900326_g7700000000000327_dist_treered_v7x_i4_m2048_n1024_bf16_1_alg».proof.Proof.KernelProto

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev CellIx : Type := Option (Bool × Fin 2 × Fin 6 × Fin 2)
abbrev csem : CellIx → SemLoc sig
  | none => .reg barS
  | some (false, d, k, j) => .dma (sendS d k j).sem
  | some (true, d, k, j) => .dma (recvS d k j).sem
abbrev kcell (ck : Dev nD × CellIx) : GSem nD τ sig := ((ck.1 : Thread nD τ), csem ck.2)
abbrev Lane : Type := Fin 2 × Fin 6 × Fin 2

def records (K : Dev nD × CellIx → ℕ) : sProp 𝕄 :=
  iprop((bigSep Finset.univ fun ck : Dev nD × CellIx => cellInv ER (ringRd m ρ) (K ck) (kcell ck))
    ∗ bigSep Finset.univ fun ck : Dev nD × CellIx => reached ER (kcell ck) 0)

instance records_persistent (K : Dev nD × CellIx → ℕ) : BI.Persistent (records m ρ K) := by unfold records; infer_instance

/-- Every cell's invariant is one of the recorded ones. -/
theorem inv_at (K : Dev nD × CellIx → ℕ) (ck : Dev nD × CellIx) :
    records m ρ K ⊢ cellInv ER (ringRd m ρ) (K ck) (kcell ck) := by
  unfold records; iintro ⟨#HI, -⟩
  iapply (show (bigSep Finset.univ fun ck : Dev nD × CellIx => cellInv ER (ringRd m ρ) (K ck) (kcell ck) : sProp 𝕄) ⊢ cellInv ER (ringRd m ρ) (K ck) (kcell ck) from bigSep_elim (Finset.mem_univ ck)); iexact HI

/-- Every cell has reached round 0. -/
theorem rch_at (K : Dev nD × CellIx → ℕ) (ck : Dev nD × CellIx) : records m ρ K ⊢ reached ER (kcell ck) 0 := by
  unfold records; iintro ⟨-, #HR⟩
  iapply (show (bigSep Finset.univ fun ck : Dev nD × CellIx => (reached ER (kcell ck) 0 : sProp 𝕄)) ⊢ reached ER (kcell ck) 0 from bigSep_elim (Finset.mem_univ ck)); iexact HR

def payToks (c : Dev nD) : sProp 𝕄 :=
  iprop(dutyTok ER (barCell (nxt c)) 0 false ∗ dutyTok ER (barCell (prv c)) 0 true
    ∗ bigSep Finset.univ fun t : Lane =>
        iprop(dutyTok ER (sendCell c t.1 t.2.1 t.2.2) 0 false ∗ dutyTok ER (recvCell (dn t.1 c) t.1 t.2.1 t.2.2) 0 false))

def positions (c : Dev nD) : sProp 𝕄 := bigSep Finset.univ fun ix : CellIx => atPos ER (kcell (c, ix)) 0 ∅ 0
def ghost (K : Dev nD × CellIx → ℕ) (c : Dev nD) : sProp 𝕄 := iprop(records m ρ K ∗ positions (F := F) c ∗ payToks (F := F) c)

def credsOf (c : Dev nD) : sProp 𝕄 :=
  iprop(cred (tallyAt (barCell c) () 2) ∗ bigSep Finset.univ fun t : Lane => cred (tallyAt (recvCell c t.1 t.2.1 t.2.2) () N))
def start (c : Dev nD) : sProp 𝕄 := iprop((∃ K, ghost m ρ K c) ∗ credsOf (F := F) c ∗ levAts L lv)

def scr (c : Dev nD) (f : Buf (Elt F) ((c : Thread nD τ).loc cc0_scratch0)) : sProp 𝕄 := ((c : Thread nD τ).loc cc0_scratch0) ↦{fullShare} f
def Φ₀ (c : Dev nD) : sProp 𝕄 := iprop(start m ρ c ∗ ∃ f, scr c f)

def ownZero (c : Dev nD) : sProp 𝕄 :=
  bigSep Finset.univ fun t : Lane => iprop(semVal (sendCell c t.1 t.2.1 t.2.2) 0 ∗ semVal (recvCell c t.1 t.2.1 t.2.2) 0)
def Φ₁ (c : Dev nD) : sProp 𝕄 := iprop((∃ f, scr (F := F) c f) ∗ ownZero (F := F) c)

def bodyIn (K : Dev nD × CellIx → ℕ) (c : Dev nD) (W : Waits sig Unit) (f0 : Buf (Elt F) ((c : Thread nD τ).loc cc0_scratch0))
    (fo : Buf (Elt F) ((c : Thread nD τ).loc cc0_stg1_0)) : sProp 𝕄 :=
  iprop(ghost m ρ K c ∗ credsOf (F := F) c ∗ levAts L lv ∗ scr c f0 ∗ owes (c : Thread nD τ) (O₀ c) W
    ∗ (((c : Thread nD τ).loc cc0_stg0_0) ↦{fullShare} xstg m ρ c) ∗ (((c : Thread nD τ).loc cc0_stg1_0) ↦{fullShare} fo))
def bodyOut (c : Dev nD) (W' : Waits sig Unit) : sProp 𝕄 :=
  iprop(Φ₁ (F := F) c ∗ owes (c : Thread nD τ) 0 W'
    ∗ (((c : Thread nD τ).loc cc0_stg0_0) ↦{fullShare} xstg m ρ c) ∗ (((c : Thread nD τ).loc cc0_stg1_0) ↦{fullShare} outFinal m ρ c))

end Cert.KernelProof

end
-- ==== Proof.KernelClosed.lean ====
import proofs.«900326_g7700000000000327_dist_treered_v7x_i4_m2048_n1024_bf16_1_alg».proof.Proof.Gen.Kernel
import proofs.«900326_g7700000000000327_dist_treered_v7x_i4_m2048_n1024_bf16_1_alg».proof.Proof.KernelRing

set_option synthInstance.maxSize 4096
set_option Elab.async false

namespace Cert.KernelProof

open Cert.Kernel Cert.Kernel.Gen Idealize.ShloMosaic

theorem dev1_eq (c : Dev nD) : (⟨k0_dev1 c, k0_dev1_lt c⟩ : Dev nD) = prv c := by
  revert c; decide +kernel
theorem dev2_eq (c : Dev nD) : (⟨k0_dev2 c, k0_dev2_lt c⟩ : Dev nD) = nxt c := by
  revert c; decide +kernel
theorem dev3_eq (c : Dev nD) : (⟨k0_dev3 c, k0_dev3_lt c⟩ : Dev nD) = nxt c := by
  revert c; decide +kernel
theorem dev4_eq (c : Dev nD) : (⟨k0_dev4 c, k0_dev4_lt c⟩ : Dev nD) = prv c := by
  revert c; decide +kernel
theorem dev5_eq (c : Dev nD) : (⟨k0_dev5 c, k0_dev5_lt c⟩ : Dev nD) = nxt c := by
  revert c; decide +kernel
theorem dev6_eq (c : Dev nD) : (⟨k0_dev6 c, k0_dev6_lt c⟩ : Dev nD) = prv c := by
  revert c; decide +kernel
theorem dev7_eq (c : Dev nD) : (⟨k0_dev7 c, k0_dev7_lt c⟩ : Dev nD) = nxt c := by
  revert c; decide +kernel
theorem dev8_eq (c : Dev nD) : (⟨k0_dev8 c, k0_dev8_lt c⟩ : Dev nD) = prv c := by
  revert c; decide +kernel
theorem dev9_eq (c : Dev nD) : (⟨k0_dev9 c, k0_dev9_lt c⟩ : Dev nD) = nxt c := by
  revert c; decide +kernel
theorem dev10_eq (c : Dev nD) : (⟨k0_dev10 c, k0_dev10_lt c⟩ : Dev nD) = prv c := by
  revert c; decide +kernel
theorem dev11_eq (c : Dev nD) : (⟨k0_dev11 c, k0_dev11_lt c⟩ : Dev nD) = nxt c := by
  revert c; decide +kernel
theorem dev12_eq (c : Dev nD) : (⟨k0_dev12 c, k0_dev12_lt c⟩ : Dev nD) = prv c := by
  revert c; decide +kernel
theorem dev13_eq (c : Dev nD) : (⟨k0_dev13 c, k0_dev13_lt c⟩ : Dev nD) = nxt c := by
  revert c; decide +kernel
theorem dev14_eq (c : Dev nD) : (⟨k0_dev14 c, k0_dev14_lt c⟩ : Dev nD) = prv c := by
  revert c; decide +kernel
theorem dev15_eq (c : Dev nD) : (⟨k0_dev15 c, k0_dev15_lt c⟩ : Dev nD) = nxt c := by
  revert c; decide +kernel
theorem dev16_eq (c : Dev nD) : (⟨k0_dev16 c, k0_dev16_lt c⟩ : Dev nD) = prv c := by
  revert c; decide +kernel
theorem dev17_eq (c : Dev nD) : (⟨k0_dev17 c, k0_dev17_lt c⟩ : Dev nD) = nxt c := by
  revert c; decide +kernel
theorem dev18_eq (c : Dev nD) : (⟨k0_dev18 c, k0_dev18_lt c⟩ : Dev nD) = prv c := by
  revert c; decide +kernel
theorem dev19_eq (c : Dev nD) : (⟨k0_dev19 c, k0_dev19_lt c⟩ : Dev nD) = nxt c := by
  revert c; decide +kernel
theorem dev20_eq (c : Dev nD) : (⟨k0_dev20 c, k0_dev20_lt c⟩ : Dev nD) = prv c := by
  revert c; decide +kernel
theorem dev21_eq (c : Dev nD) : (⟨k0_dev21 c, k0_dev21_lt c⟩ : Dev nD) = nxt c := by
  revert c; decide +kernel
theorem dev22_eq (c : Dev nD) : (⟨k0_dev22 c, k0_dev22_lt c⟩ : Dev nD) = prv c := by
  revert c; decide +kernel
theorem dev23_eq (c : Dev nD) : (⟨k0_dev23 c, k0_dev23_lt c⟩ : Dev nD) = nxt c := by
  revert c; decide +kernel
theorem dev24_eq (c : Dev nD) : (⟨k0_dev24 c, k0_dev24_lt c⟩ : Dev nD) = prv c := by
  revert c; decide +kernel
theorem dev25_eq (c : Dev nD) : (⟨k0_dev25 c, k0_dev25_lt c⟩ : Dev nD) = nxt c := by
  revert c; decide +kernel
theorem dev26_eq (c : Dev nD) : (⟨k0_dev26 c, k0_dev26_lt c⟩ : Dev nD) = prv c := by
  revert c; decide +kernel

theorem off1_eq (c : Dev nD) (r₁ : Fin 2) (r₂ : Fin 4) :
    k0_off1 c (BitVec.ofNat 32 (1024 * r₁.val)) (BitVec.ofNat 32 r₂.val)
      = ![0, 1024 * r₁.val + 256 * ((c.val + r₂.val) % 4), 0] := by
  revert c r₁ r₂; decide +kernel

theorem off2_eq (c : Dev nD) (r₁ : Fin 2) (r₂ : Fin 4) :
    k0_off2 c (BitVec.ofNat 32 (1024 * r₁.val)) (BitVec.ofNat 32 r₂.val)
      = ![1024 * r₁.val + 256 * ((c.val + r₂.val) % 4), 0] := by
  revert c r₁ r₂; decide +kernel

theorem off4_eq (c : Dev nD) (r₁ r₂ : Fin 2) :
    k0_off4 c (BitVec.ofNat 32 (1 + r₁.val)) (BitVec.ofNat 32 (128 * r₂.val))
      = ![256 * ((c.val + 3 - r₁.val) % 4) + 128 * r₂.val, 0] := by
  revert c r₁ r₂; decide +kernel

theorem off5_eq (c : Dev nD) (r₁ r₂ : Fin 2) :
    k0_off5 c (BitVec.ofNat 32 (1 + r₁.val)) (BitVec.ofNat 32 (128 * r₂.val))
      = ![256 * ((c.val + 3 - r₁.val) % 4) + 128 * r₂.val, 0] := by
  revert c r₁ r₂; decide +kernel

theorem off8_eq (c : Dev nD) (r₁ r₂ : Fin 2) :
    k0_off8 c (BitVec.ofNat 32 (1 + r₁.val)) (BitVec.ofNat 32 (128 * r₂.val))
      = ![256 * ((c.val + 4 - r₁.val) % 4) + 128 * r₂.val, 0] := by
  revert c r₁ r₂; decide +kernel

theorem off9_eq (c : Dev nD) (r₁ r₂ : Fin 2) :
    k0_off9 c (BitVec.ofNat 32 (1 + r₁.val)) (BitVec.ofNat 32 (128 * r₂.val))
      = ![1024 + 256 * ((c.val + r₁.val) % 4) + 128 * r₂.val, 0] := by
  revert c r₁ r₂; decide +kernel

theorem off6_eq (c : Dev nD) (r : Fin 8) :
    k0_off6 c (k0_off6_at r).1 (k0_off6_at r).2.1 (k0_off6_at r).2.2
      = ![(k0_off6_at r).1.toNat + 256 * ((c.val + (k0_off6_at r).2.1.toNat) % 4)
            + (k0_off6_at r).2.2.toNat, 0] := by
  revert c r; decide +kernel

theorem off7_eq (c : Dev nD) (r : Fin 8) :
    k0_off7 c (k0_off7_at r).1 (k0_off7_at r).2.1 (k0_off7_at r).2.2
      = ![(k0_off7_at r).1.toNat + 256 * ((c.val + (k0_off7_at r).2.1.toNat) % 4)
            + (k0_off7_at r).2.2.toNat, 0] := by
  revert c r; decide +kernel

end Cert.KernelProof
-- ==== Proof.KernelOffs.lean ====
import proofs.«900326_g7700000000000327_dist_treered_v7x_i4_m2048_n1024_bf16_1_alg».proof.Proof.KernelVals
import proofs.«900326_g7700000000000327_dist_treered_v7x_i4_m2048_n1024_bf16_1_alg».proof.Proof.KernelClosed

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

def chkOff (c : Dev nD) (r : Fin 4) : Fin 4 := ⟨(c.val + r.val) % 4, Nat.mod_lt _ (by decide)⟩

theorem off1_x (c : Dev nD) (r₁ : Fin 2) (r₂ : Fin 4) :
    k0_off1 c (BitVec.ofNat 32 (1024 * r₁.val)) (BitVec.ofNat 32 r₂.val) = xOff r₁ (chkOff c r₂) :=
  (off1_eq c r₁ r₂).trans (by revert c r₁ r₂; decide)
theorem off2_o (c : Dev nD) (r₁ : Fin 2) (r₂ : Fin 4) :
    k0_off2 c (BitVec.ofNat 32 (1024 * r₁.val)) (BitVec.ofNat 32 r₂.val) = oOff256 r₁ (chkOff c r₂) :=
  (off2_eq c r₁ r₂).trans (by revert c r₁ r₂; decide)

theorem off3_sub (c : Dev nD) (r₁ r₂ : Fin 2) :
    k0_off3 c (BitVec.ofNat 32 (1024 * r₁.val)) (BitVec.ofNat 32 (128 * r₂.val)) = subOff r₁ (chk r₁ c 0) r₂ :=
  (k0_off3_eq c r₁ r₂).trans (by revert c r₁ r₂; decide)

theorem off4_sub (c : Dev nD) (r₁ r₂ : Fin 2) :
    k0_off4 c (BitVec.ofNat 32 (1 + r₁.val)) (BitVec.ofNat 32 (128 * r₂.val)) = subOff 0 (chk 0 c (1 + r₁.val)) r₂ :=
  (off4_eq c r₁ r₂).trans (by revert c r₁ r₂; decide)
theorem off5_sub (c : Dev nD) (r₁ r₂ : Fin 2) :
    k0_off5 c (BitVec.ofNat 32 (1 + r₁.val)) (BitVec.ofNat 32 (128 * r₂.val)) = subOff 0 (chk 0 c (1 + r₁.val)) r₂ :=
  (off5_eq c r₁ r₂).trans (by revert c r₁ r₂; decide)

theorem off8_sub (c : Dev nD) (r₁ r₂ : Fin 2) :
    k0_off8 c (BitVec.ofNat 32 (1 + r₁.val)) (BitVec.ofNat 32 (128 * r₂.val)) = subOff 0 (chk 0 c (4 + r₁.val)) r₂ :=
  (off8_eq c r₁ r₂).trans (by revert c r₁ r₂; decide)

theorem off9_sub (c : Dev nD) (r₁ r₂ : Fin 2) :
    k0_off9 c (BitVec.ofNat 32 (1 + r₁.val)) (BitVec.ofNat 32 (128 * r₂.val)) = subOff 1 (chk 1 c (4 + r₁.val)) r₂ :=
  (off9_eq c r₁ r₂).trans (by revert c r₁ r₂; decide)

def row67 (r : Fin 8) : Fin 2 × ℕ × Fin 2 :=
  match r with
  | 0 => (1, 1, 0) | 1 => (1, 1, 1) | 2 => (1, 2, 0) | 3 => (1, 2, 1)
  | 4 => (0, 3, 0) | 5 => (1, 3, 0) | 6 => (0, 3, 1) | 7 => (1, 3, 1)
theorem off6_sub (c : Dev nD) (r : Fin 8) :
    k0_off6 c (k0_off6_at r).1 (k0_off6_at r).2.1 (k0_off6_at r).2.2 = subOff (row67 r).1 (chk (row67 r).1 c (row67 r).2.1) (row67 r).2.2 :=
  (off6_eq c r).trans (by revert c r; decide)
theorem off7_sub (c : Dev nD) (r : Fin 8) :
    k0_off7 c (k0_off7_at r).1 (k0_off7_at r).2.1 (k0_off7_at r).2.2 = subOff (row67 r).1 (chk (row67 r).1 c (row67 r).2.1) (row67 r).2.2 :=
  (off7_eq c r).trans (by revert c r; decide)

end Cert.KernelProof

end
-- ==== Proof.KernelBig.lean ====
import proofs.«900326_g7700000000000327_dist_treered_v7x_i4_m2048_n1024_bf16_1_alg».proof.Proof.KernelGhost
import proofs.«900326_g7700000000000327_dist_treered_v7x_i4_m2048_n1024_bf16_1_alg».proof.Proof.KernelOffs

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
theorem bigSep_lane24 (Φ : Lane → sProp 𝕄) :
    bigSep Finset.univ Φ = iprop(Φ (0, 0, 0) ∗ Φ (0, 0, 1) ∗ Φ (0, 1, 0) ∗ Φ (0, 1, 1) ∗ Φ (0, 2, 0) ∗ Φ (0, 2, 1) ∗ Φ (0, 3, 0) ∗ Φ (0, 3, 1) ∗ Φ (0, 4, 0) ∗ Φ (0, 4, 1) ∗ Φ (0, 5, 0) ∗ Φ (0, 5, 1) ∗ Φ (1, 0, 0) ∗ Φ (1, 0, 1) ∗ Φ (1, 1, 0) ∗ Φ (1, 1, 1) ∗ Φ (1, 2, 0) ∗ Φ (1, 2, 1) ∗ Φ (1, 3, 0) ∗ Φ (1, 3, 1) ∗ Φ (1, 4, 0) ∗ Φ (1, 4, 1) ∗ Φ (1, 5, 0) ∗ Φ (1, 5, 1)) := by
  rw [bigSep_univ_eq_bigSepL [(0, 0, 0), (0, 0, 1), (0, 1, 0), (0, 1, 1), (0, 2, 0), (0, 2, 1), (0, 3, 0), (0, 3, 1), (0, 4, 0), (0, 4, 1), (0, 5, 0), (0, 5, 1), (1, 0, 0), (1, 0, 1), (1, 1, 0), (1, 1, 1), (1, 2, 0), (1, 2, 1), (1, 3, 0), (1, 3, 1), (1, 4, 0), (1, 4, 1), (1, 5, 0), (1, 5, 1)] (by decide) (by decide)]
  simp only [bigSepL_cons_cons, bigSepL_singleton]
  rfl

omit [FloatOps F] in
theorem bigSep_blocks16 (Φ : Fin 2 × Fin 4 × Fin 2 → sProp 𝕄) :
    bigSep Finset.univ Φ = iprop(Φ (0, 0, 0) ∗ Φ (0, 0, 1) ∗ Φ (0, 1, 0) ∗ Φ (0, 1, 1) ∗ Φ (0, 2, 0) ∗ Φ (0, 2, 1) ∗ Φ (0, 3, 0) ∗ Φ (0, 3, 1) ∗ Φ (1, 0, 0) ∗ Φ (1, 0, 1) ∗ Φ (1, 1, 0) ∗ Φ (1, 1, 1) ∗ Φ (1, 2, 0) ∗ Φ (1, 2, 1) ∗ Φ (1, 3, 0) ∗ Φ (1, 3, 1)) := by
  rw [bigSep_univ_eq_bigSepL [(0, 0, 0), (0, 0, 1), (0, 1, 0), (0, 1, 1), (0, 2, 0), (0, 2, 1), (0, 3, 0), (0, 3, 1), (1, 0, 0), (1, 0, 1), (1, 1, 0), (1, 1, 1), (1, 2, 0), (1, 2, 1), (1, 3, 0), (1, 3, 1)] (by decide) (by decide)]
  simp only [bigSepL_cons_cons, bigSepL_singleton]
  rfl

omit [FloatOps F] in
theorem bigSep_slots6 (Φ : Fin 3 × Fin 2 → sProp 𝕄) :
    bigSep Finset.univ Φ = iprop(Φ (0, 0) ∗ Φ (0, 1) ∗ Φ (1, 0) ∗ Φ (1, 1) ∗ Φ (2, 0) ∗ Φ (2, 1)) := by
  rw [bigSep_univ_eq_bigSepL [(0, 0), (0, 1), (1, 0), (1, 1), (2, 0), (2, 1)] (by decide) (by decide)]
  simp only [bigSepL_cons_cons, bigSepL_singleton]
  rfl

omit [FloatOps F] in

theorem bigSep_cellIx (Φ : CellIx → sProp 𝕄) :
    bigSep Finset.univ Φ = iprop(Φ none ∗ (bigSep Finset.univ fun t : Lane => Φ (some (false, t))) ∗ (bigSep Finset.univ fun t : Lane => Φ (some (true, t)))) := by
  have e : (Finset.univ : Finset CellIx) = insert none ((Finset.univ : Finset (Bool × Lane)).map ⟨some, Option.some_injective _⟩) := by
    ext x; cases x <;> simp
  rw [e, bigSep_insert (by simp), bigSep_map, bigSep_univ_prod, bigSep_univ_eq_bigSepL [false, true] (by decide) (by decide),
    bigSepL_cons_cons, bigSepL_singleton]
  rfl

def chkOffEquiv (c : Dev nD) : Fin 4 ≃ Fin 4 where
  toFun := chkOff c
  invFun ch := ⟨(ch.val + 4 - c.val) % 4, Nat.mod_lt _ (by decide)⟩
  left_inv := by revert c; decide
  right_inv := by revert c; decide

end Cert.KernelProof

end
-- ==== Proof.KernelRules.lean ====
import proofs.«900326_g7700000000000327_dist_treered_v7x_i4_m2048_n1024_bf16_1_alg».proof.Proof.KernelGhost

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem ownsTc_of_pointsTo (c : Dev nD) (mr : Memref sig .tc .vmem S128x1024 .bf16) (f : mr.view.ty.Contents (Elt F))
    (v : Vec F S128x1024 .bf16) (h : mr.view.read (Elt F) f = v) :
    (mr.view.loc (c : Thread nD τ) ↦[mr.view.set]{fullShare} f : sProp 𝕄) ⊢ ownsTc c mr fullShare v := by
  subst h; exact owns_intro (c : Thread nD τ) mr fullShare f

/-- A transfer of steps 0 to 2: the source block travels on to the receiver together with what lands. -/
theorem wp_send_land (K : Dev nD × CellIx → ℕ) (c : Dev nD) (d : Fin 2) (k : Fin 6) (j : Fin 2) (n : Dev nD) (hn : n = dn d c)
    (srcM dstM : Memref sig .tc .vmem S128x1024 .bf16) (hcred : dstM.view.dmaCredit = N)
    {hsc : (dstM : Memref sig (Dev.tc n : Thread nD τ).2.kind .vmem S128x1024 .bf16).view.ref.isScScratch = false}
    {hsrc : srcM.view.WordExact} {hdst : dstM.view.WordExact}
    {hsem : DmaTarget.Typed .vmem (.dma (recvS d k j).sem) (.remote (Dev.tc n : Thread nD τ) dstM (.dma (sendS d k j).sem) hsc)}
    {α : Type} {Q : α → sProp 𝕄} {kk : PUnit → Prog (TpuEff nD τ sig (Elt F) Λ₀ .tc) α}
    (v v₀ : Vec F S128x1024 .bf16) (T : sProp 𝕄) (O : CellTallies nD τ sig Unit) (W : Waits sig Unit)
    (hpay : iprop((ownsTc (dn d c) dstM fullShare v ∗ T) ∗ ownsTc c srcM fullShare v) ⊢ recvPay m ρ (dn d c) d k j)
    (hsp : (emp : sProp 𝕄) ⊢ sendPay m ρ c d k j) :
    iprop(records m ρ K ∗ ownsTc c srcM fullShare v ∗ ownsTc (dn d c) dstM fullShare v₀ ∗ T
        ∗ owes (c : Thread nD τ) (O + tallyAt (recvCell (dn d c) d k j) () N) W
        ∗ dutyTok ER (sendCell c d k j) 0 false ∗ dutyTok ER (recvCell (dn d c) d k j) 0 false)
      ⊢ iprop(((cred (tallyAt (sendCell c d k j) () N) ∗ owes (c : Thread nD τ) O W) -∗ WP c (kk ⟨⟩) Q)
          -∗ WP c (.op (.enqueueDma srcM (.remote (Dev.tc n : Thread nD τ) dstM (.dma (sendS d k j).sem) hsc) (.dma (recvS d k j).sem) hsrc hdst hsem) kk) Q) := by
  subst hn
  iintro ⟨#Hrec, Hs, Hd, HT, HO, Ht1, Ht2⟩
  ihave Hs' := (show ownsTc c srcM fullShare v ⊢ iprop(∃ f, ⌜srcM.view.read (Elt F) f = v⌝ ∗ (srcM.view.loc (c : Thread nD τ) ↦[srcM.view.set]{fullShare} f)) from .rfl) $$ Hs
  icases Hs' with ⟨%fs, %hfs, Hs⟩
  ihave Hd' := (show ownsTc (dn d c) dstM fullShare v₀ ⊢ iprop(∃ f, ⌜dstM.view.read (Elt F) f = v₀⌝ ∗ (dstM.view.loc (dn d c : Thread nD τ) ↦[dstM.view.set]{fullShare} f)) from .rfl) $$ Hd
  icases Hd' with ⟨%fd, %hfd, Hd⟩
  iapply (Rounds.wp_send_landing_pointsTo_with 𝒱₀ ER (ringRd m ρ) (c : Thread nD τ) none (κ₁ := K (c, some (false, d, k, j))) (κ₂ := K (dn d c, some (true, d, k, j)))
      (c' := (dn d c : Thread nD τ)) (src := srcM) (dst := dstM) (sS := .dma (sendS d k j).sem) (sem := .dma (recvS d k j).sem)
      (r₁ := 0) (r₂ := 0) (d₁ := false) (d₂ := false) (q := fullShare) (fs := fs) (fd := fd) (F := T)
      (by rw [duties_send]; exact Finset.mem_singleton_self _) (by rw [duties_recv]; exact Finset.mem_singleton_self _)
      () () N (by exact hcred) (amount_send m ρ c d k j false) (amount_recv m ρ (dn d c) d k j false) O rfl (W := W)
      (by rw [payload_send]; exact hsp)
      (by
        rw [payload_recv]
        refine BIBase.Entails.trans ?_ hpay
        refine sep_mono (sep_mono_left ?_) ?_
        · exact ownsTc_of_pointsTo (dn d c) dstM _ v (by rw [View.read_write_univ, hfs])
        · exact ownsTc_of_pointsTo c srcM fs v hfs)) $$ [Hs Hd HT HO Ht1 Ht2]
  isplitr; · (iapply (inv_at m ρ K (c, some (false, d, k, j))); iexact Hrec)
  isplitr; · (iapply (inv_at m ρ K (dn d c, some (true, d, k, j))); iexact Hrec)
  isplitl [Hs]; · iexact Hs
  isplitl [Hd HT]
  · isplitl [Hd]; · iexact Hd
    iexact HT
  isplitl [HO]; · iexact HO
  isplitl [Ht1]; · iexact Ht1
  isplitr; · (iapply (rch_at m ρ K (c, some (false, d, k, j))); iexact Hrec)
  isplitl [Ht2]; · iexact Ht2
  iapply (rch_at m ρ K (dn d c, some (true, d, k, j))); iexact Hrec

/-- A transfer of steps 3 to 5: the source block comes back to the sender on its own cell. -/
theorem wp_send_ret (K : Dev nD × CellIx → ℕ) (c : Dev nD) (d : Fin 2) (k : Fin 6) (j : Fin 2) (n : Dev nD) (hn : n = dn d c)
    (srcM dstM : Memref sig .tc .vmem S128x1024 .bf16) (hcred : dstM.view.dmaCredit = N)
    {hsc : (dstM : Memref sig (Dev.tc n : Thread nD τ).2.kind .vmem S128x1024 .bf16).view.ref.isScScratch = false}
    {hsrc : srcM.view.WordExact} {hdst : dstM.view.WordExact}
    {hsem : DmaTarget.Typed .vmem (.dma (recvS d k j).sem) (.remote (Dev.tc n : Thread nD τ) dstM (.dma (sendS d k j).sem) hsc)}
    {α : Type} {Q : α → sProp 𝕄} {kk : PUnit → Prog (TpuEff nD τ sig (Elt F) Λ₀ .tc) α}
    (v v₀ : Vec F S128x1024 .bf16) (T : sProp 𝕄) (O : CellTallies nD τ sig Unit) (W : Waits sig Unit)
    (hpay : iprop(ownsTc (dn d c) dstM fullShare v ∗ T) ⊢ recvPay m ρ (dn d c) d k j)
    (hsp : ownsTc c srcM fullShare v ⊢ sendPay m ρ c d k j) :
    iprop(records m ρ K ∗ ownsTc c srcM fullShare v ∗ ownsTc (dn d c) dstM fullShare v₀ ∗ T
        ∗ owes (c : Thread nD τ) (O + tallyAt (recvCell (dn d c) d k j) () N) W
        ∗ dutyTok ER (sendCell c d k j) 0 false ∗ dutyTok ER (recvCell (dn d c) d k j) 0 false)
      ⊢ iprop(((cred (tallyAt (sendCell c d k j) () N) ∗ owes (c : Thread nD τ) O W) -∗ WP c (kk ⟨⟩) Q)
          -∗ WP c (.op (.enqueueDma srcM (.remote (Dev.tc n : Thread nD τ) dstM (.dma (sendS d k j).sem) hsc) (.dma (recvS d k j).sem) hsrc hdst hsem) kk) Q) := by
  subst hn
  iintro ⟨#Hrec, Hs, Hd, HT, HO, Ht1, Ht2⟩
  ihave Hs' := (show ownsTc c srcM fullShare v ⊢ iprop(∃ f, ⌜srcM.view.read (Elt F) f = v⌝ ∗ (srcM.view.loc (c : Thread nD τ) ↦[srcM.view.set]{fullShare} f)) from .rfl) $$ Hs
  icases Hs' with ⟨%fs, %hfs, Hs⟩
  ihave Hd' := (show ownsTc (dn d c) dstM fullShare v₀ ⊢ iprop(∃ f, ⌜dstM.view.read (Elt F) f = v₀⌝ ∗ (dstM.view.loc (dn d c : Thread nD τ) ↦[dstM.view.set]{fullShare} f)) from .rfl) $$ Hd
  icases Hd' with ⟨%fd, %hfd, Hd⟩
  iapply (Rounds.wp_send_pointsTo_with 𝒱₀ ER (ringRd m ρ) (c : Thread nD τ) none (κ₁ := K (c, some (false, d, k, j))) (κ₂ := K (dn d c, some (true, d, k, j)))
      (c' := (dn d c : Thread nD τ)) (src := srcM) (dst := dstM) (sS := .dma (sendS d k j).sem) (sem := .dma (recvS d k j).sem)
      (r₁ := 0) (r₂ := 0) (d₁ := false) (d₂ := false) (q := fullShare) (fs := fs) (fd := fd) (F := T)
      (by rw [duties_send]; exact Finset.mem_singleton_self _) (by rw [duties_recv]; exact Finset.mem_singleton_self _)
      () () N (by exact hcred) (amount_send m ρ c d k j false) (amount_recv m ρ (dn d c) d k j false) O rfl (W := W)
      (by
        rw [payload_send]
        refine BIBase.Entails.trans ?_ hsp
        exact ownsTc_of_pointsTo c srcM fs v hfs)
      (by
        rw [payload_recv]
        refine BIBase.Entails.trans ?_ hpay
        refine sep_mono_left ?_
        exact ownsTc_of_pointsTo (dn d c) dstM _ v (by rw [View.read_write_univ, hfs]))) $$ [Hs Hd HT HO Ht1 Ht2]
  isplitr; · (iapply (inv_at m ρ K (c, some (false, d, k, j))); iexact Hrec)
  isplitr; · (iapply (inv_at m ρ K (dn d c, some (true, d, k, j))); iexact Hrec)
  isplitl [Hs]; · iexact Hs
  isplitl [Hd HT]
  · isplitl [Hd]; · iexact Hd
    iexact HT
  isplitl [HO]; · iexact HO
  isplitl [Ht1]; · iexact Ht1
  isplitr; · (iapply (rch_at m ρ K (c, some (false, d, k, j))); iexact Hrec)
  isplitl [Ht2]; · iexact Ht2
  iapply (rch_at m ρ K (dn d c, some (true, d, k, j))); iexact Hrec

/-- The same, the source given by an offset equal to that of block (d, ch, j). -/
theorem wp_send_land_sub (K : Dev nD × CellIx → ℕ) (c : Dev nD) (d : Fin 2) (k : Fin 6) (j : Fin 2) (n : Dev nD) (hn : n = dn d c) (ch : Fin 4)
    {off : Fin 2 → ℕ} {inb : ∀ a, off a + S128x1024.size a ≤ S2048x1024.size a} (hoff : off = subOff d ch j)
    (dstM : Memref sig .tc .vmem S128x1024 .bf16) (hcred : dstM.view.dmaCredit = N)
    {hsc : (dstM : Memref sig (Dev.tc n : Thread nD τ).2.kind .vmem S128x1024 .bf16).view.ref.isScScratch = false}
    {hsrc : (oM.slice (Rect.unit (s := S2048x1024) off S128x1024.size inb) (fun _ => rfl)).view.WordExact} {hdst : dstM.view.WordExact}
    {hsem : DmaTarget.Typed .vmem (.dma (recvS d k j).sem) (.remote (Dev.tc n : Thread nD τ) dstM (.dma (sendS d k j).sem) hsc)}
    {α : Type} {Q : α → sProp 𝕄} {kk : PUnit → Prog (TpuEff nD τ sig (Elt F) Λ₀ .tc) α}
    (v v₀ : Vec F S128x1024 .bf16) (T : sProp 𝕄) (O : CellTallies nD τ sig Unit) (W : Waits sig Unit)
    (hpay : iprop((ownsTc (dn d c) dstM fullShare v ∗ T) ∗ ownsTc c (sub d ch j) fullShare v) ⊢ recvPay m ρ (dn d c) d k j)
    (hsp : (emp : sProp 𝕄) ⊢ sendPay m ρ c d k j) :
    iprop(records m ρ K ∗ ownsTc c (sub d ch j) fullShare v ∗ ownsTc (dn d c) dstM fullShare v₀ ∗ T
        ∗ owes (c : Thread nD τ) (O + tallyAt (recvCell (dn d c) d k j) () N) W
        ∗ dutyTok ER (sendCell c d k j) 0 false ∗ dutyTok ER (recvCell (dn d c) d k j) 0 false)
      ⊢ iprop(((cred (tallyAt (sendCell c d k j) () N) ∗ owes (c : Thread nD τ) O W) -∗ WP c (kk ⟨⟩) Q)
          -∗ WP c (.op (.enqueueDma (oM.slice (Rect.unit (s := S2048x1024) off S128x1024.size inb) (fun _ => rfl))
              (.remote (Dev.tc n : Thread nD τ) dstM (.dma (sendS d k j).sem) hsc) (.dma (recvS d k j).sem) hsrc hdst hsem) kk) Q) := by
  subst hoff
  exact wp_send_land m ρ K c d k j n hn (sub d ch j) dstM hcred v v₀ T O W hpay hsp

/-- The same, source and destination given by one offset equal to that of block (d, ch, j). -/
theorem wp_send_ret_sub (K : Dev nD × CellIx → ℕ) (c : Dev nD) (d : Fin 2) (k : Fin 6) (j : Fin 2) (n : Dev nD) (hn : n = dn d c) (ch : Fin 4)
    {off : Fin 2 → ℕ} {inb inb' : ∀ a, off a + S128x1024.size a ≤ S2048x1024.size a} (hoff : off = subOff d ch j)
    {hsc : ((oM.slice (Rect.unit (s := S2048x1024) off S128x1024.size inb') (fun _ => rfl)) : Memref sig (Dev.tc n : Thread nD τ).2.kind .vmem S128x1024 .bf16).view.ref.isScScratch = false}
    {hsrc : (oM.slice (Rect.unit (s := S2048x1024) off S128x1024.size inb) (fun _ => rfl)).view.WordExact}
    {hdst : (oM.slice (Rect.unit (s := S2048x1024) off S128x1024.size inb') (fun _ => rfl)).view.WordExact}
    {hsem : DmaTarget.Typed .vmem (.dma (recvS d k j).sem) (.remote (Dev.tc n : Thread nD τ) (oM.slice (Rect.unit (s := S2048x1024) off S128x1024.size inb') (fun _ => rfl)) (.dma (sendS d k j).sem) hsc)}
    {α : Type} {Q : α → sProp 𝕄} {kk : PUnit → Prog (TpuEff nD τ sig (Elt F) Λ₀ .tc) α}
    (v v₀ : Vec F S128x1024 .bf16) (T : sProp 𝕄) (O : CellTallies nD τ sig Unit) (W : Waits sig Unit)
    (hpay : iprop(ownsTc (dn d c) (sub d ch j) fullShare v ∗ T) ⊢ recvPay m ρ (dn d c) d k j)
    (hsp : ownsTc c (sub d ch j) fullShare v ⊢ sendPay m ρ c d k j) :
    iprop(records m ρ K ∗ ownsTc c (sub d ch j) fullShare v ∗ ownsTc (dn d c) (sub d ch j) fullShare v₀ ∗ T
        ∗ owes (c : Thread nD τ) (O + tallyAt (recvCell (dn d c) d k j) () N) W
        ∗ dutyTok ER (sendCell c d k j) 0 false ∗ dutyTok ER (recvCell (dn d c) d k j) 0 false)
      ⊢ iprop(((cred (tallyAt (sendCell c d k j) () N) ∗ owes (c : Thread nD τ) O W) -∗ WP c (kk ⟨⟩) Q)
          -∗ WP c (.op (.enqueueDma (oM.slice (Rect.unit (s := S2048x1024) off S128x1024.size inb) (fun _ => rfl))
              (.remote (Dev.tc n : Thread nD τ) (oM.slice (Rect.unit (s := S2048x1024) off S128x1024.size inb') (fun _ => rfl)) (.dma (sendS d k j).sem) hsc)
              (.dma (recvS d k j).sem) hsrc hdst hsem) kk) Q) := by
  subst hoff
  exact wp_send_ret m ρ K c d k j n hn (sub d ch j) (sub d ch j) rfl v v₀ T O W hpay hsp

/-- Waiting on a receive cell hands over what the landing carried. -/
theorem wp_wait_recv (K : Dev nD × CellIx → ℕ) (c : Dev nD) (d : Fin 2) (k : Fin 6) (j : Fin 2)
    {srcM dstM : Memref sig .tc .vmem S128x1024 .bf16} (hcred : dstM.view.dmaCredit = N)
    {h1 : srcM.view.WordExact} {h2 : dstM.view.WordExact}
    {α : Type} {Q : α → sProp 𝕄} {kk : PUnit → Prog (TpuEff nD τ sig (Elt F) Λ₀ .tc) α}
    (O : CellTallies nD τ sig Unit) (W : Waits sig Unit) :
    iprop(records m ρ K ∗ cred (tallyAt (recvCell c d k j) () N) ∗ owes (c : Thread nD τ) O W
        ∗ MayWait (c : Thread nD τ) (.dma (recvS d k j).sem) () O ∗ atPos ER (recvCell c d k j) 0 ∅ 0)
      ⊢ iprop(((owes (c : Thread nD τ) O (insert (SemLoc.dma (recvS d k j).sem, ()) W) ∗ atPos ER (recvCell c d k j) 1 ∅ 0 ∗ recvPay m ρ c d k j)
            -∗ WP c (kk ⟨⟩) Q)
          -∗ WP c (.op (.waitDma2 (recvS d k j).sem srcM dstM h1 h2) kk) Q) := by
  iintro ⟨#Hrec, Hc, HO, HM, Hat⟩ Hk
  iapply (Rounds.wp_wait_rest_token 𝒱₀ ER (ringRd m ρ) (c : Thread nD τ) none (κ := K (c, some (true, d, k, j)))
      (k' := dstM.view.dmaCredit) (wpE_waitDma2_eq 𝒱₀ (c : Thread nD τ) none Set.univ) (Set.mem_univ _) () (O := O) (W := W) (R := 0) (m := 0) (T := ∅)
      (by rw [Nat.zero_add, expect_recv, hcred])) $$ [Hc HO HM Hat]
  · isplitr; · (iapply (inv_at m ρ K (c, some (true, d, k, j))); iexact Hrec)
    isplitl [Hc]; · rw [hcred]; iexact Hc
    isplitl [HO]; · iexact HO
    isplitl [HM]; · iexact HM
    iexact Hat
  iintro ⟨HO, Hat, -, Hpay⟩
  iapply Hk
  isplitl [HO]; · iexact HO
  isplitl [Hat]; · iexact Hat
  iapply (Entails.of_eq (rest_recv m ρ c d k j)); iexact Hpay

/-- Waiting on a send cell, nothing owed, hands back what the sender is due. -/
theorem wp_wait_send (K : Dev nD × CellIx → ℕ) (c : Dev nD) (d : Fin 2) (k : Fin 6) (j : Fin 2)
    {srcM dstM : Memref sig .tc .vmem S128x1024 .bf16} (hcred : dstM.view.dmaCredit = N)
    {h1 : srcM.view.WordExact} {h2 : dstM.view.WordExact}
    {α : Type} {Q : α → sProp 𝕄} {kk : PUnit → Prog (TpuEff nD τ sig (Elt F) Λ₀ .tc) α}
    (W : Waits sig Unit) :
    iprop(records m ρ K ∗ cred (tallyAt (sendCell c d k j) () N) ∗ owes (c : Thread nD τ) 0 W
        ∗ atPos ER (sendCell c d k j) 0 ∅ 0)
      ⊢ iprop(((owes (c : Thread nD τ) 0 (insert (SemLoc.dma (sendS d k j).sem, ()) W) ∗ atPos ER (sendCell c d k j) 1 ∅ 0 ∗ sendPay m ρ c d k j)
            -∗ WP c (kk ⟨⟩) Q)
          -∗ WP c (.op (.waitDma2 (sendS d k j).sem srcM dstM h1 h2) kk) Q) := by
  iintro ⟨#Hrec, Hc, HO, Hat⟩ Hk
  iapply (Rounds.wp_wait_rest_token 𝒱₀ ER (ringRd m ρ) (c : Thread nD τ) none (κ := K (c, some (false, d, k, j)))
      (k' := dstM.view.dmaCredit) (wpE_waitDma2_eq 𝒱₀ (c : Thread nD τ) none Set.univ) (Set.mem_univ _) () (O := 0) (W := W) (R := 0) (m := 0) (T := ∅)
      (by rw [Nat.zero_add, expect_send, hcred])) $$ [Hc HO Hat]
  · isplitr; · (iapply (inv_at m ρ K (c, some (false, d, k, j))); iexact Hrec)
    isplitl [Hc]; · rw [hcred]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_send m ρ c d k j)); iexact Hpay

end Cert.KernelProof

end
-- ==== Proof.KernelSteps.lean ====
import proofs.«900326_g7700000000000327_dist_treered_v7x_i4_m2048_n1024_bf16_1_alg».proof.Proof.KernelRules

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem wp_load_sub (c : Dev nD) (d : Fin 2) (ch : Fin 4) (j : Fin 2) {off : Fin 2 → ℕ}
    {inb : ∀ a, off a + S128x1024.size a ≤ S2048x1024.size a} (hoff : off = subOff d ch j)
    {hl : oM.view.LoadsAt (Rect.unit (s := S2048x1024) off S128x1024.size inb).toLoadRect}
    {α : Type} {Q : α → sProp 𝕄} {k : Vec F S128x1024 .bf16 → Prog (TpuEff nD τ sig (Elt F) Λ₀ .tc) α}
    (q : PosShare TreeShare) (v : Vec F S128x1024 .bf16) :
    iprop(owns (c : Thread nD τ) (sub d ch j) q v ∗ (owns (c : Thread nD τ) (sub d ch j) q v -∗ WP c (k v) Q))
      ⊢ WP c (.op (.load oM (Rect.unit (s := S2048x1024) off S128x1024.size inb).toLoadRect hl) k) Q := by
  subst hoff
  unfold owns
  iintro ⟨⟨%f, %hf, H⟩, Hk⟩
  subst hf
  iapply (wp_load_rect 𝒱₀ (c : Thread nD τ) none Set.univ (m := oM) (r := subR d ch j) (Finset.Subset.refl _)) $$ H
  iintro H
  iapply Hk
  iexists f
  isplitr
  · ipureintro; rfl
  · iexact H

theorem wp_store_sub (c : Dev nD) (d : Fin 2) (ch : Fin 4) (j : Fin 2) {off : Fin 2 → ℕ}
    {inb : ∀ a, off a + S128x1024.size a ≤ S2048x1024.size a} (hoff : off = subOff d ch j)
    {hx : (oM.access (Rect.unit (s := S2048x1024) off S128x1024.size inb)).Stores Finset.univ}
    {hm : (Finset.univ : Finset (Rect.unit (s := S2048x1024) off S128x1024.size inb).shape.Idx) = Finset.univ
            ∨ ∀ a, (Rect.unit (s := S2048x1024) off S128x1024.size inb).stride a = 1}
    {α : Type} {Q : α → sProp 𝕄} {k : PUnit → Prog (TpuEff nD τ sig (Elt F) Λ₀ .tc) α}
    (v w : Vec F S128x1024 .bf16) :
    iprop(owns (c : Thread nD τ) (sub d ch j) fullShare v ∗ (owns (c : Thread nD τ) (sub d ch j) fullShare w -∗ WP c (k ⟨⟩) Q))
      ⊢ WP c (.op (.store oM (Rect.unit (s := S2048x1024) off S128x1024.size inb) w Finset.univ hx hm) k) Q := by
  subst hoff
  unfold owns
  iintro ⟨⟨%f, %hf, H⟩, Hk⟩
  iapply (wp_store 𝒱₀ (c : Thread nD τ) none Set.univ (m := oM) (r := subR d ch j) (Mk := Finset.univ)
    (S := (sub d ch j).view.set) (Finset.Subset.refl _)) $$ H
  iintro H
  iapply Hk
  iexists _
  isplitr
  · ipureintro; exact View.read_write_univ f w
  · iexact H

theorem read_rb (d : Fin 2) (s : Fin 3) (j : Fin 2) (f : rM.view.ty.Contents (Elt F)) :
    (rM.access (rbR d s j)).read (Elt F) f = slotRead ((rb d s j).view.read (Elt F) f) := by
  funext i
  unfold slotRead
  rw [View.read_apply, View.read_apply]
  simp only [Memref.view_squeeze, Memref.view_slice, View.emb_reshape, Function.Embedding.trans_apply,
    Equiv.coe_toEmbedding, Equiv.apply_symm_apply]

theorem wp_load_rb (c : Dev nD) (d : Fin 2) (s : Fin 3) (j : Fin 2) {off : Fin 5 → ℕ}
    {inb : ∀ a, off a + S1x1x1x128x1024.size a ≤ S2x3x2x128x1024.size a} (hoff : off = rbOff d s j)
    {hl : rM.view.LoadsAt (Rect.unit (s := S2x3x2x128x1024) off S1x1x1x128x1024.size inb).toLoadRect}
    {α : Type} {Q : α → sProp 𝕄} {k : Vec F S1x1x1x128x1024 .bf16 → Prog (TpuEff nD τ sig (Elt F) Λ₀ .tc) α}
    (q : PosShare TreeShare) (v : Vec F S128x1024 .bf16) :
    iprop(owns (c : Thread nD τ) (rb d s j) q v ∗ (owns (c : Thread nD τ) (rb d s j) q v -∗ WP c (k (slotRead v)) Q))
      ⊢ WP c (.op (.load rM (Rect.unit (s := S2x3x2x128x1024) off S1x1x1x128x1024.size inb).toLoadRect hl) k) Q := by
  subst hoff
  unfold owns
  iintro ⟨⟨%f, %hf, H⟩, Hk⟩
  subst hf
  iapply (wp_load_rect 𝒱₀ (c : Thread nD τ) none Set.univ (m := rM) (r := rbR d s j)
    (S := (rb d s j).view.set)
    (View.set_reshape (rM.view.slice (rbR d s j)) squeezes_S1x1x1x128x1024_S128x1024.numel_eq).ge) $$ H
  iintro H
  rw [read_rb]
  iapply Hk
  iexists f
  isplitr
  · ipureintro; rfl
  · iexact H

theorem wp_load_x (c : Dev nD) (d : Fin 2) (ch : Fin 4) {off : Fin 3 → ℕ}
    {inb : ∀ a, off a + S1x256x1024.size a ≤ S1x2048x1024.size a} (hoff : off = xOff d ch)
    {hl : xM.view.LoadsAt (Rect.unit (s := S1x2048x1024) off S1x256x1024.size inb).toLoadRect}
    {α : Type} {Q : α → sProp 𝕄} {k : Vec F S1x256x1024 .f32 → Prog (TpuEff nD τ sig (Elt F) Λ₀ .tc) α}
    (q : PosShare TreeShare) (f : (cc0_stg0_0 : Ref sig .tc).ty.Contents (Elt F)) :
    iprop((((c : Thread nD τ).loc cc0_stg0_0) ↦{q} f)
        ∗ ((((c : Thread nD τ).loc cc0_stg0_0) ↦{q} f) -∗ WP c (k (xM.view.readAt (Elt F) (xR d ch).toLoadRect f)) Q))
      ⊢ WP c (.op (.load xM (Rect.unit (s := S1x2048x1024) off S1x256x1024.size inb).toLoadRect hl) k) Q := by
  subst hoff
  iintro ⟨H, Hk⟩
  iapply (wp_load 𝒱₀ (c : Thread nD τ) none Set.univ (m := xM) (r := (xR d ch).toLoadRect) (S := Finset.univ)
    (Finset.subset_univ _)) $$ H
  iintro H
  iapply Hk
  iexact H

theorem sub_set_disjoint (d : Fin 2) (ch : Fin 4) : Disjoint (sub d ch 0).view.set (sub d ch 1).view.set := by
  change Disjoint (oM.view.slice (subR d ch 0)).set (oM.view.slice (subR d ch 1)).set
  rw [View.set_slice, View.set_slice]
  exact (Finset.disjoint_map _).mpr (Rect.unit_disjoint 0 (Or.inl (by revert d ch; decide)))

theorem oR256_set (d : Fin 2) (ch : Fin 4) : (oR256 d ch).set = (subR d ch 0).set ∪ (subR d ch 1).set := by
  ext x
  simp only [Finset.mem_union, Rect.mem_set_unit]
  have e0 : ∀ j : Fin 2, subOff d ch j 0 = oOff256 d ch 0 + 128 * j.val := fun j => by
    simp [subOff, oOff256] <;> omega
  have e1 : ∀ j : Fin 2, subOff d ch j 1 = 0 := fun j => rfl
  have e1' : oOff256 d ch 1 = 0 := rfl
  have s0 : S128x1024.size 0 = 128 := rfl
  have s1 : S128x1024.size 1 = 1024 := rfl
  have t0 : S256x1024.size 0 = 256 := rfl
  have t1 : S256x1024.size 1 = 1024 := rfl
  rw [show (∀ a : Fin S2048x1024.rank, oOff256 d ch a ≤ x a ∧ (x a : ℕ) < oOff256 d ch a + S256x1024.size a)
        ↔ (oOff256 d ch 0 ≤ x 0 ∧ (x 0 : ℕ) < oOff256 d ch 0 + S256x1024.size 0)
          ∧ (oOff256 d ch 1 ≤ x 1 ∧ (x 1 : ℕ) < oOff256 d ch 1 + S256x1024.size 1) from Fin.forall_fin_two,
    show (∀ a : Fin S2048x1024.rank, subOff d ch 0 a ≤ x a ∧ (x a : ℕ) < subOff d ch 0 a + S128x1024.size a)
        ↔ (subOff d ch 0 0 ≤ x 0 ∧ (x 0 : ℕ) < subOff d ch 0 0 + S128x1024.size 0)
          ∧ (subOff d ch 0 1 ≤ x 1 ∧ (x 1 : ℕ) < subOff d ch 0 1 + S128x1024.size 1) from Fin.forall_fin_two,
    show (∀ a : Fin S2048x1024.rank, subOff d ch 1 a ≤ x a ∧ (x a : ℕ) < subOff d ch 1 a + S128x1024.size a)
        ↔ (subOff d ch 1 0 ≤ x 0 ∧ (x 0 : ℕ) < subOff d ch 1 0 + S128x1024.size 0)
          ∧ (subOff d ch 1 1 ≤ x 1 ∧ (x 1 : ℕ) < subOff d ch 1 1 + S128x1024.size 1) from Fin.forall_fin_two]
  rw [e0 0, e0 1, e1 0, e1 1, e1', s0, s1, t0, t1]
  simp only [Fin.val_zero, Fin.val_one]
  omega

theorem access256_set (d : Fin 2) (ch : Fin 4) :
    (oM.access (oR256 d ch)).set = (sub d ch 0).view.set ∪ (sub d ch 1).view.set := by
  change (oM.view.slice (oR256 d ch)).set = (oM.view.slice (subR d ch 0)).set ∪ (oM.view.slice (subR d ch 1)).set
  rw [View.set_slice, View.set_slice, View.set_slice, oR256_set, Finset.map_union]

theorem subR_emb (d : Fin 2) (ch : Fin 4) (j : Fin 2) (i : S128x1024.Idx) :
    (subR d ch j).emb i = (oR256 d ch).emb ((halfR j).emb i) := by
  funext a
  apply Fin.ext
  simp only [Rect.emb_apply, Rect.off_unit, Rect.stride_unit, Nat.one_mul]
  revert a
  rw [show (∀ a : Fin S2048x1024.rank, subOff d ch j a + (i a : ℕ) = oOff256 d ch a + (halfOff j a + (i a : ℕ)))
        ↔ (subOff d ch j 0 + (i 0 : ℕ) = oOff256 d ch 0 + (halfOff j 0 + (i 0 : ℕ)))
          ∧ (subOff d ch j 1 + (i 1 : ℕ) = oOff256 d ch 1 + (halfOff j 1 + (i 1 : ℕ))) from Fin.forall_fin_two]
  constructor
  · simp [subOff, oOff256, halfOff] <;> omega
  · simp [subOff, oOff256, halfOff]

theorem read_sub_write256 (d : Fin 2) (ch : Fin 4) (j : Fin 2) (f : oM.view.ty.Contents (Elt F)) (w : Vec F S256x1024 .bf16) :
    (sub d ch j).view.read (Elt F) ((oM.access (oR256 d ch)).write (Elt F) f w Finset.univ) = fun i => w ((halfR j).emb i) := by
  funext i
  have he : (sub d ch j).view.emb i = (oM.access (oR256 d ch)).emb ((halfR j).emb i) := by
    show oM.view.emb ((subR d ch j).emb i) = oM.view.emb ((oR256 d ch).emb ((halfR j).emb i))
    rw [subR_emb]
  rw [View.read_apply, he, View.write_emb_of_mem _ _ (Finset.mem_univ _), cast_cast, cast_eq]

theorem wp_load_256 (c : Dev nD) (d : Fin 2) (ch : Fin 4) {off : Fin 2 → ℕ}
    {inb : ∀ a, off a + S256x1024.size a ≤ S2048x1024.size a} (hoff : off = oOff256 d ch)
    {hl : oM.view.LoadsAt (Rect.unit (s := S2048x1024) off S256x1024.size inb).toLoadRect}
    {α : Type} {Q : α → sProp 𝕄} {k : Vec F S256x1024 .bf16 → Prog (TpuEff nD τ sig (Elt F) Λ₀ .tc) α}
    (v0 v1 : Vec F S128x1024 .bf16) :
    iprop(owns (c : Thread nD τ) (sub d ch 0) fullShare v0 ∗ owns (c : Thread nD τ) (sub d ch 1) fullShare v1
        ∗ (∀ u, (owns (c : Thread nD τ) (sub d ch 0) fullShare v0 ∗ owns (c : Thread nD τ) (sub d ch 1) fullShare v1) -∗ WP c (k u) Q))
      ⊢ WP c (.op (.load oM (Rect.unit (s := S2048x1024) off S256x1024.size inb).toLoadRect hl) k) Q := by
  subst hoff
  unfold owns
  iintro ⟨⟨%f0, %h0, H0⟩, ⟨%f1, %h1, H1⟩, Hk⟩
  ihave H := (pointsTo_join (ℓ := oM.view.loc (c : Thread nD τ)) (I := (sub d ch 0).view.set) (J := (sub d ch 1).view.set)
    (q := fullShare) (f := f0) (g := f1) (sub_set_disjoint d ch)) $$ [H0 H1]
  · isplitl [H0]
    · iexact H0
    · iexact H1
  iapply (wp_load_rect 𝒱₀ (c : Thread nD τ) none Set.univ (m := oM) (r := oR256 d ch)
    (S := (sub d ch 0).view.set ∪ (sub d ch 1).view.set) (access256_set d ch).subset) $$ H
  iintro H
  ihave H' := (pointsTo_union (ℓ := oM.view.loc (c : Thread nD τ)) (I := (sub d ch 0).view.set) (J := (sub d ch 1).view.set)
    (sub_set_disjoint d ch)).1 $$ H
  icases H' with ⟨H0, H1⟩
  iapply Hk
  isplitl [H0]
  · iexists _
    isplitr
    rotate_left
    · iexact H0
    · ipureintro
      refine Eq.trans (View.read_congr fun i hi => ?_) h0
      exact Finset.piecewise_eq_of_notMem _ _ _ (Finset.disjoint_left.mp (sub_set_disjoint d ch) hi)
  · iexists _
    isplitr
    rotate_left
    · iexact H1
    · ipureintro
      refine Eq.trans (View.read_congr fun i hi => ?_) h1
      exact Finset.piecewise_eq_of_mem _ _ _ hi

theorem wp_store_256 (c : Dev nD) (d : Fin 2) (ch : Fin 4) {off : Fin 2 → ℕ}
    {inb : ∀ a, off a + S256x1024.size a ≤ S2048x1024.size a} (hoff : off = oOff256 d ch)
    {hx : (oM.access (Rect.unit (s := S2048x1024) off S256x1024.size inb)).Stores Finset.univ}
    {hm : (Finset.univ : Finset (Rect.unit (s := S2048x1024) off S256x1024.size inb).shape.Idx) = Finset.univ
            ∨ ∀ a, (Rect.unit (s := S2048x1024) off S256x1024.size inb).stride a = 1}
    {α : Type} {Q : α → sProp 𝕄} {k : PUnit → Prog (TpuEff nD τ sig (Elt F) Λ₀ .tc) α}
    (v0 v1 : Vec F S128x1024 .bf16) (w : Vec F S256x1024 .bf16) :
    iprop(owns (c : Thread nD τ) (sub d ch 0) fullShare v0 ∗ owns (c : Thread nD τ) (sub d ch 1) fullShare v1
        ∗ ((owns (c : Thread nD τ) (sub d ch 0) fullShare (fun i => w ((halfR 0).emb i))
              ∗ owns (c : Thread nD τ) (sub d ch 1) fullShare (fun i => w ((halfR 1).emb i))) -∗ WP c (k ⟨⟩) Q))
      ⊢ WP c (.op (.store oM (Rect.unit (s := S2048x1024) off S256x1024.size inb) w Finset.univ hx hm) k) Q := by
  subst hoff
  unfold owns
  iintro ⟨⟨%f0, %h0, H0⟩, ⟨%f1, %h1, H1⟩, Hk⟩
  ihave H := (pointsTo_join (ℓ := oM.view.loc (c : Thread nD τ)) (I := (sub d ch 0).view.set) (J := (sub d ch 1).view.set)
    (q := fullShare) (f := f0) (g := f1) (sub_set_disjoint d ch)) $$ [H0 H1]
  · isplitl [H0]
    · iexact H0
    · iexact H1
  iapply (wp_store 𝒱₀ (c : Thread nD τ) none Set.univ (m := oM) (r := oR256 d ch) (Mk := Finset.univ)
    (S := (sub d ch 0).view.set ∪ (sub d ch 1).view.set) (access256_set d ch).subset) $$ H
  iintro H
  ihave H' := (pointsTo_union (ℓ := oM.view.loc (c : Thread nD τ)) (I := (sub d ch 0).view.set) (J := (sub d ch 1).view.set)
    (sub_set_disjoint d ch)).1 $$ H
  icases H' with ⟨H0, H1⟩
  iapply Hk
  isplitl [H0]
  · iexists _
    isplitr
    rotate_left
    · iexact H0
    · ipureintro; exact read_sub_write256 d ch 0 _ w
  · iexists _
    isplitr
    rotate_left
    · iexact H1
    · ipureintro; exact read_sub_write256 d ch 1 _ w

theorem elt_nonempty (e : EltTy) : Nonempty (Elt F e) := by
  cases e <;> first | exact ⟨(0 : BitVec _)⟩ | exact ⟨FloatOps.ofBits _ 0⟩

theorem subR_disjoint (t t' : Fin 2 × Fin 4 × Fin 2) (h : t ≠ t') :
    Disjoint (subR t.1 t.2.1 t.2.2).set (subR t'.1 t'.2.1 t'.2.2).set := by
  refine Rect.unit_disjoint 0 ?_
  revert t t'
  decide +kernel

theorem subR_cover :
    (Finset.univ : Finset (Fin 2 × Fin 4 × Fin 2)).biUnion (fun t => (subR t.1 t.2.1 t.2.2).set) = Finset.univ := by
  ext x
  simp only [Finset.mem_biUnion, Finset.mem_univ, true_and, iff_true]
  have hx0 : (x 0 : ℕ) < 2048 := (x 0).isLt
  have hx1 : (x 1 : ℕ) < 1024 := (x 1).isLt
  refine ⟨(⟨(x 0 : ℕ) / 1024, by omega⟩, ⟨((x 0 : ℕ) % 1024) / 256, by omega⟩, ⟨((x 0 : ℕ) % 256) / 128, by omega⟩), ?_⟩
  rw [Rect.mem_set_unit]
  refine Fin.forall_fin_two.mpr ⟨?_, ?_⟩
  · show 1024 * ((x 0 : ℕ) / 1024) + 256 * (((x 0 : ℕ) % 1024) / 256) + 128 * (((x 0 : ℕ) % 256) / 128) ≤ (x 0 : ℕ)
      ∧ (x 0 : ℕ) < 1024 * ((x 0 : ℕ) / 1024) + 256 * (((x 0 : ℕ) % 1024) / 256) + 128 * (((x 0 : ℕ) % 256) / 128) + 128
    omega
  · show 0 ≤ (x 1 : ℕ) ∧ (x 1 : ℕ) < 0 + 1024
    omega

theorem owns_out_split (c : Dev nD) (X : Vec F S2048x1024 .bf16) :
    (owns (c : Thread nD τ) oM fullShare X : sProp 𝕄)
      ⊢ bigSep Finset.univ fun t : Fin 2 × Fin 4 × Fin 2 =>
          owns (c : Thread nD τ) (sub t.1 t.2.1 t.2.2) fullShare (fun i => X ((subR t.1 t.2.1 t.2.2).emb i)) :=
  owns_rects (c : Thread nD τ) oM fullShare (fun t : Fin 2 × Fin 4 × Fin 2 => subR t.1 t.2.1 t.2.2) (fun _ _ => rfl)
    subR_disjoint subR_cover X

theorem owns_out_join (c : Dev nD) (X : Vec F S2048x1024 .bf16) :
    (bigSep Finset.univ fun t : Fin 2 × Fin 4 × Fin 2 =>
        owns (c : Thread nD τ) (sub t.1 t.2.1 t.2.2) fullShare (fun i => X ((subR t.1 t.2.1 t.2.2).emb i)))
      ⊢ (owns (c : Thread nD τ) oM fullShare X : sProp 𝕄) :=
  haveI : ∀ e, Nonempty (Elt F e) := elt_nonempty
  owns_of_rects (c : Thread nD τ) oM fullShare (fun t : Fin 2 × Fin 4 × Fin 2 => subR t.1 t.2.1 t.2.2) (fun _ _ => rfl)
    subR_disjoint subR_cover X

theorem rbR_disjoint (t t' : Fin 2 × Fin 3 × Fin 2) (h : t ≠ t') :
    Disjoint (rbR t.1 t.2.1 t.2.2).set (rbR t'.1 t'.2.1 t'.2.2).set := by
  have hsep : ∃ a : Fin 5, rbOff t.1 t.2.1 t.2.2 a + S1x1x1x128x1024.size a ≤ rbOff t'.1 t'.2.1 t'.2.2 a
      ∨ rbOff t'.1 t'.2.1 t'.2.2 a + S1x1x1x128x1024.size a ≤ rbOff t.1 t.2.1 t.2.2 a := by
    revert t t'
    decide +kernel
  obtain ⟨a, ha⟩ := hsep
  exact Rect.unit_disjoint a ha

theorem rbR_cover :
    (Finset.univ : Finset (Fin 2 × Fin 3 × Fin 2)).biUnion (fun t => (rbR t.1 t.2.1 t.2.2).set) = Finset.univ := by
  ext x
  simp only [Finset.mem_biUnion, Finset.mem_univ, true_and, iff_true]
  have hx3 : (x 3 : ℕ) < 128 := (x 3).isLt
  have hx4 : (x 4 : ℕ) < 1024 := (x 4).isLt
  refine ⟨(⟨(x 0 : ℕ), (x 0).isLt⟩, ⟨(x 1 : ℕ), (x 1).isLt⟩, ⟨(x 2 : ℕ), (x 2).isLt⟩), ?_⟩
  rw [Rect.mem_set_unit]
  refine Fin.forall_fin_succ.mpr ⟨?_, Fin.forall_fin_succ.mpr ⟨?_, Fin.forall_fin_succ.mpr ⟨?_, Fin.forall_fin_two.mpr ⟨?_, ?_⟩⟩⟩⟩
  · show (x 0 : ℕ) ≤ (x 0 : ℕ) ∧ (x 0 : ℕ) < (x 0 : ℕ) + 1
    omega
  · show (x 1 : ℕ) ≤ (x 1 : ℕ) ∧ (x 1 : ℕ) < (x 1 : ℕ) + 1
    omega
  · show (x 2 : ℕ) ≤ (x 2 : ℕ) ∧ (x 2 : ℕ) < (x 2 : ℕ) + 1
    omega
  · show 0 ≤ (x 3 : ℕ) ∧ (x 3 : ℕ) < 0 + 128
    omega
  · show 0 ≤ (x 4 : ℕ) ∧ (x 4 : ℕ) < 0 + 1024
    omega

theorem owns_rb (c : Dev nD) (d : Fin 2) (s : Fin 3) (j : Fin 2) (q : PosShare TreeShare) (v : Vec F S128x1024 .bf16) :
    (owns (c : Thread nD τ) (rb d s j) q v : sProp 𝕄)
      = owns (c : Thread nD τ) (rM.slice (rbR d s j) (fun _ => rfl)) q (slotRead v) := by
  have hset : (rb d s j).view.set = (rM.view.slice (rbR d s j)).set :=
    View.set_reshape (rM.view.slice (rbR d s j)) squeezes_S1x1x1x128x1024_S128x1024.numel_eq
  have hpt (f : rM.view.ty.Contents (Elt F)) :
      ((rM.view.loc (c : Thread nD τ)) ↦[(rb d s j).view.set]{q} f : sProp 𝕄)
        = (rM.view.loc (c : Thread nD τ)) ↦[(rM.view.slice (rbR d s j)).set]{q} f :=
    congrArg (fun S => ((rM.view.loc (c : Thread nD τ)) ↦[S]{q} f : sProp 𝕄)) hset
  have h₁ : (owns (c : Thread nD τ) (rb d s j) q v : sProp 𝕄)
      ⊢ owns (c : Thread nD τ) (rM.slice (rbR d s j) (fun _ => rfl)) q (slotRead v) := by
    unfold owns
    iintro ⟨%f, %hf, H⟩
    iexists f
    isplitr
    · ipureintro
      rw [← hf]
      exact read_rb d s j f
    · iapply (Entails.of_eq (hpt f))
      iexact H
  have h₂ : (owns (c : Thread nD τ) (rM.slice (rbR d s j) (fun _ => rfl)) q (slotRead v) : sProp 𝕄)
      ⊢ owns (c : Thread nD τ) (rb d s j) q v := by
    unfold owns
    iintro ⟨%f, %hf, H⟩
    iexists f
    isplitr
    · ipureintro
      funext x
      have h := congrFun ((read_rb d s j f).symm.trans hf) (Shape.reshapeEquiv squeezes_S1x1x1x128x1024_S128x1024.numel_eq x)
      simpa only [slotRead, Equiv.symm_apply_apply] using h
    · iapply (Entails.of_eq (hpt f).symm)
      iexact H
  exact BI.equiv_iff.mp ⟨h₁, h₂⟩

def slotOf (X : Vec F S2x3x2x128x1024 .bf16) (t : Fin 2 × Fin 3 × Fin 2) : Vec F S128x1024 .bf16 :=
  fun i => X ((rbR t.1 t.2.1 t.2.2).emb (Shape.reshapeEquiv squeezes_S1x1x1x128x1024_S128x1024.numel_eq i))

theorem slotRead_slotOf (X : Vec F S2x3x2x128x1024 .bf16) (t : Fin 2 × Fin 3 × Fin 2) :
    slotRead (slotOf X t) = fun i => X ((rbR t.1 t.2.1 t.2.2).emb i) := by
  funext i
  simp only [slotRead, slotOf, Equiv.apply_symm_apply]

theorem owns_rbuf_split (c : Dev nD) (X : Vec F S2x3x2x128x1024 .bf16) :
    (owns (c : Thread nD τ) rM fullShare X : sProp 𝕄)
      ⊢ bigSep Finset.univ fun t : Fin 2 × Fin 3 × Fin 2 => owns (c : Thread nD τ) (rb t.1 t.2.1 t.2.2) fullShare (slotOf X t) := by
  rw [bigSep_congr (fun t _ => by rw [owns_rb, slotRead_slotOf])]
  exact owns_rects (c : Thread nD τ) rM fullShare (fun t : Fin 2 × Fin 3 × Fin 2 => rbR t.1 t.2.1 t.2.2) (fun _ _ => rfl)
    rbR_disjoint rbR_cover X

end Cert.KernelProof

end
-- ==== Proof.KernelFinish.lean ====
import proofs.«900326_g7700000000000327_dist_treered_v7x_i4_m2048_n1024_bf16_1_alg».proof.Proof.KernelSteps
import proofs.«900326_g7700000000000327_dist_treered_v7x_i4_m2048_n1024_bf16_1_alg».proof.Proof.KernelGhost
import Idealize.ShloMosaic.Lib.Rounds
import Idealize.ShloMosaic.Lib.Memref

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem close_cell (κ : ℕ) (g : GSem nD τ sig) :
    iprop(cellInv ER (ringRd m ρ) κ g ∗ atPos ER g 1 ∅ 0) ⊢ (iprop(|={Set.univ}=> semVal g 0) : sProp 𝕄) :=
  Rounds.cell_close ER (ringRd m ρ) (Set.mem_univ κ) (fun h => h) (R := 1) (duties_later m ρ g)

def lateEquiv (c : Dev nD) : (Fin 2 × Fin 4 × Fin 2) ≃ (Fin 2 × Fin 4 × Fin 2) where
  toFun t := (t.1, chk t.1 c (3 + t.2.1.val), t.2.2)
  invFun t := (t.1, ⟨(stepOf t.1 c t.2.1 - 3) % 4, Nat.mod_lt _ (by decide)⟩, t.2.2)
  left_inv := by revert c; decide
  right_inv := by revert c; decide

theorem out_join (c : Dev nD) :
    (bigSep Finset.univ fun t : Fin 2 × Fin 4 × Fin 2 => srcBlk m ρ c t.1 (3 + t.2.1.val) t.2.2 : sProp 𝕄)
      ⊢ (((c : Thread nD τ).loc cc0_stg1_0) ↦{fullShare} outFinal m ρ c) := by
  have hwhole : (owns (c : Thread nD τ) oM fullShare (outFinal m ρ c) : sProp 𝕄)
      = (((c : Thread nD τ).loc cc0_stg1_0) ↦{fullShare} outFinal m ρ c) :=
    owns_whole (c : Thread nD τ) cc0_stg1_0 fullShare (outFinal m ρ c)

  let G : Fin 2 × Fin 4 × Fin 2 → sProp 𝕄 := fun t =>
    owns (c : Thread nD τ) (sub t.1 t.2.1 t.2.2) fullShare (fun i => outFinal m ρ c ((subR t.1 t.2.1 t.2.2).emb i))
  have hstep : ∀ t : Fin 2 × Fin 4 × Fin 2, srcBlk m ρ c t.1 (3 + t.2.1.val) t.2.2 = G (lateEquiv c t) := fun t =>
    congrArg (owns (c : Thread nD τ) (sub t.1 (chk t.1 c (3 + t.2.1.val)) t.2.2) fullShare)
      (outFinal_step m ρ c t.1 t.2.1 t.2.2).symm
  refine (bigSep_mono fun t _ => Entails.of_eq (hstep t)).trans ?_
  rw [← bigSep_univ_equiv (lateEquiv c) G]
  exact (owns_out_join c (outFinal m ρ c)).trans (Entails.of_eq hwhole)

theorem slot_elements (c : Dev nD) (d : Fin 2) (s : Fin 3) (j : Fin 2) :
    (iprop(∃ v, slot (F := F) c d s j v) : sProp 𝕄)
      ⊢ iprop(∃ f : rM.view.ty.Contents (Elt F), (rM.view.loc (c : Thread nD τ)) ↦[(rM.view.slice (rbR d s j)).set]{fullShare} f) := by
  have hset : (rb d s j).view.set = (rM.view.slice (rbR d s j)).set :=
    View.set_reshape (rM.view.slice (rbR d s j)) squeezes_S1x1x1x128x1024_S128x1024.numel_eq
  have hpt (f : rM.view.ty.Contents (Elt F)) :
      ((rM.view.loc (c : Thread nD τ)) ↦[(rb d s j).view.set]{fullShare} f : sProp 𝕄)
        = (rM.view.loc (c : Thread nD τ)) ↦[(rM.view.slice (rbR d s j)).set]{fullShare} f :=
    congrArg (fun S => ((rM.view.loc (c : Thread nD τ)) ↦[S]{fullShare} f : sProp 𝕄)) hset
  unfold slot
  iintro ⟨%v, H⟩
  ihave H' := (show ownsTc c (rb d s j) fullShare v
      ⊢ iprop(∃ f, ⌜(rb d s j).view.read (Elt F) f = v⌝ ∗ ((rb d s j).view.loc (c : Thread nD τ) ↦[(rb d s j).view.set]{fullShare} f)) from .rfl) $$ H
  icases H' with ⟨%f, %hf, H⟩
  iexists f
  iapply (Entails.of_eq (hpt f))
  iexact H

theorem rbuf_join (c : Dev nD) :
    (bigSep Finset.univ fun t : Fin 2 × Fin 3 × Fin 2 => iprop(∃ v, slot (F := F) c t.1 t.2.1 t.2.2 v) : sProp 𝕄)
      ⊢ iprop(∃ f, scr c f) := by
  classical
  haveI : ∀ e, Nonempty (Elt F e) := elt_nonempty
  have hdisj : ∀ t ∈ (Finset.univ : Finset (Fin 2 × Fin 3 × Fin 2)), ∀ t' ∈ (Finset.univ : Finset (Fin 2 × Fin 3 × Fin 2)), t ≠ t' →
      Disjoint (rM.view.slice (rbR t.1 t.2.1 t.2.2)).set (rM.view.slice (rbR t'.1 t'.2.1 t'.2.2)).set := fun t _ t' _ htt => by
    rw [View.set_slice, View.set_slice]; exact (Finset.disjoint_map _).mpr (rbR_disjoint t t' htt)
  refine (bigSep_mono fun t _ => slot_elements c t.1 t.2.1 t.2.2).trans ?_
  refine (bigSep_exists_pi Finset.univ (fun (t : Fin 2 × Fin 3 × Fin 2) (f : rM.view.ty.Contents (Elt F)) =>
    ((rM.view.loc (c : Thread nD τ)) ↦[(rM.view.slice (rbR t.1 t.2.1 t.2.2)).set]{fullShare} f : sProp 𝕄))).trans ?_
  iintro ⟨%fs, H⟩
  ihave H' := (pointsTo_biUnion_join (ℓ := rM.view.loc (c : Thread nD τ)) (q := fullShare) Finset.univ (fun t : Fin 2 × Fin 3 × Fin 2 => (rM.view.slice (rbR t.1 t.2.1 t.2.2)).set) fs
    (fs (0, 0, 0)) hdisj) $$ H
  icases H' with ⟨%g, %hg, H⟩
  iexists g

  have e₁ : ((rM.view.loc (c : Thread nD τ)) ↦[(Finset.univ : Finset (Fin 2 × Fin 3 × Fin 2)).biUnion fun t => (rM.view.slice (rbR t.1 t.2.1 t.2.2)).set]{fullShare} g : sProp 𝕄)
      = bigSep Finset.univ fun t : Fin 2 × Fin 3 × Fin 2 => (rM.view.loc (c : Thread nD τ)) ↦[(rM.view.slice (rbR t.1 t.2.1 t.2.2)).set]{fullShare} g :=
    pointsTo_biUnion (ℓ := rM.view.loc (c : Thread nD τ)) (q := fullShare) (f := g) Finset.univ (fun t : Fin 2 × Fin 3 × Fin 2 => (rM.view.slice (rbR t.1 t.2.1 t.2.2)).set) hdisj
  have e₂ : ((rM.view.loc (c : Thread nD τ)) ↦[rM.view.set]{fullShare} g : sProp 𝕄)
      = bigSep Finset.univ fun t : Fin 2 × Fin 3 × Fin 2 => (rM.view.loc (c : Thread nD τ)) ↦[(rM.view.slice (rbR t.1 t.2.1 t.2.2)).set]{fullShare} g :=
    (pointsTo_rects (c : Thread nD τ) rM fullShare (fun t : Fin 2 × Fin 3 × Fin 2 => rbR t.1 t.2.1 t.2.2) (fun _ _ => rfl)
      rbR_disjoint rbR_cover g).trans
      (bigSep_congr (fun t _ => owns_slice_read (c : Thread nD τ) rM fullShare (rbR t.1 t.2.1 t.2.2) (fun _ => rfl) g))
  unfold scr
  have e₃ : ((rM.view.loc (c : Thread nD τ)) ↦[rM.view.set]{fullShare} g : sProp 𝕄)
      = (((c : Thread nD τ).loc cc0_scratch0) ↦{fullShare} g) := by
    simp only [Memref.view_whole, View.set_whole]
  iapply (Entails.of_eq e₃)
  iapply (Entails.of_eq e₂.symm)
  iapply (Entails.of_eq e₁)
  iexact H

theorem own_zero (K : Dev nD × CellIx → ℕ) (c : Dev nD) :
    iprop(records m ρ K ∗ bigSep Finset.univ fun t : Lane =>
        iprop(atPos ER (sendCell c t.1 t.2.1 t.2.2) 1 ∅ 0 ∗ atPos ER (recvCell c t.1 t.2.1 t.2.2) 1 ∅ 0))
      ⊢ (iprop(|={Set.univ}=> ownZero (F := F) c) : sProp 𝕄) := by
  unfold ownZero
  refine (bigSep_with_persistent (R := records m ρ K)
    (Ψ := fun t : Lane => iprop(|={Set.univ}=> (semVal (sendCell c t.1 t.2.1 t.2.2) 0 ∗ semVal (recvCell c t.1 t.2.1 t.2.2) 0)))
    fun t _ => ?_).trans (bigSep_fupd Finset.univ _)
  have hs : (bigSep Finset.univ fun ck : Dev nD × CellIx => cellInv ER (ringRd m ρ) (K ck) (kcell ck) : sProp 𝕄)
      ⊢ cellInv ER (ringRd m ρ) (K (c, some (false, t))) (sendCell c t.1 t.2.1 t.2.2) :=
    bigSep_elim (i := (c, some (false, t))) (Finset.mem_univ _)
  have hr : (bigSep Finset.univ fun ck : Dev nD × CellIx => cellInv ER (ringRd m ρ) (K ck) (kcell ck) : sProp 𝕄)
      ⊢ cellInv ER (ringRd m ρ) (K (c, some (true, t))) (recvCell c t.1 t.2.1 t.2.2) :=
    bigSep_elim (i := (c, some (true, t))) (Finset.mem_univ _)
  unfold records
  iintro ⟨⟨#HI, -⟩, Hs, Hr⟩
  imod (close_cell m ρ (K (c, some (false, t))) (sendCell c t.1 t.2.1 t.2.2)) $$ [Hs] with Hzs
  · isplitr; · iapply hs; iexact HI
    iexact Hs
  imod (close_cell m ρ (K (c, some (true, t))) (recvCell c t.1 t.2.1 t.2.2)) $$ [Hr] with Hzr
  · isplitr; · iapply hr; iexact HI
    iexact Hr
  imodintro
  isplitl [Hzs]; · iexact Hzs
  iexact Hzr

end Cert.KernelProof

end
-- ==== Proof.KernelGather.lean ====
import proofs.«900326_g7700000000000327_dist_treered_v7x_i4_m2048_n1024_bf16_1_alg».proof.Proof.KernelSteps
import proofs.«900326_g7700000000000327_dist_treered_v7x_i4_m2048_n1024_bf16_1_alg».proof.Proof.KernelOffs
import proofs.«900326_g7700000000000327_dist_treered_v7x_i4_m2048_n1024_bf16_1_alg».proof.Proof.KernelLevels

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem chk_dn_1_4 : ∀ (d : Fin 2) (c : Dev nD), chk d (dn d c) 1 = chk d c 4 := by decide
theorem chk_dn_5_4 : ∀ (d : Fin 2) (c : Dev nD), chk d (dn d c) 5 = chk d c 4 := by decide

theorem chk_dn_2_5 : ∀ (d : Fin 2) (c : Dev nD), chk d (dn d c) 2 = chk d c 5 := by decide
theorem chk_dn_6_5 : ∀ (d : Fin 2) (c : Dev nD), chk d (dn d c) 6 = chk d c 5 := by decide

theorem recvPay_three (c : Dev nD) (d j : Fin 2) :
    recvPay m ρ c d 3 j
      = iprop(srcBlk m ρ c d 4 j ∗ srcBlk m ρ (up d (up d c)) d 2 j ∗ srcBlk m ρ (up d (up d (up d c))) d 1 j) := rfl
theorem recvPay_four (c : Dev nD) (d j : Fin 2) :
    recvPay m ρ c d 4 j = iprop(srcBlk m ρ c d 5 j ∗ srcBlk m ρ (up d (up d (up d c))) d 2 j) := rfl
theorem recvPay_five (c : Dev nD) (d j : Fin 2) : recvPay m ρ c d 5 j = srcBlk m ρ c d 6 j := rfl

theorem srcBlk_dst4 (c : Dev nD) (d j : Fin 2) :
    srcBlk m ρ (up d (up d (up d c))) d 1 j
      = ownsTc (dn d c) (sub d (chk d c 4) j) fullShare (val m ρ 1 (dn d c) d j) := by
  unfold srcBlk; rw [up_up_up, chk_dn_1_4]

theorem srcBlk_dst5 (c : Dev nD) (d j : Fin 2) :
    srcBlk m ρ (up d (up d (up d c))) d 2 j
      = ownsTc (dn d c) (sub d (chk d c 5) j) fullShare (val m ρ 2 (dn d c) d j) := by
  unfold srcBlk; rw [up_up_up, chk_dn_2_5]

theorem recvPay_of_fwd4 (c : Dev nD) (d j : Fin 2) :
    iprop(ownsTc (dn d c) (sub d (chk d c 4) j) fullShare (val m ρ 4 c d j) ∗ srcBlk m ρ (up d (up d c)) d 2 j)
      ⊢ recvPay m ρ (dn d c) d 4 j := by
  rw [recvPay_four]
  unfold srcBlk
  have h : val m ρ 5 (dn d c) d j = val m ρ 4 (up d (dn d c)) d j := val_fwd m ρ 4 (by decide) (dn d c) d j
  rw [h, chk_dn_5_4, up_dn]

theorem recvPay_of_fwd5 (c : Dev nD) (d j : Fin 2) :
    iprop(ownsTc (dn d c) (sub d (chk d c 5) j) fullShare (val m ρ 5 c d j) ∗ emp) ⊢ recvPay m ρ (dn d c) d 5 j := by
  rw [recvPay_five]
  unfold srcBlk
  have h : val m ρ 6 (dn d c) d j = val m ρ 5 (up d (dn d c)) d j := val_fwd m ρ 5 (by decide) (dn d c) d j
  rw [h, chk_dn_6_5, up_dn]
  exact Laws.sep_emp.1

theorem sendPay_of_fwd4 (c : Dev nD) (d j : Fin 2) :
    ownsTc c (sub d (chk d c 4) j) fullShare (val m ρ 4 c d j) ⊢ sendPay m ρ c d 4 j := by
  unfold sendPay srcBlk; rw [if_neg (by decide)]; exact .rfl
theorem sendPay_of_fwd5 (c : Dev nD) (d j : Fin 2) :
    ownsTc c (sub d (chk d c 5) j) fullShare (val m ρ 5 c d j) ⊢ sendPay m ρ c d 5 j := by
  unfold sendPay srcBlk; rw [if_neg (by decide)]; exact .rfl

theorem credit_rows (off : Fin 2 → ℕ) (inb : ∀ a, off a + S128x1024.size a ≤ S2048x1024.size a) :
    (oM.slice (Rect.unit (s := S2048x1024) off S128x1024.size inb) (fun _ => rfl)).view.dmaCredit = N := rfl

theorem chk_dn_zero (d : Fin 2) (c : Dev nD) : chk d (dn d c) 0 = chk d c 3 := by revert d c; decide

/-- Own rows plus what arrived at step 2 is the value sent at step 3: the finished sum. -/
theorem acc3 (c : Dev nD) (d j : Fin 2) :
    acc (xb m ρ c d (chk d c 3) j) (val m ρ 2 (up d c) d j) = val m ρ 3 c d j :=
  (val_acc m ρ 2 (by decide) c d j).symm

theorem src_of_sum (c : Dev nD) (d j : Fin 2) :
    (ownsTc c (sub d (chk d c 3) j) fullShare (acc (xb m ρ c d (chk d c 3) j) (val m ρ 2 (up d c) d j)) : sProp 𝕄)
      ⊢ ownsTc c (sub d (chk d c 3) j) fullShare (val m ρ 3 c d j) := by
  rw [acc3]

theorem srcBlk_of_sum (c : Dev nD) (d j : Fin 2) :
    ownsTc c (sub d (chk d c 3) j) fullShare (acc (xb m ρ c d (chk d c 3) j) (val m ρ 2 (up d c) d j)) ⊢ srcBlk m ρ c d 3 j :=
  src_of_sum m ρ c d j

/-- After three hops a block is the downstream device's step-0 block: the rows the step-3 transfer writes. -/
theorem dst_of_blk0 (c : Dev nD) (d j : Fin 2) :
    srcBlk m ρ (up d (up d (up d c))) d 0 j ⊢ ownsTc (dn d c) (sub d (chk d c 3) j) fullShare (val m ρ 0 (dn d c) d j) := by
  unfold srcBlk
  rw [up_up_up, chk_dn_zero]

/-- What the step-3 landing hands downstream: the finished sum in place and the two blocks still travelling. -/
theorem recvPay3_intro (c : Dev nD) (d j : Fin 2) :
    iprop(ownsTc (dn d c) (sub d (chk d c 3) j) fullShare (val m ρ 3 c d j)
        ∗ (srcBlk m ρ (up d c) d 2 j ∗ srcBlk m ρ (up d (up d c)) d 1 j)) ⊢ recvPay m ρ (dn d c) d 3 j := by
  have e : srcBlk m ρ (dn d c) d 4 j = ownsTc (dn d c) (sub d (chk d c 3) j) fullShare (val m ρ 3 c d j) := by
    unfold srcBlk
    rw [show chk d (dn d c) 4 = chk d c 3 from chk_dn d c 3,
      show val m ρ 4 (dn d c) d j = val m ρ 3 c d j from (val_fwd m ρ 3 (by decide) (dn d c) d j).trans (by rw [up_dn])]
  show iprop(ownsTc (dn d c) (sub d (chk d c 3) j) fullShare (val m ρ 3 c d j)
        ∗ (srcBlk m ρ (up d c) d 2 j ∗ srcBlk m ρ (up d (up d c)) d 1 j))
      ⊢ iprop(srcBlk m ρ (dn d c) d 4 j ∗ srcBlk m ρ (up d (up d (dn d c))) d 2 j ∗ srcBlk m ρ (up d (up d (up d (dn d c)))) d 1 j)
  rw [up_dn, e]

theorem sendPay3_intro (c : Dev nD) (d j : Fin 2) :
    ownsTc c (sub d (chk d c 3) j) fullShare (val m ρ 3 c d j) ⊢ sendPay m ρ c d 3 j := by
  unfold sendPay; rw [if_neg (by decide)]; exact .rfl

theorem src_blk3 (c : Dev nD) (d j : Fin 2) :
    srcBlk m ρ c d 3 j ⊢ ownsTc c (sub d (chk d c 3) j) fullShare (val m ρ 3 c d j) := .rfl

end Cert.KernelProof

end
-- ==== Proof.KernelPart01.lean ====
import proofs.«900326_g7700000000000327_dist_treered_v7x_i4_m2048_n1024_bf16_1_alg».proof.Proof.KernelGather

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part01 (c : Dev nD) (κb κn κp : ℕ) (W : Waits sig Unit)
    {Φ : (Σ' (d0 : Dev nD) (v2 : BitVec 32) (v13 : BitVec 32) (v24 : BitVec 32), BitVec 32) → sProp 𝕄} :
    iprop(cellInv ER (ringRd m ρ) κb (barCell c) ∗ cellInv ER (ringRd m ρ) κn (barCell (nxt c)) ∗ cellInv ER (ringRd m ρ) κp (barCell (prv c))
        ∗ reached ER (barCell (nxt c)) 0 ∗ reached ER (barCell (prv c)) 0 ∗ levAts L lv
        ∗ dutyTok ER (barCell (prv c)) 0 true ∗ dutyTok ER (barCell (nxt c)) 0 false
        ∗ owes (c : Thread nD τ) (O₀ c) W ∗ slots (F := F) c 0 ∗ slots (F := F) c 1
        ∗ cred (tallyAt (barCell c) () 2) ∗ atPos ER (barCell c) 0 ∅ 0
        ∗ (∀ a b e f, (owes (c : Thread nD τ) (owedFrom c 24) (insert (SemLoc.reg barS, ()) W) ∗ atPos ER (barCell c) 1 ∅ 0
              ∗ slots (F := F) (prv c) 1 ∗ slots (F := F) (nxt c) 0) -∗ Φ ⟨c, a, b, e, f⟩))
      ⊢ WP c (atBufs k0_part1) Φ := by
  simp only [atBufs, k0_part1_eq_skeleton]; unfold k0_part1_skel
  simp only [WP, semSignalWord, semWaitWord, Prog.lift, Prog.bind_op, Prog.bind_ret, Prog.pure_eq_ret, wp_deviceId]
  iintro ⟨#HIb, #HIn, #HIp, #HRn, #HRp, #Hlev, Htp, Htn, HO, Hs0, Hs1, Hcr, Hat, Hk⟩
  simp only [dev1_eq c, dev2_eq c]

  iapply (Rounds.wp_signal 𝒱₀ ER (ringRd m ρ) (c : Thread nD τ) none (dst := (prv c : Thread nD τ)) (κ := κp)
      (d := true) (by rw [duties_bar]; exact Finset.mem_univ _) ((amount_bar m ρ (prv c) true).trans (by decide)) () (O₁ c) rfl)
    $$ [HO Htp Hs0]
  · isplitr; · iexact HIp
    isplitl [HO]; · iexact HO
    isplitl [Htp]; · iexact Htp
    isplitl [Hs0]
    · rw [payload_bar]; unfold barPay; rw [if_pos rfl, nxt_prv]; iexact Hs0
    · iexact HRp
  iintro HO

  iapply (Rounds.wp_signal 𝒱₀ ER (ringRd m ρ) (c : Thread nD τ) none (dst := (nxt c : Thread nD τ)) (κ := κn)
      (d := false) (by rw [duties_bar]; exact Finset.mem_univ _) ((amount_bar m ρ (nxt c) false).trans (by decide)) () (owedFrom c 24) rfl)
    $$ [HO Htn Hs1]
  · isplitr; · iexact HIn
    isplitl [HO]; · iexact HO
    isplitl [Htn]; · iexact Htn
    isplitl [Hs1]
    · rw [payload_bar]; unfold barPay; rw [if_neg Bool.false_ne_true, prv_nxt]; iexact Hs1
    · iexact HRn
  iintro HO

  iapply (Rounds.wp_wait_rest_token 𝒱₀ ER (ringRd m ρ) (c : Thread nD τ) none (κ := κb)
      (wpE_semWait_eq 𝒱₀ (c : Thread nD τ) none Set.univ) (Set.mem_univ _) () (O := owedFrom c 24) (W := W) (R := 0) (m := 0) (T := ∅)
      (by rw [expect_bar]; decide)) $$ [Hcr HO Hat]
  · isplitr; · iexact HIb
    isplitl [Hcr]; · iexact Hcr
    isplitl [HO]; · iexact HO
    isplitr; · iapply (mayWait_bar c); iexact Hlev
    iexact Hat
  iintro ⟨HO, Hat, -, Hpay⟩
  ihave Hp := (Entails.of_eq (rest_bar m ρ c)) $$ Hpay
  icases Hp with ⟨Hsp, Hsn⟩
  rw [wp_ret]; imodintro
  iapply Hk $$ %_ %_ %_ %_
  isplitl [HO]; · iexact HO
  isplitl [Hat]; · iexact Hat
  isplitl [Hsp]; · iexact Hsp
  iexact Hsn

end Cert.KernelProof

end
-- ==== Proof.KernelPart02.lean ====
import proofs.«900326_g7700000000000327_dist_treered_v7x_i4_m2048_n1024_bf16_1_alg».proof.Proof.KernelGather

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part02 (c : Dev nD) (v2 v30 : BitVec 32) (u000 u001 u100 u101 : Vec F S128x1024 .bf16) {Φ : BitVec 32 → sProp 𝕄} :
    iprop((((c : Thread nD τ).loc cc0_stg0_0) ↦{fullShare} xstg m ρ c)
        ∗ ownsTc c (sub 0 (chkOff c 0) 0) fullShare u000 ∗ ownsTc c (sub 0 (chkOff c 0) 1) fullShare u001
        ∗ ownsTc c (sub 1 (chkOff c 0) 0) fullShare u100 ∗ ownsTc c (sub 1 (chkOff c 0) 1) fullShare u101
        ∗ (((((c : Thread nD τ).loc cc0_stg0_0) ↦{fullShare} xstg m ρ c)
            ∗ ownsTc c (sub 0 (chkOff c 0) 0) fullShare (xb m ρ c 0 (chkOff c 0) 0) ∗ ownsTc c (sub 0 (chkOff c 0) 1) fullShare (xb m ρ c 0 (chkOff c 0) 1)
            ∗ ownsTc c (sub 1 (chkOff c 0) 0) fullShare (xb m ρ c 1 (chkOff c 0) 0) ∗ ownsTc c (sub 1 (chkOff c 0) 1) fullShare (xb m ρ c 1 (chkOff c 0) 1)) -∗ Φ 1#32))
      ⊢ WP c (atBufs k0_part2 c v2 v30) Φ := by
  simp only [atBufs, k0_part2_eq_skeleton]; unfold k0_part2_skel
  simp only [Prog.lift, Prog.bind_op, Prog.bind_ret, Prog.pure_eq_ret]
  iintro ⟨Hx, H000, H001, H100, H101, Hk⟩

  iapply (wp_load_x c 0 (chkOff c 0) (off1_x c 0 0) fullShare (xstg m ρ c))
  isplitl [Hx]; · iexact Hx
  iintro Hx
  iapply (wp_load_256 c 0 (chkOff c 0) (off2_o c 0 0) u000 u001)
  isplitl [H000]; · iexact H000
  isplitl [H001]; · iexact H001
  iintro %w00 ⟨H000, H001⟩
  iapply (wp_store_256 c 0 (chkOff c 0) (off2_o c 0 0) u000 u001 (x256 m ρ c 0 (chkOff c 0)))
  isplitl [H000]; · iexact H000
  isplitl [H001]; · iexact H001
  iintro ⟨H000, H001⟩

  iapply (wp_load_x c 1 (chkOff c 0) (off1_x c 1 0) fullShare (xstg m ρ c))
  isplitl [Hx]; · iexact Hx
  iintro Hx
  iapply (wp_load_256 c 1 (chkOff c 0) (off2_o c 1 0) u100 u101)
  isplitl [H100]; · iexact H100
  isplitl [H101]; · iexact H101
  iintro %w10 ⟨H100, H101⟩
  iapply (wp_store_256 c 1 (chkOff c 0) (off2_o c 1 0) u100 u101 (x256 m ρ c 1 (chkOff c 0)))
  isplitl [H100]; · iexact H100
  isplitl [H101]; · iexact H101
  iintro ⟨H100, H101⟩
  unfold WP; rw [wp_ret]; imodintro
  iapply Hk
  isplitl [Hx]; · iexact Hx
  isplitl [H000]; · iexact H000
  isplitl [H001]; · iexact H001
  isplitl [H100]; · iexact H100
  iexact H101

end Cert.KernelProof

end
-- ==== Proof.KernelPart03.lean ====
import proofs.«900326_g7700000000000327_dist_treered_v7x_i4_m2048_n1024_bf16_1_alg».proof.Proof.KernelGather

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part03 (K : Dev nD × CellIx → ℕ) (c : Dev nD) (v2 v13 v24 c1 : BitVec 32) (W : Waits sig Unit)
    (u0 u1 : Vec F S128x1024 .bf16) {Φ : BitVec 32 → sProp 𝕄} :
    iprop(records m ρ K ∗ dutyTok ER (sendCell c 0 0 0) 0 false ∗ dutyTok ER (recvCell (nxt c) 0 0 0) 0 false
        ∗ dutyTok ER (sendCell c 1 0 0) 0 false ∗ dutyTok ER (recvCell (prv c) 1 0 0) 0 false
        ∗ owes (c : Thread nD τ) (owedFrom c 24) W ∗ srcBlk m ρ c 0 0 0 ∗ slot (nxt c) 0 0 0 u0 ∗ srcBlk m ρ c 1 0 0
        ∗ slot (prv c) 1 0 0 u1
        ∗ ((cred (tallyAt (sendCell c 0 0 0) () N) ∗ cred (tallyAt (sendCell c 1 0 0) () N) ∗ owes (c : Thread nD τ) (owedFrom c 22) W) -∗ Φ 1#32))
      ⊢ WP c (atBufs k0_part3 c v2 v13 v24 c1) Φ := by
  simp only [atBufs, k0_part3_eq_skeleton]; unfold k0_part3_skel
  simp only [Prog.lift, Prog.bind_op, Prog.bind_ret, Prog.pure_eq_ret]
  iintro ⟨#Hrec, Hts0, Htr0, Hts1, Htr1, HO, Hsrc0, Hdst0, Hsrc1, Hdst1, Hk⟩
  unfold srcBlk slot

  iapply (wp_send_land_sub m ρ K c 0 0 0 _ (dev3_eq c) (chk 0 c 0) (off3_sub c 0 0) (rb 0 0 0) rfl (val m ρ 0 c 0 0) u0 iprop(emp) (owedFrom c 23) W
      (by
        unfold recvPay slot srcBlk
        rw [show up 0 (dn 0 c) = c from up_dn 0 c]
        iintro ⟨⟨H1, -⟩, H2⟩
        isplitl [H1] <;> iassumption)
      (by unfold sendPay; rw [if_pos (by decide)])) $$ [Hts0 Htr0 HO Hsrc0 Hdst0]
  · isplitr; · iexact Hrec
    isplitl [Hsrc0]; · iexact Hsrc0
    isplitl [Hdst0]; · iexact Hdst0
    isplitr; · iempintro
    isplitl [HO]; · iexact HO
    isplitl [Hts0]; · iexact Hts0
    iexact Htr0
  iintro ⟨Hc0, HO⟩

  iapply (wp_send_land_sub m ρ K c 1 0 0 _ (dev4_eq c) (chk 1 c 0) (off3_sub c 1 0) (rb 1 0 0) rfl (val m ρ 0 c 1 0) u1 iprop(emp) (owedFrom c 22) W
      (by
        unfold recvPay slot srcBlk
        rw [show up 1 (dn 1 c) = c from up_dn 1 c]
        iintro ⟨⟨H1, -⟩, H2⟩
        isplitl [H1] <;> iassumption)
      (by unfold sendPay; rw [if_pos (by decide)])) $$ [Hts1 Htr1 HO Hsrc1 Hdst1]
  · isplitr; · iexact Hrec
    isplitl [Hsrc1]; · iexact Hsrc1
    isplitl [Hdst1]; · iexact Hdst1
    isplitr; · iempintro
    isplitl [HO]; · iexact HO
    isplitl [Hts1]; · iexact Hts1
    iexact Htr1
  iintro ⟨Hc1, HO⟩
  unfold WP; rw [wp_ret]; imodintro
  iapply Hk
  isplitl [Hc0]; · iexact Hc0
  isplitl [Hc1]; · iexact Hc1
  iexact HO

end Cert.KernelProof

end
-- ==== Proof.KernelPart04.lean ====
import proofs.«900326_g7700000000000327_dist_treered_v7x_i4_m2048_n1024_bf16_1_alg».proof.Proof.KernelGather

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part04 (K : Dev nD × CellIx → ℕ) (c : Dev nD) (v2 v13 v24 c1 : BitVec 32) (W : Waits sig Unit)
    (u0 u1 : Vec F S128x1024 .bf16) {Φ : (Σ' (v107 : BitVec 32) (v108 : BitVec 32), BitVec 1) → sProp 𝕄} :
    iprop(records m ρ K ∗ dutyTok ER (sendCell c 0 0 1) 0 false ∗ dutyTok ER (recvCell (nxt c) 0 0 1) 0 false
        ∗ dutyTok ER (sendCell c 1 0 1) 0 false ∗ dutyTok ER (recvCell (prv c) 1 0 1) 0 false
        ∗ owes (c : Thread nD τ) (owedFrom c 22) W ∗ srcBlk m ρ c 0 0 1 ∗ slot (nxt c) 0 0 1 u0 ∗ srcBlk m ρ c 1 0 1
        ∗ slot (prv c) 1 0 1 u1
        ∗ (∀ r, (cred (tallyAt (sendCell c 0 0 1) () N) ∗ cred (tallyAt (sendCell c 1 0 1) () N) ∗ owes (c : Thread nD τ) (owedFrom c 20) W) -∗ Φ r))
      ⊢ WP c (atBufs k0_part4 c v2 v13 v24 c1) Φ := by
  simp only [atBufs, k0_part4_eq_skeleton]; unfold k0_part4_skel
  simp only [Prog.lift, Prog.bind_op, Prog.bind_ret, Prog.pure_eq_ret]
  iintro ⟨#Hrec, Hts0, Htr0, Hts1, Htr1, HO, Hsrc0, Hdst0, Hsrc1, Hdst1, Hk⟩
  unfold srcBlk slot

  iapply (wp_send_land_sub m ρ K c 0 0 1 _ (dev5_eq c) (chk 0 c 0) (off3_sub c 0 1) (rb 0 0 1) rfl (val m ρ 0 c 0 1) u0 iprop(emp) (owedFrom c 21) W
      (by
        unfold recvPay slot srcBlk
        rw [show up 0 (dn 0 c) = c from up_dn 0 c]
        iintro ⟨⟨H1, -⟩, H2⟩
        isplitl [H1] <;> iassumption)
      (by unfold sendPay; rw [if_pos (by decide)])) $$ [Hts0 Htr0 HO Hsrc0 Hdst0]
  · isplitr; · iexact Hrec
    isplitl [Hsrc0]; · iexact Hsrc0
    isplitl [Hdst0]; · iexact Hdst0
    isplitr; · iempintro
    isplitl [HO]; · iexact HO
    isplitl [Hts0]; · iexact Hts0
    iexact Htr0
  iintro ⟨Hc0, HO⟩

  iapply (wp_send_land_sub m ρ K c 1 0 1 _ (dev6_eq c) (chk 1 c 0) (off3_sub c 1 1) (rb 1 0 1) rfl (val m ρ 0 c 1 1) u1 iprop(emp) (owedFrom c 20) W
      (by
        unfold recvPay slot srcBlk
        rw [show up 1 (dn 1 c) = c from up_dn 1 c]
        iintro ⟨⟨H1, -⟩, H2⟩
        isplitl [H1] <;> iassumption)
      (by unfold sendPay; rw [if_pos (by decide)])) $$ [Hts1 Htr1 HO Hsrc1 Hdst1]
  · isplitr; · iexact Hrec
    isplitl [Hsrc1]; · iexact Hsrc1
    isplitl [Hdst1]; · iexact Hdst1
    isplitr; · iempintro
    isplitl [HO]; · iexact HO
    isplitl [Hts1]; · iexact Hts1
    iexact Htr1
  iintro ⟨Hc1, HO⟩
  unfold WP; rw [wp_ret]; imodintro
  iapply Hk $$ %_
  isplitl [Hc0]; · iexact Hc0
  isplitl [Hc1]; · iexact Hc1
  iexact HO

end Cert.KernelProof

end
-- ==== Proof.KernelPart05.lean ====
import proofs.«900326_g7700000000000327_dist_treered_v7x_i4_m2048_n1024_bf16_1_alg».proof.Proof.KernelGather

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part05_ret (c : Dev nD) (ch : Fin 4) :
    k0_pay5 (xM.view.readAt (Elt F) (xR 0 ch).toLoadRect (xstg m ρ c)) = x256 m ρ c 0 ch := rfl

theorem part05 (c : Dev nD) (v2 v107 v108 : BitVec 32) (v113 : BitVec 1) (u010 u011 u110 u111 : Vec F S128x1024 .bf16)
    {Φ : (Σ' (v142 : BitVec 32), FVec F S256x1024 .bf16) → sProp 𝕄} :
    iprop((((c : Thread nD τ).loc cc0_stg0_0) ↦{fullShare} xstg m ρ c)
        ∗ ownsTc c (sub 0 (chkOff c 1) 0) fullShare u010 ∗ ownsTc c (sub 0 (chkOff c 1) 1) fullShare u011
        ∗ ownsTc c (sub 1 (chkOff c 1) 0) fullShare u110 ∗ ownsTc c (sub 1 (chkOff c 1) 1) fullShare u111
        ∗ (∀ a, ((((c : Thread nD τ).loc cc0_stg0_0) ↦{fullShare} xstg m ρ c)
            ∗ ownsTc c (sub 0 (chkOff c 1) 0) fullShare (xb m ρ c 0 (chkOff c 1) 0) ∗ ownsTc c (sub 0 (chkOff c 1) 1) fullShare (xb m ρ c 0 (chkOff c 1) 1)
            ∗ ownsTc c (sub 1 (chkOff c 1) 0) fullShare (xb m ρ c 1 (chkOff c 1) 0) ∗ ownsTc c (sub 1 (chkOff c 1) 1) fullShare (xb m ρ c 1 (chkOff c 1) 1)) -∗ Φ ⟨a, x256 m ρ c 0 (chkOff c 2)⟩))
      ⊢ WP c (atBufs k0_part5 c v2 v107 v108 v113) Φ := by
  simp only [atBufs, k0_part5_eq_skeleton]; unfold k0_part5_skel
  simp only [Prog.lift, Prog.bind_op, Prog.bind_ret, Prog.pure_eq_ret]
  iintro ⟨Hx, H010, H011, H110, H111, Hk⟩

  iapply (wp_load_x c 0 (chkOff c 1) (off1_x c 0 1) fullShare (xstg m ρ c))
  isplitl [Hx]; · iexact Hx
  iintro Hx
  iapply (wp_load_256 c 0 (chkOff c 1) (off2_o c 0 1) u010 u011)
  isplitl [H010]; · iexact H010
  isplitl [H011]; · iexact H011
  iintro %w01 ⟨H010, H011⟩
  iapply (wp_store_256 c 0 (chkOff c 1) (off2_o c 0 1) u010 u011 (x256 m ρ c 0 (chkOff c 1)))
  isplitl [H010]; · iexact H010
  isplitl [H011]; · iexact H011
  iintro ⟨H010, H011⟩

  iapply (wp_load_x c 1 (chkOff c 1) (off1_x c 1 1) fullShare (xstg m ρ c))
  isplitl [Hx]; · iexact Hx
  iintro Hx
  iapply (wp_load_256 c 1 (chkOff c 1) (off2_o c 1 1) u110 u111)
  isplitl [H110]; · iexact H110
  isplitl [H111]; · iexact H111
  iintro %w11 ⟨H110, H111⟩
  iapply (wp_store_256 c 1 (chkOff c 1) (off2_o c 1 1) u110 u111 (x256 m ρ c 1 (chkOff c 1)))
  isplitl [H110]; · iexact H110
  isplitl [H111]; · iexact H111
  iintro ⟨H110, H111⟩

  iapply (wp_load_x c 0 (chkOff c 2) (off1_x c 0 2) fullShare (xstg m ρ c))
  isplitl [Hx]; · iexact Hx
  iintro Hx
  unfold WP; rw [wp_ret, part05_ret m ρ c]; imodintro
  iapply Hk
  isplitl [Hx]; · iexact Hx
  isplitl [H010]; · iexact H010
  isplitl [H011]; · iexact H011
  isplitl [H110]; · iexact H110
  iexact H111

end Cert.KernelProof

end
-- ==== Proof.KernelPart06.lean ====
import proofs.«900326_g7700000000000327_dist_treered_v7x_i4_m2048_n1024_bf16_1_alg».proof.Proof.KernelGather

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part06_ret (c : Dev nD) (ch : Fin 4) :
    k0_pay8 (xM.view.readAt (Elt F) (xR 1 ch).toLoadRect (xstg m ρ c)) = x256 m ρ c 1 ch := rfl

theorem part06 (c : Dev nD) (v2 v142 : BitVec 32) (u020 u021 u120 u121 u030 u031 : Vec F S128x1024 .bf16)
    {Φ : FVec F S256x1024 .bf16 → sProp 𝕄} :
    iprop(ownsTc c (sub 0 (chkOff c 2) 0) fullShare u020 ∗ ownsTc c (sub 0 (chkOff c 2) 1) fullShare u021
        ∗ (((c : Thread nD τ).loc cc0_stg0_0) ↦{fullShare} xstg m ρ c)
        ∗ ownsTc c (sub 1 (chkOff c 2) 0) fullShare u120 ∗ ownsTc c (sub 1 (chkOff c 2) 1) fullShare u121
        ∗ ownsTc c (sub 0 (chkOff c 3) 0) fullShare u030 ∗ ownsTc c (sub 0 (chkOff c 3) 1) fullShare u031
        ∗ ((ownsTc c (sub 0 (chkOff c 2) 0) fullShare (xb m ρ c 0 (chkOff c 2) 0) ∗ ownsTc c (sub 0 (chkOff c 2) 1) fullShare (xb m ρ c 0 (chkOff c 2) 1)
            ∗ (((c : Thread nD τ).loc cc0_stg0_0) ↦{fullShare} xstg m ρ c)
            ∗ ownsTc c (sub 1 (chkOff c 2) 0) fullShare (xb m ρ c 1 (chkOff c 2) 0) ∗ ownsTc c (sub 1 (chkOff c 2) 1) fullShare (xb m ρ c 1 (chkOff c 2) 1)
            ∗ ownsTc c (sub 0 (chkOff c 3) 0) fullShare (xb m ρ c 0 (chkOff c 3) 0) ∗ ownsTc c (sub 0 (chkOff c 3) 1) fullShare (xb m ρ c 0 (chkOff c 3) 1)) -∗ Φ (x256 m ρ c 1 (chkOff c 3))))
      ⊢ WP c (atBufs k0_part6 c v2 v142 (x256 m ρ c 0 (chkOff c 2))) Φ := by
  simp only [atBufs, k0_part6_eq_skeleton]; unfold k0_part6_skel
  simp only [Prog.lift, Prog.bind_op, Prog.bind_ret, Prog.pure_eq_ret]
  iintro ⟨H020, H021, Hx, H120, H121, H030, H031, Hk⟩
  iapply (wp_load_256 c 0 (chkOff c 2) (off2_o c 0 2) u020 u021)
  isplitl [H020]; · iexact H020
  isplitl [H021]; · iexact H021
  iintro %w02 ⟨H020, H021⟩
  iapply (wp_store_256 c 0 (chkOff c 2) (off2_o c 0 2) u020 u021 (x256 m ρ c 0 (chkOff c 2)))
  isplitl [H020]; · iexact H020
  isplitl [H021]; · iexact H021
  iintro ⟨H020, H021⟩

  iapply (wp_load_x c 1 (chkOff c 2) (off1_x c 1 2) fullShare (xstg m ρ c))
  isplitl [Hx]; · iexact Hx
  iintro Hx
  iapply (wp_load_256 c 1 (chkOff c 2) (off2_o c 1 2) u120 u121)
  isplitl [H120]; · iexact H120
  isplitl [H121]; · iexact H121
  iintro %w12 ⟨H120, H121⟩
  iapply (wp_store_256 c 1 (chkOff c 2) (off2_o c 1 2) u120 u121 (x256 m ρ c 1 (chkOff c 2)))
  isplitl [H120]; · iexact H120
  isplitl [H121]; · iexact H121
  iintro ⟨H120, H121⟩

  iapply (wp_load_x c 0 (chkOff c 3) (off1_x c 0 3) fullShare (xstg m ρ c))
  isplitl [Hx]; · iexact Hx
  iintro Hx
  iapply (wp_load_256 c 0 (chkOff c 3) (off2_o c 0 3) u030 u031)
  isplitl [H030]; · iexact H030
  isplitl [H031]; · iexact H031
  iintro %w03 ⟨H030, H031⟩
  iapply (wp_store_256 c 0 (chkOff c 3) (off2_o c 0 3) u030 u031 (x256 m ρ c 0 (chkOff c 3)))
  isplitl [H030]; · iexact H030
  isplitl [H031]; · iexact H031
  iintro ⟨H030, H031⟩

  iapply (wp_load_x c 1 (chkOff c 3) (off1_x c 1 3) fullShare (xstg m ρ c))
  isplitl [Hx]; · iexact Hx
  iintro Hx
  unfold WP; rw [wp_ret, part06_ret m ρ c]; imodintro
  iapply Hk
  isplitl [H020]; · iexact H020
  isplitl [H021]; · iexact H021
  isplitl [Hx]; · iexact Hx
  isplitl [H120]; · iexact H120
  isplitl [H121]; · iexact H121
  isplitl [H030]; · iexact H030
  iexact H031

end Cert.KernelProof

end
-- ==== Proof.KernelPart07.lean ====
import proofs.«900326_g7700000000000327_dist_treered_v7x_i4_m2048_n1024_bf16_1_alg».proof.Proof.KernelGather

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part07 (K : Dev nD × CellIx → ℕ) (c : Dev nD) (v2 v13 : BitVec 32) (W : Waits sig Unit)
    (w0 w1 : Vec F S128x1024 .bf16) {Φ : (Σ' (v203 : BitVec 32) (v206 : BitVec 32), FVec F S128x1024 .bf16) → sProp 𝕄} :
    iprop(records m ρ K ∗ (levAts L lv : sProp 𝕄) ∗ ownsTc c (sub 1 (chkOff c 3) 0) fullShare w0
        ∗ ownsTc c (sub 1 (chkOff c 3) 1) fullShare w1 ∗ cred (tallyAt (recvCell c 0 0 0) () N)
        ∗ owes (c : Thread nD τ) (owedFrom c 20) W ∗ atPos ER (recvCell c 0 0 0) 0 ∅ 0
        ∗ ownsTc c (sub 0 (chk 0 c 1) 0) fullShare (xb m ρ c 0 (chk 0 c 1) 0)
        ∗ (∀ a b, (ownsTc c (sub 1 (chkOff c 3) 0) fullShare (xb m ρ c 1 (chkOff c 3) 0)
              ∗ ownsTc c (sub 1 (chkOff c 3) 1) fullShare (xb m ρ c 1 (chkOff c 3) 1)
              ∗ owes (c : Thread nD τ) (owedFrom c 20) (insert (SemLoc.dma (recvS 0 0 0).sem, ()) W)
              ∗ atPos ER (recvCell c 0 0 0) 1 ∅ 0
              ∗ slot c 0 0 0 (val m ρ 0 (up 0 c) 0 0) ∗ srcBlk m ρ (up 0 c) 0 0 0
              ∗ ownsTc c (sub 0 (chk 0 c 1) 0) fullShare (xb m ρ c 0 (chk 0 c 1) 0))
            -∗ Φ ⟨a, b, acc (xb m ρ c 0 (chk 0 c 1) 0) (val m ρ 0 (up 0 c) 0 0)⟩))
      ⊢ WP c (atBufs k0_part7 c v2 v13 (x256 m ρ c 1 (chkOff c 3))) Φ := by
  simp only [atBufs, k0_part7_eq_skeleton]; unfold k0_part7_skel
  simp only [Prog.lift, Prog.bind_op, Prog.bind_ret, Prog.pure_eq_ret]
  iintro ⟨#Hrec, #HL, Hb0, Hb1, Hc, HO, Hat, Hown, Hk⟩

  iapply (wp_load_256 c 1 (chkOff c 3) (off2_o c 1 3) w0 w1)
  isplitl [Hb0]; · iexact Hb0
  isplitl [Hb1]; · iexact Hb1
  iintro %u185 ⟨Hb0, Hb1⟩

  iapply (wp_store_256 c 1 (chkOff c 3) (off2_o c 1 3) w0 w1 (x256 m ρ c 1 (chkOff c 3)))
  isplitl [Hb0]; · iexact Hb0
  isplitl [Hb1]; · iexact Hb1
  iintro ⟨Hb0, Hb1⟩

  iapply (wp_wait_recv m ρ K c 0 0 0 (dstM := rb 0 0 0) (rb_credit 0 0 0) (owedFrom c 20) W) $$ [Hc HO Hat]
  · isplitr; · iexact Hrec
    isplitl [Hc]; · iexact Hc
    isplitl [HO]; · iexact HO
    isplitr; · iapply (mayWait_recv c 0 0 0 20 (by decide)); iexact HL
    iexact Hat
  iintro ⟨HO, Hat, Hpay⟩
  ihave Hpay' := (show recvPay m ρ c 0 0 0 ⊢ iprop(slot c 0 0 0 (val m ρ 0 (up 0 c) 0 0) ∗ srcBlk m ρ (up 0 c) 0 0 0) from .rfl) $$ Hpay
  icases Hpay' with ⟨Hslot, Hsrc⟩
  unfold slot

  iapply (wp_load_sub c 0 (chk 0 c 1) 0 (off4_sub c 0 0) fullShare (xb m ρ c 0 (chk 0 c 1) 0))
  isplitl [Hown]; · iexact Hown
  iintro Hown
  iapply (wp_load_rb c 0 0 0 rfl fullShare (val m ρ 0 (up 0 c) 0 0))
  isplitl [Hslot]; · iexact Hslot
  iintro Hslot
  unfold WP; rw [wp_ret]; imodintro
  rw [show k0_pay9 (xb m ρ c 0 (chk 0 c 1) 0) (slotRead (val m ρ 0 (up 0 c) 0 0))
      = acc (xb m ρ c 0 (chk 0 c 1) 0) (val m ρ 0 (up 0 c) 0 0) from rfl]
  iapply Hk
  isplitl [Hb0]; · iexact Hb0
  isplitl [Hb1]; · iexact Hb1
  isplitl [HO]; · iexact HO
  isplitl [Hat]; · iexact Hat
  isplitl [Hslot]; · iexact Hslot
  isplitl [Hsrc]; · iexact Hsrc
  iexact Hown

end Cert.KernelProof

end
-- ==== Proof.KernelPart08.lean ====
import proofs.«900326_g7700000000000327_dist_treered_v7x_i4_m2048_n1024_bf16_1_alg».proof.Proof.KernelGather

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part08 (K : Dev nD × CellIx → ℕ) (c : Dev nD) (v2 v13 v24 v203 v206 : BitVec 32) (W : Waits sig Unit)
    (u : Vec F S128x1024 .bf16) {Φ : (Σ' (v234 : BitVec 32) (c4_i32_213 : BitVec 32), BitVec 32) → sProp 𝕄} :
    iprop(records m ρ K ∗ (levAts L lv : sProp 𝕄) ∗ ownsTc c (sub 0 (chk 0 c 1) 0) fullShare (xb m ρ c 0 (chk 0 c 1) 0)
        ∗ dutyTok ER (sendCell c 0 1 0) 0 false ∗ dutyTok ER (recvCell (nxt c) 0 1 0) 0 false
        ∗ owes (c : Thread nD τ) (owedFrom c 20) W ∗ slot (nxt c) 0 1 0 u ∗ srcBlk m ρ (up 0 c) 0 0 0
        ∗ cred (tallyAt (recvCell c 1 0 0) () N) ∗ atPos ER (recvCell c 1 0 0) 0 ∅ 0
        ∗ (∀ a b e, (cred (tallyAt (sendCell c 0 1 0) () N)
              ∗ owes (c : Thread nD τ) (owedFrom c 19) (insert (SemLoc.dma (recvS 1 0 0).sem, ()) W)
              ∗ atPos ER (recvCell c 1 0 0) 1 ∅ 0
              ∗ slot c 1 0 0 (val m ρ 0 (up 1 c) 1 0) ∗ srcBlk m ρ (up 1 c) 1 0 0)
            -∗ Φ ⟨a, b, e⟩))
      ⊢ WP c (atBufs k0_part8 c v2 v13 v24 v203 v206 (acc (xb m ρ c 0 (chk 0 c 1) 0) (val m ρ 0 (up 0 c) 0 0))) Φ := by
  simp only [atBufs, k0_part8_eq_skeleton]; unfold k0_part8_skel
  simp only [Prog.lift, Prog.bind_op, Prog.bind_ret, Prog.pure_eq_ret]
  iintro ⟨#Hrec, #HL, Hown, Hts, Htr, HO, Hdst, Hrid, Hc, Hat, Hk⟩

  iapply (wp_load_sub c 0 (chk 0 c 1) 0 (off4_sub c 0 0) fullShare (xb m ρ c 0 (chk 0 c 1) 0))
  isplitl [Hown]; · iexact Hown
  iintro Hown
  iapply (wp_store_sub c 0 (chk 0 c 1) 0 (off4_sub c 0 0) (xb m ρ c 0 (chk 0 c 1) 0)
      (acc (xb m ρ c 0 (chk 0 c 1) 0) (val m ρ 0 (up 0 c) 0 0)))
  isplitl [Hown]; · iexact Hown
  iintro Hown
  unfold slot

  iapply (wp_send_land_sub m ρ K c 0 1 0 _ (dev7_eq c) (chk 0 c 1) (off5_sub c 0 0) (rb 0 1 0) rfl
      (acc (xb m ρ c 0 (chk 0 c 1) 0) (val m ρ 0 (up 0 c) 0 0)) u (srcBlk m ρ (up 0 c) 0 0 0) (owedFrom c 19) W
      (by
        unfold recvPay slot srcBlk
        rw [show up 0 (dn 0 c) = c from up_dn 0 c,
          show val m ρ 1 c 0 0 = acc (xb m ρ c 0 (chk 0 c 1) 0) (val m ρ 0 (up 0 c) 0 0) from val_acc m ρ 0 (by decide) c 0 0]
        iintro ⟨⟨H1, HT⟩, H2⟩
        isplitl [H1]; · iexact H1
        isplitl [H2]; · iexact H2
        iexact HT)
      (by unfold sendPay; rw [if_pos (by decide)])) $$ [Hts Htr HO Hown Hdst Hrid]
  · isplitr; · iexact Hrec
    isplitl [Hown]; · iexact Hown
    isplitl [Hdst]; · iexact Hdst
    isplitl [Hrid]; · iexact Hrid
    isplitl [HO]; · iexact HO
    isplitl [Hts]; · iexact Hts
    iexact Htr
  iintro ⟨Hcs, HO⟩

  iapply (wp_wait_recv m ρ K c 1 0 0 (dstM := rb 1 0 0) (rb_credit 1 0 0) (owedFrom c 19) W) $$ [Hc HO Hat]
  · isplitr; · iexact Hrec
    isplitl [Hc]; · iexact Hc
    isplitl [HO]; · iexact HO
    isplitr; · iapply (mayWait_recv c 1 0 0 19 (by decide)); iexact HL
    iexact Hat
  iintro ⟨HO, Hat, Hpay⟩
  ihave Hpay' := (show recvPay m ρ c 1 0 0 ⊢ iprop(slot c 1 0 0 (val m ρ 0 (up 1 c) 1 0) ∗ srcBlk m ρ (up 1 c) 1 0 0) from .rfl) $$ Hpay
  icases Hpay' with ⟨Hslot, Hsrc⟩
  unfold slot
  unfold WP; rw [wp_ret]; imodintro
  iapply Hk
  isplitl [Hcs]; · iexact Hcs
  isplitl [HO]; · iexact HO
  isplitl [Hat]; · iexact Hat
  isplitl [Hslot]; · iexact Hslot
  iexact Hsrc

end Cert.KernelProof

end
-- ==== Proof.KernelPart09.lean ====
import proofs.«900326_g7700000000000327_dist_treered_v7x_i4_m2048_n1024_bf16_1_alg».proof.Proof.KernelGather

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem pay10_eq_acc (a w : Vec F S128x1024 .bf16) : k0_pay10 a (slotRead w) = acc a w := rfl

theorem part09 (c : Dev nD) (v24 v234 c4 c0 : BitVec 32) {Φ : PUnit → sProp 𝕄} :
    iprop(ownsTc c (sub 1 (chk 1 c 1) 0) fullShare (xb m ρ c 1 (chk 1 c 1) 0)
        ∗ slot c 1 0 0 (val m ρ 0 (up 1 c) 1 0)
        ∗ ((slot c 1 0 0 (val m ρ 0 (up 1 c) 1 0) ∗ srcBlk m ρ c 1 1 0) -∗ Φ ⟨⟩))
      ⊢ WP c (atBufs k0_part9 c v24 v234 c4 c0) Φ := by
  simp only [atBufs, k0_part9_eq_skeleton]; unfold k0_part9_skel
  simp only [Prog.lift, Prog.bind_op, Prog.bind_ret, Prog.pure_eq_ret]
  iintro ⟨Hown, Hslot, Hk⟩
  unfold srcBlk slot

  iapply (wp_load_sub c 1 (chk 1 c 1) 0 (off6_sub c 0) fullShare (xb m ρ c 1 (chk 1 c 1) 0))
  isplitl [Hown]; · iexact Hown
  iintro Hown

  iapply (wp_load_rb c 1 0 0 rfl fullShare (val m ρ 0 (up 1 c) 1 0))
  isplitl [Hslot]; · iexact Hslot
  iintro Hslot

  iapply (wp_load_sub c 1 (chk 1 c 1) 0 (off6_sub c 0) fullShare (xb m ρ c 1 (chk 1 c 1) 0))
  isplitl [Hown]; · iexact Hown
  iintro Hown

  iapply (wp_store_sub c 1 (chk 1 c 1) 0 (off6_sub c 0) (xb m ρ c 1 (chk 1 c 1) 0) _)
  isplitl [Hown]; · iexact Hown
  iintro Hown
  unfold WP; rw [wp_ret]; imodintro
  iapply Hk
  isplitl [Hslot]; · iexact Hslot
  rw [show val m ρ 1 c 1 0 = acc (xb m ρ c 1 (chk 1 c 1) 0) (val m ρ 0 (up 1 c) 1 0) from val_acc m ρ 0 (by decide) c 1 0,
    ← pay10_eq_acc]
  iexact Hown

end Cert.KernelProof

end
-- ==== Proof.KernelPart10.lean ====
import proofs.«900326_g7700000000000327_dist_treered_v7x_i4_m2048_n1024_bf16_1_alg».proof.Proof.KernelGather

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part10 (K : Dev nD × CellIx → ℕ) (c : Dev nD) (v2 v13 : BitVec 32) (W : Waits sig Unit)
    (u : Vec F S128x1024 .bf16) {Φ : (Σ' (v285 : BitVec 32) (v288 : BitVec 32), FVec F S128x1024 .bf16) → sProp 𝕄} :
    iprop(records m ρ K ∗ (levAts L lv : sProp 𝕄) ∗ dutyTok ER (sendCell c 1 1 0) 0 false
        ∗ dutyTok ER (recvCell (prv c) 1 1 0) 0 false ∗ owes (c : Thread nD τ) (owedFrom c 19) W ∗ srcBlk m ρ c 1 1 0
        ∗ slot (prv c) 1 1 0 u ∗ srcBlk m ρ (up 1 c) 1 0 0 ∗ cred (tallyAt (recvCell c 0 0 1) () N)
        ∗ atPos ER (recvCell c 0 0 1) 0 ∅ 0 ∗ ownsTc c (sub 0 (chk 0 c 1) 1) fullShare (xb m ρ c 0 (chk 0 c 1) 1)
        ∗ (∀ a b, (cred (tallyAt (sendCell c 1 1 0) () N)
              ∗ owes (c : Thread nD τ) (owedFrom c 18) (insert (SemLoc.dma (recvS 0 0 1).sem, ()) W)
              ∗ atPos ER (recvCell c 0 0 1) 1 ∅ 0
              ∗ slot c 0 0 1 (val m ρ 0 (up 0 c) 0 1) ∗ srcBlk m ρ (up 0 c) 0 0 1
              ∗ ownsTc c (sub 0 (chk 0 c 1) 1) fullShare (xb m ρ c 0 (chk 0 c 1) 1))
            -∗ Φ ⟨a, b, k0_pay11 (xb m ρ c 0 (chk 0 c 1) 1)⟩))
      ⊢ WP c (atBufs k0_part10 c v2 v13) Φ := by
  simp only [atBufs, k0_part10_eq_skeleton]; unfold k0_part10_skel
  simp only [Prog.lift, Prog.bind_op, Prog.bind_ret, Prog.pure_eq_ret]
  iintro ⟨#Hrec, #HL, Hts, Htr, HO, Hblk, Hdst, Hrid, Hc, Hat, Hown, Hk⟩
  unfold slot
  ihave Hblk' := (show srcBlk m ρ c 1 1 0 ⊢ ownsTc c (sub 1 (chk 1 c 1) 0) fullShare (val m ρ 1 c 1 0) from .rfl) $$ Hblk

  iapply (wp_send_land_sub m ρ K c 1 1 0 _ (dev8_eq c) (chk 1 c 1) (off7_sub c 0) (rb 1 1 0) rfl
      (val m ρ 1 c 1 0) u (srcBlk m ρ (up 1 c) 1 0 0) (owedFrom c 18) W
      (by
        unfold recvPay slot srcBlk
        rw [show up 1 (dn 1 c) = c from up_dn 1 c]
        iintro ⟨⟨H1, HT⟩, H2⟩
        isplitl [H1]; · iexact H1
        isplitl [H2]; · iexact H2
        iexact HT)
      (by unfold sendPay; rw [if_pos (by decide)])) $$ [Hts Htr HO Hblk' Hdst Hrid]
  · isplitr; · iexact Hrec
    isplitl [Hblk']; · iexact Hblk'
    isplitl [Hdst]; · iexact Hdst
    isplitl [Hrid]; · iexact Hrid
    isplitl [HO]; · iexact HO
    isplitl [Hts]; · iexact Hts
    iexact Htr
  iintro ⟨Hcs, HO⟩

  iapply (wp_wait_recv m ρ K c 0 0 1 (dstM := rb 0 0 1) (rb_credit 0 0 1) (owedFrom c 18) W) $$ [Hc HO Hat]
  · isplitr; · iexact Hrec
    isplitl [Hc]; · iexact Hc
    isplitl [HO]; · iexact HO
    isplitr; · iapply (mayWait_recv c 0 0 1 18 (by decide)); iexact HL
    iexact Hat
  iintro ⟨HO, Hat, Hpay⟩
  ihave Hpay' := (show recvPay m ρ c 0 0 1 ⊢ iprop(slot c 0 0 1 (val m ρ 0 (up 0 c) 0 1) ∗ srcBlk m ρ (up 0 c) 0 0 1) from .rfl) $$ Hpay
  icases Hpay' with ⟨Hslot, Hsrc⟩
  unfold slot

  iapply (wp_load_sub c 0 (chk 0 c 1) 1 (off4_sub c 0 1) fullShare (xb m ρ c 0 (chk 0 c 1) 1))
  isplitl [Hown]; · iexact Hown
  iintro Hown
  unfold WP; rw [wp_ret]; imodintro
  iapply Hk
  isplitl [Hcs]; · iexact Hcs
  isplitl [HO]; · iexact HO
  isplitl [Hat]; · iexact Hat
  isplitl [Hslot]; · iexact Hslot
  isplitl [Hsrc]; · iexact Hsrc
  iexact Hown

end Cert.KernelProof

end
-- ==== Proof.KernelPart11.lean ====
import proofs.«900326_g7700000000000327_dist_treered_v7x_i4_m2048_n1024_bf16_1_alg».proof.Proof.KernelGather

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem pay12_eq_acc (a w : Vec F S128x1024 .bf16) : k0_pay12 (k0_pay11 a) (slotRead w) = acc a w := rfl

theorem part11 (K : Dev nD × CellIx → ℕ) (c : Dev nD) (v13 v24 v285 v288 : BitVec 32) (W : Waits sig Unit)
    (u : Vec F S128x1024 .bf16) {Φ : PUnit → sProp 𝕄} :
    iprop(records m ρ K ∗ (levAts L lv : sProp 𝕄) ∗ slot c 0 0 1 (val m ρ 0 (up 0 c) 0 1)
        ∗ ownsTc c (sub 0 (chk 0 c 1) 1) fullShare (xb m ρ c 0 (chk 0 c 1) 1) ∗ dutyTok ER (sendCell c 0 1 1) 0 false
        ∗ dutyTok ER (recvCell (nxt c) 0 1 1) 0 false ∗ owes (c : Thread nD τ) (owedFrom c 18) W
        ∗ slot (nxt c) 0 1 1 u ∗ srcBlk m ρ (up 0 c) 0 0 1 ∗ cred (tallyAt (recvCell c 1 0 1) () N)
        ∗ atPos ER (recvCell c 1 0 1) 0 ∅ 0
        ∗ ((slot c 0 0 1 (val m ρ 0 (up 0 c) 0 1)
              ∗ cred (tallyAt (sendCell c 0 1 1) () N)
              ∗ owes (c : Thread nD τ) (owedFrom c 17) (insert (SemLoc.dma (recvS 1 0 1).sem, ()) W)
              ∗ atPos ER (recvCell c 1 0 1) 1 ∅ 0
              ∗ slot c 1 0 1 (val m ρ 0 (up 1 c) 1 1) ∗ srcBlk m ρ (up 1 c) 1 0 1)
            -∗ Φ ⟨⟩))
      ⊢ WP c (atBufs k0_part11 c v13 v24 v285 v288 (k0_pay11 (xb m ρ c 0 (chk 0 c 1) 1))) Φ := by
  simp only [atBufs, k0_part11_eq_skeleton]; unfold k0_part11_skel
  simp only [Prog.lift, Prog.bind_op, Prog.bind_ret, Prog.pure_eq_ret]
  iintro ⟨#Hrec, #HL, Hslot0, Hown, Hts, Htr, HO, Hdst, Hrid, Hc, Hat, Hk⟩
  unfold slot

  iapply (wp_load_rb c 0 0 1 rfl fullShare (val m ρ 0 (up 0 c) 0 1))
  isplitl [Hslot0]; · iexact Hslot0
  iintro Hslot0
  iapply (wp_load_sub c 0 (chk 0 c 1) 1 (off4_sub c 0 1) fullShare (xb m ρ c 0 (chk 0 c 1) 1))
  isplitl [Hown]; · iexact Hown
  iintro Hown
  iapply (wp_store_sub c 0 (chk 0 c 1) 1 (off4_sub c 0 1) (xb m ρ c 0 (chk 0 c 1) 1) _)
  isplitl [Hown]; · iexact Hown
  iintro Hown
  rw [pay12_eq_acc]

  iapply (wp_send_land_sub m ρ K c 0 1 1 _ (dev9_eq c) (chk 0 c 1) (off5_sub c 0 1) (rb 0 1 1) rfl
      (acc (xb m ρ c 0 (chk 0 c 1) 1) (val m ρ 0 (up 0 c) 0 1)) u (srcBlk m ρ (up 0 c) 0 0 1) (owedFrom c 17) W
      (by
        unfold recvPay slot srcBlk
        rw [show up 0 (dn 0 c) = c from up_dn 0 c,
          show val m ρ 1 c 0 1 = acc (xb m ρ c 0 (chk 0 c 1) 1) (val m ρ 0 (up 0 c) 0 1) from val_acc m ρ 0 (by decide) c 0 1]
        iintro ⟨⟨H1, HT⟩, H2⟩
        isplitl [H1]; · iexact H1
        isplitl [H2]; · iexact H2
        iexact HT)
      (by unfold sendPay; rw [if_pos (by decide)])) $$ [Hts Htr HO Hown Hdst Hrid]
  · isplitr; · iexact Hrec
    isplitl [Hown]; · iexact Hown
    isplitl [Hdst]; · iexact Hdst
    isplitl [Hrid]; · iexact Hrid
    isplitl [HO]; · iexact HO
    isplitl [Hts]; · iexact Hts
    iexact Htr
  iintro ⟨Hcs, HO⟩

  iapply (wp_wait_recv m ρ K c 1 0 1 (dstM := rb 1 0 1) (rb_credit 1 0 1) (owedFrom c 17) W) $$ [Hc HO Hat]
  · isplitr; · iexact Hrec
    isplitl [Hc]; · iexact Hc
    isplitl [HO]; · iexact HO
    isplitr; · iapply (mayWait_recv c 1 0 1 17 (by decide)); iexact HL
    iexact Hat
  iintro ⟨HO, Hat, Hpay⟩
  ihave Hpay' := (show recvPay m ρ c 1 0 1 ⊢ iprop(slot c 1 0 1 (val m ρ 0 (up 1 c) 1 1) ∗ srcBlk m ρ (up 1 c) 1 0 1) from .rfl) $$ Hpay
  icases Hpay' with ⟨Hslot, Hsrc⟩
  unfold slot
  unfold WP; rw [wp_ret]; imodintro
  iapply Hk
  isplitl [Hslot0]; · iexact Hslot0
  isplitl [Hcs]; · iexact Hcs
  isplitl [HO]; · iexact HO
  isplitl [Hat]; · iexact Hat
  isplitl [Hslot]; · iexact Hslot
  iexact Hsrc

end Cert.KernelProof

end
-- ==== Proof.KernelPart12.lean ====
import proofs.«900326_g7700000000000327_dist_treered_v7x_i4_m2048_n1024_bf16_1_alg».proof.Proof.KernelGather

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem pay13_eq_acc (a w : Vec F S128x1024 .bf16) : k0_pay13 a (slotRead w) = acc a w := rfl

theorem part12 (c : Dev nD) (v2 v24 : BitVec 32) {Φ : PUnit → sProp 𝕄} :
    iprop(ownsTc c (sub 1 (chk 1 c 1) 1) fullShare (xb m ρ c 1 (chk 1 c 1) 1)
        ∗ slot c 1 0 1 (val m ρ 0 (up 1 c) 1 1)
        ∗ ((slot c 1 0 1 (val m ρ 0 (up 1 c) 1 1) ∗ srcBlk m ρ c 1 1 1) -∗ Φ ⟨⟩))
      ⊢ WP c (atBufs k0_part12 c v2 v24) Φ := by
  simp only [atBufs, k0_part12_eq_skeleton]; unfold k0_part12_skel
  simp only [Prog.lift, Prog.bind_op, Prog.bind_ret, Prog.pure_eq_ret]
  iintro ⟨Hown, Hslot, Hk⟩
  unfold srcBlk slot

  iapply (wp_load_sub c 1 (chk 1 c 1) 1 (off6_sub c 1) fullShare (xb m ρ c 1 (chk 1 c 1) 1))
  isplitl [Hown]; · iexact Hown
  iintro Hown

  iapply (wp_load_rb c 1 0 1 rfl fullShare (val m ρ 0 (up 1 c) 1 1))
  isplitl [Hslot]; · iexact Hslot
  iintro Hslot

  iapply (wp_load_sub c 1 (chk 1 c 1) 1 (off6_sub c 1) fullShare (xb m ρ c 1 (chk 1 c 1) 1))
  isplitl [Hown]; · iexact Hown
  iintro Hown

  iapply (wp_store_sub c 1 (chk 1 c 1) 1 (off6_sub c 1) (xb m ρ c 1 (chk 1 c 1) 1) _)
  isplitl [Hown]; · iexact Hown
  iintro Hown
  unfold WP; rw [wp_ret]; imodintro
  iapply Hk
  isplitl [Hslot]; · iexact Hslot
  rw [show val m ρ 1 c 1 1 = acc (xb m ρ c 1 (chk 1 c 1) 1) (val m ρ 0 (up 1 c) 1 1) from val_acc m ρ 0 (by decide) c 1 1,
    ← pay13_eq_acc]
  iexact Hown

end Cert.KernelProof

end
-- ==== Proof.KernelPart13.lean ====
import proofs.«900326_g7700000000000327_dist_treered_v7x_i4_m2048_n1024_bf16_1_alg».proof.Proof.KernelGather

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part13 (K : Dev nD × CellIx → ℕ) (c : Dev nD) (v2 v13 : BitVec 32) (W : Waits sig Unit)
    (u : Vec F S128x1024 .bf16) {Φ : (Σ' (_ : BitVec 32) (_ : BitVec 32), FVec F S128x1024 .bf16) → sProp 𝕄} :
    iprop(records m ρ K ∗ (levAts L lv : sProp 𝕄) ∗ dutyTok ER (sendCell c 1 1 1) 0 false
        ∗ dutyTok ER (recvCell (prv c) 1 1 1) 0 false ∗ owes (c : Thread nD τ) (owedFrom c 17) W ∗ srcBlk m ρ c 1 1 1
        ∗ slot (prv c) 1 1 1 u ∗ srcBlk m ρ (up 1 c) 1 0 1 ∗ cred (tallyAt (recvCell c 0 1 0) () N)
        ∗ atPos ER (recvCell c 0 1 0) 0 ∅ 0 ∗ ownsTc c (sub 0 (chk 0 c 2) 0) fullShare (xb m ρ c 0 (chk 0 c 2) 0)
        ∗ (∀ (a b : BitVec 32), ((cred (tallyAt (sendCell c 1 1 1) () N)
              ∗ owes (c : Thread nD τ) (owedFrom c 16) (insert (SemLoc.dma (recvS 0 1 0).sem, ()) W)
              ∗ atPos ER (recvCell c 0 1 0) 1 ∅ 0
              ∗ slot c 0 1 0 (val m ρ 1 (up 0 c) 0 0) ∗ srcBlk m ρ (up 0 c) 0 1 0 ∗ srcBlk m ρ (up 0 (up 0 c)) 0 0 0
              ∗ ownsTc c (sub 0 (chk 0 c 2) 0) fullShare (xb m ρ c 0 (chk 0 c 2) 0))
            -∗ Φ ⟨a, b, k0_pay14 (xb m ρ c 0 (chk 0 c 2) 0)⟩)))
      ⊢ WP c (atBufs k0_part13 c v2 v13) Φ := by
  simp only [atBufs, k0_part13_eq_skeleton]; unfold k0_part13_skel
  simp only [Prog.lift, Prog.bind_op, Prog.bind_ret, Prog.pure_eq_ret]
  iintro ⟨#Hrec, #HL, Hts, Htr, HO, Hsrc, Hdst, Hr0, Hcw, Hat, Hown, Hk⟩
  unfold srcBlk slot
  have h7 : k0_off7 c 1024#32 1#32 128#32 = subOff 1 (chk 1 c 1) 1 := off7_sub c 1
  have h4 : k0_off4 c 2#32 0#32 = subOff 0 (chk 0 c 2) 0 := off4_sub c 1 0

  iapply (wp_send_land_sub m ρ K c 1 1 1 _ (dev10_eq c) (chk 1 c 1) h7 (rb 1 1 1) rfl (val m ρ 1 c 1 1) u
      (srcBlk m ρ (up 1 c) 1 0 1) (owedFrom c 16) W
      (by
        unfold recvPay slot srcBlk
        rw [show up 1 (dn 1 c) = c from up_dn 1 c]
        iintro ⟨⟨H1, H2⟩, H4⟩
        isplitl [H1]; · iexact H1
        isplitl [H4]; · iexact H4
        iexact H2)
      (by unfold sendPay; rw [if_pos (by decide)])) $$ [Hts Htr HO Hsrc Hdst Hr0]
  · isplitr; · iexact Hrec
    isplitl [Hsrc]; · iexact Hsrc
    isplitl [Hdst]; · iexact Hdst
    isplitl [Hr0]; · unfold srcBlk; iexact Hr0
    isplitl [HO]; · iexact HO
    isplitl [Hts]; · iexact Hts
    iexact Htr
  iintro ⟨Hcs, HO⟩

  iapply (wp_wait_recv m ρ K c 0 1 0 (rb_credit 0 1 0) (owedFrom c 16) W) $$ [Hcw HO Hat]
  · isplitr; · iexact Hrec
    isplitl [Hcw]; · iexact Hcw
    isplitl [HO]; · iexact HO
    isplitr
    · iapply (mayWait_recv c 0 1 0 16 (by decide)); iexact HL
    iexact Hat
  unfold recvPay slot srcBlk
  iintro ⟨HO, Hat, Hslot, Hs1, Hs0⟩

  iapply (wp_load_sub c 0 (chk 0 c 2) 0 h4 fullShare (xb m ρ c 0 (chk 0 c 2) 0))
  isplitl [Hown]; · iexact Hown
  iintro Hown
  unfold WP; rw [wp_ret]; imodintro
  iapply Hk
  isplitl [Hcs]; · iexact Hcs
  isplitl [HO]; · iexact HO
  isplitl [Hat]; · iexact Hat
  isplitl [Hslot]; · iexact Hslot
  isplitl [Hs1]; · iexact Hs1
  isplitl [Hs0]; · iexact Hs0
  iexact Hown

end Cert.KernelProof

end
-- ==== Proof.KernelPart14.lean ====
import proofs.«900326_g7700000000000327_dist_treered_v7x_i4_m2048_n1024_bf16_1_alg».proof.Proof.KernelGather

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part14 (K : Dev nD × CellIx → ℕ) (c : Dev nD) (v13 v24 v367 v370 : BitVec 32) (W : Waits sig Unit)
    (u : Vec F S128x1024 .bf16) {Φ : PUnit → sProp 𝕄} :
    iprop(records m ρ K ∗ dutyTok ER (sendCell c 0 2 0) 0 false ∗ dutyTok ER (recvCell (nxt c) 0 2 0) 0 false
        ∗ owes (c : Thread nD τ) (owedFrom c 16) W ∗ slot c 0 1 0 (val m ρ 1 (up 0 c) 0 0)
        ∗ ownsTc c (sub 0 (chk 0 c 2) 0) fullShare (xb m ρ c 0 (chk 0 c 2) 0) ∗ slot (nxt c) 0 2 0 u
        ∗ srcBlk m ρ (up 0 c) 0 1 0 ∗ srcBlk m ρ (up 0 (up 0 c)) 0 0 0
        ∗ ((slot c 0 1 0 (val m ρ 1 (up 0 c) 0 0) ∗ cred (tallyAt (sendCell c 0 2 0) () N)
              ∗ owes (c : Thread nD τ) (owedFrom c 15) W) -∗ Φ ⟨⟩))
      ⊢ WP c (atBufs k0_part14 c v13 v24 v367 v370 (k0_pay14 (xb m ρ c 0 (chk 0 c 2) 0))) Φ := by
  simp only [atBufs, k0_part14_eq_skeleton]; unfold k0_part14_skel
  simp only [Prog.lift, Prog.bind_op, Prog.bind_ret, Prog.pure_eq_ret]
  iintro ⟨#Hrec, Hts, Htr, HO, Hslot, Hown, Hdst, Hr1, Hr0, Hk⟩
  unfold srcBlk slot
  have h4 : k0_off4 c 2#32 0#32 = subOff 0 (chk 0 c 2) 0 := off4_sub c 1 0
  have h5 : k0_off5 c 2#32 0#32 = subOff 0 (chk 0 c 2) 0 := off5_sub c 1 0

  iapply (wp_load_rb c 0 1 0 rfl fullShare (val m ρ 1 (up 0 c) 0 0))
  isplitl [Hslot]; · iexact Hslot
  iintro Hslot

  iapply (wp_load_sub c 0 (chk 0 c 2) 0 h4 fullShare (xb m ρ c 0 (chk 0 c 2) 0))
  isplitl [Hown]; · iexact Hown
  iintro Hown

  iapply (wp_store_sub c 0 (chk 0 c 2) 0 h4 (xb m ρ c 0 (chk 0 c 2) 0) _)
  isplitl [Hown]; · iexact Hown
  iintro Hown

  iapply (wp_send_land_sub m ρ K c 0 2 0 _ (dev11_eq c) (chk 0 c 2) h5 (rb 0 2 0) rfl (val m ρ 2 c 0 0) u
      iprop(srcBlk m ρ (up 0 c) 0 1 0 ∗ srcBlk m ρ (up 0 (up 0 c)) 0 0 0) (owedFrom c 15) W
      (by
        unfold recvPay slot srcBlk
        rw [show up 0 (dn 0 c) = c from up_dn 0 c]
        iintro ⟨⟨H1, H2, H3⟩, H4⟩
        isplitl [H1]; · iexact H1
        isplitl [H4]; · iexact H4
        isplitl [H2]; · iexact H2
        iexact H3)
      (by unfold sendPay; rw [if_pos (by decide)])) $$ [Hts Htr HO Hown Hdst Hr1 Hr0]
  · isplitr; · iexact Hrec
    isplitl [Hown]
    ·
      rw [show val m ρ 2 c 0 0 = k0_pay15 (k0_pay14 (xb m ρ c 0 (chk 0 c 2) 0)) (slotRead (val m ρ 1 (up 0 c) 0 0))
        from val_acc m ρ 1 (by decide) c 0 0]
      iexact Hown
    isplitl [Hdst]; · iexact Hdst
    isplitl [Hr1 Hr0]
    · unfold srcBlk
      isplitl [Hr1]; · iexact Hr1
      iexact Hr0
    isplitl [HO]; · iexact HO
    isplitl [Hts]; · iexact Hts
    iexact Htr
  iintro ⟨Hcs, HO⟩
  unfold WP; rw [wp_ret]; imodintro
  iapply Hk
  isplitl [Hslot]; · iexact Hslot
  isplitl [Hcs]; · iexact Hcs
  iexact HO

end Cert.KernelProof

end
-- ==== Proof.KernelPart15.lean ====
import proofs.«900326_g7700000000000327_dist_treered_v7x_i4_m2048_n1024_bf16_1_alg».proof.Proof.KernelGather

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part15 (K : Dev nD × CellIx → ℕ) (c : Dev nD) (v2 : BitVec 32) (W : Waits sig Unit) {Φ : BitVec 32 → sProp 𝕄} :
    iprop(records m ρ K ∗ (levAts L lv : sProp 𝕄) ∗ owes (c : Thread nD τ) (owedFrom c 15) W
        ∗ cred (tallyAt (recvCell c 1 1 0) () N) ∗ atPos ER (recvCell c 1 1 0) 0 ∅ 0
        ∗ ownsTc c (sub 1 (chk 1 c 2) 0) fullShare (xb m ρ c 1 (chk 1 c 2) 0)
        ∗ ((owes (c : Thread nD τ) (owedFrom c 15) (insert (SemLoc.dma (recvS 1 1 0).sem, ()) W)
              ∗ atPos ER (recvCell c 1 1 0) 1 ∅ 0
              ∗ slot c 1 1 0 (val m ρ 1 (up 1 c) 1 0) ∗ srcBlk m ρ (up 1 c) 1 1 0 ∗ srcBlk m ρ (up 1 (up 1 c)) 1 0 0
              ∗ srcBlk m ρ c 1 2 0) -∗ Φ 1#32))
      ⊢ WP c (atBufs k0_part15 c v2) Φ := by
  simp only [atBufs, k0_part15_eq_skeleton]; unfold k0_part15_skel
  simp only [Prog.lift, Prog.bind_op, Prog.bind_ret, Prog.pure_eq_ret]
  iintro ⟨#Hrec, #HL, HO, Hcw, Hat, Hown, Hk⟩
  unfold srcBlk slot
  have h6 : k0_off6 c 1024#32 2#32 0#32 = subOff 1 (chk 1 c 2) 0 := off6_sub c 2

  iapply (wp_wait_recv m ρ K c 1 1 0 (rb_credit 1 1 0) (owedFrom c 15) W) $$ [Hcw HO Hat]
  · isplitr; · iexact Hrec
    isplitl [Hcw]; · iexact Hcw
    isplitl [HO]; · iexact HO
    isplitr
    · iapply (mayWait_recv c 1 1 0 15 (by decide)); iexact HL
    iexact Hat
  unfold recvPay slot srcBlk
  iintro ⟨HO, Hat, Hslot, Hs1, Hs0⟩

  iapply (wp_load_sub c 1 (chk 1 c 2) 0 h6 fullShare (xb m ρ c 1 (chk 1 c 2) 0))
  isplitl [Hown]; · iexact Hown
  iintro Hown

  iapply (wp_load_rb c 1 1 0 rfl fullShare (val m ρ 1 (up 1 c) 1 0))
  isplitl [Hslot]; · iexact Hslot
  iintro Hslot
  iapply (wp_load_sub c 1 (chk 1 c 2) 0 h6 fullShare (xb m ρ c 1 (chk 1 c 2) 0))
  isplitl [Hown]; · iexact Hown
  iintro Hown

  iapply (wp_store_sub c 1 (chk 1 c 2) 0 h6 (xb m ρ c 1 (chk 1 c 2) 0) _)
  isplitl [Hown]; · iexact Hown
  iintro Hown
  unfold WP; rw [wp_ret]; imodintro
  iapply Hk
  isplitl [HO]; · iexact HO
  isplitl [Hat]; · iexact Hat
  isplitl [Hslot]; · iexact Hslot
  isplitl [Hs1]; · iexact Hs1
  isplitl [Hs0]; · iexact Hs0

  rw [show val m ρ 2 c 1 0 = k0_pay16 (xb m ρ c 1 (chk 1 c 2) 0) (slotRead (val m ρ 1 (up 1 c) 1 0))
    from val_acc m ρ 1 (by decide) c 1 0]
  iexact Hown

end Cert.KernelProof

end
-- ==== Proof.KernelPart16.lean ====
import proofs.«900326_g7700000000000327_dist_treered_v7x_i4_m2048_n1024_bf16_1_alg».proof.Proof.KernelGather

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part16 (K : Dev nD × CellIx → ℕ) (c : Dev nD) (v2 v13 v24 c1 : BitVec 32) (W : Waits sig Unit)
    (u : Vec F S128x1024 .bf16) {Φ : (Σ' (_ : BitVec 32), BitVec 32) → sProp 𝕄} :
    iprop(records m ρ K ∗ (levAts L lv : sProp 𝕄) ∗ dutyTok ER (sendCell c 1 2 0) 0 false
        ∗ dutyTok ER (recvCell (prv c) 1 2 0) 0 false ∗ owes (c : Thread nD τ) (owedFrom c 15) W ∗ srcBlk m ρ c 1 2 0
        ∗ slot (prv c) 1 2 0 u ∗ srcBlk m ρ (up 1 c) 1 1 0 ∗ srcBlk m ρ (up 1 (up 1 c)) 1 0 0
        ∗ cred (tallyAt (recvCell c 0 1 1) () N) ∗ atPos ER (recvCell c 0 1 1) 0 ∅ 0
        ∗ (∀ (a b : BitVec 32), ((cred (tallyAt (sendCell c 1 2 0) () N)
              ∗ owes (c : Thread nD τ) (owedFrom c 14) (insert (SemLoc.dma (recvS 0 1 1).sem, ()) W)
              ∗ atPos ER (recvCell c 0 1 1) 1 ∅ 0
              ∗ slot c 0 1 1 (val m ρ 1 (up 0 c) 0 1) ∗ srcBlk m ρ (up 0 c) 0 1 1 ∗ srcBlk m ρ (up 0 (up 0 c)) 0 0 1)
            -∗ Φ ⟨a, b⟩)))
      ⊢ WP c (atBufs k0_part16 c v2 v13 v24 c1) Φ := by
  simp only [atBufs, k0_part16_eq_skeleton]; unfold k0_part16_skel
  simp only [Prog.lift, Prog.bind_op, Prog.bind_ret, Prog.pure_eq_ret]
  iintro ⟨#Hrec, #HL, Hts, Htr, HO, Hsrc, Hdst, Hr1, Hr0, Hcw, Hat, Hk⟩
  unfold srcBlk slot
  have h7 : k0_off7 c 1024#32 2#32 0#32 = subOff 1 (chk 1 c 2) 0 := off7_sub c 2

  iapply (wp_send_land_sub m ρ K c 1 2 0 _ (dev12_eq c) (chk 1 c 2) h7 (rb 1 2 0) rfl (val m ρ 2 c 1 0) u
      iprop(srcBlk m ρ (up 1 c) 1 1 0 ∗ srcBlk m ρ (up 1 (up 1 c)) 1 0 0) (owedFrom c 14) W
      (by
        unfold recvPay slot srcBlk
        rw [show up 1 (dn 1 c) = c from up_dn 1 c]
        iintro ⟨⟨H1, H2, H3⟩, H4⟩
        isplitl [H1]; · iexact H1
        isplitl [H4]; · iexact H4
        isplitl [H2]; · iexact H2
        iexact H3)
      (by unfold sendPay; rw [if_pos (by decide)])) $$ [Hts Htr HO Hsrc Hdst Hr1 Hr0]
  · isplitr; · iexact Hrec
    isplitl [Hsrc]; · iexact Hsrc
    isplitl [Hdst]; · iexact Hdst
    isplitl [Hr1 Hr0]
    · unfold srcBlk
      isplitl [Hr1]; · iexact Hr1
      iexact Hr0
    isplitl [HO]; · iexact HO
    isplitl [Hts]; · iexact Hts
    iexact Htr
  iintro ⟨Hcs, HO⟩

  iapply (wp_wait_recv m ρ K c 0 1 1 (rb_credit 0 1 1) (owedFrom c 14) W) $$ [Hcw HO Hat]
  · isplitr; · iexact Hrec
    isplitl [Hcw]; · iexact Hcw
    isplitl [HO]; · iexact HO
    isplitr
    · iapply (mayWait_recv c 0 1 1 14 (by decide)); iexact HL
    iexact Hat
  unfold recvPay slot srcBlk
  iintro ⟨HO, Hat, Hslot, Hs1, Hs0⟩
  unfold WP; rw [wp_ret]; imodintro
  iapply Hk
  isplitl [Hcs]; · iexact Hcs
  isplitl [HO]; · iexact HO
  isplitl [Hat]; · iexact Hat
  isplitl [Hslot]; · iexact Hslot
  isplitl [Hs1]; · iexact Hs1
  iexact Hs0

end Cert.KernelProof

end
-- ==== Proof.KernelPart17.lean ====
import proofs.«900326_g7700000000000327_dist_treered_v7x_i4_m2048_n1024_bf16_1_alg».proof.Proof.KernelGather

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part17 (K : Dev nD × CellIx → ℕ) (c : Dev nD) (v13 v24 v449 v452 : BitVec 32) (W : Waits sig Unit)
    (u : Vec F S128x1024 .bf16) {Φ : PUnit → sProp 𝕄} :
    iprop(records m ρ K ∗ dutyTok ER (sendCell c 0 2 1) 0 false ∗ dutyTok ER (recvCell (nxt c) 0 2 1) 0 false
        ∗ owes (c : Thread nD τ) (owedFrom c 14) W
        ∗ ownsTc c (sub 0 (chk 0 c 2) 1) fullShare (xb m ρ c 0 (chk 0 c 2) 1) ∗ slot c 0 1 1 (val m ρ 1 (up 0 c) 0 1)
        ∗ slot (nxt c) 0 2 1 u ∗ srcBlk m ρ (up 0 c) 0 1 1 ∗ srcBlk m ρ (up 0 (up 0 c)) 0 0 1
        ∗ ((slot c 0 1 1 (val m ρ 1 (up 0 c) 0 1) ∗ cred (tallyAt (sendCell c 0 2 1) () N)
              ∗ owes (c : Thread nD τ) (owedFrom c 13) W) -∗ Φ ⟨⟩))
      ⊢ WP c (atBufs k0_part17 c v13 v24 v449 v452) Φ := by
  simp only [atBufs, k0_part17_eq_skeleton]; unfold k0_part17_skel
  simp only [Prog.lift, Prog.bind_op, Prog.bind_ret, Prog.pure_eq_ret]
  iintro ⟨#Hrec, Hts, Htr, HO, Hown, Hslot, Hdst, Hr1, Hr0, Hk⟩
  unfold srcBlk slot
  have h4 : k0_off4 c 2#32 128#32 = subOff 0 (chk 0 c 2) 1 := off4_sub c 1 1
  have h5 : k0_off5 c 2#32 128#32 = subOff 0 (chk 0 c 2) 1 := off5_sub c 1 1

  iapply (wp_load_sub c 0 (chk 0 c 2) 1 h4 fullShare (xb m ρ c 0 (chk 0 c 2) 1))
  isplitl [Hown]; · iexact Hown
  iintro Hown

  iapply (wp_load_rb c 0 1 1 rfl fullShare (val m ρ 1 (up 0 c) 0 1))
  isplitl [Hslot]; · iexact Hslot
  iintro Hslot
  iapply (wp_load_sub c 0 (chk 0 c 2) 1 h4 fullShare (xb m ρ c 0 (chk 0 c 2) 1))
  isplitl [Hown]; · iexact Hown
  iintro Hown

  iapply (wp_store_sub c 0 (chk 0 c 2) 1 h4 (xb m ρ c 0 (chk 0 c 2) 1) _)
  isplitl [Hown]; · iexact Hown
  iintro Hown

  iapply (wp_send_land_sub m ρ K c 0 2 1 _ (dev13_eq c) (chk 0 c 2) h5 (rb 0 2 1) rfl (val m ρ 2 c 0 1) u
      iprop(srcBlk m ρ (up 0 c) 0 1 1 ∗ srcBlk m ρ (up 0 (up 0 c)) 0 0 1) (owedFrom c 13) W
      (by
        unfold recvPay slot srcBlk
        rw [show up 0 (dn 0 c) = c from up_dn 0 c]
        iintro ⟨⟨H1, H2, H3⟩, H4⟩
        isplitl [H1]; · iexact H1
        isplitl [H4]; · iexact H4
        isplitl [H2]; · iexact H2
        iexact H3)
      (by unfold sendPay; rw [if_pos (by decide)])) $$ [Hts Htr HO Hown Hdst Hr1 Hr0]
  · isplitr; · iexact Hrec
    isplitl [Hown]
    ·
      rw [show val m ρ 2 c 0 1 = k0_pay17 (xb m ρ c 0 (chk 0 c 2) 1) (slotRead (val m ρ 1 (up 0 c) 0 1))
        from val_acc m ρ 1 (by decide) c 0 1]
      iexact Hown
    isplitl [Hdst]; · iexact Hdst
    isplitl [Hr1 Hr0]
    · unfold srcBlk
      isplitl [Hr1]; · iexact Hr1
      iexact Hr0
    isplitl [HO]; · iexact HO
    isplitl [Hts]; · iexact Hts
    iexact Htr
  iintro ⟨Hcs, HO⟩
  unfold WP; rw [wp_ret]; imodintro
  iapply Hk
  isplitl [Hslot]; · iexact Hslot
  isplitl [Hcs]; · iexact Hcs
  iexact HO

end Cert.KernelProof

end
-- ==== Proof.KernelPart18.lean ====
import proofs.«900326_g7700000000000327_dist_treered_v7x_i4_m2048_n1024_bf16_1_alg».proof.Proof.KernelGather

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part18 (K : Dev nD × CellIx → ℕ) (c : Dev nD) (v2 : BitVec 32) (W : Waits sig Unit) {Φ : PUnit → sProp 𝕄} :
    iprop(records m ρ K ∗ (levAts L lv : sProp 𝕄) ∗ owes (c : Thread nD τ) (owedFrom c 13) W
        ∗ cred (tallyAt (recvCell c 1 1 1) () N) ∗ atPos ER (recvCell c 1 1 1) 0 ∅ 0
        ∗ ownsTc c (sub 1 (chk 1 c 2) 1) fullShare (xb m ρ c 1 (chk 1 c 2) 1)
        ∗ ((owes (c : Thread nD τ) (owedFrom c 13) (insert (SemLoc.dma (recvS 1 1 1).sem, ()) W)
              ∗ atPos ER (recvCell c 1 1 1) 1 ∅ 0
              ∗ slot c 1 1 1 (val m ρ 1 (up 1 c) 1 1) ∗ srcBlk m ρ (up 1 c) 1 1 1 ∗ srcBlk m ρ (up 1 (up 1 c)) 1 0 1
              ∗ srcBlk m ρ c 1 2 1) -∗ Φ ⟨⟩))
      ⊢ WP c (atBufs k0_part18 c v2) Φ := by
  simp only [atBufs, k0_part18_eq_skeleton]; unfold k0_part18_skel
  simp only [Prog.lift, Prog.bind_op, Prog.bind_ret, Prog.pure_eq_ret]
  iintro ⟨#Hrec, #HL, HO, Hcw, Hat, Hown, Hk⟩
  unfold srcBlk slot
  have h6 : k0_off6 c 1024#32 2#32 128#32 = subOff 1 (chk 1 c 2) 1 := off6_sub c 3

  iapply (wp_wait_recv m ρ K c 1 1 1 (rb_credit 1 1 1) (owedFrom c 13) W) $$ [Hcw HO Hat]
  · isplitr; · iexact Hrec
    isplitl [Hcw]; · iexact Hcw
    isplitl [HO]; · iexact HO
    isplitr
    · iapply (mayWait_recv c 1 1 1 13 (by decide)); iexact HL
    iexact Hat
  unfold recvPay slot srcBlk
  iintro ⟨HO, Hat, Hslot, Hs1, Hs0⟩

  iapply (wp_load_sub c 1 (chk 1 c 2) 1 h6 fullShare (xb m ρ c 1 (chk 1 c 2) 1))
  isplitl [Hown]; · iexact Hown
  iintro Hown

  iapply (wp_load_rb c 1 1 1 rfl fullShare (val m ρ 1 (up 1 c) 1 1))
  isplitl [Hslot]; · iexact Hslot
  iintro Hslot
  iapply (wp_load_sub c 1 (chk 1 c 2) 1 h6 fullShare (xb m ρ c 1 (chk 1 c 2) 1))
  isplitl [Hown]; · iexact Hown
  iintro Hown

  iapply (wp_store_sub c 1 (chk 1 c 2) 1 h6 (xb m ρ c 1 (chk 1 c 2) 1) _)
  isplitl [Hown]; · iexact Hown
  iintro Hown
  unfold WP; rw [wp_ret]; imodintro
  iapply Hk
  isplitl [HO]; · iexact HO
  isplitl [Hat]; · iexact Hat
  isplitl [Hslot]; · iexact Hslot
  isplitl [Hs1]; · iexact Hs1
  isplitl [Hs0]; · iexact Hs0

  rw [show val m ρ 2 c 1 1 = k0_pay18 (xb m ρ c 1 (chk 1 c 2) 1) (slotRead (val m ρ 1 (up 1 c) 1 1))
    from val_acc m ρ 1 (by decide) c 1 1]
  iexact Hown

end Cert.KernelProof

end
-- ==== Proof.KernelPart19.lean ====
import proofs.«900326_g7700000000000327_dist_treered_v7x_i4_m2048_n1024_bf16_1_alg».proof.Proof.KernelGather

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part19 (K : Dev nD × CellIx → ℕ) (c : Dev nD) (v2 v13 v24 : BitVec 32) (W : Waits sig Unit)
    (u : Vec F S128x1024 .bf16) {Φ : (Σ' (_ : BitVec 32), BitVec 32) → sProp 𝕄} :
    iprop(records m ρ K ∗ (levAts L lv : sProp 𝕄) ∗ dutyTok ER (sendCell c 1 2 1) 0 false
        ∗ dutyTok ER (recvCell (prv c) 1 2 1) 0 false ∗ owes (c : Thread nD τ) (owedFrom c 13) W ∗ srcBlk m ρ c 1 2 1
        ∗ slot (prv c) 1 2 1 u ∗ srcBlk m ρ (up 1 c) 1 1 1 ∗ srcBlk m ρ (up 1 (up 1 c)) 1 0 1
        ∗ cred (tallyAt (recvCell c 0 2 0) () N) ∗ atPos ER (recvCell c 0 2 0) 0 ∅ 0
        ∗ (∀ (a b : BitVec 32), ((cred (tallyAt (sendCell c 1 2 1) () N)
              ∗ owes (c : Thread nD τ) (owedFrom c 12) (insert (SemLoc.dma (recvS 0 2 0).sem, ()) W)
              ∗ atPos ER (recvCell c 0 2 0) 1 ∅ 0
              ∗ slot c 0 2 0 (val m ρ 2 (up 0 c) 0 0) ∗ srcBlk m ρ (up 0 c) 0 2 0 ∗ srcBlk m ρ (up 0 (up 0 c)) 0 1 0
              ∗ srcBlk m ρ (up 0 (up 0 (up 0 c))) 0 0 0)
            -∗ Φ ⟨a, b⟩)))
      ⊢ WP c (atBufs k0_part19 c v2 v13 v24) Φ := by
  simp only [atBufs, k0_part19_eq_skeleton]; unfold k0_part19_skel
  simp only [Prog.lift, Prog.bind_op, Prog.bind_ret, Prog.pure_eq_ret]
  iintro ⟨#Hrec, #HL, Hts, Htr, HO, Hsrc, Hdst, Hr1, Hr0, Hcw, Hat, Hk⟩
  unfold srcBlk slot
  have h7 : k0_off7 c 1024#32 2#32 128#32 = subOff 1 (chk 1 c 2) 1 := off7_sub c 3

  iapply (wp_send_land_sub m ρ K c 1 2 1 _ (dev14_eq c) (chk 1 c 2) h7 (rb 1 2 1) rfl (val m ρ 2 c 1 1) u
      iprop(srcBlk m ρ (up 1 c) 1 1 1 ∗ srcBlk m ρ (up 1 (up 1 c)) 1 0 1) (owedFrom c 12) W
      (by
        unfold recvPay slot srcBlk
        rw [show up 1 (dn 1 c) = c from up_dn 1 c]
        iintro ⟨⟨H1, H2, H3⟩, H4⟩
        isplitl [H1]; · iexact H1
        isplitl [H4]; · iexact H4
        isplitl [H2]; · iexact H2
        iexact H3)
      (by unfold sendPay; rw [if_pos (by decide)])) $$ [Hts Htr HO Hsrc Hdst Hr1 Hr0]
  · isplitr; · iexact Hrec
    isplitl [Hsrc]; · iexact Hsrc
    isplitl [Hdst]; · iexact Hdst
    isplitl [Hr1 Hr0]
    · unfold srcBlk
      isplitl [Hr1]; · iexact Hr1
      iexact Hr0
    isplitl [HO]; · iexact HO
    isplitl [Hts]; · iexact Hts
    iexact Htr
  iintro ⟨Hcs, HO⟩

  iapply (wp_wait_recv m ρ K c 0 2 0 (rb_credit 0 2 0) (owedFrom c 12) W) $$ [Hcw HO Hat]
  · isplitr; · iexact Hrec
    isplitl [Hcw]; · iexact Hcw
    isplitl [HO]; · iexact HO
    isplitr
    · iapply (mayWait_recv c 0 2 0 12 (by decide)); iexact HL
    iexact Hat
  unfold recvPay slot srcBlk
  iintro ⟨HO, Hat, Hslot, Hs2, Hs1, Hs0⟩
  unfold WP; rw [wp_ret]; imodintro
  iapply Hk
  isplitl [Hcs]; · iexact Hcs
  isplitl [HO]; · iexact HO
  isplitl [Hat]; · iexact Hat
  isplitl [Hslot]; · iexact Hslot
  isplitl [Hs2]; · iexact Hs2
  isplitl [Hs1]; · iexact Hs1
  iexact Hs0

end Cert.KernelProof

end
-- ==== Proof.KernelPart20.lean ====
import proofs.«900326_g7700000000000327_dist_treered_v7x_i4_m2048_n1024_bf16_1_alg».proof.Proof.KernelGather

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part20 (K : Dev nD × CellIx → ℕ) (c : Dev nD) (v13 v24 v531 v532 : BitVec 32) (W : Waits sig Unit) {Φ : PUnit → sProp 𝕄} :
    iprop(records m ρ K ∗ ownsTc c (sub 0 (chk 0 c 3) 0) fullShare (xb m ρ c 0 (chk 0 c 3) 0)
        ∗ slot c 0 2 0 (val m ρ 2 (up 0 c) 0 0) ∗ dutyTok ER (sendCell c 0 3 0) 0 false
        ∗ dutyTok ER (recvCell (nxt c) 0 3 0) 0 false ∗ owes (c : Thread nD τ) (owedFrom c 12) W
        ∗ srcBlk m ρ (up 0 c) 0 2 0 ∗ srcBlk m ρ (up 0 (up 0 c)) 0 1 0 ∗ srcBlk m ρ (up 0 (up 0 (up 0 c))) 0 0 0
        ∗ ((slot c 0 2 0 (val m ρ 2 (up 0 c) 0 0) ∗ cred (tallyAt (sendCell c 0 3 0) () N)
              ∗ owes (c : Thread nD τ) (owedFrom c 11) W) -∗ Φ ⟨⟩))
      ⊢ WP c (atBufs k0_part20 c v13 v24 v531 v532) Φ := by
  simp only [atBufs, k0_part20_eq_skeleton]; unfold k0_part20_skel
  simp only [Prog.lift, Prog.bind_op, Prog.bind_ret, Prog.pure_eq_ret]
  iintro ⟨#Hrec, Hown, Hslot, Hts, Htr, HO, Hr2, Hr1, Hdst, Hk⟩
  have h6 : k0_off6 c 0#32 1#32 0#32 = subOff 0 (chk 0 c 3) 0 := off6_sub c 4
  have h7 : k0_off7 c 0#32 1#32 0#32 = subOff 0 (chk 0 c 3) 0 := off7_sub c 4
  unfold slot

  iapply (wp_load_sub c 0 (chk 0 c 3) 0 h6 fullShare (xb m ρ c 0 (chk 0 c 3) 0))
  isplitl [Hown]; · iexact Hown
  iintro Hown
  iapply (wp_load_rb c 0 2 0 rfl fullShare (val m ρ 2 (up 0 c) 0 0))
  isplitl [Hslot]; · iexact Hslot
  iintro Hslot
  iapply (wp_load_sub c 0 (chk 0 c 3) 0 h6 fullShare (xb m ρ c 0 (chk 0 c 3) 0))
  isplitl [Hown]; · iexact Hown
  iintro Hown

  iapply (wp_store_sub c 0 (chk 0 c 3) 0 h6 (xb m ρ c 0 (chk 0 c 3) 0)
      (acc (xb m ρ c 0 (chk 0 c 3) 0) (val m ρ 2 (up 0 c) 0 0)))
  isplitl [Hown]; · iexact Hown
  iintro Hown

  iapply (wp_send_ret_sub m ρ K c 0 3 0 _ (dev15_eq c) (chk 0 c 3) h7 (val m ρ 3 c 0 0) (val m ρ 0 (dn 0 c) 0 0)
      iprop(srcBlk m ρ (up 0 c) 0 2 0 ∗ srcBlk m ρ (up 0 (up 0 c)) 0 1 0) (owedFrom c 11) W
      (recvPay3_intro m ρ c 0 0) (sendPay3_intro m ρ c 0 0)) $$ [Hts Htr HO Hown Hdst Hr2 Hr1]
  · isplitr; · iexact Hrec
    isplitl [Hown]; · iapply (src_of_sum m ρ c 0 0); iexact Hown
    isplitl [Hdst]; · iapply (dst_of_blk0 m ρ c 0 0); iexact Hdst
    isplitl [Hr2 Hr1]
    · isplitl [Hr2]; · iexact Hr2
      iexact Hr1
    isplitl [HO]; · iexact HO
    isplitl [Hts]; · iexact Hts
    iexact Htr
  iintro ⟨Hc, HO⟩
  unfold WP; rw [wp_ret]; imodintro
  iapply Hk
  isplitl [Hslot]; · iexact Hslot
  isplitl [Hc]; · iexact Hc
  iexact HO

end Cert.KernelProof

end
-- ==== Proof.KernelPart21.lean ====
import proofs.«900326_g7700000000000327_dist_treered_v7x_i4_m2048_n1024_bf16_1_alg».proof.Proof.KernelGather

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part21 (K : Dev nD × CellIx → ℕ) (c : Dev nD) (v2 : BitVec 32) (W : Waits sig Unit) {Φ : BitVec 32 → sProp 𝕄} :
    iprop(records m ρ K ∗ (levAts L lv : sProp 𝕄) ∗ cred (tallyAt (recvCell c 1 2 0) () N)
        ∗ owes (c : Thread nD τ) (owedFrom c 11) W ∗ atPos ER (recvCell c 1 2 0) 0 ∅ 0
        ∗ ownsTc c (sub 1 (chk 1 c 3) 0) fullShare (xb m ρ c 1 (chk 1 c 3) 0)
        ∗ ((owes (c : Thread nD τ) (owedFrom c 11) (insert (SemLoc.dma (recvS 1 2 0).sem, ()) W)
              ∗ atPos ER (recvCell c 1 2 0) 1 ∅ 0
              ∗ slot c 1 2 0 (val m ρ 2 (up 1 c) 1 0)
              ∗ srcBlk m ρ (up 1 c) 1 2 0 ∗ srcBlk m ρ (up 1 (up 1 c)) 1 1 0 ∗ srcBlk m ρ (up 1 (up 1 (up 1 c))) 1 0 0
              ∗ srcBlk m ρ c 1 3 0) -∗ Φ 1#32))
      ⊢ WP c (atBufs k0_part21 c v2) Φ := by
  simp only [atBufs, k0_part21_eq_skeleton]; unfold k0_part21_skel
  simp only [Prog.lift, Prog.bind_op, Prog.bind_ret, Prog.pure_eq_ret]
  iintro ⟨#Hrec, #HL, Hcr, HO, Hat, Hown, Hk⟩
  have h6 : k0_off6 c 1024#32 3#32 0#32 = subOff 1 (chk 1 c 3) 0 := off6_sub c 5
  unfold slot

  iapply (wp_wait_recv m ρ K c 1 2 0 (rb_credit 1 2 0) (owedFrom c 11) W) $$ [Hcr HO Hat]
  · isplitr; · iexact Hrec
    isplitl [Hcr]; · iexact Hcr
    isplitl [HO]; · iexact HO
    isplitr; · iapply (mayWait_recv c 1 2 0 11 (by decide)); iexact HL
    iexact Hat
  iintro ⟨HO, Hat, Hpay⟩
  ihave Hpay' := (show recvPay m ρ c 1 2 0 ⊢ iprop(ownsTc c (rb 1 2 0) fullShare (val m ρ 2 (up 1 c) 1 0)
      ∗ srcBlk m ρ (up 1 c) 1 2 0 ∗ srcBlk m ρ (up 1 (up 1 c)) 1 1 0 ∗ srcBlk m ρ (up 1 (up 1 (up 1 c))) 1 0 0) from .rfl) $$ Hpay
  icases Hpay' with ⟨Hslot, Hr2, Hr1, Hr0⟩

  iapply (wp_load_sub c 1 (chk 1 c 3) 0 h6 fullShare (xb m ρ c 1 (chk 1 c 3) 0))
  isplitl [Hown]; · iexact Hown
  iintro Hown
  iapply (wp_load_rb c 1 2 0 rfl fullShare (val m ρ 2 (up 1 c) 1 0))
  isplitl [Hslot]; · iexact Hslot
  iintro Hslot
  iapply (wp_load_sub c 1 (chk 1 c 3) 0 h6 fullShare (xb m ρ c 1 (chk 1 c 3) 0))
  isplitl [Hown]; · iexact Hown
  iintro Hown

  iapply (wp_store_sub c 1 (chk 1 c 3) 0 h6 (xb m ρ c 1 (chk 1 c 3) 0)
      (acc (xb m ρ c 1 (chk 1 c 3) 0) (val m ρ 2 (up 1 c) 1 0)))
  isplitl [Hown]; · iexact Hown
  iintro Hown
  unfold WP; rw [wp_ret]; imodintro
  iapply Hk
  isplitl [HO]; · iexact HO
  isplitl [Hat]; · iexact Hat
  isplitl [Hslot]; · iexact Hslot
  isplitl [Hr2]; · iexact Hr2
  isplitl [Hr1]; · iexact Hr1
  isplitl [Hr0]; · iexact Hr0
  iapply (srcBlk_of_sum m ρ c 1 0); iexact Hown

end Cert.KernelProof

end
-- ==== Proof.KernelPart22.lean ====
import proofs.«900326_g7700000000000327_dist_treered_v7x_i4_m2048_n1024_bf16_1_alg».proof.Proof.KernelGather

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part22 (K : Dev nD × CellIx → ℕ) (c : Dev nD) (v2 v13 v24 c1 : BitVec 32) (W : Waits sig Unit) {Φ : (Σ' (v611 : BitVec 32), BitVec 32) → sProp 𝕄} :
    iprop(records m ρ K ∗ (levAts L lv : sProp 𝕄) ∗ dutyTok ER (sendCell c 1 3 0) 0 false
        ∗ dutyTok ER (recvCell (prv c) 1 3 0) 0 false ∗ owes (c : Thread nD τ) (owedFrom c 11) W ∗ srcBlk m ρ c 1 3 0
        ∗ srcBlk m ρ (up 1 c) 1 2 0 ∗ srcBlk m ρ (up 1 (up 1 c)) 1 1 0 ∗ srcBlk m ρ (up 1 (up 1 (up 1 c))) 1 0 0
        ∗ cred (tallyAt (recvCell c 0 2 1) () N) ∗ atPos ER (recvCell c 0 2 1) 0 ∅ 0
        ∗ (∀ a b, (cred (tallyAt (sendCell c 1 3 0) () N)
              ∗ owes (c : Thread nD τ) (owedFrom c 10) (insert (SemLoc.dma (recvS 0 2 1).sem, ()) W)
              ∗ atPos ER (recvCell c 0 2 1) 1 ∅ 0
              ∗ slot c 0 2 1 (val m ρ 2 (up 0 c) 0 1)
              ∗ srcBlk m ρ (up 0 c) 0 2 1 ∗ srcBlk m ρ (up 0 (up 0 c)) 0 1 1 ∗ srcBlk m ρ (up 0 (up 0 (up 0 c))) 0 0 1) -∗ Φ ⟨a, b⟩))
      ⊢ WP c (atBufs k0_part22 c v2 v13 v24 c1) Φ := by
  simp only [atBufs, k0_part22_eq_skeleton]; unfold k0_part22_skel
  simp only [Prog.lift, Prog.bind_op, Prog.bind_ret, Prog.pure_eq_ret]
  iintro ⟨#Hrec, #HL, Hts, Htr, HO, Hsrc, Hr2, Hr1, Hdst, Hcr, Hat, Hk⟩
  have h7 : k0_off7 c 1024#32 3#32 0#32 = subOff 1 (chk 1 c 3) 0 := off7_sub c 5

  iapply (wp_send_ret_sub m ρ K c 1 3 0 _ (dev16_eq c) (chk 1 c 3) h7 (val m ρ 3 c 1 0) (val m ρ 0 (dn 1 c) 1 0)
      iprop(srcBlk m ρ (up 1 c) 1 2 0 ∗ srcBlk m ρ (up 1 (up 1 c)) 1 1 0) (owedFrom c 10) W
      (recvPay3_intro m ρ c 1 0) (sendPay3_intro m ρ c 1 0)) $$ [Hts Htr HO Hsrc Hdst Hr2 Hr1]
  · isplitr; · iexact Hrec
    isplitl [Hsrc]; · iapply (src_blk3 m ρ c 1 0); iexact Hsrc
    isplitl [Hdst]; · iapply (dst_of_blk0 m ρ c 1 0); iexact Hdst
    isplitl [Hr2 Hr1]
    · isplitl [Hr2]; · iexact Hr2
      iexact Hr1
    isplitl [HO]; · iexact HO
    isplitl [Hts]; · iexact Hts
    iexact Htr
  iintro ⟨Hc, HO⟩

  iapply (wp_wait_recv m ρ K c 0 2 1 (rb_credit 0 2 1) (owedFrom c 10) W) $$ [Hcr HO Hat]
  · isplitr; · iexact Hrec
    isplitl [Hcr]; · iexact Hcr
    isplitl [HO]; · iexact HO
    isplitr; · iapply (mayWait_recv c 0 2 1 10 (by decide)); iexact HL
    iexact Hat
  iintro ⟨HO, Hat, Hpay⟩
  ihave Hpay' := (show recvPay m ρ c 0 2 1 ⊢ iprop(slot c 0 2 1 (val m ρ 2 (up 0 c) 0 1) ∗ srcBlk m ρ (up 0 c) 0 2 1 ∗ srcBlk m ρ (up 0 (up 0 c)) 0 1 1 ∗ srcBlk m ρ (up 0 (up 0 (up 0 c))) 0 0 1) from .rfl) $$ Hpay
  icases Hpay' with ⟨Hp0, Hp1, Hp2, Hp3⟩
  unfold WP; rw [wp_ret]; imodintro
  iapply Hk
  isplitl [Hc]; · iexact Hc
  isplitl [HO]; · iexact HO
  isplitl [Hat]; · iexact Hat
  isplitl [Hp0]; · iexact Hp0
  isplitl [Hp1]; · iexact Hp1
  isplitl [Hp2]; · iexact Hp2
  iexact Hp3

end Cert.KernelProof

end
-- ==== Proof.KernelPart23.lean ====
import proofs.«900326_g7700000000000327_dist_treered_v7x_i4_m2048_n1024_bf16_1_alg».proof.Proof.KernelGather

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part23 (K : Dev nD × CellIx → ℕ) (c : Dev nD) (v13 v24 v611 v614 : BitVec 32) (W : Waits sig Unit) {Φ : PUnit → sProp 𝕄} :
    iprop(records m ρ K ∗ ownsTc c (sub 0 (chk 0 c 3) 1) fullShare (xb m ρ c 0 (chk 0 c 3) 1)
        ∗ slot c 0 2 1 (val m ρ 2 (up 0 c) 0 1) ∗ dutyTok ER (sendCell c 0 3 1) 0 false
        ∗ dutyTok ER (recvCell (nxt c) 0 3 1) 0 false ∗ owes (c : Thread nD τ) (owedFrom c 10) W
        ∗ srcBlk m ρ (up 0 c) 0 2 1 ∗ srcBlk m ρ (up 0 (up 0 c)) 0 1 1 ∗ srcBlk m ρ (up 0 (up 0 (up 0 c))) 0 0 1
        ∗ ((slot c 0 2 1 (val m ρ 2 (up 0 c) 0 1) ∗ cred (tallyAt (sendCell c 0 3 1) () N)
              ∗ owes (c : Thread nD τ) (owedFrom c 9) W) -∗ Φ ⟨⟩))
      ⊢ WP c (atBufs k0_part23 c v13 v24 v611 v614) Φ := by
  simp only [atBufs, k0_part23_eq_skeleton]; unfold k0_part23_skel
  simp only [Prog.lift, Prog.bind_op, Prog.bind_ret, Prog.pure_eq_ret]
  iintro ⟨#Hrec, Hown, Hslot, Hts, Htr, HO, Hr2, Hr1, Hdst, Hk⟩
  have h6 : k0_off6 c 0#32 1#32 128#32 = subOff 0 (chk 0 c 3) 1 := off6_sub c 6
  have h7 : k0_off7 c 0#32 1#32 128#32 = subOff 0 (chk 0 c 3) 1 := off7_sub c 6
  unfold slot

  iapply (wp_load_sub c 0 (chk 0 c 3) 1 h6 fullShare (xb m ρ c 0 (chk 0 c 3) 1))
  isplitl [Hown]; · iexact Hown
  iintro Hown
  iapply (wp_load_rb c 0 2 1 rfl fullShare (val m ρ 2 (up 0 c) 0 1))
  isplitl [Hslot]; · iexact Hslot
  iintro Hslot
  iapply (wp_load_sub c 0 (chk 0 c 3) 1 h6 fullShare (xb m ρ c 0 (chk 0 c 3) 1))
  isplitl [Hown]; · iexact Hown
  iintro Hown

  iapply (wp_store_sub c 0 (chk 0 c 3) 1 h6 (xb m ρ c 0 (chk 0 c 3) 1)
      (acc (xb m ρ c 0 (chk 0 c 3) 1) (val m ρ 2 (up 0 c) 0 1)))
  isplitl [Hown]; · iexact Hown
  iintro Hown

  iapply (wp_send_ret_sub m ρ K c 0 3 1 _ (dev17_eq c) (chk 0 c 3) h7 (val m ρ 3 c 0 1) (val m ρ 0 (dn 0 c) 0 1)
      iprop(srcBlk m ρ (up 0 c) 0 2 1 ∗ srcBlk m ρ (up 0 (up 0 c)) 0 1 1) (owedFrom c 9) W
      (recvPay3_intro m ρ c 0 1) (sendPay3_intro m ρ c 0 1)) $$ [Hts Htr HO Hown Hdst Hr2 Hr1]
  · isplitr; · iexact Hrec
    isplitl [Hown]; · iapply (src_of_sum m ρ c 0 1); iexact Hown
    isplitl [Hdst]; · iapply (dst_of_blk0 m ρ c 0 1); iexact Hdst
    isplitl [Hr2 Hr1]
    · isplitl [Hr2]; · iexact Hr2
      iexact Hr1
    isplitl [HO]; · iexact HO
    isplitl [Hts]; · iexact Hts
    iexact Htr
  iintro ⟨Hc, HO⟩
  unfold WP; rw [wp_ret]; imodintro
  iapply Hk
  isplitl [Hslot]; · iexact Hslot
  isplitl [Hc]; · iexact Hc
  iexact HO

end Cert.KernelProof

end
-- ==== Proof.KernelPart24.lean ====
import proofs.«900326_g7700000000000327_dist_treered_v7x_i4_m2048_n1024_bf16_1_alg».proof.Proof.KernelGather

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part24 (K : Dev nD × CellIx → ℕ) (c : Dev nD) (v2 v24 : BitVec 32) (W : Waits sig Unit) {Φ : PUnit → sProp 𝕄} :
    iprop(records m ρ K ∗ (levAts L lv : sProp 𝕄) ∗ cred (tallyAt (recvCell c 1 2 1) () N)
        ∗ owes (c : Thread nD τ) (owedFrom c 9) W ∗ atPos ER (recvCell c 1 2 1) 0 ∅ 0
        ∗ ownsTc c (sub 1 (chk 1 c 3) 1) fullShare (xb m ρ c 1 (chk 1 c 3) 1)
        ∗ ((owes (c : Thread nD τ) (owedFrom c 9) (insert (SemLoc.dma (recvS 1 2 1).sem, ()) W)
              ∗ atPos ER (recvCell c 1 2 1) 1 ∅ 0
              ∗ slot c 1 2 1 (val m ρ 2 (up 1 c) 1 1)
              ∗ srcBlk m ρ (up 1 c) 1 2 1 ∗ srcBlk m ρ (up 1 (up 1 c)) 1 1 1 ∗ srcBlk m ρ (up 1 (up 1 (up 1 c))) 1 0 1
              ∗ srcBlk m ρ c 1 3 1) -∗ Φ ⟨⟩))
      ⊢ WP c (atBufs k0_part24 c v2 v24) Φ := by
  simp only [atBufs, k0_part24_eq_skeleton]; unfold k0_part24_skel
  simp only [Prog.lift, Prog.bind_op, Prog.bind_ret, Prog.pure_eq_ret]
  iintro ⟨#Hrec, #HL, Hcr, HO, Hat, Hown, Hk⟩
  have h6 : k0_off6 c 1024#32 3#32 128#32 = subOff 1 (chk 1 c 3) 1 := off6_sub c 7
  unfold slot

  iapply (wp_wait_recv m ρ K c 1 2 1 (rb_credit 1 2 1) (owedFrom c 9) W) $$ [Hcr HO Hat]
  · isplitr; · iexact Hrec
    isplitl [Hcr]; · iexact Hcr
    isplitl [HO]; · iexact HO
    isplitr; · iapply (mayWait_recv c 1 2 1 9 (by decide)); iexact HL
    iexact Hat
  iintro ⟨HO, Hat, Hpay⟩
  ihave Hpay' := (show recvPay m ρ c 1 2 1 ⊢ iprop(ownsTc c (rb 1 2 1) fullShare (val m ρ 2 (up 1 c) 1 1)
      ∗ srcBlk m ρ (up 1 c) 1 2 1 ∗ srcBlk m ρ (up 1 (up 1 c)) 1 1 1 ∗ srcBlk m ρ (up 1 (up 1 (up 1 c))) 1 0 1) from .rfl) $$ Hpay
  icases Hpay' with ⟨Hslot, Hr2, Hr1, Hr0⟩

  iapply (wp_load_sub c 1 (chk 1 c 3) 1 h6 fullShare (xb m ρ c 1 (chk 1 c 3) 1))
  isplitl [Hown]; · iexact Hown
  iintro Hown
  iapply (wp_load_rb c 1 2 1 rfl fullShare (val m ρ 2 (up 1 c) 1 1))
  isplitl [Hslot]; · iexact Hslot
  iintro Hslot
  iapply (wp_load_sub c 1 (chk 1 c 3) 1 h6 fullShare (xb m ρ c 1 (chk 1 c 3) 1))
  isplitl [Hown]; · iexact Hown
  iintro Hown

  iapply (wp_store_sub c 1 (chk 1 c 3) 1 h6 (xb m ρ c 1 (chk 1 c 3) 1)
      (acc (xb m ρ c 1 (chk 1 c 3) 1) (val m ρ 2 (up 1 c) 1 1)))
  isplitl [Hown]; · iexact Hown
  iintro Hown
  unfold WP; rw [wp_ret]; imodintro
  iapply Hk
  isplitl [HO]; · iexact HO
  isplitl [Hat]; · iexact Hat
  isplitl [Hslot]; · iexact Hslot
  isplitl [Hr2]; · iexact Hr2
  isplitl [Hr1]; · iexact Hr1
  isplitl [Hr0]; · iexact Hr0
  iapply (srcBlk_of_sum m ρ c 1 1); iexact Hown

end Cert.KernelProof

end
-- ==== Proof.KernelPart25.lean ====
import proofs.«900326_g7700000000000327_dist_treered_v7x_i4_m2048_n1024_bf16_1_alg».proof.Proof.KernelGather

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part25 (K : Dev nD × CellIx → ℕ) (c : Dev nD) (v2 v13 : BitVec 32) (W : Waits sig Unit) {Φ : PUnit → sProp 𝕄} :
    iprop(records m ρ K ∗ (levAts L lv : sProp 𝕄) ∗ dutyTok ER (sendCell c 1 3 1) 0 false
        ∗ dutyTok ER (recvCell (prv c) 1 3 1) 0 false ∗ owes (c : Thread nD τ) (owedFrom c 9) W ∗ srcBlk m ρ c 1 3 1
        ∗ srcBlk m ρ (up 1 c) 1 2 1 ∗ srcBlk m ρ (up 1 (up 1 c)) 1 1 1 ∗ srcBlk m ρ (up 1 (up 1 (up 1 c))) 1 0 1
        ∗ cred (tallyAt (recvCell c 0 3 0) () N) ∗ atPos ER (recvCell c 0 3 0) 0 ∅ 0
        ∗ ((cred (tallyAt (sendCell c 1 3 1) () N)
              ∗ owes (c : Thread nD τ) (owedFrom c 8) (insert (SemLoc.dma (recvS 0 3 0).sem, ()) W)
              ∗ atPos ER (recvCell c 0 3 0) 1 ∅ 0
              ∗ srcBlk m ρ c 0 4 0 ∗ srcBlk m ρ (up 0 (up 0 c)) 0 2 0 ∗ srcBlk m ρ (up 0 (up 0 (up 0 c))) 0 1 0) -∗ Φ ⟨⟩))
      ⊢ WP c (atBufs k0_part25 c v2 v13) Φ := by
  simp only [atBufs, k0_part25_eq_skeleton]; unfold k0_part25_skel
  simp only [Prog.lift, Prog.bind_op, Prog.bind_ret, Prog.pure_eq_ret]
  iintro ⟨#Hrec, #HL, Hts, Htr, HO, Hsrc, Hr2, Hr1, Hdst, Hcr, Hat, Hk⟩
  have h7 : k0_off7 c 1024#32 3#32 128#32 = subOff 1 (chk 1 c 3) 1 := off7_sub c 7

  iapply (wp_send_ret_sub m ρ K c 1 3 1 _ (dev18_eq c) (chk 1 c 3) h7 (val m ρ 3 c 1 1) (val m ρ 0 (dn 1 c) 1 1)
      iprop(srcBlk m ρ (up 1 c) 1 2 1 ∗ srcBlk m ρ (up 1 (up 1 c)) 1 1 1) (owedFrom c 8) W
      (recvPay3_intro m ρ c 1 1) (sendPay3_intro m ρ c 1 1)) $$ [Hts Htr HO Hsrc Hdst Hr2 Hr1]
  · isplitr; · iexact Hrec
    isplitl [Hsrc]; · iapply (src_blk3 m ρ c 1 1); iexact Hsrc
    isplitl [Hdst]; · iapply (dst_of_blk0 m ρ c 1 1); iexact Hdst
    isplitl [Hr2 Hr1]
    · isplitl [Hr2]; · iexact Hr2
      iexact Hr1
    isplitl [HO]; · iexact HO
    isplitl [Hts]; · iexact Hts
    iexact Htr
  iintro ⟨Hc, HO⟩

  iapply (wp_wait_recv m ρ K c 0 3 0 (dstM := oM.slice (Rect.unit (s := S2048x1024) (k0_off7 c 0#32 1#32 0#32) S128x1024.size (k0_off7_inb c 4)) (fun _ => rfl)) rfl (owedFrom c 8) W) $$ [Hcr HO Hat]
  · isplitr; · iexact Hrec
    isplitl [Hcr]; · iexact Hcr
    isplitl [HO]; · iexact HO
    isplitr; · iapply (mayWait_recv c 0 3 0 8 (by decide)); iexact HL
    iexact Hat
  iintro ⟨HO, Hat, Hpay⟩
  ihave Hpay' := (show recvPay m ρ c 0 3 0 ⊢ iprop(srcBlk m ρ c 0 4 0 ∗ srcBlk m ρ (up 0 (up 0 c)) 0 2 0 ∗ srcBlk m ρ (up 0 (up 0 (up 0 c))) 0 1 0) from .rfl) $$ Hpay
  icases Hpay' with ⟨Hp0, Hp1, Hp2⟩
  unfold WP; rw [wp_ret]; imodintro
  iapply Hk
  isplitl [Hc]; · iexact Hc
  isplitl [HO]; · iexact HO
  isplitl [Hat]; · iexact Hat
  isplitl [Hp0]; · iexact Hp0
  isplitl [Hp1]; · iexact Hp1
  iexact Hp2

end Cert.KernelProof

end
-- ==== Proof.KernelPart26.lean ====
import proofs.«900326_g7700000000000327_dist_treered_v7x_i4_m2048_n1024_bf16_1_alg».proof.Proof.KernelGather

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part26 (K : Dev nD × CellIx → ℕ) (c : Dev nD) (v2 v24 : BitVec 32) (W : Waits sig Unit)
    {Φ : (Σ' (_ : BitVec 32), BitVec 32) → sProp 𝕄} :
    iprop(records m ρ K ∗ (levAts L lv : sProp 𝕄) ∗ dutyTok ER (sendCell c 0 4 0) 0 false
        ∗ dutyTok ER (recvCell (nxt c) 0 4 0) 0 false ∗ owes (c : Thread nD τ) (owedFrom c 8) W ∗ srcBlk m ρ c 0 4 0
        ∗ srcBlk m ρ (up 0 (up 0 c)) 0 2 0 ∗ srcBlk m ρ (up 0 (up 0 (up 0 c))) 0 1 0
        ∗ cred (tallyAt (recvCell c 1 3 0) () N) ∗ atPos ER (recvCell c 1 3 0) 0 ∅ 0
        ∗ (∀ (a b : BitVec 32), (cred (tallyAt (sendCell c 0 4 0) () N)
            ∗ owes (c : Thread nD τ) (owedFrom c 7) (insert (SemLoc.dma (recvS 1 3 0).sem, ()) W)
            ∗ atPos ER (recvCell c 1 3 0) 1 ∅ 0
            ∗ srcBlk m ρ c 1 4 0
            ∗ srcBlk m ρ (up 1 (up 1 c)) 1 2 0
            ∗ srcBlk m ρ (up 1 (up 1 (up 1 c))) 1 1 0)
          -∗ Φ ⟨a, b⟩))
      ⊢ WP c (atBufs k0_part26 c v2 v24) Φ := by
  simp only [atBufs, k0_part26_eq_skeleton]; unfold k0_part26_skel
  simp only [Prog.lift, Prog.bind_op, Prog.bind_ret, Prog.pure_eq_ret]
  rw [srcBlk_dst4 m ρ c 0 0,
    show srcBlk m ρ c 0 4 0 = ownsTc c (sub 0 (chk 0 c 4) 0) fullShare (val m ρ 4 c 0 0) from rfl]
  iintro ⟨#Hrec, #HL, Hts, Htr, HO, Hsrc, HT, Hdst, Hcr0, Hat0, Hk⟩

  iapply (wp_send_ret_sub m ρ K c 0 4 0 _ (dev19_eq c) (chk 0 c 4) (off8_sub c 0 0) (val m ρ 4 c 0 0) (val m ρ 1 (dn 0 c) 0 0)
      (srcBlk m ρ (up 0 (up 0 c)) 0 2 0) (owedFrom c 7) W (recvPay_of_fwd4 m ρ c 0 0) (sendPay_of_fwd4 m ρ c 0 0)) $$ [Hts Htr HO Hsrc HT Hdst]
  · isplitr; · iexact Hrec
    isplitl [Hsrc]; · iexact Hsrc
    isplitl [Hdst]; · iexact Hdst
    isplitl [HT]; · iexact HT
    isplitl [HO]; · iexact HO
    isplitl [Hts]; · iexact Hts
    iexact Htr
  iintro ⟨Hc, HO⟩

  iapply (wp_wait_recv m ρ K c 1 3 0 (srcM := (oM.slice (Rect.unit (s := S2048x1024) (k0_off7 c 1024#32 3#32 0#32) S128x1024.size (k0_off7_inb c 5)) (fun _ => rfl)))
      (dstM := (oM.slice (Rect.unit (s := S2048x1024) (k0_off7 c 1024#32 3#32 0#32) S128x1024.size (k0_off7_inb c 5)) (fun _ => rfl))) rfl (owedFrom c 7) W) $$ [Hcr0 HO Hat0]
  · isplitr; · iexact Hrec
    isplitl [Hcr0]; · iexact Hcr0
    isplitl [HO]; · iexact HO
    isplitr; · iapply (mayWait_recv c 1 3 0 7 (by decide)); iexact HL
    iexact Hat0
  iintro ⟨HO, Hat0, Hpay0⟩
  unfold WP; rw [wp_ret]; imodintro
  iapply Hk
  isplitl [Hc]; · iexact Hc
  isplitl [HO]; · iexact HO
  isplitl [Hat0]; · iexact Hat0
  iapply (Entails.of_eq (recvPay_three m ρ c 1 0)); iexact Hpay0

end Cert.KernelProof

end
-- ==== Proof.KernelPart27.lean ====
import proofs.«900326_g7700000000000327_dist_treered_v7x_i4_m2048_n1024_bf16_1_alg».proof.Proof.KernelGather

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part27 (K : Dev nD × CellIx → ℕ) (c : Dev nD) (v2 v13 v724 c0 : BitVec 32) (W : Waits sig Unit)
    {Φ : BitVec 32 → sProp 𝕄} :
    iprop(records m ρ K ∗ (levAts L lv : sProp 𝕄) ∗ dutyTok ER (sendCell c 1 4 0) 0 false
        ∗ dutyTok ER (recvCell (prv c) 1 4 0) 0 false ∗ owes (c : Thread nD τ) (owedFrom c 7) W ∗ srcBlk m ρ c 1 4 0
        ∗ srcBlk m ρ (up 1 (up 1 c)) 1 2 0 ∗ srcBlk m ρ (up 1 (up 1 (up 1 c))) 1 1 0
        ∗ cred (tallyAt (recvCell c 0 3 1) () N) ∗ atPos ER (recvCell c 0 3 1) 0 ∅ 0
        ∗ ((cred (tallyAt (sendCell c 1 4 0) () N)
            ∗ owes (c : Thread nD τ) (owedFrom c 6) (insert (SemLoc.dma (recvS 0 3 1).sem, ()) W)
            ∗ atPos ER (recvCell c 0 3 1) 1 ∅ 0
            ∗ srcBlk m ρ c 0 4 1
            ∗ srcBlk m ρ (up 0 (up 0 c)) 0 2 1
            ∗ srcBlk m ρ (up 0 (up 0 (up 0 c))) 0 1 1)
          -∗ Φ 1#32))
      ⊢ WP c (atBufs k0_part27 c v2 v13 v724 c0) Φ := by
  simp only [atBufs, k0_part27_eq_skeleton]; unfold k0_part27_skel
  simp only [Prog.lift, Prog.bind_op, Prog.bind_ret, Prog.pure_eq_ret]
  rw [srcBlk_dst4 m ρ c 1 0,
    show srcBlk m ρ c 1 4 0 = ownsTc c (sub 1 (chk 1 c 4) 0) fullShare (val m ρ 4 c 1 0) from rfl]
  iintro ⟨#Hrec, #HL, Hts, Htr, HO, Hsrc, HT, Hdst, Hcr0, Hat0, Hk⟩

  iapply (wp_send_ret_sub m ρ K c 1 4 0 _ (dev20_eq c) (chk 1 c 4) (off9_sub c 0 0) (val m ρ 4 c 1 0) (val m ρ 1 (dn 1 c) 1 0)
      (srcBlk m ρ (up 1 (up 1 c)) 1 2 0) (owedFrom c 6) W (recvPay_of_fwd4 m ρ c 1 0) (sendPay_of_fwd4 m ρ c 1 0)) $$ [Hts Htr HO Hsrc HT Hdst]
  · isplitr; · iexact Hrec
    isplitl [Hsrc]; · iexact Hsrc
    isplitl [Hdst]; · iexact Hdst
    isplitl [HT]; · iexact HT
    isplitl [HO]; · iexact HO
    isplitl [Hts]; · iexact Hts
    iexact Htr
  iintro ⟨Hc, HO⟩

  iapply (wp_wait_recv m ρ K c 0 3 1 (srcM := (oM.slice (Rect.unit (s := S2048x1024) (k0_off7 c 0#32 1#32 128#32) S128x1024.size (k0_off7_inb c 6)) (fun _ => rfl)))
      (dstM := (oM.slice (Rect.unit (s := S2048x1024) (k0_off7 c 0#32 1#32 128#32) S128x1024.size (k0_off7_inb c 6)) (fun _ => rfl))) rfl (owedFrom c 6) W) $$ [Hcr0 HO Hat0]
  · isplitr; · iexact Hrec
    isplitl [Hcr0]; · iexact Hcr0
    isplitl [HO]; · iexact HO
    isplitr; · iapply (mayWait_recv c 0 3 1 6 (by decide)); iexact HL
    iexact Hat0
  iintro ⟨HO, Hat0, Hpay0⟩
  unfold WP; rw [wp_ret]; imodintro
  iapply Hk
  isplitl [Hc]; · iexact Hc
  isplitl [HO]; · iexact HO
  isplitl [Hat0]; · iexact Hat0
  iapply (Entails.of_eq (recvPay_three m ρ c 0 1)); iexact Hpay0

end Cert.KernelProof

end
-- ==== Proof.KernelPart28.lean ====
import proofs.«900326_g7700000000000327_dist_treered_v7x_i4_m2048_n1024_bf16_1_alg».proof.Proof.KernelGather

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part28 (K : Dev nD × CellIx → ℕ) (c : Dev nD) (v2 v13 v24 c1 : BitVec 32) (W : Waits sig Unit)
    {Φ : PUnit → sProp 𝕄} :
    iprop(records m ρ K ∗ (levAts L lv : sProp 𝕄) ∗ dutyTok ER (sendCell c 0 4 1) 0 false
        ∗ dutyTok ER (recvCell (nxt c) 0 4 1) 0 false ∗ owes (c : Thread nD τ) (owedFrom c 6) W ∗ srcBlk m ρ c 0 4 1
        ∗ srcBlk m ρ (up 0 (up 0 c)) 0 2 1 ∗ srcBlk m ρ (up 0 (up 0 (up 0 c))) 0 1 1
        ∗ cred (tallyAt (recvCell c 1 3 1) () N) ∗ atPos ER (recvCell c 1 3 1) 0 ∅ 0
        ∗ ((cred (tallyAt (sendCell c 0 4 1) () N)
            ∗ owes (c : Thread nD τ) (owedFrom c 5) (insert (SemLoc.dma (recvS 1 3 1).sem, ()) W)
            ∗ atPos ER (recvCell c 1 3 1) 1 ∅ 0
            ∗ srcBlk m ρ c 1 4 1
            ∗ srcBlk m ρ (up 1 (up 1 c)) 1 2 1
            ∗ srcBlk m ρ (up 1 (up 1 (up 1 c))) 1 1 1)
          -∗ Φ ⟨⟩))
      ⊢ WP c (atBufs k0_part28 c v2 v13 v24 c1) Φ := by
  simp only [atBufs, k0_part28_eq_skeleton]; unfold k0_part28_skel
  simp only [Prog.lift, Prog.bind_op, Prog.bind_ret, Prog.pure_eq_ret]
  rw [srcBlk_dst4 m ρ c 0 1,
    show srcBlk m ρ c 0 4 1 = ownsTc c (sub 0 (chk 0 c 4) 1) fullShare (val m ρ 4 c 0 1) from rfl]
  iintro ⟨#Hrec, #HL, Hts, Htr, HO, Hsrc, HT, Hdst, Hcr0, Hat0, Hk⟩

  iapply (wp_send_ret_sub m ρ K c 0 4 1 _ (dev21_eq c) (chk 0 c 4) (off8_sub c 0 1) (val m ρ 4 c 0 1) (val m ρ 1 (dn 0 c) 0 1)
      (srcBlk m ρ (up 0 (up 0 c)) 0 2 1) (owedFrom c 5) W (recvPay_of_fwd4 m ρ c 0 1) (sendPay_of_fwd4 m ρ c 0 1)) $$ [Hts Htr HO Hsrc HT Hdst]
  · isplitr; · iexact Hrec
    isplitl [Hsrc]; · iexact Hsrc
    isplitl [Hdst]; · iexact Hdst
    isplitl [HT]; · iexact HT
    isplitl [HO]; · iexact HO
    isplitl [Hts]; · iexact Hts
    iexact Htr
  iintro ⟨Hc, HO⟩

  iapply (wp_wait_recv m ρ K c 1 3 1 (srcM := (oM.slice (Rect.unit (s := S2048x1024) (k0_off7 c 1024#32 3#32 128#32) S128x1024.size (k0_off7_inb c 7)) (fun _ => rfl)))
      (dstM := (oM.slice (Rect.unit (s := S2048x1024) (k0_off7 c 1024#32 3#32 128#32) S128x1024.size (k0_off7_inb c 7)) (fun _ => rfl))) rfl (owedFrom c 5) W) $$ [Hcr0 HO Hat0]
  · isplitr; · iexact Hrec
    isplitl [Hcr0]; · iexact Hcr0
    isplitl [HO]; · iexact HO
    isplitr; · iapply (mayWait_recv c 1 3 1 5 (by decide)); iexact HL
    iexact Hat0
  iintro ⟨HO, Hat0, Hpay0⟩
  unfold WP; rw [wp_ret]; imodintro
  iapply Hk
  isplitl [Hc]; · iexact Hc
  isplitl [HO]; · iexact HO
  isplitl [Hat0]; · iexact Hat0
  iapply (Entails.of_eq (recvPay_three m ρ c 1 1)); iexact Hpay0

end Cert.KernelProof

end
-- ==== Proof.KernelPart29.lean ====
import proofs.«900326_g7700000000000327_dist_treered_v7x_i4_m2048_n1024_bf16_1_alg».proof.Proof.KernelGather

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part29 (K : Dev nD × CellIx → ℕ) (c : Dev nD) (v2 v13 v24 : BitVec 32) (W : Waits sig Unit)
    {Φ : PUnit → sProp 𝕄} :
    iprop(records m ρ K ∗ (levAts L lv : sProp 𝕄) ∗ dutyTok ER (sendCell c 1 4 1) 0 false
        ∗ dutyTok ER (recvCell (prv c) 1 4 1) 0 false ∗ owes (c : Thread nD τ) (owedFrom c 5) W ∗ srcBlk m ρ c 1 4 1
        ∗ srcBlk m ρ (up 1 (up 1 c)) 1 2 1 ∗ srcBlk m ρ (up 1 (up 1 (up 1 c))) 1 1 1
        ∗ cred (tallyAt (recvCell c 0 4 0) () N) ∗ atPos ER (recvCell c 0 4 0) 0 ∅ 0
        ∗ ((cred (tallyAt (sendCell c 1 4 1) () N)
            ∗ owes (c : Thread nD τ) (owedFrom c 4) (insert (SemLoc.dma (recvS 0 4 0).sem, ()) W)
            ∗ atPos ER (recvCell c 0 4 0) 1 ∅ 0
            ∗ srcBlk m ρ c 0 5 0
            ∗ srcBlk m ρ (up 0 (up 0 (up 0 c))) 0 2 0)
          -∗ Φ ⟨⟩))
      ⊢ WP c (atBufs k0_part29 c v2 v13 v24) Φ := by
  simp only [atBufs, k0_part29_eq_skeleton]; unfold k0_part29_skel
  simp only [Prog.lift, Prog.bind_op, Prog.bind_ret, Prog.pure_eq_ret]
  rw [srcBlk_dst4 m ρ c 1 1,
    show srcBlk m ρ c 1 4 1 = ownsTc c (sub 1 (chk 1 c 4) 1) fullShare (val m ρ 4 c 1 1) from rfl]
  iintro ⟨#Hrec, #HL, Hts, Htr, HO, Hsrc, HT, Hdst, Hcr0, Hat0, Hk⟩

  iapply (wp_send_ret_sub m ρ K c 1 4 1 _ (dev22_eq c) (chk 1 c 4) (off9_sub c 0 1) (val m ρ 4 c 1 1) (val m ρ 1 (dn 1 c) 1 1)
      (srcBlk m ρ (up 1 (up 1 c)) 1 2 1) (owedFrom c 4) W (recvPay_of_fwd4 m ρ c 1 1) (sendPay_of_fwd4 m ρ c 1 1)) $$ [Hts Htr HO Hsrc HT Hdst]
  · isplitr; · iexact Hrec
    isplitl [Hsrc]; · iexact Hsrc
    isplitl [Hdst]; · iexact Hdst
    isplitl [HT]; · iexact HT
    isplitl [HO]; · iexact HO
    isplitl [Hts]; · iexact Hts
    iexact Htr
  iintro ⟨Hc, HO⟩

  iapply (wp_wait_recv m ρ K c 0 4 0 (srcM := (oM.slice (Rect.unit (s := S2048x1024) (k0_off8 c 1#32 0#32) S128x1024.size (k0_off8_inb c 0 0)) (fun _ => rfl)))
      (dstM := (oM.slice (Rect.unit (s := S2048x1024) (k0_off8 c 1#32 0#32) S128x1024.size (k0_off8_inb c 0 0)) (fun _ => rfl))) rfl (owedFrom c 4) W) $$ [Hcr0 HO Hat0]
  · isplitr; · iexact Hrec
    isplitl [Hcr0]; · iexact Hcr0
    isplitl [HO]; · iexact HO
    isplitr; · iapply (mayWait_recv c 0 4 0 4 (by decide)); iexact HL
    iexact Hat0
  iintro ⟨HO, Hat0, Hpay0⟩
  unfold WP; rw [wp_ret]; imodintro
  iapply Hk
  isplitl [Hc]; · iexact Hc
  isplitl [HO]; · iexact HO
  isplitl [Hat0]; · iexact Hat0
  iapply (Entails.of_eq (recvPay_four m ρ c 0 0)); iexact Hpay0

end Cert.KernelProof

end
-- ==== Proof.KernelPart30.lean ====
import proofs.«900326_g7700000000000327_dist_treered_v7x_i4_m2048_n1024_bf16_1_alg».proof.Proof.KernelGather

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part30 (K : Dev nD × CellIx → ℕ) (c : Dev nD) (v2 v13 v24 : BitVec 32) (W : Waits sig Unit)
    {Φ : PUnit → sProp 𝕄} :
    iprop(records m ρ K ∗ (levAts L lv : sProp 𝕄) ∗ dutyTok ER (sendCell c 0 5 0) 0 false
        ∗ dutyTok ER (recvCell (nxt c) 0 5 0) 0 false ∗ owes (c : Thread nD τ) (owedFrom c 4) W ∗ srcBlk m ρ c 0 5 0
        ∗ srcBlk m ρ (up 0 (up 0 (up 0 c))) 0 2 0 ∗ cred (tallyAt (recvCell c 1 4 0) () N)
        ∗ atPos ER (recvCell c 1 4 0) 0 ∅ 0
        ∗ ((cred (tallyAt (sendCell c 0 5 0) () N)
            ∗ owes (c : Thread nD τ) (owedFrom c 3) (insert (SemLoc.dma (recvS 1 4 0).sem, ()) W)
            ∗ atPos ER (recvCell c 1 4 0) 1 ∅ 0
            ∗ srcBlk m ρ c 1 5 0
            ∗ srcBlk m ρ (up 1 (up 1 (up 1 c))) 1 2 0)
          -∗ Φ ⟨⟩))
      ⊢ WP c (atBufs k0_part30 c v2 v13 v24) Φ := by
  simp only [atBufs, k0_part30_eq_skeleton]; unfold k0_part30_skel
  simp only [Prog.lift, Prog.bind_op, Prog.bind_ret, Prog.pure_eq_ret]
  rw [srcBlk_dst5 m ρ c 0 0,
    show srcBlk m ρ c 0 5 0 = ownsTc c (sub 0 (chk 0 c 5) 0) fullShare (val m ρ 5 c 0 0) from rfl]
  iintro ⟨#Hrec, #HL, Hts, Htr, HO, Hsrc, Hdst, Hcr0, Hat0, Hk⟩

  iapply (wp_send_ret_sub m ρ K c 0 5 0 _ (dev23_eq c) (chk 0 c 5) (off8_sub c 1 0) (val m ρ 5 c 0 0) (val m ρ 2 (dn 0 c) 0 0)
      iprop(emp) (owedFrom c 3) W (recvPay_of_fwd5 m ρ c 0 0) (sendPay_of_fwd5 m ρ c 0 0)) $$ [Hts Htr HO Hsrc Hdst]
  · isplitr; · iexact Hrec
    isplitl [Hsrc]; · iexact Hsrc
    isplitl [Hdst]; · iexact Hdst
    isplitr; · iempintro
    isplitl [HO]; · iexact HO
    isplitl [Hts]; · iexact Hts
    iexact Htr
  iintro ⟨Hc, HO⟩

  iapply (wp_wait_recv m ρ K c 1 4 0 (srcM := (oM.slice (Rect.unit (s := S2048x1024) (k0_off9 c 1#32 0#32) S128x1024.size (k0_off9_inb c 0 0)) (fun _ => rfl)))
      (dstM := (oM.slice (Rect.unit (s := S2048x1024) (k0_off9 c 1#32 0#32) S128x1024.size (k0_off9_inb c 0 0)) (fun _ => rfl))) rfl (owedFrom c 3) W) $$ [Hcr0 HO Hat0]
  · isplitr; · iexact Hrec
    isplitl [Hcr0]; · iexact Hcr0
    isplitl [HO]; · iexact HO
    isplitr; · iapply (mayWait_recv c 1 4 0 3 (by decide)); iexact HL
    iexact Hat0
  iintro ⟨HO, Hat0, Hpay0⟩
  unfold WP; rw [wp_ret]; imodintro
  iapply Hk
  isplitl [Hc]; · iexact Hc
  isplitl [HO]; · iexact HO
  isplitl [Hat0]; · iexact Hat0
  iapply (Entails.of_eq (recvPay_four m ρ c 1 0)); iexact Hpay0

end Cert.KernelProof

end
-- ==== Proof.KernelPart31.lean ====
import proofs.«900326_g7700000000000327_dist_treered_v7x_i4_m2048_n1024_bf16_1_alg».proof.Proof.KernelGather

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part31 (K : Dev nD × CellIx → ℕ) (c : Dev nD) (v2 v13 v24 : BitVec 32) (W : Waits sig Unit)
    {Φ : (Σ' (_ : BitVec 32), BitVec 32) → sProp 𝕄} :
    iprop(records m ρ K ∗ (levAts L lv : sProp 𝕄) ∗ dutyTok ER (sendCell c 1 5 0) 0 false
        ∗ dutyTok ER (recvCell (prv c) 1 5 0) 0 false ∗ owes (c : Thread nD τ) (owedFrom c 3) W ∗ srcBlk m ρ c 1 5 0
        ∗ srcBlk m ρ (up 1 (up 1 (up 1 c))) 1 2 0 ∗ cred (tallyAt (recvCell c 0 4 1) () N)
        ∗ atPos ER (recvCell c 0 4 1) 0 ∅ 0
        ∗ (∀ (a b : BitVec 32), (cred (tallyAt (sendCell c 1 5 0) () N)
            ∗ owes (c : Thread nD τ) (owedFrom c 2) (insert (SemLoc.dma (recvS 0 4 1).sem, ()) W)
            ∗ atPos ER (recvCell c 0 4 1) 1 ∅ 0
            ∗ srcBlk m ρ c 0 5 1
            ∗ srcBlk m ρ (up 0 (up 0 (up 0 c))) 0 2 1)
          -∗ Φ ⟨a, b⟩))
      ⊢ WP c (atBufs k0_part31 c v2 v13 v24) Φ := by
  simp only [atBufs, k0_part31_eq_skeleton]; unfold k0_part31_skel
  simp only [Prog.lift, Prog.bind_op, Prog.bind_ret, Prog.pure_eq_ret]
  rw [srcBlk_dst5 m ρ c 1 0,
    show srcBlk m ρ c 1 5 0 = ownsTc c (sub 1 (chk 1 c 5) 0) fullShare (val m ρ 5 c 1 0) from rfl]
  iintro ⟨#Hrec, #HL, Hts, Htr, HO, Hsrc, Hdst, Hcr0, Hat0, Hk⟩

  iapply (wp_send_ret_sub m ρ K c 1 5 0 _ (dev24_eq c) (chk 1 c 5) (off9_sub c 1 0) (val m ρ 5 c 1 0) (val m ρ 2 (dn 1 c) 1 0)
      iprop(emp) (owedFrom c 2) W (recvPay_of_fwd5 m ρ c 1 0) (sendPay_of_fwd5 m ρ c 1 0)) $$ [Hts Htr HO Hsrc Hdst]
  · isplitr; · iexact Hrec
    isplitl [Hsrc]; · iexact Hsrc
    isplitl [Hdst]; · iexact Hdst
    isplitr; · iempintro
    isplitl [HO]; · iexact HO
    isplitl [Hts]; · iexact Hts
    iexact Htr
  iintro ⟨Hc, HO⟩

  iapply (wp_wait_recv m ρ K c 0 4 1 (srcM := (oM.slice (Rect.unit (s := S2048x1024) (k0_off8 c 1#32 128#32) S128x1024.size (k0_off8_inb c 0 1)) (fun _ => rfl)))
      (dstM := (oM.slice (Rect.unit (s := S2048x1024) (k0_off8 c 1#32 128#32) S128x1024.size (k0_off8_inb c 0 1)) (fun _ => rfl))) rfl (owedFrom c 2) W) $$ [Hcr0 HO Hat0]
  · isplitr; · iexact Hrec
    isplitl [Hcr0]; · iexact Hcr0
    isplitl [HO]; · iexact HO
    isplitr; · iapply (mayWait_recv c 0 4 1 2 (by decide)); iexact HL
    iexact Hat0
  iintro ⟨HO, Hat0, Hpay0⟩
  unfold WP; rw [wp_ret]; imodintro
  iapply Hk
  isplitl [Hc]; · iexact Hc
  isplitl [HO]; · iexact HO
  isplitl [Hat0]; · iexact Hat0
  iapply (Entails.of_eq (recvPay_four m ρ c 0 1)); iexact Hpay0

end Cert.KernelProof

end
-- ==== Proof.KernelPart32.lean ====
import proofs.«900326_g7700000000000327_dist_treered_v7x_i4_m2048_n1024_bf16_1_alg».proof.Proof.KernelGather

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part32 (K : Dev nD × CellIx → ℕ) (c : Dev nD) (v2 v13 v24 v867 c128 : BitVec 32) (W : Waits sig Unit)
    {Φ : (Σ' (_ : BitVec 32), BitVec 32) → sProp 𝕄} :
    iprop(records m ρ K ∗ (levAts L lv : sProp 𝕄) ∗ dutyTok ER (sendCell c 0 5 1) 0 false
        ∗ dutyTok ER (recvCell (nxt c) 0 5 1) 0 false ∗ owes (c : Thread nD τ) (owedFrom c 2) W ∗ srcBlk m ρ c 0 5 1
        ∗ srcBlk m ρ (up 0 (up 0 (up 0 c))) 0 2 1 ∗ cred (tallyAt (recvCell c 1 4 1) () N)
        ∗ atPos ER (recvCell c 1 4 1) 0 ∅ 0
        ∗ (∀ (a b : BitVec 32), (cred (tallyAt (sendCell c 0 5 1) () N)
            ∗ owes (c : Thread nD τ) (owedFrom c 1) (insert (SemLoc.dma (recvS 1 4 1).sem, ()) W)
            ∗ atPos ER (recvCell c 1 4 1) 1 ∅ 0
            ∗ srcBlk m ρ c 1 5 1
            ∗ srcBlk m ρ (up 1 (up 1 (up 1 c))) 1 2 1)
          -∗ Φ ⟨a, b⟩))
      ⊢ WP c (atBufs k0_part32 c v2 v13 v24 v867 c128) Φ := by
  simp only [atBufs, k0_part32_eq_skeleton]; unfold k0_part32_skel
  simp only [Prog.lift, Prog.bind_op, Prog.bind_ret, Prog.pure_eq_ret]
  rw [srcBlk_dst5 m ρ c 0 1,
    show srcBlk m ρ c 0 5 1 = ownsTc c (sub 0 (chk 0 c 5) 1) fullShare (val m ρ 5 c 0 1) from rfl]
  iintro ⟨#Hrec, #HL, Hts, Htr, HO, Hsrc, Hdst, Hcr0, Hat0, Hk⟩

  iapply (wp_send_ret_sub m ρ K c 0 5 1 _ (dev25_eq c) (chk 0 c 5) (off8_sub c 1 1) (val m ρ 5 c 0 1) (val m ρ 2 (dn 0 c) 0 1)
      iprop(emp) (owedFrom c 1) W (recvPay_of_fwd5 m ρ c 0 1) (sendPay_of_fwd5 m ρ c 0 1)) $$ [Hts Htr HO Hsrc Hdst]
  · isplitr; · iexact Hrec
    isplitl [Hsrc]; · iexact Hsrc
    isplitl [Hdst]; · iexact Hdst
    isplitr; · iempintro
    isplitl [HO]; · iexact HO
    isplitl [Hts]; · iexact Hts
    iexact Htr
  iintro ⟨Hc, HO⟩

  iapply (wp_wait_recv m ρ K c 1 4 1 (srcM := (oM.slice (Rect.unit (s := S2048x1024) (k0_off9 c 1#32 128#32) S128x1024.size (k0_off9_inb c 0 1)) (fun _ => rfl)))
      (dstM := (oM.slice (Rect.unit (s := S2048x1024) (k0_off9 c 1#32 128#32) S128x1024.size (k0_off9_inb c 0 1)) (fun _ => rfl))) rfl (owedFrom c 1) W) $$ [Hcr0 HO Hat0]
  · isplitr; · iexact Hrec
    isplitl [Hcr0]; · iexact Hcr0
    isplitl [HO]; · iexact HO
    isplitr; · iapply (mayWait_recv c 1 4 1 1 (by decide)); iexact HL
    iexact Hat0
  iintro ⟨HO, Hat0, Hpay0⟩
  unfold WP; rw [wp_ret]; imodintro
  iapply Hk
  isplitl [Hc]; · iexact Hc
  isplitl [HO]; · iexact HO
  isplitl [Hat0]; · iexact Hat0
  iapply (Entails.of_eq (recvPay_four m ρ c 1 1)); iexact Hpay0

end Cert.KernelProof

end
-- ==== Proof.KernelPart33.lean ====
import proofs.«900326_g7700000000000327_dist_treered_v7x_i4_m2048_n1024_bf16_1_alg».proof.Proof.KernelGather

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part33 (K : Dev nD × CellIx → ℕ) (c : Dev nD) (v13 v24 v895 c1024 : BitVec 32) (W : Waits sig Unit)
    {Φ : PUnit → sProp 𝕄} :
    iprop(records m ρ K ∗ (levAts L lv : sProp 𝕄) ∗ dutyTok ER (sendCell c 1 5 1) 0 false
        ∗ dutyTok ER (recvCell (prv c) 1 5 1) 0 false ∗ owes (c : Thread nD τ) (owedFrom c 1) W ∗ srcBlk m ρ c 1 5 1
        ∗ srcBlk m ρ (up 1 (up 1 (up 1 c))) 1 2 1 ∗ cred (tallyAt (recvCell c 0 5 0) () N)
        ∗ atPos ER (recvCell c 0 5 0) 0 ∅ 0 ∗ cred (tallyAt (recvCell c 1 5 0) () N)
        ∗ atPos ER (recvCell c 1 5 0) 0 ∅ 0
        ∗ ((cred (tallyAt (sendCell c 1 5 1) () N)
            ∗ owes (c : Thread nD τ) (owedFrom c 0) (insert (SemLoc.dma (recvS 1 5 0).sem, ()) (insert (SemLoc.dma (recvS 0 5 0).sem, ()) W))
            ∗ atPos ER (recvCell c 0 5 0) 1 ∅ 0
            ∗ srcBlk m ρ c 0 6 0
            ∗ atPos ER (recvCell c 1 5 0) 1 ∅ 0
            ∗ srcBlk m ρ c 1 6 0)
          -∗ Φ ⟨⟩))
      ⊢ WP c (atBufs k0_part33 c v13 v24 v895 c1024) Φ := by
  simp only [atBufs, k0_part33_eq_skeleton]; unfold k0_part33_skel
  simp only [Prog.lift, Prog.bind_op, Prog.bind_ret, Prog.pure_eq_ret]
  rw [srcBlk_dst5 m ρ c 1 1,
    show srcBlk m ρ c 1 5 1 = ownsTc c (sub 1 (chk 1 c 5) 1) fullShare (val m ρ 5 c 1 1) from rfl]
  iintro ⟨#Hrec, #HL, Hts, Htr, HO, Hsrc, Hdst, Hcr0, Hat0, Hcr1, Hat1, Hk⟩

  iapply (wp_send_ret_sub m ρ K c 1 5 1 _ (dev26_eq c) (chk 1 c 5) (off9_sub c 1 1) (val m ρ 5 c 1 1) (val m ρ 2 (dn 1 c) 1 1)
      iprop(emp) (owedFrom c 0) W (recvPay_of_fwd5 m ρ c 1 1) (sendPay_of_fwd5 m ρ c 1 1)) $$ [Hts Htr HO Hsrc Hdst]
  · isplitr; · iexact Hrec
    isplitl [Hsrc]; · iexact Hsrc
    isplitl [Hdst]; · iexact Hdst
    isplitr; · iempintro
    isplitl [HO]; · iexact HO
    isplitl [Hts]; · iexact Hts
    iexact Htr
  iintro ⟨Hc, HO⟩

  iapply (wp_wait_recv m ρ K c 0 5 0 (srcM := (oM.slice (Rect.unit (s := S2048x1024) (k0_off8 c 2#32 0#32) S128x1024.size (k0_off8_inb c 1 0)) (fun _ => rfl)))
      (dstM := (oM.slice (Rect.unit (s := S2048x1024) (k0_off8 c 2#32 0#32) S128x1024.size (k0_off8_inb c 1 0)) (fun _ => rfl))) rfl (owedFrom c 0) W) $$ [Hcr0 HO Hat0]
  · isplitr; · iexact Hrec
    isplitl [Hcr0]; · iexact Hcr0
    isplitl [HO]; · iexact HO
    isplitr; · iapply (mayWait_recv c 0 5 0 0 (by decide)); iexact HL
    iexact Hat0
  iintro ⟨HO, Hat0, Hpay0⟩

  iapply (wp_wait_recv m ρ K c 1 5 0 (srcM := (oM.slice (Rect.unit (s := S2048x1024) (k0_off9 c 2#32 0#32) S128x1024.size (k0_off9_inb c 1 0)) (fun _ => rfl)))
      (dstM := (oM.slice (Rect.unit (s := S2048x1024) (k0_off9 c 2#32 0#32) S128x1024.size (k0_off9_inb c 1 0)) (fun _ => rfl))) rfl (owedFrom c 0) (insert (SemLoc.dma (recvS 0 5 0).sem, ()) W)) $$ [Hcr1 HO Hat1]
  · isplitr; · iexact Hrec
    isplitl [Hcr1]; · iexact Hcr1
    isplitl [HO]; · iexact HO
    isplitr; · iapply (mayWait_recv c 1 5 0 0 (by decide)); iexact HL
    iexact Hat1
  iintro ⟨HO, Hat1, Hpay1⟩
  unfold WP; rw [wp_ret]; imodintro
  iapply Hk
  isplitl [Hc]; · iexact Hc
  isplitl [HO]; · iexact HO
  isplitl [Hat0]; · iexact Hat0
  isplitl [Hpay0]; · iapply (Entails.of_eq (recvPay_five m ρ c 0 0)); iexact Hpay0
  isplitl [Hat1]; · iexact Hat1
  iapply (Entails.of_eq (recvPay_five m ρ c 1 0)); iexact Hpay1

end Cert.KernelProof

end
-- ==== Proof.KernelBody.lean ====
import proofs.«900326_g7700000000000327_dist_treered_v7x_i4_m2048_n1024_bf16_1_alg».proof.Proof.KernelBig
import proofs.«900326_g7700000000000327_dist_treered_v7x_i4_m2048_n1024_bf16_1_alg».proof.Proof.KernelFinish
import proofs.«900326_g7700000000000327_dist_treered_v7x_i4_m2048_n1024_bf16_1_alg».proof.Proof.KernelPart01
import proofs.«900326_g7700000000000327_dist_treered_v7x_i4_m2048_n1024_bf16_1_alg».proof.Proof.KernelPart02
import proofs.«900326_g7700000000000327_dist_treered_v7x_i4_m2048_n1024_bf16_1_alg».proof.Proof.KernelPart03
import proofs.«900326_g7700000000000327_dist_treered_v7x_i4_m2048_n1024_bf16_1_alg».proof.Proof.KernelPart04
import proofs.«900326_g7700000000000327_dist_treered_v7x_i4_m2048_n1024_bf16_1_alg».proof.Proof.KernelPart05
import proofs.«900326_g7700000000000327_dist_treered_v7x_i4_m2048_n1024_bf16_1_alg».proof.Proof.KernelPart06
import proofs.«900326_g7700000000000327_dist_treered_v7x_i4_m2048_n1024_bf16_1_alg».proof.Proof.KernelPart07
import proofs.«900326_g7700000000000327_dist_treered_v7x_i4_m2048_n1024_bf16_1_alg».proof.Proof.KernelPart08
import proofs.«900326_g7700000000000327_dist_treered_v7x_i4_m2048_n1024_bf16_1_alg».proof.Proof.KernelPart09
import proofs.«900326_g7700000000000327_dist_treered_v7x_i4_m2048_n1024_bf16_1_alg».proof.Proof.KernelPart10
import proofs.«900326_g7700000000000327_dist_treered_v7x_i4_m2048_n1024_bf16_1_alg».proof.Proof.KernelPart11
import proofs.«900326_g7700000000000327_dist_treered_v7x_i4_m2048_n1024_bf16_1_alg».proof.Proof.KernelPart12
import proofs.«900326_g7700000000000327_dist_treered_v7x_i4_m2048_n1024_bf16_1_alg».proof.Proof.KernelPart13
import proofs.«900326_g7700000000000327_dist_treered_v7x_i4_m2048_n1024_bf16_1_alg».proof.Proof.KernelPart14
import proofs.«900326_g7700000000000327_dist_treered_v7x_i4_m2048_n1024_bf16_1_alg».proof.Proof.KernelPart15
import proofs.«900326_g7700000000000327_dist_treered_v7x_i4_m2048_n1024_bf16_1_alg».proof.Proof.KernelPart16
import proofs.«900326_g7700000000000327_dist_treered_v7x_i4_m2048_n1024_bf16_1_alg».proof.Proof.KernelPart17
import proofs.«900326_g7700000000000327_dist_treered_v7x_i4_m2048_n1024_bf16_1_alg».proof.Proof.KernelPart18
import proofs.«900326_g7700000000000327_dist_treered_v7x_i4_m2048_n1024_bf16_1_alg».proof.Proof.KernelPart19
import proofs.«900326_g7700000000000327_dist_treered_v7x_i4_m2048_n1024_bf16_1_alg».proof.Proof.KernelPart20
import proofs.«900326_g7700000000000327_dist_treered_v7x_i4_m2048_n1024_bf16_1_alg».proof.Proof.KernelPart21
import proofs.«900326_g7700000000000327_dist_treered_v7x_i4_m2048_n1024_bf16_1_alg».proof.Proof.KernelPart22
import proofs.«900326_g7700000000000327_dist_treered_v7x_i4_m2048_n1024_bf16_1_alg».proof.Proof.KernelPart23
import proofs.«900326_g7700000000000327_dist_treered_v7x_i4_m2048_n1024_bf16_1_alg».proof.Proof.KernelPart24
import proofs.«900326_g7700000000000327_dist_treered_v7x_i4_m2048_n1024_bf16_1_alg».proof.Proof.KernelPart25
import proofs.«900326_g7700000000000327_dist_treered_v7x_i4_m2048_n1024_bf16_1_alg».proof.Proof.KernelPart26
import proofs.«900326_g7700000000000327_dist_treered_v7x_i4_m2048_n1024_bf16_1_alg».proof.Proof.KernelPart27
import proofs.«900326_g7700000000000327_dist_treered_v7x_i4_m2048_n1024_bf16_1_alg».proof.Proof.KernelPart28
import proofs.«900326_g7700000000000327_dist_treered_v7x_i4_m2048_n1024_bf16_1_alg».proof.Proof.KernelPart29
import proofs.«900326_g7700000000000327_dist_treered_v7x_i4_m2048_n1024_bf16_1_alg».proof.Proof.KernelPart30
import proofs.«900326_g7700000000000327_dist_treered_v7x_i4_m2048_n1024_bf16_1_alg».proof.Proof.KernelPart31
import proofs.«900326_g7700000000000327_dist_treered_v7x_i4_m2048_n1024_bf16_1_alg».proof.Proof.KernelPart32
import proofs.«900326_g7700000000000327_dist_treered_v7x_i4_m2048_n1024_bf16_1_alg».proof.Proof.KernelPart33

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem ex_slot (c : Dev nD) (d : Fin 2) (s : Fin 3) (j : Fin 2) (v : Vec F S128x1024 .bf16) :
    (owns (c : Thread nD τ) (rb d s j) fullShare v : sProp 𝕄) ⊢ iprop(∃ v, slot c d s j v) := by
  unfold slot; iintro H; iexists v; iexact H

theorem scr_slots (c : Dev nD) (f : Buf (Elt F) ((c : Thread nD τ).loc cc0_scratch0)) :
    scr c f ⊢ iprop(slots (F := F) c 0 ∗ slots (F := F) c 1) := by
  unfold scr slots
  rw [← owns_whole (c : Thread nD τ) cc0_scratch0 fullShare f]
  refine BIBase.Entails.trans (owns_rbuf_split c f) ?_
  rw [bigSep_univ_prod, bigSep_univ_two]
  refine BIClass.sep_mono ?_ ?_
  · exact bigSep_mono fun sj _ => ex_slot c 0 sj.1 sj.2 _
  · exact bigSep_mono fun sj _ => ex_slot c 1 sj.1 sj.2 _

theorem out_blocks (c : Dev nD) (f : Buf (Elt F) ((c : Thread nD τ).loc cc0_stg1_0)) :
    ((((c : Thread nD τ).loc cc0_stg1_0) ↦{fullShare} f) : sProp 𝕄)
      ⊢ bigSep Finset.univ fun t : Fin 2 × Fin 4 × Fin 2 =>
          ownsTc c (sub t.1 (chkOff c t.2.1) t.2.2) fullShare (fun i => f ((subR t.1 (chkOff c t.2.1) t.2.2).emb i)) := by
  rw [← owns_whole (c : Thread nD τ) cc0_stg1_0 fullShare f]
  refine BIBase.Entails.trans (owns_out_split c f) (Entails.of_eq ?_)
  rw [bigSep_univ_equiv (Equiv.prodCongr (Equiv.refl (Fin 2)) (Equiv.prodCongr (chkOffEquiv c) (Equiv.refl (Fin 2))))]
  rfl

theorem blk_conv (c : Dev nD) (d : Fin 2) (r : Fin 4) (s : ℕ) (h : chkOff c r = chk d c s) (j : Fin 2) :
    (ownsTc c (sub d (chkOff c r) j) fullShare (xb m ρ c d (chkOff c r) j) : sProp 𝕄)
      ⊢ ownsTc c (sub d (chk d c s) j) fullShare (xb m ρ c d (chk d c s) j) := by rw [h]
theorem srcBlk0_intro (c : Dev nD) (d j : Fin 2) :
    (ownsTc c (sub d (chk d c 0) j) fullShare (xb m ρ c d (chk d c 0) j) : sProp 𝕄) ⊢ srcBlk m ρ c d 0 j := .rfl

theorem chkOff0_0 (c : Dev nD) : chkOff c 0 = chk 0 c 0 := by revert c; decide
theorem chkOff3_0 (c : Dev nD) : chkOff c 3 = chk 0 c 1 := by revert c; decide
theorem chkOff2_0 (c : Dev nD) : chkOff c 2 = chk 0 c 2 := by revert c; decide
theorem chkOff1_0 (c : Dev nD) : chkOff c 1 = chk 0 c 3 := by revert c; decide
theorem chkOff0_1 (c : Dev nD) : chkOff c 0 = chk 1 c 0 := by revert c; decide
theorem chkOff1_1 (c : Dev nD) : chkOff c 1 = chk 1 c 1 := by revert c; decide
theorem chkOff2_1 (c : Dev nD) : chkOff c 2 = chk 1 c 2 := by revert c; decide
theorem chkOff3_1 (c : Dev nD) : chkOff c 3 = chk 1 c 3 := by revert c; decide

theorem toks24 (c : Dev nD) :
    (bigSep Finset.univ fun t : Lane =>
        (iprop(dutyTok ER (sendCell c t.1 t.2.1 t.2.2) 0 false ∗ dutyTok ER (recvCell (dn t.1 c) t.1 t.2.1 t.2.2) 0 false) : sProp 𝕄))
      ⊢ iprop((dutyTok ER (sendCell c 0 0 0) 0 false ∗ dutyTok ER (recvCell (nxt c) 0 0 0) 0 false) ∗ (dutyTok ER (sendCell c 0 0 1) 0 false ∗ dutyTok ER (recvCell (nxt c) 0 0 1) 0 false) ∗ (dutyTok ER (sendCell c 0 1 0) 0 false ∗ dutyTok ER (recvCell (nxt c) 0 1 0) 0 false) ∗ (dutyTok ER (sendCell c 0 1 1) 0 false ∗ dutyTok ER (recvCell (nxt c) 0 1 1) 0 false) ∗ (dutyTok ER (sendCell c 0 2 0) 0 false ∗ dutyTok ER (recvCell (nxt c) 0 2 0) 0 false) ∗ (dutyTok ER (sendCell c 0 2 1) 0 false ∗ dutyTok ER (recvCell (nxt c) 0 2 1) 0 false) ∗ (dutyTok ER (sendCell c 0 3 0) 0 false ∗ dutyTok ER (recvCell (nxt c) 0 3 0) 0 false) ∗ (dutyTok ER (sendCell c 0 3 1) 0 false ∗ dutyTok ER (recvCell (nxt c) 0 3 1) 0 false) ∗ (dutyTok ER (sendCell c 0 4 0) 0 false ∗ dutyTok ER (recvCell (nxt c) 0 4 0) 0 false) ∗ (dutyTok ER (sendCell c 0 4 1) 0 false ∗ dutyTok ER (recvCell (nxt c) 0 4 1) 0 false) ∗ (dutyTok ER (sendCell c 0 5 0) 0 false ∗ dutyTok ER (recvCell (nxt c) 0 5 0) 0 false) ∗ (dutyTok ER (sendCell c 0 5 1) 0 false ∗ dutyTok ER (recvCell (nxt c) 0 5 1) 0 false) ∗ (dutyTok ER (sendCell c 1 0 0) 0 false ∗ dutyTok ER (recvCell (prv c) 1 0 0) 0 false) ∗ (dutyTok ER (sendCell c 1 0 1) 0 false ∗ dutyTok ER (recvCell (prv c) 1 0 1) 0 false) ∗ (dutyTok ER (sendCell c 1 1 0) 0 false ∗ dutyTok ER (recvCell (prv c) 1 1 0) 0 false) ∗ (dutyTok ER (sendCell c 1 1 1) 0 false ∗ dutyTok ER (recvCell (prv c) 1 1 1) 0 false) ∗ (dutyTok ER (sendCell c 1 2 0) 0 false ∗ dutyTok ER (recvCell (prv c) 1 2 0) 0 false) ∗ (dutyTok ER (sendCell c 1 2 1) 0 false ∗ dutyTok ER (recvCell (prv c) 1 2 1) 0 false) ∗ (dutyTok ER (sendCell c 1 3 0) 0 false ∗ dutyTok ER (recvCell (prv c) 1 3 0) 0 false) ∗ (dutyTok ER (sendCell c 1 3 1) 0 false ∗ dutyTok ER (recvCell (prv c) 1 3 1) 0 false) ∗ (dutyTok ER (sendCell c 1 4 0) 0 false ∗ dutyTok ER (recvCell (prv c) 1 4 0) 0 false) ∗ (dutyTok ER (sendCell c 1 4 1) 0 false ∗ dutyTok ER (recvCell (prv c) 1 4 1) 0 false) ∗ (dutyTok ER (sendCell c 1 5 0) 0 false ∗ dutyTok ER (recvCell (prv c) 1 5 0) 0 false) ∗ (dutyTok ER (sendCell c 1 5 1) 0 false ∗ dutyTok ER (recvCell (prv c) 1 5 1) 0 false)) :=
  Entails.of_eq (bigSep_lane24 _)
theorem slots_six (c' : Dev nD) (d : Fin 2) :
    slots (F := F) c' d ⊢ iprop((∃ v, slot c' d 0 0 v) ∗ (∃ v, slot c' d 0 1 v) ∗ (∃ v, slot c' d 1 0 v) ∗ (∃ v, slot c' d 1 1 v) ∗ (∃ v, slot c' d 2 0 v) ∗ (∃ v, slot c' d 2 1 v)) := by
  unfold slots; exact Entails.of_eq (bigSep_slots6 _)
theorem blocks16 (c : Dev nD) (f : Buf (Elt F) ((c : Thread nD τ).loc cc0_stg1_0)) :
    (bigSep Finset.univ fun t : Fin 2 × Fin 4 × Fin 2 =>
        (ownsTc c (sub t.1 (chkOff c t.2.1) t.2.2) fullShare (fun i => f ((subR t.1 (chkOff c t.2.1) t.2.2).emb i)) : sProp 𝕄))
      ⊢ iprop((∃ v, ownsTc c (sub 0 (chkOff c 0) 0) fullShare v) ∗ (∃ v, ownsTc c (sub 0 (chkOff c 0) 1) fullShare v) ∗ (∃ v, ownsTc c (sub 0 (chkOff c 1) 0) fullShare v) ∗ (∃ v, ownsTc c (sub 0 (chkOff c 1) 1) fullShare v) ∗ (∃ v, ownsTc c (sub 0 (chkOff c 2) 0) fullShare v) ∗ (∃ v, ownsTc c (sub 0 (chkOff c 2) 1) fullShare v) ∗ (∃ v, ownsTc c (sub 0 (chkOff c 3) 0) fullShare v) ∗ (∃ v, ownsTc c (sub 0 (chkOff c 3) 1) fullShare v) ∗ (∃ v, ownsTc c (sub 1 (chkOff c 0) 0) fullShare v) ∗ (∃ v, ownsTc c (sub 1 (chkOff c 0) 1) fullShare v) ∗ (∃ v, ownsTc c (sub 1 (chkOff c 1) 0) fullShare v) ∗ (∃ v, ownsTc c (sub 1 (chkOff c 1) 1) fullShare v) ∗ (∃ v, ownsTc c (sub 1 (chkOff c 2) 0) fullShare v) ∗ (∃ v, ownsTc c (sub 1 (chkOff c 2) 1) fullShare v) ∗ (∃ v, ownsTc c (sub 1 (chkOff c 3) 0) fullShare v) ∗ (∃ v, ownsTc c (sub 1 (chkOff c 3) 1) fullShare v)) := by
  refine BIBase.Entails.trans (Entails.of_eq (bigSep_blocks16 _)) ?_
  iintro ⟨H000, H001, H010, H011, H020, H021, H030, H031, H100, H101, H110, H111, H120, H121, H130, H131⟩
  isplitl [H000]; · (iexists _; iexact H000)
  isplitl [H001]; · (iexists _; iexact H001)
  isplitl [H010]; · (iexists _; iexact H010)
  isplitl [H011]; · (iexists _; iexact H011)
  isplitl [H020]; · (iexists _; iexact H020)
  isplitl [H021]; · (iexists _; iexact H021)
  isplitl [H030]; · (iexists _; iexact H030)
  isplitl [H031]; · (iexists _; iexact H031)
  isplitl [H100]; · (iexists _; iexact H100)
  isplitl [H101]; · (iexists _; iexact H101)
  isplitl [H110]; · (iexists _; iexact H110)
  isplitl [H111]; · (iexists _; iexact H111)
  isplitl [H120]; · (iexists _; iexact H120)
  isplitl [H121]; · (iexists _; iexact H121)
  isplitl [H130]; · (iexists _; iexact H130)
  iexists _; iexact H131

theorem out_join16 (c : Dev nD) :
    (iprop(srcBlk m ρ c 0 3 0 ∗ srcBlk m ρ c 0 3 1 ∗ srcBlk m ρ c 0 4 0 ∗ srcBlk m ρ c 0 4 1 ∗ srcBlk m ρ c 0 5 0 ∗ srcBlk m ρ c 0 5 1 ∗ srcBlk m ρ c 0 6 0 ∗ srcBlk m ρ c 0 6 1 ∗ srcBlk m ρ c 1 3 0 ∗ srcBlk m ρ c 1 3 1 ∗ srcBlk m ρ c 1 4 0 ∗ srcBlk m ρ c 1 4 1 ∗ srcBlk m ρ c 1 5 0 ∗ srcBlk m ρ c 1 5 1 ∗ srcBlk m ρ c 1 6 0 ∗ srcBlk m ρ c 1 6 1) : sProp 𝕄)
      ⊢ (((c : Thread nD τ).loc cc0_stg1_0) ↦{fullShare} outFinal m ρ c) :=
  BIBase.Entails.trans (Entails.of_eq (bigSep_blocks16 (fun t : Fin 2 × Fin 4 × Fin 2 => srcBlk m ρ c t.1 (3 + t.2.1.val) t.2.2)).symm) (out_join m ρ c)

theorem rbuf12 (c : Dev nD) (v000 v001 v010 v011 v020 v021 v100 v101 v110 v111 v120 v121 : Vec F S128x1024 .bf16) :
    (iprop(slot c 0 0 0 v000 ∗ slot c 0 0 1 v001 ∗ slot c 0 1 0 v010 ∗ slot c 0 1 1 v011 ∗ slot c 0 2 0 v020 ∗ slot c 0 2 1 v021 ∗ slot c 1 0 0 v100 ∗ slot c 1 0 1 v101 ∗ slot c 1 1 0 v110 ∗ slot c 1 1 1 v111 ∗ slot c 1 2 0 v120 ∗ slot c 1 2 1 v121) : sProp 𝕄)
      ⊢ iprop(∃ f, scr c f) := by
  refine BIBase.Entails.trans ?_ (rbuf_join c)
  have e : (bigSep Finset.univ fun t : Fin 2 × Fin 3 × Fin 2 => (iprop(∃ v, slot (F := F) c t.1 t.2.1 t.2.2 v) : sProp 𝕄))
      = iprop(((∃ v, slot (F := F) c 0 0 0 v) ∗ (∃ v, slot (F := F) c 0 0 1 v) ∗ (∃ v, slot (F := F) c 0 1 0 v) ∗ (∃ v, slot (F := F) c 0 1 1 v) ∗ (∃ v, slot (F := F) c 0 2 0 v) ∗ (∃ v, slot (F := F) c 0 2 1 v)) ∗ ((∃ v, slot (F := F) c 1 0 0 v) ∗ (∃ v, slot (F := F) c 1 0 1 v) ∗ (∃ v, slot (F := F) c 1 1 0 v) ∗ (∃ v, slot (F := F) c 1 1 1 v) ∗ (∃ v, slot (F := F) c 1 2 0 v) ∗ (∃ v, slot (F := F) c 1 2 1 v))) := by
    rw [bigSep_univ_prod, bigSep_univ_two, bigSep_slots6, bigSep_slots6]
  rw [e]
  iintro ⟨H000, H001, H010, H011, H020, H021, H100, H101, H110, H111, H120, H121⟩
  isplitl [H000 H001 H010 H011 H020 H021]
  · isplitl [H000]; · (iexists _; iexact H000)
    isplitl [H001]; · (iexists _; iexact H001)
    isplitl [H010]; · (iexists _; iexact H010)
    isplitl [H011]; · (iexists _; iexact H011)
    isplitl [H020]; · (iexists _; iexact H020)
    iexists _; iexact H021
  isplitl [H100]; · (iexists _; iexact H100)
  isplitl [H101]; · (iexists _; iexact H101)
  isplitl [H110]; · (iexists _; iexact H110)
  isplitl [H111]; · (iexists _; iexact H111)
  isplitl [H120]; · (iexists _; iexact H120)
  iexists _; iexact H121

theorem sendPay_late (c : Dev nD) (d : Fin 2) (k : Fin 6) (j : Fin 2) (h : ¬ k.val ≤ 2) : sendPay m ρ c d k j = srcBlk m ρ c d k.val j := by
  unfold sendPay; rw [if_neg h]

/-- From step 3 on, the wait on a send cell returns the block that was sent. -/
theorem wp_wait_send_late (K : Dev nD × CellIx → ℕ) (c : Dev nD) (d : Fin 2) (k : Fin 6) (j : Fin 2) (s : ℕ) (hs : k.val = s)
    (hk : ¬ k.val ≤ 2) {srcM dstM : Memref sig .tc .vmem S128x1024 .bf16} (hcred : dstM.view.dmaCredit = N)
    {h1 : srcM.view.WordExact} {h2 : dstM.view.WordExact}
    {α : Type} {Q : α → sProp 𝕄} {kk : PUnit → Prog (TpuEff nD τ sig (Elt F) Λ₀ .tc) α} (W : Waits sig Unit) :
    iprop(records m ρ K ∗ cred (tallyAt (sendCell c d k j) () N) ∗ owes (c : Thread nD τ) 0 W
        ∗ atPos ER (sendCell c d k j) 0 ∅ 0)
      ⊢ iprop(((owes (c : Thread nD τ) 0 (insert (SemLoc.dma (sendS d k j).sem, ()) W) ∗ atPos ER (sendCell c d k j) 1 ∅ 0
              ∗ srcBlk m ρ c d s j) -∗ WP c (kk ⟨⟩) Q)
          -∗ WP c (.op (.waitDma2 (sendS d k j).sem srcM dstM h1 h2) kk) Q) := by
  subst hs; rw [← sendPay_late m ρ c d k j hk]; exact wp_wait_send m ρ K c d k j hcred W

set_option maxHeartbeats 0 in

theorem sound_body (K : Dev nD × CellIx → ℕ) (c : Dev nD) (Kt : PUnit → sProp 𝕄) (W : Waits sig Unit)
    (f0 : Buf (Elt F) ((c : Thread nD τ).loc cc0_scratch0)) (fo : Buf (Elt F) ((c : Thread nD τ).loc cc0_stg1_0)) :
    iprop(bodyIn m ρ K c W f0 fo ∗ (∀ W', bodyOut m ρ c W' -∗ Kt ⟨⟩))
      ⊢ WP c (atBufs cc0_body) Kt := by
  rw [cc0_body_eq_skeleton]; unfold cc0_body_skel
  unfold bodyIn ghost positions payToks credsOf WP
  iintro ⟨⟨⟨#Hrec, Hpos, HtBN, HtBP, Htoks⟩, ⟨HcB, HcR⟩, #Hlev, Hscr, HO, Hx, Hout⟩, Hk⟩

  ihave Hp := (Entails.of_eq (bigSep_cellIx (fun ix : CellIx => (atPos ER (kcell (c, ix)) 0 ∅ 0 : sProp 𝕄)))) $$ Hpos
  icases Hp with ⟨HaB, HpS, HpR⟩
  ihave HpS' := (Entails.of_eq (bigSep_lane24 _)) $$ HpS
  icases HpS' with ⟨HaS000, HaS001, HaS010, HaS011, HaS020, HaS021, HaS030, HaS031, HaS040, HaS041, HaS050, HaS051, HaS100, HaS101, HaS110, HaS111, HaS120, HaS121, HaS130, HaS131, HaS140, HaS141, HaS150, HaS151⟩
  ihave HpR' := (Entails.of_eq (bigSep_lane24 _)) $$ HpR
  icases HpR' with ⟨HaR000, HaR001, HaR010, HaR011, HaR020, HaR021, HaR030, HaR031, HaR040, HaR041, HaR050, HaR051, HaR100, HaR101, HaR110, HaR111, HaR120, HaR121, HaR130, HaR131, HaR140, HaR141, HaR150, HaR151⟩
  ihave Htk := (toks24 c) $$ Htoks
  icases Htk with ⟨⟨HtS000, HtR000⟩, ⟨HtS001, HtR001⟩, ⟨HtS010, HtR010⟩, ⟨HtS011, HtR011⟩, ⟨HtS020, HtR020⟩, ⟨HtS021, HtR021⟩, ⟨HtS030, HtR030⟩, ⟨HtS031, HtR031⟩, ⟨HtS040, HtR040⟩, ⟨HtS041, HtR041⟩, ⟨HtS050, HtR050⟩, ⟨HtS051, HtR051⟩, ⟨HtS100, HtR100⟩, ⟨HtS101, HtR101⟩, ⟨HtS110, HtR110⟩, ⟨HtS111, HtR111⟩, ⟨HtS120, HtR120⟩, ⟨HtS121, HtR121⟩, ⟨HtS130, HtR130⟩, ⟨HtS131, HtR131⟩, ⟨HtS140, HtR140⟩, ⟨HtS141, HtR141⟩, ⟨HtS150, HtR150⟩, ⟨HtS151, HtR151⟩⟩
  ihave Hcr := (Entails.of_eq (bigSep_lane24 _)) $$ HcR
  icases Hcr with ⟨HcR000, HcR001, HcR010, HcR011, HcR020, HcR021, HcR030, HcR031, HcR040, HcR041, HcR050, HcR051, HcR100, HcR101, HcR110, HcR111, HcR120, HcR121, HcR130, HcR131, HcR140, HcR141, HcR150, HcR151⟩

  ihave Hsl := (scr_slots c f0) $$ Hscr
  icases Hsl with ⟨Hsl0, Hsl1⟩
  ihave Hbl := (out_blocks c fo) $$ Hout
  ihave Hbl' := (blocks16 c fo) $$ Hbl
  icases Hbl' with ⟨⟨%w000, Hb000⟩, ⟨%w001, Hb001⟩, ⟨%w010, Hb010⟩, ⟨%w011, Hb011⟩, ⟨%w020, Hb020⟩, ⟨%w021, Hb021⟩, ⟨%w030, Hb030⟩, ⟨%w031, Hb031⟩, ⟨%w100, Hb100⟩, ⟨%w101, Hb101⟩, ⟨%w110, Hb110⟩, ⟨%w111, Hb111⟩, ⟨%w120, Hb120⟩, ⟨%w121, Hb121⟩, ⟨%w130, Hb130⟩, ⟨%w131, Hb131⟩⟩

  rw [wp_bind]
  iapply (part01 m ρ c (K (c, none)) (K (nxt c, none)) (K (prv c, none)) W)
  isplitr; · (iapply (inv_at m ρ K (c, none)); iexact Hrec)
  isplitr; · (iapply (inv_at m ρ K (nxt c, none)); iexact Hrec)
  isplitr; · (iapply (inv_at m ρ K (prv c, none)); iexact Hrec)
  isplitr; · (iapply (rch_at m ρ K (nxt c, none)); iexact Hrec)
  isplitr; · (iapply (rch_at m ρ K (prv c, none)); iexact Hrec)
  isplitr; · iexact Hlev
  iframe
  iintro %a1 %b1 %e1 %f1 ⟨HO, HaB, Hslp, Hsln⟩
  try dsimp only
  ihave Hslp' := (slots_six (prv c) 1) $$ Hslp
  icases Hslp' with ⟨⟨%up00, Hsp00⟩, ⟨%up01, Hsp01⟩, ⟨%up10, Hsp10⟩, ⟨%up11, Hsp11⟩, ⟨%up20, Hsp20⟩, ⟨%up21, Hsp21⟩⟩
  ihave Hsln' := (slots_six (nxt c) 0) $$ Hsln
  icases Hsln' with ⟨⟨%un00, Hsn00⟩, ⟨%un01, Hsn01⟩, ⟨%un10, Hsn10⟩, ⟨%un11, Hsn11⟩, ⟨%un20, Hsn20⟩, ⟨%un21, Hsn21⟩⟩

  rw [wp_bind]
  iapply (part02 m ρ c _ _ _ _ _ _)
  iframe
  iintro ⟨Hx, Hb000, Hb001, Hb100, Hb101⟩
  try dsimp only
  ihave Hb000 := (BIBase.Entails.trans (blk_conv m ρ c 0 0 0 (chkOff0_0 c) 0) (srcBlk0_intro m ρ c 0 0)) $$ Hb000
  ihave Hb001 := (BIBase.Entails.trans (blk_conv m ρ c 0 0 0 (chkOff0_0 c) 1) (srcBlk0_intro m ρ c 0 1)) $$ Hb001
  ihave Hb100 := (BIBase.Entails.trans (blk_conv m ρ c 1 0 0 (chkOff0_1 c) 0) (srcBlk0_intro m ρ c 1 0)) $$ Hb100
  ihave Hb101 := (BIBase.Entails.trans (blk_conv m ρ c 1 0 0 (chkOff0_1 c) 1) (srcBlk0_intro m ρ c 1 1)) $$ Hb101

  rw [wp_bind]
  iapply (part03 m ρ K c _ _ _ _ _ _ _)
  isplitr; · iexact Hrec
  iframe
  iintro ⟨HcS000, HcS100, HO⟩
  try dsimp only

  rw [wp_bind]
  iapply (part04 m ρ K c _ _ _ _ _ _ _)
  isplitr; · iexact Hrec
  iframe
  iintro %r4 ⟨HcS001, HcS101, HO⟩
  try dsimp only

  rw [wp_bind]
  iapply (part05 m ρ c _ _ _ _ _ _ _ _)
  iframe
  iintro %a5 ⟨Hx, Hb010, Hb011, Hb110, Hb111⟩
  try dsimp only

  rw [wp_bind]
  iapply (part06 m ρ c _ _ _ _ _ _ _ _)
  iframe
  iintro ⟨Hb020, Hb021, Hx, Hb120, Hb121, Hb030, Hb031⟩
  try dsimp only
  ihave Hb030 := (blk_conv m ρ c 0 3 1 (chkOff3_0 c) 0) $$ Hb030

  rw [wp_bind]
  iapply (part07 m ρ K c _ _ _ _ _)
  isplitr; · iexact Hrec
  isplitr; · iexact Hlev
  iframe
  iintro %a7 %b7 ⟨Hb130, Hb131, HO, HaR000, Hsl000, Htr000, Hb030⟩
  try dsimp only
  ihave Hb031 := (blk_conv m ρ c 0 3 1 (chkOff3_0 c) 1) $$ Hb031
  ihave Hb110 := (blk_conv m ρ c 1 1 1 (chkOff1_1 c) 0) $$ Hb110
  ihave Hb111 := (blk_conv m ρ c 1 1 1 (chkOff1_1 c) 1) $$ Hb111
  ihave Hb020 := (blk_conv m ρ c 0 2 2 (chkOff2_0 c) 0) $$ Hb020
  ihave Hb021 := (blk_conv m ρ c 0 2 2 (chkOff2_0 c) 1) $$ Hb021
  ihave Hb120 := (blk_conv m ρ c 1 2 2 (chkOff2_1 c) 0) $$ Hb120
  ihave Hb121 := (blk_conv m ρ c 1 2 2 (chkOff2_1 c) 1) $$ Hb121
  ihave Hb010 := (blk_conv m ρ c 0 1 3 (chkOff1_0 c) 0) $$ Hb010
  ihave Hb011 := (blk_conv m ρ c 0 1 3 (chkOff1_0 c) 1) $$ Hb011
  ihave Hb130 := (blk_conv m ρ c 1 3 3 (chkOff3_1 c) 0) $$ Hb130
  ihave Hb131 := (blk_conv m ρ c 1 3 3 (chkOff3_1 c) 1) $$ Hb131

  rw [wp_bind]
  iapply (part08 m ρ K c _ _ _ _ _ _ _)
  isplitr; · iexact Hrec
  isplitr; · iexact Hlev
  iframe
  iintro %a8 %b8 %e8 ⟨HcS010, HO, HaR100, Hsl100, Htr100⟩
  try dsimp only

  rw [wp_bind]
  iapply (part09 m ρ c _ _ _ _)
  iframe
  iintro ⟨Hsl100, Hs110⟩
  try dsimp only

  rw [wp_bind]
  iapply (part10 m ρ K c _ _ _ _)
  isplitr; · iexact Hrec
  isplitr; · iexact Hlev
  iframe
  iintro %a10 %b10 ⟨HcS110, HO, HaR001, Hsl001, Htr001, Hb031⟩
  try dsimp only

  rw [wp_bind]
  iapply (part11 m ρ K c _ _ _ _ _ _)
  isplitr; · iexact Hrec
  isplitr; · iexact Hlev
  iframe
  iintro ⟨Hsl001, HcS011, HO, HaR101, Hsl101, Htr101⟩
  try dsimp only

  rw [wp_bind]
  iapply (part12 m ρ c _ _)
  iframe
  iintro ⟨Hsl101, Hs111⟩
  try dsimp only

  rw [wp_bind]
  iapply (part13 m ρ K c _ _ _ _)
  isplitr; · iexact Hrec
  isplitr; · iexact Hlev
  iframe
  iintro %a13 %b13 ⟨HcS111, HO, HaR010, Hsl010, Htr010a, Htr010b, Hb020⟩
  try dsimp only

  rw [wp_bind]
  iapply (part14 m ρ K c _ _ _ _ _ _)
  isplitr; · iexact Hrec
  iframe
  iintro ⟨Hsl010, HcS020, HO⟩
  try dsimp only

  rw [wp_bind]
  iapply (part15 m ρ K c _ _)
  isplitr; · iexact Hrec
  isplitr; · iexact Hlev
  iframe
  iintro ⟨HO, HaR110, Hsl110, Htr110a, Htr110b, Hs120⟩
  try dsimp only

  rw [wp_bind]
  iapply (part16 m ρ K c _ _ _ _ _ _)
  isplitr; · iexact Hrec
  isplitr; · iexact Hlev
  iframe
  iintro %a16 %b16 ⟨HcS120, HO, HaR011, Hsl011, Htr011a, Htr011b⟩
  try dsimp only

  rw [wp_bind]
  iapply (part17 m ρ K c _ _ _ _ _ _)
  isplitr; · iexact Hrec
  iframe
  iintro ⟨Hsl011, HcS021, HO⟩
  try dsimp only

  rw [wp_bind]
  iapply (part18 m ρ K c _ _)
  isplitr; · iexact Hrec
  isplitr; · iexact Hlev
  iframe
  iintro ⟨HO, HaR111, Hsl111, Htr111a, Htr111b, Hs121⟩
  try dsimp only

  rw [wp_bind]
  iapply (part19 m ρ K c _ _ _ _ _)
  isplitr; · iexact Hrec
  isplitr; · iexact Hlev
  iframe
  iintro %a19 %b19 ⟨HcS121, HO, HaR020, Hsl020, Htr020a, Htr020b, Htr020c⟩
  try dsimp only

  rw [wp_bind]
  iapply (part20 m ρ K c _ _ _ _ _)
  isplitr; · iexact Hrec
  iframe
  iintro ⟨Hsl020, HcS030, HO⟩
  try dsimp only

  rw [wp_bind]
  iapply (part21 m ρ K c _ _)
  isplitr; · iexact Hrec
  isplitr; · iexact Hlev
  iframe
  iintro ⟨HO, HaR120, Hsl120, Htr120a, Htr120b, Htr120c, Hs130⟩
  try dsimp only

  rw [wp_bind]
  iapply (part22 m ρ K c _ _ _ _ _)
  isplitr; · iexact Hrec
  isplitr; · iexact Hlev
  iframe
  iintro %a22 %b22 ⟨HcS130, HO, HaR021, Hsl021, Htr021a, Htr021b, Htr021c⟩
  try dsimp only

  rw [wp_bind]
  iapply (part23 m ρ K c _ _ _ _ _)
  isplitr; · iexact Hrec
  iframe
  iintro ⟨Hsl021, HcS031, HO⟩
  try dsimp only

  rw [wp_bind]
  iapply (part24 m ρ K c _ _ _)
  isplitr; · iexact Hrec
  isplitr; · iexact Hlev
  iframe
  iintro ⟨HO, HaR121, Hsl121, Htr121a, Htr121b, Htr121c, Hs131⟩
  try dsimp only

  rw [wp_bind]
  iapply (part25 m ρ K c _ _ _)
  isplitr; · iexact Hrec
  isplitr; · iexact Hlev
  iframe
  iintro ⟨HcS131, HO, HaR030, Hg0400, Htr030a, Htr030b⟩
  try dsimp only

  rw [wp_bind]
  iapply (part26 m ρ K c _ _ _)
  isplitr; · iexact Hrec
  isplitr; · iexact Hlev
  iframe
  iintro %a26 %b26 ⟨HcS040, HO, HaR130, Hg1400, Htr130a, Htr130b⟩
  try dsimp only

  rw [wp_bind]
  iapply (part27 m ρ K c _ _ _ _ _)
  isplitr; · iexact Hrec
  isplitr; · iexact Hlev
  iframe
  iintro ⟨HcS140, HO, HaR031, Hg0401, Htr031a, Htr031b⟩
  try dsimp only

  rw [wp_bind]
  iapply (part28 m ρ K c _ _ _ _ _)
  isplitr; · iexact Hrec
  isplitr; · iexact Hlev
  iframe
  iintro ⟨HcS041, HO, HaR131, Hg1401, Htr131a, Htr131b⟩
  try dsimp only

  rw [wp_bind]
  iapply (part29 m ρ K c _ _ _ _)
  isplitr; · iexact Hrec
  isplitr; · iexact Hlev
  iframe
  iintro ⟨HcS141, HO, HaR040, Hg0500, Htr040a⟩
  try dsimp only

  rw [wp_bind]
  iapply (part30 m ρ K c _ _ _ _)
  isplitr; · iexact Hrec
  isplitr; · iexact Hlev
  iframe
  iintro ⟨HcS050, HO, HaR140, Hg1500, Htr140a⟩
  try dsimp only

  rw [wp_bind]
  iapply (part31 m ρ K c _ _ _ _)
  isplitr; · iexact Hrec
  isplitr; · iexact Hlev
  iframe
  iintro %a31 %b31 ⟨HcS150, HO, HaR041, Hg0501, Htr041a⟩
  try dsimp only

  rw [wp_bind]
  iapply (part32 m ρ K c _ _ _ _ _ _)
  isplitr; · iexact Hrec
  isplitr; · iexact Hlev
  iframe
  iintro %a32 %b32 ⟨HcS051, HO, HaR141, Hg1501, Htr141a⟩
  try dsimp only

  rw [wp_bind]
  iapply (part33 m ρ K c _ _ _ _ _)
  isplitr; · iexact Hrec
  isplitr; · iexact Hlev
  iframe
  iintro ⟨HcS151, HO, HaR050, Hg0600, HaR150, Hg1600⟩
  try dsimp only

  simp only [k0_part34_eq_skeleton, k0_part35_eq_skeleton, k0_part36_eq_skeleton, k0_part37_eq_skeleton, k0_part38_eq_skeleton, k0_part39_eq_skeleton, k0_part40_eq_skeleton]
  unfold k0_part34_skel k0_part35_skel k0_part36_skel k0_part37_skel k0_part38_skel k0_part39_skel k0_part40_skel
  simp only [Prog.lift, Prog.bind_op, Prog.bind_ret, Prog.pure_eq_ret]
  iapply (wp_wait_recv m ρ K c 0 5 1 (credit_rows _ _) (owedFrom c 0) _) $$ [HO HcR051 HaR051]
  · isplitr; · iexact Hrec
    isplitl [HcR051]; · iexact HcR051
    isplitl [HO]; · iexact HO
    isplitr; · iapply (mayWait_recv c 0 5 1 0 (by decide)); iexact Hlev
    iexact HaR051
  iintro ⟨HO, HaR051, Hg0601⟩
  ihave Hg0601 := (Entails.of_eq (recvPay_five m ρ c 0 1)) $$ Hg0601
  iapply (wp_wait_recv m ρ K c 1 5 1 (credit_rows _ _) (owedFrom c 0) _) $$ [HO HcR151 HaR151]
  · isplitr; · iexact Hrec
    isplitl [HcR151]; · iexact HcR151
    isplitl [HO]; · iexact HO
    isplitr; · iapply (mayWait_recv c 1 5 1 0 (by decide)); iexact Hlev
    iexact HaR151
  iintro ⟨HO, HaR151, Hg1601⟩
  ihave Hg1601 := (Entails.of_eq (recvPay_five m ρ c 1 1)) $$ Hg1601
  ihave HO := (show (owes (c : Thread nD τ) (owedFrom c 0) _ : sProp 𝕄) ⊢ owes (c : Thread nD τ) 0 _ from .rfl) $$ HO
  iapply (wp_wait_send m ρ K c 0 0 0 (credit_rows _ _) _) $$ [HcS000 HO HaS000]
  · isplitr; · iexact Hrec
    iframe
  iintro ⟨HO, HaS000, -⟩
  iapply (wp_wait_send m ρ K c 1 0 0 (credit_rows _ _) _) $$ [HcS100 HO HaS100]
  · isplitr; · iexact Hrec
    iframe
  iintro ⟨HO, HaS100, -⟩
  iapply (wp_wait_send m ρ K c 0 0 1 (credit_rows _ _) _) $$ [HcS001 HO HaS001]
  · isplitr; · iexact Hrec
    iframe
  iintro ⟨HO, HaS001, -⟩
  iapply (wp_wait_send m ρ K c 1 0 1 (credit_rows _ _) _) $$ [HcS101 HO HaS101]
  · isplitr; · iexact Hrec
    iframe
  iintro ⟨HO, HaS101, -⟩
  iapply (wp_wait_send m ρ K c 0 1 0 (credit_rows _ _) _) $$ [HcS010 HO HaS010]
  · isplitr; · iexact Hrec
    iframe
  iintro ⟨HO, HaS010, -⟩
  iapply (wp_wait_send m ρ K c 1 1 0 (credit_rows _ _) _) $$ [HcS110 HO HaS110]
  · isplitr; · iexact Hrec
    iframe
  iintro ⟨HO, HaS110, -⟩
  iapply (wp_wait_send m ρ K c 0 1 1 (credit_rows _ _) _) $$ [HcS011 HO HaS011]
  · isplitr; · iexact Hrec
    iframe
  iintro ⟨HO, HaS011, -⟩
  iapply (wp_wait_send m ρ K c 1 1 1 (credit_rows _ _) _) $$ [HcS111 HO HaS111]
  · isplitr; · iexact Hrec
    iframe
  iintro ⟨HO, HaS111, -⟩
  iapply (wp_wait_send m ρ K c 0 2 0 (credit_rows _ _) _) $$ [HcS020 HO HaS020]
  · isplitr; · iexact Hrec
    iframe
  iintro ⟨HO, HaS020, -⟩
  iapply (wp_wait_send m ρ K c 1 2 0 (credit_rows _ _) _) $$ [HcS120 HO HaS120]
  · isplitr; · iexact Hrec
    iframe
  iintro ⟨HO, HaS120, -⟩
  iapply (wp_wait_send m ρ K c 0 2 1 (credit_rows _ _) _) $$ [HcS021 HO HaS021]
  · isplitr; · iexact Hrec
    iframe
  iintro ⟨HO, HaS021, -⟩
  iapply (wp_wait_send m ρ K c 1 2 1 (credit_rows _ _) _) $$ [HcS121 HO HaS121]
  · isplitr; · iexact Hrec
    iframe
  iintro ⟨HO, HaS121, -⟩
  iapply (wp_wait_send_late m ρ K c 0 3 0 3 rfl (by decide) (credit_rows _ _) _) $$ [HcS030 HO HaS030]
  · isplitr; · iexact Hrec
    iframe
  iintro ⟨HO, HaS030, Hg0300⟩
  iapply (wp_wait_send_late m ρ K c 1 3 0 3 rfl (by decide) (credit_rows _ _) _) $$ [HcS130 HO HaS130]
  · isplitr; · iexact Hrec
    iframe
  iintro ⟨HO, HaS130, Hg1300⟩
  iapply (wp_wait_send_late m ρ K c 0 3 1 3 rfl (by decide) (credit_rows _ _) _) $$ [HcS031 HO HaS031]
  · isplitr; · iexact Hrec
    iframe
  iintro ⟨HO, HaS031, Hg0301⟩
  iapply (wp_wait_send_late m ρ K c 1 3 1 3 rfl (by decide) (credit_rows _ _) _) $$ [HcS131 HO HaS131]
  · isplitr; · iexact Hrec
    iframe
  iintro ⟨HO, HaS131, Hg1301⟩
  iapply (wp_wait_send_late m ρ K c 0 4 0 4 rfl (by decide) (credit_rows _ _) _) $$ [HcS040 HO HaS040]
  · isplitr; · iexact Hrec
    iframe
  iintro ⟨HO, HaS040, Hf0400⟩
  iapply (wp_wait_send_late m ρ K c 1 4 0 4 rfl (by decide) (credit_rows _ _) _) $$ [HcS140 HO HaS140]
  · isplitr; · iexact Hrec
    iframe
  iintro ⟨HO, HaS140, Hf1400⟩
  iapply (wp_wait_send_late m ρ K c 0 4 1 4 rfl (by decide) (credit_rows _ _) _) $$ [HcS041 HO HaS041]
  · isplitr; · iexact Hrec
    iframe
  iintro ⟨HO, HaS041, Hf0401⟩
  iapply (wp_wait_send_late m ρ K c 1 4 1 4 rfl (by decide) (credit_rows _ _) _) $$ [HcS141 HO HaS141]
  · isplitr; · iexact Hrec
    iframe
  iintro ⟨HO, HaS141, Hf1401⟩
  iapply (wp_wait_send_late m ρ K c 0 5 0 5 rfl (by decide) (credit_rows _ _) _) $$ [HcS050 HO HaS050]
  · isplitr; · iexact Hrec
    iframe
  iintro ⟨HO, HaS050, Hf0500⟩
  iapply (wp_wait_send_late m ρ K c 1 5 0 5 rfl (by decide) (credit_rows _ _) _) $$ [HcS150 HO HaS150]
  · isplitr; · iexact Hrec
    iframe
  iintro ⟨HO, HaS150, Hf1500⟩
  iapply (wp_wait_send_late m ρ K c 0 5 1 5 rfl (by decide) (credit_rows _ _) _) $$ [HcS051 HO HaS051]
  · isplitr; · iexact Hrec
    iframe
  iintro ⟨HO, HaS051, Hf0501⟩
  iapply (wp_wait_send_late m ρ K c 1 5 1 5 rfl (by decide) (credit_rows _ _) _) $$ [HcS151 HO HaS151]
  · isplitr; · iexact Hrec
    iframe
  iintro ⟨HO, HaS151, Hf1501⟩

  imod (own_zero m ρ K c) $$ [HaS000 HaR000 HaS001 HaR001 HaS010 HaR010 HaS011 HaR011 HaS020 HaR020 HaS021 HaR021 HaS030 HaR030 HaS031 HaR031 HaS040 HaR040 HaS041 HaR041 HaS050 HaR050 HaS051 HaR051 HaS100 HaR100 HaS101 HaR101 HaS110 HaR110 HaS111 HaR111 HaS120 HaR120 HaS121 HaR121 HaS130 HaR130 HaS131 HaR131 HaS140 HaR140 HaS141 HaR141 HaS150 HaR150 HaS151 HaR151] with Hz
  · isplitr; · iexact Hrec
    simp only [bigSep_lane24]; iframe
  ihave Hout := (out_join16 m ρ c) $$ [Hg0300 Hg0301 Hf0400 Hf0401 Hf0500 Hf0501 Hg0600 Hg0601 Hg1300 Hg1301 Hf1400 Hf1401 Hf1500 Hf1501 Hg1600 Hg1601]
  · iframe
  ihave Hscr := (rbuf12 c _ _ _ _ _ _ _ _ _ _ _ _) $$ [Hsl000 Hsl001 Hsl010 Hsl011 Hsl020 Hsl021 Hsl100 Hsl101 Hsl110 Hsl111 Hsl120 Hsl121]
  · iframe
  rw [wp_ret]; imodintro
  iapply Hk $$ %_
  unfold bodyOut Φ₁
  iframe

end Cert.KernelProof

end
-- ==== Proof.KernelLaunch.lean ====
import proofs.«900326_g7700000000000327_dist_treered_v7x_i4_m2048_n1024_bf16_1_alg».proof.Proof.KernelBody
import proofs.«900326_g7700000000000327_dist_treered_v7x_i4_m2048_n1024_bf16_1_alg».proof.Proof.Gen.Kernel.Points
import Idealize.ShloMosaic.Lib.Pipeline.Launch
import Idealize.ShloMosaic.Lib.Pipeline.Kit
import Idealize.ShloMosaic.Lib.Pipeline.Cells
import Idealize.ShloMosaic.Lib.Rounds
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outFinal m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stgAt (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre' (c : Dev nD) : sProp 𝕄 :=
  iprop(Φ₀ m ρ c ∗ (dats m ρ 0 c).owesAt () t₀.castSucc
    ∗ (∃ d, stgAt c cc0_stg0_0 ((dats m ρ 0 c).before (0 : Fin 2) t₀ d))
    ∗ (∃ d, stgAt c cc0_stg1_0 ((dats m ρ 0 c).before (1 : Fin 2) t₀ d)))

def bodyPost (c : Dev nD) : sProp 𝕄 :=
  iprop(Φ₁ (F := F) c ∗ (dats m ρ 0 c).owesAt () t₀.succ ∗ stgAt c cc0_stg0_0 (xstg m ρ c) ∗ stgAt c cc0_stg1_0 (outFinal m ρ c))

theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (atBufs cc0_body) (fun _ => bodyPost m ρ c)
  unfold bodyPre' Φ₀ start
  iintro ⟨⟨⟨⟨%K, Hg⟩, Hcr, Hlev⟩, ⟨%f0, Hscr⟩⟩, Ho, ⟨%d0, %g0, %hg0, Hx⟩, ⟨%d1, %g1, %hg1, Hout⟩⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  iapply (sound_body m ρ K c (fun _ => bodyPost m ρ c) W f0 g1)
  isplitl
  · unfold bodyIn
    isplitl [Hg]; · iexact Hg
    isplitl [Hcr]; · iexact Hcr
    isplitl [Hlev]; · iexact Hlev
    isplitl [Hscr]; · iexact Hscr
    isplitl [HO]; · iexact HO
    isplitl [Hx]; · iexact Hx
    iexact Hout
  · iintro %W' H
    unfold bodyOut bodyPost
    icases H with ⟨H1, HO, Hx, Hout⟩
    isplitl [H1]; · iexact H1
    isplitl [HO]
    · iexists W'
      isplitr; · ipureintro; exact fun _ _ => Or.inl trivial
      rw [show (dats m ρ 0 c).owed t₀.succ = 0 from rfl]; iexact HO
    isplitl [Hx]
    · iexists _; isplitr; · (ipureintro; rfl)
      iexact Hx
    iexists _; isplitr; · (ipureintro; rfl)
    iexact Hout

abbrev osem (bt : Bool × Lane) : SemLoc sig := csem (some bt)

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : CellIx → SemLoc sig) := by
  intro a b h
  rcases a with _ | ⟨_ | _, d, k, j⟩ <;> rcases b with _ | ⟨_ | _, d', k', j'⟩
  · rfl
  · exact absurd h (fun h => by cases h)
  · exact absurd h (fun h => by cases h)
  · exact absurd h (fun h => by cases h)
  · have hv := congrArg (fun q : DmaSem sig => q.val) (SemLoc.dma.inj h)
    simp only [sendS_val] at hv
    have := d.isLt; have := k.isLt; have := j.isLt; have := d'.isLt; have := k'.isLt; have := j'.isLt
    have hd : d = d' := Fin.ext (by omega)
    have hk : k = k' := Fin.ext (by omega)
    have hj : j = j' := Fin.ext (by omega)
    subst hd hk hj; rfl
  · have hv := congrArg (fun q : DmaSem sig => q.val) (SemLoc.dma.inj h)
    simp only [sendS_val, recvS_val] at hv
    have := d.isLt; have := k.isLt; have := j.isLt; have := d'.isLt; have := k'.isLt; have := j'.isLt
    omega
  · exact absurd h (fun h => by cases h)
  · have hv := congrArg (fun q : DmaSem sig => q.val) (SemLoc.dma.inj h)
    simp only [sendS_val, recvS_val] at hv
    have := d.isLt; have := k.isLt; have := j.isLt; have := d'.isLt; have := k'.isLt; have := j'.isLt
    omega
  · have hv := congrArg (fun q : DmaSem sig => q.val) (SemLoc.dma.inj h)
    simp only [recvS_val] at hv
    have := d.isLt; have := k.isLt; have := j.isLt; have := d'.isLt; have := k'.isLt; have := j'.isLt
    have hd : d = d' := Fin.ext (by omega)
    have hk : k = k' := Fin.ext (by omega)
    have hj : j = j' := Fin.ext (by omega)
    subst hd hk hj; rfl

theorem kcell_injective : Function.Injective (kcell : Dev nD × CellIx → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def ringCells : Finset (GSem nD τ sig) := Finset.univ.map ⟨kcell, kcell_injective⟩

abbrev TokIx : Type := Bool ⊕ (Bool × Lane)
abbrev tokOf (cj : Dev nD × TokIx) : GSem nD τ sig × ℕ × Bool := match cj.2 with
  | .inl b => (barCell cj.1, 0, b)
  | .inr bt => (kcell (cj.1, some bt), 0, false)
theorem tokOf_injective : Function.Injective (tokOf : Dev nD × TokIx → GSem nD τ sig × ℕ × Bool) := by
  rintro ⟨c, j⟩ ⟨c', j'⟩ h
  rcases j with b | bt <;> rcases j' with b' | bt'
  · have h1 := kcell_injective (a₁ := (c, none)) (a₂ := (c', none)) (congrArg (fun x : GSem nD τ sig × ℕ × Bool => x.1) h)
    have h2 : b = b' := congrArg (fun x : GSem nD τ sig × ℕ × Bool => x.2.2) h
    rw [(Prod.mk.inj h1).1, h2]
  · have h1 := kcell_injective (a₁ := (c, none)) (a₂ := (c', some bt')) (congrArg (fun x : GSem nD τ sig × ℕ × Bool => x.1) h)
    exact absurd (Prod.mk.inj h1).2 (fun h => by cases h)
  · have h1 := kcell_injective (a₁ := (c, some bt)) (a₂ := (c', none)) (congrArg (fun x : GSem nD τ sig × ℕ × Bool => x.1) h)
    exact absurd (Prod.mk.inj h1).2 (fun h => by cases h)
  · have h1 := kcell_injective (a₁ := (c, some bt)) (a₂ := (c', some bt')) (congrArg (fun x : GSem nD τ sig × ℕ × Bool => x.1) h)
    rw [(Prod.mk.inj h1).1, Option.some.inj (Prod.mk.inj h1).2]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  bigSep Finset.univ fun j : TokIx => dutyTok ER (tokOf (c, j)).1 (tokOf (c, j)).2.1 (tokOf (c, j)).2.2

def G (c : Dev nD) : sProp 𝕄 :=
  iprop((bigSep Finset.univ fun ix : CellIx => roundState ER (ringRd m ρ) (kcell (c, ix)) 0)
    ∗ (bigSep Finset.univ fun ix : CellIx => iprop(atPos ER (kcell (c, ix)) 0 ∅ 0 ∗ reached ER (kcell (c, ix)) 0)) ∗ toks c)

def G' (c : Dev nD) : sProp 𝕄 := iprop(∃ K, ghost m ρ K c)

omit [FloatOps F] in
theorem bigSep_univ_bool (Ψ : Bool → sProp 𝕄) : bigSep Finset.univ Ψ = iprop(Ψ false ∗ Ψ true) :=
  bigSep_univ_eq_bigSepL [false, true] (by decide) (by decide) Ψ

omit [FloatOps F] in
theorem bigSep_sendRecv (Ψ : Bool × Lane → sProp 𝕄) :
    bigSep Finset.univ Ψ = bigSep Finset.univ fun t : Lane => iprop(Ψ (false, t) ∗ Ψ (true, t)) := by
  rw [bigSep_univ_prod Ψ, bigSep_univ_bool, ← bigSep_sep']

omit [FloatOps F] in

theorem bigSep_cells49 (Φ : CellIx → sProp 𝕄) :
    bigSep Finset.univ Φ = iprop(Φ none ∗ bigSep Finset.univ fun t : Lane => iprop(Φ (some (false, t)) ∗ Φ (some (true, t)))) := by
  rw [bigSep_univ_equiv (Equiv.optionEquivSumPUnit (Bool × Lane)).symm Φ,
    bigSep_univ_sum (fun a : (Bool × Lane) ⊕ PUnit.{1} => Φ ((Equiv.optionEquivSumPUnit (Bool × Lane)).symm a)),
    bigSep_univ_of_subsingleton PUnit.unit, bigSep_sendRecv]
  exact BI.Entails.antisymm _root_.Idealize.SL.BI.sep_comm _root_.Idealize.SL.BI.sep_comm

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun ix : CellIx => Φ (kcell (c, ix)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in

theorem ownSems0_eq (c : Dev nD) : (Pipeline.ownSems0 (Ix := Unit) (Name := ℕ) (U := UU) (Lvl := ℕ) (Val := Elt F) (τ := τ) osem c : sProp 𝕄)
    = ownZero c := by
  unfold Pipeline.ownSems0 ownZero
  rw [bigSep_sendRecv]
omit [FloatOps F] in

theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun ix : CellIx => semVal (kcell (c, ix)) 0 : sProp 𝕄) := by
  rw [ownSems0_eq, unscopedSems0_eq, bigSep_cells49]
  unfold ownZero
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun ix : CellIx => iprop(∃ κ : ℕ, cellInv ER (ringRd m ρ) κ (kcell (c, ix))))
          ∗ (bigSep Finset.univ fun ix : CellIx => iprop(atPos ER (kcell (c, ix)) 0 ∅ 0 ∗ reached ER (kcell (c, ix)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun ix : CellIx => semVal (kcell (c, ix)) 0) ∗ bigSep Finset.univ fun ix : CellIx => roundState ER (ringRd m ρ) (kcell (c, ix)) 0)
      ⊢ (|={Set.univ}=> bigSep Finset.univ fun ix : CellIx => iprop(∃ κ : ℕ, cellInv ER (ringRd m ρ) κ (kcell (c, ix))) : sProp 𝕄) from by
        rw [← bigSep_sep']
        exact (bigSep_mono fun ix _ => (Rounds.body_intro ER (ringRd m ρ) (kcell (c, ix))).trans inv_alloc).trans (bigSep_fupd _ _)) $$ [Hv Hst] with Hinv
  · isplitl [Hv] <;> iassumption
  imodintro
  isplitl [Hinv]; · iexact Hinv
  isplitl [Hat]; · iexact Hat
  iexact Htok

def ringRot : Dev nD ≃ Dev nD := ⟨nxt, prv, prv_nxt, nxt_prv⟩

def laneShift : Dev nD × Lane ≃ Dev nD × Lane :=
  ⟨fun p => (dn p.2.1 p.1, p.2), fun p => (up p.2.1 p.1, p.2), fun p => by simp only [up_dn], fun p => by simp only [dn_up]⟩

omit [FloatOps F] in
theorem toks_eq (c : Dev nD) : toks (F := F) c
    = iprop((dutyTok ER (barCell c) 0 false ∗ dutyTok ER (barCell c) 0 true)
        ∗ (bigSep Finset.univ fun t : Lane => dutyTok ER (sendCell c t.1 t.2.1 t.2.2) 0 false)
        ∗ bigSep Finset.univ fun t : Lane => dutyTok ER (recvCell c t.1 t.2.1 t.2.2) 0 false) := by
  unfold toks
  rw [bigSep_univ_sum (fun j : TokIx => (dutyTok ER (tokOf (c, j)).1 (tokOf (c, j)).2.1 (tokOf (c, j)).2.2 : sProp 𝕄)),
    bigSep_univ_bool, bigSep_sendRecv, bigSep_sep']
  rfl

omit [FloatOps F] in
theorem payToks_eq (c : Dev nD) : payToks (F := F) c
    = iprop(dutyTok ER (barCell (nxt c)) 0 false ∗ dutyTok ER (barCell (prv c)) 0 true
        ∗ (bigSep Finset.univ fun t : Lane => dutyTok ER (sendCell c t.1 t.2.1 t.2.2) 0 false)
        ∗ bigSep Finset.univ fun t : Lane => dutyTok ER (recvCell (dn t.1 c) t.1 t.2.1 t.2.2) 0 false) := by
  unfold payToks; rw [bigSep_sep']

omit [FloatOps F] in

theorem toks_around : (bigSep Finset.univ fun c : Dev nD => (toks c : sProp 𝕄)) ⊢ bigSep Finset.univ fun c : Dev nD => payToks c := by
  have hrecv : (bigSep Finset.univ fun c : Dev nD => bigSep Finset.univ fun t : Lane => (dutyTok ER (recvCell c t.1 t.2.1 t.2.2) 0 false : sProp 𝕄))
      = bigSep Finset.univ fun c : Dev nD => bigSep Finset.univ fun t : Lane => (dutyTok ER (recvCell (dn t.1 c) t.1 t.2.1 t.2.2) 0 false : sProp 𝕄) := by
    rw [← bigSep_univ_prod (fun p : Dev nD × Lane => (dutyTok ER (recvCell p.1 p.2.1 p.2.2.1 p.2.2.2) 0 false : sProp 𝕄)),
      bigSep_univ_equiv laneShift, bigSep_univ_prod]
    rfl
  rw [bigSep_congr (s := Finset.univ) (fun (c : Dev nD) _ => toks_eq (F := F) c),
    bigSep_congr (s := Finset.univ) (fun (c : Dev nD) _ => payToks_eq (F := F) c)]
  rw [bigSep_sep', bigSep_sep', bigSep_sep', bigSep_sep', bigSep_sep', bigSep_sep', hrecv,
    bigSep_univ_equiv ringRot (fun c : Dev nD => (dutyTok ER (barCell c) 0 false : sProp 𝕄)),
    bigSep_univ_equiv ringRot.symm (fun c : Dev nD => (dutyTok ER (barCell c) 0 true : sProp 𝕄))]
  iintro ⟨⟨H1, H2⟩, H3, H4⟩
  isplitl [H1]; · iexact H1
  isplitl [H2]; · iexact H2
  isplitl [H3]; · iexact H3
  iexact H4

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CellIx → ℕ) (c : Dev nD) :
    iprop(records m ρ K ∗ (positions (F := F) c ∗ payToks (F := F) c)) ⊢ G' m ρ c := by
  unfold G' ghost
  iintro ⟨HR, HL⟩
  iexists K
  isplitl [HR]; · iexact HR
  iexact HL

theorem regroup :
    (bigSep Finset.univ fun c => iprop((bigSep Finset.univ fun ix : CellIx => iprop(∃ κ : ℕ, cellInv ER (ringRd m ρ) κ (kcell (c, ix))))
          ∗ (bigSep Finset.univ fun ix : CellIx => iprop(atPos ER (kcell (c, ix)) 0 ∅ 0 ∗ reached ER (kcell (c, ix)) 0)) ∗ toks c) : sProp 𝕄)
      ⊢ bigSep Finset.univ (G' m ρ) := by
  rw [bigSep_sep', bigSep_sep', ← bigSep_univ_prod (fun ck : Dev nD × CellIx => iprop(∃ κ : ℕ, cellInv ER (ringRd m ρ) κ (kcell ck))),
    bigSep_congr (s := Finset.univ) (fun (c : Dev nD) _ => bigSep_sep' Finset.univ (fun ix : CellIx => (atPos ER (kcell (c, ix)) 0 ∅ 0 : sProp 𝕄)) (fun ix => reached ER (kcell (c, ix)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · rw [bigSep_sep']
    isplitl [Hat]; · (unfold positions; iexact Hat)
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G' credsOf
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ scr
  iintro ⟨⟨%f, Hr⟩, Hz⟩
  isplitr; · iempintro
  isplitl [Hz]; · iexact Hz
  iexists f; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

theorem finalA_x (c : Dev nD) : finalA m ρ c (0 : Fin 2) = (s₀ m ρ).mem (win0_0.arr.view.loc (c : Thread nD τ)) :=
  (dats (F := F) m ρ 0 c).arrAt_in (0 : Fin 2) rfl _

theorem finalA_out (c : Dev nD) : finalA m ρ c (1 : Fin 2) = outFinal m ρ c := by
  have hstep : finalA m ρ c (1 : Fin 2)
      = ((cfg0.win (1 : Fin 2)).blk t₀).view.write (Elt F) ((dats m ρ 0 c).arrAt (1 : Fin 2) t₀.val)
          ((dats m ρ 0 c).flushed (1 : Fin 2) t₀) Finset.univ := by
    have h := (dats m ρ 0 c).arrAt_succ (1 : Fin 2) t₀
    rw [if_pos (flush0_1 t₀)] at h
    exact h
  have hwhole : ∀ X : Buf (Elt F) ((cfg0.win (1 : Fin 2)).arr.view.loc (c : Thread nD τ)),
      ((cfg0.win (1 : Fin 2)).blk t₀).view.read (Elt F) X = X := fun X =>
    Memref.read_access_unit_zero (Elt F) main_v1 (funext fun a => by fin_cases a <;> decide) (fun a => by fin_cases a <;> decide) X
  rw [← hwhole (finalA m ρ c (1 : Fin 2)), hstep, View.read_write_univ]
  rfl

theorem run_value : θ_run defs (onTc (τ := τ) (main (F := F))) ⟨m, fun _ => 0, ρ⟩ (fun r => ∀ c : Dev nD,
    r.2.mem ((c.tc : Thread nD τ).loc main_v1) = outFinal m ρ c
      ∧ r.2.mem ((c.tc : Thread nD τ).loc main_arg0) = m ((c.tc : Thread nD τ).loc main_arg0)) :=
  (θ_run defs _ _).mono (fun _ h c => ⟨(h c (1 : Fin 2)).trans (finalA_out m ρ c), (h c (0 : Fin 2)).trans (finalA_x m ρ c)⟩) (run_main m ρ)

theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)) :=
  (θ_run defs _ _).mono (fun _ h c => (h c).2) (run_value m ρ)

end Cert.KernelProof

end
-- ==== Proof.KernelIdealRing.lean ====
import proofs.«900326_g7700000000000327_dist_treered_v7x_i4_m2048_n1024_bf16_1_alg».proof.KernelIdeal

namespace Cert.KernelIdealProof

open Cert.KernelIdeal Idealize.ShloMosaic

def nxt (c : Dev nD) : Dev nD := ⟨(c.val + 1) % 4, Nat.mod_lt _ (by decide)⟩

def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

def dn (d : Fin 2) (c : Dev nD) : Dev nD := if d = 0 then nxt c else prv c

def up (d : Fin 2) (c : Dev nD) : Dev nD := if d = 0 then prv c else nxt c

theorem up_dn (d : Fin 2) (c : Dev nD) : up d (dn d c) = c := by revert d c; decide
theorem dn_up (d : Fin 2) (c : Dev nD) : dn d (up d c) = c := by revert d c; decide
theorem up_up_up (d : Fin 2) (c : Dev nD) : up d (up d (up d c)) = dn d c := by revert d c; decide

def chk (d : Fin 2) (c : Dev nD) (s : ℕ) : Fin 4 :=
  if d = 0 then ⟨(c.val + 4 - s % 4) % 4, Nat.mod_lt _ (by decide)⟩ else ⟨(c.val + s) % 4, Nat.mod_lt _ (by decide)⟩

theorem chk_dn (d : Fin 2) (c : Dev nD) (s : Fin 4) : chk d (dn d c) (s.val + 1) = chk d c s.val := by revert d c s; decide

end Cert.KernelIdealProof
-- ==== Proof.KernelIdealBase.lean ====
import proofs.«900326_g7700000000000327_dist_treered_v7x_i4_m2048_n1024_bf16_1_alg».proof.Proof.KernelIdealRing

import proofs.«900326_g7700000000000327_dist_treered_v7x_i4_m2048_n1024_bf16_1_alg».proof.Proof.Gen.KernelIdeal.Skeleton
import proofs.«900326_g7700000000000327_dist_treered_v7x_i4_m2048_n1024_bf16_1_alg».proof.Proof.Gen.KernelIdeal.Launch
import Idealize.ShloMosaic.Lib.Pipeline.Launch
import Idealize.ShloMosaic.Lib.Pipeline.Kit
import Idealize.ShloMosaic.Lib.Memref
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev xM : Memref sig .tc .vmem S1x2048x1024 .f32 := Memref.whole cc0_stg0_0
abbrev oM : Memref sig .tc .vmem S2048x1024 .bf16 := Memref.whole cc0_stg1_0
abbrev rM : Memref sig .tc .vmem S2x3x2x128x1024 .bf16 := Memref.whole cc0_scratch0

/-- A function of the argument, result and landing arrays and the two semaphore arrays, at this kernel's own, whole. -/
abbrev atBufs {α : Sort _} (k : (a : Memref sig .tc .vmem S1x2048x1024 .f32) → a.IsWhole → (b : Memref sig .tc .vmem S2048x1024 .bf16) → b.IsWhole →
    (r : Memref sig .tc .vmem S2x3x2x128x1024 .bf16) → r.IsWhole → DmaSems sig S2x6x2 → DmaSems sig S2x6x2 → α) : α :=
  k xM (Memref.isWhole_whole _) oM (Memref.isWhole_whole _) rM (Memref.isWhole_whole _) cc0_scratch1 cc0_scratch2

def subOff (d : Fin 2) (ch : Fin 4) (j : Fin 2) : Fin 2 → ℕ := ![1024 * d.val + 256 * ch.val + 128 * j.val, 0]
theorem subOff_inb : ∀ (d : Fin 2) (ch : Fin 4) (j : Fin 2), ∀ a, subOff d ch j a + S128x1024.size a ≤ S2048x1024.size a := by decide
abbrev subR (d : Fin 2) (ch : Fin 4) (j : Fin 2) : Rect S2048x1024 := Rect.unit (s := S2048x1024) (subOff d ch j) S128x1024.size (subOff_inb d ch j)

abbrev sub (d : Fin 2) (ch : Fin 4) (j : Fin 2) : Memref sig .tc .vmem S128x1024 .bf16 := oM.slice (subR d ch j) (fun _ => rfl)

def rbOff (d : Fin 2) (s : Fin 3) (j : Fin 2) : Fin 5 → ℕ := ![d.val, s.val, j.val, 0, 0]
theorem rbOff_inb : ∀ (d : Fin 2) (s : Fin 3) (j : Fin 2), ∀ a, rbOff d s j a + S1x1x1x128x1024.size a ≤ S2x3x2x128x1024.size a := by decide
abbrev rbR (d : Fin 2) (s : Fin 3) (j : Fin 2) : Rect S2x3x2x128x1024 := Rect.unit (s := S2x3x2x128x1024) (rbOff d s j) S1x1x1x128x1024.size (rbOff_inb d s j)

abbrev rb (d : Fin 2) (s : Fin 3) (j : Fin 2) : Memref sig .tc .vmem S128x1024 .bf16 :=
  (rM.slice (rbR d s j) (fun _ => rfl)).squeeze S128x1024 squeezes_S1x1x1x128x1024_S128x1024

def semOff (d : Fin 2) (k : Fin 6) (j : Fin 2) : Fin 3 → ℕ := ![d.val, k.val, j.val]
theorem semOff_inb : ∀ (d : Fin 2) (k : Fin 6) (j : Fin 2), ∀ a, semOff d k j a + S1x1x1.size a ≤ S2x6x2.size a := by decide
abbrev semR (d : Fin 2) (k : Fin 6) (j : Fin 2) : Rect S2x6x2 := Rect.unit (s := S2x6x2) (semOff d k j) S1x1x1.size (semOff_inb d k j)
abbrev sendS (d : Fin 2) (k : Fin 6) (j : Fin 2) : DmaSems sig S_ := (cc0_scratch1.slice (semR d k j)).squeeze S_ squeezes_S1x1x1_S_
abbrev recvS (d : Fin 2) (k : Fin 6) (j : Fin 2) : DmaSems sig S_ := (cc0_scratch2.slice (semR d k j)).squeeze S_ squeezes_S1x1x1_S_

abbrev barS : Sem sig := (SemArray.scalar (sig.barrier 0 rfl) : Sems sig S_).sem

abbrev barCell (c : Dev nD) : GSem nD τ sig := ((c : Thread nD τ), .reg barS)
abbrev sendCell (c : Dev nD) (d : Fin 2) (k : Fin 6) (j : Fin 2) : GSem nD τ sig := ((c : Thread nD τ), .dma (sendS d k j).sem)
abbrev recvCell (c : Dev nD) (d : Fin 2) (k : Fin 6) (j : Fin 2) : GSem nD τ sig := ((c : Thread nD τ), .dma (recvS d k j).sem)

abbrev N : ℕ := (sub 0 0 0).view.dmaCredit
theorem N_pos : 0 < N := View.dmaCredit_pos _ (by decide)
theorem rb_credit (d : Fin 2) (s : Fin 3) (j : Fin 2) : (rb d s j).view.dmaCredit = N := rfl

theorem sendS_val : ∀ (d : Fin 2) (k : Fin 6) (j : Fin 2), ((sendS d k j).sem : DmaSem sig).val = 2 + 12 * d.val + 2 * k.val + j.val := by decide
theorem recvS_val : ∀ (d : Fin 2) (k : Fin 6) (j : Fin 2), ((recvS d k j).sem : DmaSem sig).val = 26 + 12 * d.val + 2 * k.val + j.val := by decide

end Cert.KernelIdealProof

end
-- ==== Proof.KernelIdealVals.lean ====
import proofs.«900326_g7700000000000327_dist_treered_v7x_i4_m2048_n1024_bf16_1_alg».proof.Proof.KernelIdealBase

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

def slotRead {α : Type} (w : S128x1024.Idx → α) : S1x1x1x128x1024.Idx → α :=
  fun i => w ((Shape.reshapeEquiv squeezes_S1x1x1x128x1024_S128x1024.numel_eq).symm i)

variable (m : (ℓ : Loc nD τ sig) → Buf (Elt F) ℓ) (ρ : Dev nD → PrngReg)

def s₀ : MemSt nD τ sig (Elt F) := ⟨m, fun _ => 0, ρ⟩

def xstg (c : Dev nD) : (cc0_stg0_0 : Ref sig .tc).ty.Contents (Elt F) :=
  (win0_0.blk (0 : Fin 1)).view.read (Elt F) ((s₀ m ρ).mem ((c : Thread nD τ).loc main_arg0))

def xOff (d : Fin 2) (ch : Fin 4) : Fin 3 → ℕ := ![0, 1024 * d.val + 256 * ch.val, 0]
theorem xOff_inb : ∀ (d : Fin 2) (ch : Fin 4), ∀ a, xOff d ch a + S1x256x1024.size a ≤ S1x2048x1024.size a := by decide
abbrev xR (d : Fin 2) (ch : Fin 4) : Rect S1x2048x1024 := Rect.unit (s := S1x2048x1024) (xOff d ch) S1x256x1024.size (xOff_inb d ch)

def oOff256 (d : Fin 2) (ch : Fin 4) : Fin 2 → ℕ := ![1024 * d.val + 256 * ch.val, 0]
theorem oOff256_inb : ∀ (d : Fin 2) (ch : Fin 4), ∀ a, oOff256 d ch a + S256x1024.size a ≤ S2048x1024.size a := by decide
abbrev oR256 (d : Fin 2) (ch : Fin 4) : Rect S2048x1024 := Rect.unit (s := S2048x1024) (oOff256 d ch) S256x1024.size (oOff256_inb d ch)

def halfOff (j : Fin 2) : Fin 2 → ℕ := ![128 * j.val, 0]
theorem halfOff_inb : ∀ (j : Fin 2), ∀ a, halfOff j a + S128x1024.size a ≤ S256x1024.size a := by decide
abbrev halfR (j : Fin 2) : Rect S256x1024 := Rect.unit (s := S256x1024) (halfOff j) S128x1024.size (halfOff_inb j)

def x256 (c : Dev nD) (d : Fin 2) (ch : Fin 4) : Vec F S256x1024 .bf16 :=
  k0_pay1 (xM.view.readAt (Elt F) (xR d ch).toLoadRect (xstg m ρ c))

def xb (c : Dev nD) (d : Fin 2) (ch : Fin 4) (j : Fin 2) : Vec F S128x1024 .bf16 :=
  fun i => x256 m ρ c d ch ((halfR j).emb i)

def acc (a w : Vec F S128x1024 .bf16) : Vec F S128x1024 .bf16 := k0_pay9 a (slotRead w)

def val : ℕ → Dev nD → Fin 2 → Fin 2 → Vec F S128x1024 .bf16
  | 0, c, d, j => xb m ρ c d (chk d c 0) j
  | k + 1, c, d, j =>
    if k + 1 ≤ 3 then acc (xb m ρ c d (chk d c (k + 1)) j) (val k (up d c) d j) else val k (up d c) d j

theorem val_zero (c : Dev nD) (d j : Fin 2) : val m ρ 0 c d j = xb m ρ c d (chk d c 0) j := rfl
theorem val_acc (k : ℕ) (hk : k + 1 ≤ 3) (c : Dev nD) (d j : Fin 2) :
    val m ρ (k + 1) c d j = acc (xb m ρ c d (chk d c (k + 1)) j) (val m ρ k (up d c) d j) := by
  rw [val, if_pos hk]
theorem val_fwd (k : ℕ) (hk : ¬ k + 1 ≤ 3) (c : Dev nD) (d j : Fin 2) :
    val m ρ (k + 1) c d j = val m ρ k (up d c) d j := by
  rw [val, if_neg hk]

end Cert.KernelIdealProof

end
-- ==== Proof.KernelIdealSched.lean ====
import proofs.«900326_g7700000000000327_dist_treered_v7x_i4_m2048_n1024_bf16_1_alg».proof.Proof.KernelIdealVals

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

def srcBlk (c : Dev nD) (d : Fin 2) (s : ℕ) (j : Fin 2) : sProp 𝕄 :=
  ownsTc c (sub d (chk d c s) j) fullShare (val m ρ s c d j)

def slot (c : Dev nD) (d : Fin 2) (s : Fin 3) (j : Fin 2) (v : Vec F S128x1024 .bf16) : sProp 𝕄 :=
  ownsTc c (rb d s j) fullShare v

def slots (c : Dev nD) (d : Fin 2) : sProp 𝕄 :=
  bigSep Finset.univ fun sj : Fin 3 × Fin 2 => iprop(∃ v, slot c d sj.1 sj.2 v)

def recvPay (c : Dev nD) (d : Fin 2) (k : Fin 6) (j : Fin 2) : sProp 𝕄 :=
  match k with
  | 0 => iprop(slot c d 0 j (val m ρ 0 (up d c) d j) ∗ srcBlk m ρ (up d c) d 0 j)
  | 1 => iprop(slot c d 1 j (val m ρ 1 (up d c) d j) ∗ srcBlk m ρ (up d c) d 1 j ∗ srcBlk m ρ (up d (up d c)) d 0 j)
  | 2 => iprop(slot c d 2 j (val m ρ 2 (up d c) d j) ∗ srcBlk m ρ (up d c) d 2 j ∗ srcBlk m ρ (up d (up d c)) d 1 j
            ∗ srcBlk m ρ (up d (up d (up d c))) d 0 j)
  | 3 => iprop(srcBlk m ρ c d 4 j ∗ srcBlk m ρ (up d (up d c)) d 2 j ∗ srcBlk m ρ (up d (up d (up d c))) d 1 j)
  | 4 => iprop(srcBlk m ρ c d 5 j ∗ srcBlk m ρ (up d (up d (up d c))) d 2 j)
  | 5 => srcBlk m ρ c d 6 j

def sendPay (c : Dev nD) (d : Fin 2) (k : Fin 6) (j : Fin 2) : sProp 𝕄 :=
  if k.val ≤ 2 then iprop(emp) else srcBlk m ρ c d k.val j

def barPay (c : Dev nD) (dty : Bool) : sProp 𝕄 := if dty then slots (nxt c) 0 else slots (prv c) 1

def decode (n : ℕ) : Fin 2 × Fin 6 × Fin 2 :=
  (⟨n / 12 % 2, Nat.mod_lt _ (by decide)⟩, ⟨n / 2 % 6, Nat.mod_lt _ (by decide)⟩, ⟨n % 2, Nat.mod_lt _ (by decide)⟩)
theorem decode_eq : ∀ (d : Fin 2) (k : Fin 6) (j : Fin 2), decode (12 * d.val + 2 * k.val + j.val) = (d, k, j) := by decide

def ringRd : Rounds.Schedule (GSem nD τ sig) Bool 𝕄 where
  duties g r :=
    if r = 0 ∧ g.1.2 = .tc then
      (match g.2 with
        | .reg s => if s = barS then Finset.univ else ∅
        | .dma q => if 2 ≤ q.val then {false} else ∅)
    else ∅
  amount g _ _ := match g.2 with | .reg _ => 1 | .dma _ => N
  payload g _ dty :=
    match g.2 with
    | .reg s => if s = barS then barPay g.1.1 dty else iprop(emp)
    | .dma q =>
      if 2 ≤ q.val ∧ q.val < 26 then sendPay m ρ g.1.1 (decode (q.val - 2)).1 (decode (q.val - 2)).2.1 (decode (q.val - 2)).2.2
      else if 26 ≤ q.val then recvPay m ρ g.1.1 (decode (q.val - 26)).1 (decode (q.val - 26)).2.1 (decode (q.val - 26)).2.2
      else iprop(emp)
  amount_pos g _ _ _ := by
    cases g.2 with
    | reg _ => exact Nat.one_pos
    | dma _ => exact N_pos

end Cert.KernelIdealProof

end
-- ==== Proof.KernelIdealLevels.lean ====
import proofs.«900326_g7700000000000327_dist_treered_v7x_i4_m2048_n1024_bf16_1_alg».proof.Proof.KernelIdealSched
import Idealize.ShloMosaic.Lib.Pipeline.Launch
import Idealize.ShloMosaic.Lib.Rounds
import Mathlib.Algebra.BigOperators.Fin

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

def sendAt (n : ℕ) : Fin 2 × Fin 6 × Fin 2 :=
  (⟨n % 2, Nat.mod_lt _ (by decide)⟩, ⟨n / 4 % 6, Nat.mod_lt _ (by decide)⟩, ⟨n / 2 % 2, Nat.mod_lt _ (by decide)⟩)

def payCell (c : Dev nD) (n : ℕ) : GSem nD τ sig :=
  recvCell (dn (sendAt n).1 c) (sendAt n).1 (sendAt n).2.1 (sendAt n).2.2

def owedFrom (c : Dev nD) : ℕ → CellTallies nD τ sig Unit
  | 0 => 0
  | r + 1 => owedFrom c r + tallyAt (payCell c (23 - r)) () N

theorem owedFrom_succ (c : Dev nD) (r : ℕ) :
    owedFrom c (r + 1) = owedFrom c r + tallyAt (payCell c (23 - r)) () N := rfl

def O₁ (c : Dev nD) : CellTallies nD τ sig Unit := owedFrom c 24 + tallyAt (barCell (nxt c)) () 1
def O₀ (c : Dev nD) : CellTallies nD τ sig Unit := O₁ c + tallyAt (barCell (prv c)) () 1

def L (g : GSem nD τ sig) : Finset Unit := if g.1.2 = .tc then {()} else ∅

def lv (g : GSem nD τ sig) (_ : Unit) : ℕ :=
  match g.2 with
  | .reg s => if s = barS then 1 else 0
  | .dma q => if 26 ≤ q.val then 2 + (q.val - 26) / 2 % 6 else 0

theorem L_of_ne (g : GSem nD τ sig) (h : g.1.2 ≠ .tc) : L g = ∅ := if_neg h
theorem L_tc (c : Dev nD) (sm : SemLoc sig) : L ((c : Thread nD τ), sm) = {()} := if_pos rfl
theorem mem_L_tc (c : Dev nD) (sm : SemLoc sig) (u : Unit) : u ∈ L ((c : Thread nD τ), sm) := by
  rw [L_tc]; exact Finset.mem_singleton.mpr rfl

theorem lv_bar (c : Dev nD) : lv (barCell c) () = 1 := by
  show (if (barS : Sem sig) = barS then 1 else 0) = 1
  exact if_pos rfl

theorem lv_recv (c : Dev nD) (d : Fin 2) (k : Fin 6) (j : Fin 2) : lv (recvCell c d k j) () = 2 + k.val := by
  have h := recvS_val d k j
  have hd := d.isLt; have hk := k.isLt; have hj := j.isLt
  show (if 26 ≤ ((recvS d k j).sem : DmaSem sig).val then 2 + (((recvS d k j).sem : DmaSem sig).val - 26) / 2 % 6 else 0) = 2 + k.val
  rw [h, if_pos (by omega)]
  omega

theorem lv_pay (c : Dev nD) (n : ℕ) : lv (payCell c n) () = 2 + n / 4 % 6 := lv_recv _ _ _ _

theorem lv_stage (c : Dev nD) (q : DmaSem sig) (hq : q.val < 2) : lv ((c : Thread nD τ), .dma q) () = 0 :=
  if_neg (by omega)

theorem owedFrom_pos {c : Dev nD} {r : ℕ} (hr : r ≤ 24) {g : GSem nD τ sig} {u : Unit} (h : 0 < owedFrom c r g u) :
    ∃ n, 24 - r ≤ n ∧ n < 24 ∧ g = payCell c n := by
  induction r with
  | zero => exact absurd h (Nat.lt_irrefl 0)
  | succ r ih =>
    rw [owedFrom_succ] at h
    rcases Pipeline.add_pos_cases h with h | h
    · obtain ⟨n, h1, h2, h3⟩ := ih (by omega) h
      exact ⟨n, by omega, h2, h3⟩
    · exact ⟨23 - r, by omega, by omega, (Pipeline.tallyAt_pos h).1⟩

theorem O₀_pos {c : Dev nD} {g : GSem nD τ sig} {u : Unit} (h : 0 < O₀ c g u) :
    (∃ n, n < 24 ∧ g = payCell c n) ∨ g = barCell (nxt c) ∨ g = barCell (prv c) := by
  unfold O₀ O₁ at h
  rcases Pipeline.add_pos_cases h with h | h
  · rcases Pipeline.add_pos_cases h with h | h
    · obtain ⟨n, _, h2, h3⟩ := owedFrom_pos (Nat.le_refl 24) h
      exact Or.inl ⟨n, h2, h3⟩
    · exact Or.inr (Or.inl (Pipeline.tallyAt_pos h).1)
  · exact Or.inr (Or.inr (Pipeline.tallyAt_pos h).1)

omit [FloatOps F] in

theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (mem_L_tc c _ ()) fun g u hg => ?_
    rw [lv_stage c q hq]
    rcases O₀_pos hg with ⟨n, _, rfl⟩ | rfl | rfl
    · exact ⟨mem_L_tc _ _ u, by rw [lv_pay]; omega⟩
    · exact ⟨mem_L_tc _ _ u, by rw [lv_bar]; omega⟩
    · exact ⟨mem_L_tc _ _ u, by rw [lv_bar]; omega⟩
  · rw [MayWait_zero]; iintro -; iempintro

omit [FloatOps F] in

theorem mayWait_bar (c : Dev nD) :
    (levAts L lv : sProp 𝕄) ⊢ MayWait (c : Thread nD τ) (.reg barS) () (owedFrom c 24) := by
  refine Pipeline.mayWait_of_levAts (mem_L_tc c _ ()) fun g u hg => ?_
  obtain ⟨n, _, _, rfl⟩ := owedFrom_pos (Nat.le_refl 24) hg
  exact ⟨mem_L_tc _ _ u, by rw [show lv ((c : Thread nD τ), SemLoc.reg barS) () = 1 from lv_bar c, lv_pay]; omega⟩

omit [FloatOps F] in

theorem mayWait_recv (c : Dev nD) (d : Fin 2) (k : Fin 6) (j : Fin 2) (r : ℕ) (hr : r + 4 * (k.val + 1) ≤ 24) :
    (levAts L lv : sProp 𝕄) ⊢ MayWait (c : Thread nD τ) (.dma (recvS d k j).sem) () (owedFrom c r) := by
  refine Pipeline.mayWait_of_levAts (mem_L_tc c _ ()) fun g u hg => ?_
  obtain ⟨n, h1, h2, rfl⟩ := owedFrom_pos (by omega) hg
  exact ⟨mem_L_tc _ _ u, by
    rw [show lv ((c : Thread nD τ), SemLoc.dma (recvS d k j).sem) () = 2 + k.val from lv_recv c d k j, lv_pay]; omega⟩

def fireOf (i : Fin 24) : Fin 2 × Fin 6 × Fin 2 := sendAt (23 - i.val)
def fireInv (t : Fin 2 × Fin 6 × Fin 2) : Fin 24 :=
  ⟨23 - (4 * t.2.1.val + 2 * t.2.2.val + t.1.val), by omega⟩
theorem fireInv_fireOf : ∀ i : Fin 24, fireInv (fireOf i) = i := by decide
theorem fireOf_fireInv : ∀ t : Fin 2 × Fin 6 × Fin 2, fireOf (fireInv t) = t := by decide
def fireEquiv : Fin 24 ≃ Fin 2 × Fin 6 × Fin 2 := ⟨fireOf, fireInv, fireInv_fireOf, fireOf_fireInv⟩

theorem owedFrom_eq_sum (c : Dev nD) (r : ℕ) :
    owedFrom c r = ∑ i ∈ Finset.range r, (tallyAt (payCell c (23 - i)) () N : CellTallies nD τ sig Unit) := by
  induction r with
  | zero => rfl
  | succ r ih => rw [owedFrom_succ, Finset.sum_range_succ, ih]

theorem owedFrom_all (c : Dev nD) :
    owedFrom c 24 = ∑ t : Fin 2 × Fin 6 × Fin 2, (tallyAt (recvCell (dn t.1 c) t.1 t.2.1 t.2.2) () N : CellTallies nD τ sig Unit) := by
  rw [owedFrom_eq_sum]
  exact ((Fin.sum_univ_eq_sum_range (fun i => (tallyAt (payCell c (23 - i)) () N : CellTallies nD τ sig Unit)) 24).symm).trans
    (Equiv.sum_comp fireEquiv (fun t : Fin 2 × Fin 6 × Fin 2 => (tallyAt (recvCell (dn t.1 c) t.1 t.2.1 t.2.2) () N : CellTallies nD τ sig Unit)))

theorem O₀_eq : (O₀ : Dev nD → CellTallies nD τ sig Unit) = fun d =>
    ((∑ t : Fin 2 × Fin 6 × Fin 2, (tallyAt (recvCell (dn t.1 d) t.1 t.2.1 t.2.2) () N : CellTallies nD τ sig Unit))
      + tallyAt (barCell (nxt d)) () 1) + tallyAt (barCell (prv d)) () 1 :=
  funext fun d => by unfold O₀ O₁; rw [owedFrom_all]

omit [FloatOps F] in

theorem cred_bar_two (c : Dev nD) :
    iprop(cred (tallyAt (barCell c) () 1) ∗ cred (tallyAt (barCell c) () 1)) ⊢ (cred (tallyAt (barCell c) () 2) : sProp 𝕄) := by
  have h : iprop(cred (tallyAt (barCell c) () 1) ∗ cred (tallyAt (barCell c) () 1))
      ⊢ (cred (tallyAt (barCell c) () 1 + tallyAt (barCell c) () 1) : sProp 𝕄) := (cred_add _ _).2
  rw [tallyAt_add] at h
  exact h

omit [FloatOps F] in

theorem creds (c : Dev nD) :
    (Pipeline.launchCred O₀ c : sProp 𝕄) ⊢ iprop(cred (tallyAt (barCell c) () 2)
      ∗ bigSep Finset.univ fun t : Fin 2 × Fin 6 × Fin 2 => cred (tallyAt (recvCell c t.1 t.2.1 t.2.2) () N)) := by
  rw [O₀_eq, Pipeline.launchCred_add, Pipeline.launchCred_add, Pipeline.launchCred_sum]
  iintro ⟨⟨HR, HN⟩, HP⟩
  isplitl [HN HP]
  · iapply (cred_bar_two c)
    isplitl [HN]
    · iapply (Pipeline.launchCred_tallyAt (.reg barS) nxt prv nxt_prv prv_nxt () 1 c); iexact HN
    · iapply (Pipeline.launchCred_tallyAt (.reg barS) prv nxt prv_nxt nxt_prv () 1 c); iexact HP
  · have hR : (bigSep Finset.univ fun t : Fin 2 × Fin 6 × Fin 2 =>
          (Pipeline.launchCred (fun d => tallyAt (recvCell (dn t.1 d) t.1 t.2.1 t.2.2) () N) c : sProp 𝕄))
        ⊢ bigSep Finset.univ fun t : Fin 2 × Fin 6 × Fin 2 => cred (tallyAt (recvCell c t.1 t.2.1 t.2.2) () N) :=
      bigSep_mono fun t _ =>
        Pipeline.launchCred_tallyAt (.dma (recvS t.1 t.2.1 t.2.2).sem) (dn t.1) (up t.1) (dn_up t.1) (up_dn t.1) () N c
    iapply hR; iexact HR

end Cert.KernelIdealProof

end
-- ==== Proof.KernelIdealOut.lean ====
import proofs.«900326_g7700000000000327_dist_treered_v7x_i4_m2048_n1024_bf16_1_alg».proof.Proof.KernelIdealVals
import Idealize.ShloMosaic.Lib.ValueIdx

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx (ix2 eq_ix2)

variable {F : FTy → Type} [FloatOps F]

def stepOf (d : Fin 2) (c : Dev nD) (ch : Fin 4) : ℕ :=
  if d = 0 then 3 + (c.val + 5 - ch.val) % 4 else 3 + (ch.val + 5 - c.val) % 4

theorem chk_stepOf : ∀ (d : Fin 2) (c : Dev nD) (ch : Fin 4), chk d c (stepOf d c ch) = ch := by decide

theorem stepOf_chk : ∀ (d : Fin 2) (c : Dev nD) (s : Fin 4), stepOf d c (chk d c (3 + s.val)) = 3 + s.val := by decide

def rowHalf (r : Fin 2048) : Fin 2 := ⟨r.val / 1024, by have := r.isLt; omega⟩

def rowChunk (r : Fin 2048) : Fin 4 := ⟨r.val % 1024 / 256, by omega⟩

def rowSub (r : Fin 2048) : Fin 2 := ⟨r.val % 256 / 128, by omega⟩

def rowIn (r : Fin 2048) : Fin 128 := ⟨r.val % 128, Nat.mod_lt _ (by decide)⟩

theorem row_split (d : Fin 2) (ch : Fin 4) (j : Fin 2) (p : Fin 128) (r : Fin 2048)
    (h : r.val = 1024 * d.val + 256 * ch.val + 128 * j.val + p.val) :
    rowHalf r = d ∧ rowChunk r = ch ∧ rowSub r = j ∧ rowIn r = p := by
  refine ⟨Fin.ext ?_, Fin.ext ?_, Fin.ext ?_, Fin.ext ?_⟩ <;> simp only [rowHalf, rowChunk, rowSub, rowIn] <;> omega

variable (m : (ℓ : Loc nD τ sig) → Buf (Elt F) ℓ) (ρ : Dev nD → PrngReg)

def outFinal (c : Dev nD) : Vec F S2048x1024 .bf16 := fun i =>
  val m ρ (stepOf (rowHalf (i 0)) c (rowChunk (i 0))) c (rowHalf (i 0)) (rowSub (i 0)) (ix2 (rowIn (i 0)) (i 1))

theorem outFinal_blk (c : Dev nD) (d : Fin 2) (ch : Fin 4) (j : Fin 2) :
    (fun i => outFinal m ρ c ((subR d ch j).emb i)) = val m ρ (stepOf d c ch) c d j := by
  funext (i : S128x1024.Idx)
  obtain ⟨hd, hch, hj, hp⟩ := row_split d ch j (i 0) ((subR d ch j).emb i 0) (by
    show subOff d ch j 0 + 1 * (i 0).val = _
    simp only [subOff, Matrix.cons_val_zero]; omega)
  have hq : (subR d ch j).emb i 1 = i 1 := Fin.ext (by
    show subOff d ch j 1 + 1 * (i 1).val = _
    simp only [subOff, Matrix.cons_val_one, Matrix.cons_val_zero]; omega)
  show val m ρ (stepOf (rowHalf ((subR d ch j).emb i 0)) c (rowChunk ((subR d ch j).emb i 0))) c
      (rowHalf ((subR d ch j).emb i 0)) (rowSub ((subR d ch j).emb i 0))
      (ix2 (rowIn ((subR d ch j).emb i 0)) ((subR d ch j).emb i 1)) = _
  rw [hd, hch, hj, hp, hq]
  exact congrArg _ (eq_ix2 i).symm

theorem outFinal_step (c : Dev nD) (d : Fin 2) (s : Fin 4) (j : Fin 2) :
    (fun i => outFinal m ρ c ((subR d (chk d c (3 + s.val)) j).emb i)) = val m ρ (3 + s.val) c d j := by
  rw [outFinal_blk, stepOf_chk]

end Cert.KernelIdealProof

end
-- ==== Proof.KernelIdealProto.lean ====
import proofs.«900326_g7700000000000327_dist_treered_v7x_i4_m2048_n1024_bf16_1_alg».proof.Proof.KernelIdealSched

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

instance srcBlk_storable (c : Dev nD) (d : Fin 2) (s : ℕ) (j : Fin 2) : BI.Storable (upEmb : UEmb _ 𝕄) (srcBlk m ρ c d s j) := by
  unfold srcBlk; infer_instance
instance slot_storable (c : Dev nD) (d : Fin 2) (s : Fin 3) (j : Fin 2) (v) : BI.Storable (upEmb : UEmb _ 𝕄) (slot (F := F) c d s j v) := by
  unfold slot; infer_instance
instance slots_storable (c : Dev nD) (d : Fin 2) : BI.Storable (upEmb : UEmb _ 𝕄) (slots (F := F) c d) := by
  unfold slots; infer_instance
instance recvPay_storable (c : Dev nD) (d : Fin 2) (k : Fin 6) (j : Fin 2) : BI.Storable (upEmb : UEmb _ 𝕄) (recvPay m ρ c d k j) := by
  unfold recvPay; split <;> infer_instance
instance sendPay_storable (c : Dev nD) (d : Fin 2) (k : Fin 6) (j : Fin 2) : BI.Storable (upEmb : UEmb _ 𝕄) (sendPay m ρ c d k j) := by
  unfold sendPay; split <;> infer_instance
instance barPay_storable (c : Dev nD) (dty : Bool) : BI.Storable (upEmb : UEmb _ 𝕄) (barPay (F := F) c dty) := by
  unfold barPay; split <;> infer_instance
instance ringRd_payload_storable (g : GSem nD τ sig) (r : ℕ) (dty : Bool) :
    BI.Storable (upEmb : UEmb _ 𝕄) ((ringRd (F := F) m ρ).payload g r dty) := by
  dsimp only [ringRd]
  split
  · split <;> infer_instance
  · (repeat' split) <;> infer_instance

section Tables
variable (c : Dev nD) (d : Fin 2) (k : Fin 6) (j : Fin 2)

theorem duties_bar : (ringRd (F := F) m ρ).duties (barCell c) 0 = Finset.univ := by
  dsimp only [ringRd]; rw [if_pos ⟨rfl, rfl⟩, if_pos rfl]
theorem duties_send : (ringRd (F := F) m ρ).duties (sendCell c d k j) 0 = {false} := by
  dsimp only [ringRd]; rw [if_pos ⟨rfl, rfl⟩, if_pos (by rw [sendS_val]; omega)]
theorem duties_recv : (ringRd (F := F) m ρ).duties (recvCell c d k j) 0 = {false} := by
  dsimp only [ringRd]; rw [if_pos ⟨rfl, rfl⟩, if_pos (by rw [recvS_val]; omega)]
theorem duties_later (g : GSem nD τ sig) : ∀ r, 1 ≤ r → (ringRd (F := F) m ρ).duties g r = ∅ :=
  fun r hr => by dsimp only [ringRd]; rw [if_neg fun h => by omega]

theorem amount_bar (dty : Bool) : (ringRd (F := F) m ρ).amount (barCell c) 0 dty = 1 := rfl
theorem amount_send (dty : Bool) : (ringRd (F := F) m ρ).amount (sendCell c d k j) 0 dty = N := rfl
theorem amount_recv (dty : Bool) : (ringRd (F := F) m ρ).amount (recvCell c d k j) 0 dty = N := rfl

theorem expect_bar : (ringRd (F := F) m ρ).expect (barCell c) 0 = 2 := by
  unfold Schedule.expect Schedule.amountOf
  rw [duties_bar, Finset.sum_congr rfl fun dty _ => amount_bar m ρ c dty, Finset.sum_const, Finset.card_univ, Fintype.card_bool, smul_eq_mul]
theorem expect_send : (ringRd (F := F) m ρ).expect (sendCell c d k j) 0 = N := by
  unfold Schedule.expect Schedule.amountOf; rw [duties_send, Finset.sum_singleton, amount_send]
theorem expect_recv : (ringRd (F := F) m ρ).expect (recvCell c d k j) 0 = N := by
  unfold Schedule.expect Schedule.amountOf; rw [duties_recv, Finset.sum_singleton, amount_recv]

theorem payload_bar (dty : Bool) : (ringRd (F := F) m ρ).payload (barCell c) 0 dty = barPay c dty := by
  dsimp only [ringRd]; rw [if_pos rfl]
theorem payload_send (dty : Bool) : (ringRd (F := F) m ρ).payload (sendCell c d k j) 0 dty = sendPay m ρ c d k j := by
  dsimp only [ringRd]
  have hv := sendS_val d k j
  rw [if_pos (by rw [hv]; exact ⟨by omega, by have := d.isLt; have := k.isLt; have := j.isLt; omega⟩)]
  have e : ((sendS d k j).sem : DmaSem sig).val - 2 = 12 * d.val + 2 * k.val + j.val := by rw [hv]; omega
  rw [e, decode_eq]
theorem payload_recv (dty : Bool) : (ringRd (F := F) m ρ).payload (recvCell c d k j) 0 dty = recvPay m ρ c d k j := by
  dsimp only [ringRd]
  have hv := recvS_val d k j
  rw [if_neg (by rw [hv]; intro h; omega), if_pos (by rw [hv]; omega)]
  have e : ((recvS d k j).sem : DmaSem sig).val - 26 = 12 * d.val + 2 * k.val + j.val := by rw [hv]; omega
  rw [e, decode_eq]

theorem rest_bar : bigSep ((ringRd (F := F) m ρ).duties (barCell c) 0 \ ∅) (fun dty => (ringRd (F := F) m ρ).payload (barCell c) 0 dty)
    = iprop(slots (F := F) (prv c) 1 ∗ slots (F := F) (nxt c) 0) := by
  rw [Finset.sdiff_empty, duties_bar, bigSep_univ_eq_bigSepL [false, true] (by decide) (by decide), bigSepL_cons_cons, bigSepL_singleton,
    payload_bar, payload_bar]
  rfl
theorem rest_send : bigSep ((ringRd (F := F) m ρ).duties (sendCell c d k j) 0 \ ∅) (fun dty => (ringRd (F := F) m ρ).payload (sendCell c d k j) 0 dty)
    = sendPay m ρ c d k j := by
  rw [Finset.sdiff_empty, duties_send, bigSep_singleton, payload_send]
theorem rest_recv : bigSep ((ringRd (F := F) m ρ).duties (recvCell c d k j) 0 \ ∅) (fun dty => (ringRd (F := F) m ρ).payload (recvCell c d k j) 0 dty)
    = recvPay m ρ c d k j := by
  rw [Finset.sdiff_empty, duties_recv, bigSep_singleton, payload_recv]

end Tables

end Cert.KernelIdealProof

end
-- ==== Proof.KernelIdealGhost.lean ====
import proofs.«900326_g7700000000000327_dist_treered_v7x_i4_m2048_n1024_bf16_1_alg».proof.Proof.KernelIdealLevels
import proofs.«900326_g7700000000000327_dist_treered_v7x_i4_m2048_n1024_bf16_1_alg».proof.Proof.KernelIdealOut
import proofs.«900326_g7700000000000327_dist_treered_v7x_i4_m2048_n1024_bf16_1_alg».proof.Proof.KernelIdealProto

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev CellIx : Type := Option (Bool × Fin 2 × Fin 6 × Fin 2)
abbrev csem : CellIx → SemLoc sig
  | none => .reg barS
  | some (false, d, k, j) => .dma (sendS d k j).sem
  | some (true, d, k, j) => .dma (recvS d k j).sem
abbrev kcell (ck : Dev nD × CellIx) : GSem nD τ sig := ((ck.1 : Thread nD τ), csem ck.2)
abbrev Lane : Type := Fin 2 × Fin 6 × Fin 2

def records (K : Dev nD × CellIx → ℕ) : sProp 𝕄 :=
  iprop((bigSep Finset.univ fun ck : Dev nD × CellIx => cellInv ER (ringRd m ρ) (K ck) (kcell ck))
    ∗ bigSep Finset.univ fun ck : Dev nD × CellIx => reached ER (kcell ck) 0)

instance records_persistent (K : Dev nD × CellIx → ℕ) : BI.Persistent (records m ρ K) := by unfold records; infer_instance

/-- Every cell's invariant is one of the recorded ones. -/
theorem inv_at (K : Dev nD × CellIx → ℕ) (ck : Dev nD × CellIx) :
    records m ρ K ⊢ cellInv ER (ringRd m ρ) (K ck) (kcell ck) := by
  unfold records; iintro ⟨#HI, -⟩
  iapply (show (bigSep Finset.univ fun ck : Dev nD × CellIx => cellInv ER (ringRd m ρ) (K ck) (kcell ck) : sProp 𝕄) ⊢ cellInv ER (ringRd m ρ) (K ck) (kcell ck) from bigSep_elim (Finset.mem_univ ck)); iexact HI

/-- Every cell has reached round 0. -/
theorem rch_at (K : Dev nD × CellIx → ℕ) (ck : Dev nD × CellIx) : records m ρ K ⊢ reached ER (kcell ck) 0 := by
  unfold records; iintro ⟨-, #HR⟩
  iapply (show (bigSep Finset.univ fun ck : Dev nD × CellIx => (reached ER (kcell ck) 0 : sProp 𝕄)) ⊢ reached ER (kcell ck) 0 from bigSep_elim (Finset.mem_univ ck)); iexact HR

def payToks (c : Dev nD) : sProp 𝕄 :=
  iprop(dutyTok ER (barCell (nxt c)) 0 false ∗ dutyTok ER (barCell (prv c)) 0 true
    ∗ bigSep Finset.univ fun t : Lane =>
        iprop(dutyTok ER (sendCell c t.1 t.2.1 t.2.2) 0 false ∗ dutyTok ER (recvCell (dn t.1 c) t.1 t.2.1 t.2.2) 0 false))

def positions (c : Dev nD) : sProp 𝕄 := bigSep Finset.univ fun ix : CellIx => atPos ER (kcell (c, ix)) 0 ∅ 0
def ghost (K : Dev nD × CellIx → ℕ) (c : Dev nD) : sProp 𝕄 := iprop(records m ρ K ∗ positions (F := F) c ∗ payToks (F := F) c)

def credsOf (c : Dev nD) : sProp 𝕄 :=
  iprop(cred (tallyAt (barCell c) () 2) ∗ bigSep Finset.univ fun t : Lane => cred (tallyAt (recvCell c t.1 t.2.1 t.2.2) () N))
def start (c : Dev nD) : sProp 𝕄 := iprop((∃ K, ghost m ρ K c) ∗ credsOf (F := F) c ∗ levAts L lv)

def scr (c : Dev nD) (f : Buf (Elt F) ((c : Thread nD τ).loc cc0_scratch0)) : sProp 𝕄 := ((c : Thread nD τ).loc cc0_scratch0) ↦{fullShare} f
def Φ₀ (c : Dev nD) : sProp 𝕄 := iprop(start m ρ c ∗ ∃ f, scr c f)

def ownZero (c : Dev nD) : sProp 𝕄 :=
  bigSep Finset.univ fun t : Lane => iprop(semVal (sendCell c t.1 t.2.1 t.2.2) 0 ∗ semVal (recvCell c t.1 t.2.1 t.2.2) 0)
def Φ₁ (c : Dev nD) : sProp 𝕄 := iprop((∃ f, scr (F := F) c f) ∗ ownZero (F := F) c)

def bodyIn (K : Dev nD × CellIx → ℕ) (c : Dev nD) (W : Waits sig Unit) (f0 : Buf (Elt F) ((c : Thread nD τ).loc cc0_scratch0))
    (fo : Buf (Elt F) ((c : Thread nD τ).loc cc0_stg1_0)) : sProp 𝕄 :=
  iprop(ghost m ρ K c ∗ credsOf (F := F) c ∗ levAts L lv ∗ scr c f0 ∗ owes (c : Thread nD τ) (O₀ c) W
    ∗ (((c : Thread nD τ).loc cc0_stg0_0) ↦{fullShare} xstg m ρ c) ∗ (((c : Thread nD τ).loc cc0_stg1_0) ↦{fullShare} fo))
def bodyOut (c : Dev nD) (W' : Waits sig Unit) : sProp 𝕄 :=
  iprop(Φ₁ (F := F) c ∗ owes (c : Thread nD τ) 0 W'
    ∗ (((c : Thread nD τ).loc cc0_stg0_0) ↦{fullShare} xstg m ρ c) ∗ (((c : Thread nD τ).loc cc0_stg1_0) ↦{fullShare} outFinal m ρ c))

end Cert.KernelIdealProof

end
-- ==== Proof.KernelIdealClosed.lean ====
import proofs.«900326_g7700000000000327_dist_treered_v7x_i4_m2048_n1024_bf16_1_alg».proof.Proof.Gen.KernelIdeal
import proofs.«900326_g7700000000000327_dist_treered_v7x_i4_m2048_n1024_bf16_1_alg».proof.Proof.KernelIdealRing

set_option synthInstance.maxSize 4096
set_option Elab.async false

namespace Cert.KernelIdealProof

open Cert.KernelIdeal Cert.KernelIdeal.Gen Idealize.ShloMosaic

theorem dev1_eq (c : Dev nD) : (⟨k0_dev1 c, k0_dev1_lt c⟩ : Dev nD) = prv c := by
  revert c; decide +kernel
theorem dev2_eq (c : Dev nD) : (⟨k0_dev2 c, k0_dev2_lt c⟩ : Dev nD) = nxt c := by
  revert c; decide +kernel
theorem dev3_eq (c : Dev nD) : (⟨k0_dev3 c, k0_dev3_lt c⟩ : Dev nD) = nxt c := by
  revert c; decide +kernel
theorem dev4_eq (c : Dev nD) : (⟨k0_dev4 c, k0_dev4_lt c⟩ : Dev nD) = prv c := by
  revert c; decide +kernel
theorem dev5_eq (c : Dev nD) : (⟨k0_dev5 c, k0_dev5_lt c⟩ : Dev nD) = nxt c := by
  revert c; decide +kernel
theorem dev6_eq (c : Dev nD) : (⟨k0_dev6 c, k0_dev6_lt c⟩ : Dev nD) = prv c := by
  revert c; decide +kernel
theorem dev7_eq (c : Dev nD) : (⟨k0_dev7 c, k0_dev7_lt c⟩ : Dev nD) = nxt c := by
  revert c; decide +kernel
theorem dev8_eq (c : Dev nD) : (⟨k0_dev8 c, k0_dev8_lt c⟩ : Dev nD) = prv c := by
  revert c; decide +kernel
theorem dev9_eq (c : Dev nD) : (⟨k0_dev9 c, k0_dev9_lt c⟩ : Dev nD) = nxt c := by
  revert c; decide +kernel
theorem dev10_eq (c : Dev nD) : (⟨k0_dev10 c, k0_dev10_lt c⟩ : Dev nD) = prv c := by
  revert c; decide +kernel
theorem dev11_eq (c : Dev nD) : (⟨k0_dev11 c, k0_dev11_lt c⟩ : Dev nD) = nxt c := by
  revert c; decide +kernel
theorem dev12_eq (c : Dev nD) : (⟨k0_dev12 c, k0_dev12_lt c⟩ : Dev nD) = prv c := by
  revert c; decide +kernel
theorem dev13_eq (c : Dev nD) : (⟨k0_dev13 c, k0_dev13_lt c⟩ : Dev nD) = nxt c := by
  revert c; decide +kernel
theorem dev14_eq (c : Dev nD) : (⟨k0_dev14 c, k0_dev14_lt c⟩ : Dev nD) = prv c := by
  revert c; decide +kernel
theorem dev15_eq (c : Dev nD) : (⟨k0_dev15 c, k0_dev15_lt c⟩ : Dev nD) = nxt c := by
  revert c; decide +kernel
theorem dev16_eq (c : Dev nD) : (⟨k0_dev16 c, k0_dev16_lt c⟩ : Dev nD) = prv c := by
  revert c; decide +kernel
theorem dev17_eq (c : Dev nD) : (⟨k0_dev17 c, k0_dev17_lt c⟩ : Dev nD) = nxt c := by
  revert c; decide +kernel
theorem dev18_eq (c : Dev nD) : (⟨k0_dev18 c, k0_dev18_lt c⟩ : Dev nD) = prv c := by
  revert c; decide +kernel
theorem dev19_eq (c : Dev nD) : (⟨k0_dev19 c, k0_dev19_lt c⟩ : Dev nD) = nxt c := by
  revert c; decide +kernel
theorem dev20_eq (c : Dev nD) : (⟨k0_dev20 c, k0_dev20_lt c⟩ : Dev nD) = prv c := by
  revert c; decide +kernel
theorem dev21_eq (c : Dev nD) : (⟨k0_dev21 c, k0_dev21_lt c⟩ : Dev nD) = nxt c := by
  revert c; decide +kernel
theorem dev22_eq (c : Dev nD) : (⟨k0_dev22 c, k0_dev22_lt c⟩ : Dev nD) = prv c := by
  revert c; decide +kernel
theorem dev23_eq (c : Dev nD) : (⟨k0_dev23 c, k0_dev23_lt c⟩ : Dev nD) = nxt c := by
  revert c; decide +kernel
theorem dev24_eq (c : Dev nD) : (⟨k0_dev24 c, k0_dev24_lt c⟩ : Dev nD) = prv c := by
  revert c; decide +kernel
theorem dev25_eq (c : Dev nD) : (⟨k0_dev25 c, k0_dev25_lt c⟩ : Dev nD) = nxt c := by
  revert c; decide +kernel
theorem dev26_eq (c : Dev nD) : (⟨k0_dev26 c, k0_dev26_lt c⟩ : Dev nD) = prv c := by
  revert c; decide +kernel

theorem off1_eq (c : Dev nD) (r₁ : Fin 2) (r₂ : Fin 4) :
    k0_off1 c (BitVec.ofNat 32 (1024 * r₁.val)) (BitVec.ofNat 32 r₂.val)
      = ![0, 1024 * r₁.val + 256 * ((c.val + r₂.val) % 4), 0] := by
  revert c r₁ r₂; decide +kernel

theorem off2_eq (c : Dev nD) (r₁ : Fin 2) (r₂ : Fin 4) :
    k0_off2 c (BitVec.ofNat 32 (1024 * r₁.val)) (BitVec.ofNat 32 r₂.val)
      = ![1024 * r₁.val + 256 * ((c.val + r₂.val) % 4), 0] := by
  revert c r₁ r₂; decide +kernel

theorem off4_eq (c : Dev nD) (r₁ r₂ : Fin 2) :
    k0_off4 c (BitVec.ofNat 32 (1 + r₁.val)) (BitVec.ofNat 32 (128 * r₂.val))
      = ![256 * ((c.val + 3 - r₁.val) % 4) + 128 * r₂.val, 0] := by
  revert c r₁ r₂; decide +kernel

theorem off5_eq (c : Dev nD) (r₁ r₂ : Fin 2) :
    k0_off5 c (BitVec.ofNat 32 (1 + r₁.val)) (BitVec.ofNat 32 (128 * r₂.val))
      = ![256 * ((c.val + 3 - r₁.val) % 4) + 128 * r₂.val, 0] := by
  revert c r₁ r₂; decide +kernel

theorem off8_eq (c : Dev nD) (r₁ r₂ : Fin 2) :
    k0_off8 c (BitVec.ofNat 32 (1 + r₁.val)) (BitVec.ofNat 32 (128 * r₂.val))
      = ![256 * ((c.val + 4 - r₁.val) % 4) + 128 * r₂.val, 0] := by
  revert c r₁ r₂; decide +kernel

theorem off9_eq (c : Dev nD) (r₁ r₂ : Fin 2) :
    k0_off9 c (BitVec.ofNat 32 (1 + r₁.val)) (BitVec.ofNat 32 (128 * r₂.val))
      = ![1024 + 256 * ((c.val + r₁.val) % 4) + 128 * r₂.val, 0] := by
  revert c r₁ r₂; decide +kernel

theorem off6_eq (c : Dev nD) (r : Fin 8) :
    k0_off6 c (k0_off6_at r).1 (k0_off6_at r).2.1 (k0_off6_at r).2.2
      = ![(k0_off6_at r).1.toNat + 256 * ((c.val + (k0_off6_at r).2.1.toNat) % 4)
            + (k0_off6_at r).2.2.toNat, 0] := by
  revert c r; decide +kernel

theorem off7_eq (c : Dev nD) (r : Fin 8) :
    k0_off7 c (k0_off7_at r).1 (k0_off7_at r).2.1 (k0_off7_at r).2.2
      = ![(k0_off7_at r).1.toNat + 256 * ((c.val + (k0_off7_at r).2.1.toNat) % 4)
            + (k0_off7_at r).2.2.toNat, 0] := by
  revert c r; decide +kernel

end Cert.KernelIdealProof
-- ==== Proof.KernelIdealOffs.lean ====
import proofs.«900326_g7700000000000327_dist_treered_v7x_i4_m2048_n1024_bf16_1_alg».proof.Proof.KernelIdealVals
import proofs.«900326_g7700000000000327_dist_treered_v7x_i4_m2048_n1024_bf16_1_alg».proof.Proof.KernelIdealClosed

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

def chkOff (c : Dev nD) (r : Fin 4) : Fin 4 := ⟨(c.val + r.val) % 4, Nat.mod_lt _ (by decide)⟩

theorem off1_x (c : Dev nD) (r₁ : Fin 2) (r₂ : Fin 4) :
    k0_off1 c (BitVec.ofNat 32 (1024 * r₁.val)) (BitVec.ofNat 32 r₂.val) = xOff r₁ (chkOff c r₂) :=
  (off1_eq c r₁ r₂).trans (by revert c r₁ r₂; decide)
theorem off2_o (c : Dev nD) (r₁ : Fin 2) (r₂ : Fin 4) :
    k0_off2 c (BitVec.ofNat 32 (1024 * r₁.val)) (BitVec.ofNat 32 r₂.val) = oOff256 r₁ (chkOff c r₂) :=
  (off2_eq c r₁ r₂).trans (by revert c r₁ r₂; decide)

theorem off3_sub (c : Dev nD) (r₁ r₂ : Fin 2) :
    k0_off3 c (BitVec.ofNat 32 (1024 * r₁.val)) (BitVec.ofNat 32 (128 * r₂.val)) = subOff r₁ (chk r₁ c 0) r₂ :=
  (k0_off3_eq c r₁ r₂).trans (by revert c r₁ r₂; decide)

theorem off4_sub (c : Dev nD) (r₁ r₂ : Fin 2) :
    k0_off4 c (BitVec.ofNat 32 (1 + r₁.val)) (BitVec.ofNat 32 (128 * r₂.val)) = subOff 0 (chk 0 c (1 + r₁.val)) r₂ :=
  (off4_eq c r₁ r₂).trans (by revert c r₁ r₂; decide)
theorem off5_sub (c : Dev nD) (r₁ r₂ : Fin 2) :
    k0_off5 c (BitVec.ofNat 32 (1 + r₁.val)) (BitVec.ofNat 32 (128 * r₂.val)) = subOff 0 (chk 0 c (1 + r₁.val)) r₂ :=
  (off5_eq c r₁ r₂).trans (by revert c r₁ r₂; decide)

theorem off8_sub (c : Dev nD) (r₁ r₂ : Fin 2) :
    k0_off8 c (BitVec.ofNat 32 (1 + r₁.val)) (BitVec.ofNat 32 (128 * r₂.val)) = subOff 0 (chk 0 c (4 + r₁.val)) r₂ :=
  (off8_eq c r₁ r₂).trans (by revert c r₁ r₂; decide)

theorem off9_sub (c : Dev nD) (r₁ r₂ : Fin 2) :
    k0_off9 c (BitVec.ofNat 32 (1 + r₁.val)) (BitVec.ofNat 32 (128 * r₂.val)) = subOff 1 (chk 1 c (4 + r₁.val)) r₂ :=
  (off9_eq c r₁ r₂).trans (by revert c r₁ r₂; decide)

def row67 (r : Fin 8) : Fin 2 × ℕ × Fin 2 :=
  match r with
  | 0 => (1, 1, 0) | 1 => (1, 1, 1) | 2 => (1, 2, 0) | 3 => (1, 2, 1)
  | 4 => (0, 3, 0) | 5 => (1, 3, 0) | 6 => (0, 3, 1) | 7 => (1, 3, 1)
theorem off6_sub (c : Dev nD) (r : Fin 8) :
    k0_off6 c (k0_off6_at r).1 (k0_off6_at r).2.1 (k0_off6_at r).2.2 = subOff (row67 r).1 (chk (row67 r).1 c (row67 r).2.1) (row67 r).2.2 :=
  (off6_eq c r).trans (by revert c r; decide)
theorem off7_sub (c : Dev nD) (r : Fin 8) :
    k0_off7 c (k0_off7_at r).1 (k0_off7_at r).2.1 (k0_off7_at r).2.2 = subOff (row67 r).1 (chk (row67 r).1 c (row67 r).2.1) (row67 r).2.2 :=
  (off7_eq c r).trans (by revert c r; decide)

end Cert.KernelIdealProof

end
-- ==== Proof.KernelIdealBig.lean ====
import proofs.«900326_g7700000000000327_dist_treered_v7x_i4_m2048_n1024_bf16_1_alg».proof.Proof.KernelIdealGhost
import proofs.«900326_g7700000000000327_dist_treered_v7x_i4_m2048_n1024_bf16_1_alg».proof.Proof.KernelIdealOffs

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
theorem bigSep_lane24 (Φ : Lane → sProp 𝕄) :
    bigSep Finset.univ Φ = iprop(Φ (0, 0, 0) ∗ Φ (0, 0, 1) ∗ Φ (0, 1, 0) ∗ Φ (0, 1, 1) ∗ Φ (0, 2, 0) ∗ Φ (0, 2, 1) ∗ Φ (0, 3, 0) ∗ Φ (0, 3, 1) ∗ Φ (0, 4, 0) ∗ Φ (0, 4, 1) ∗ Φ (0, 5, 0) ∗ Φ (0, 5, 1) ∗ Φ (1, 0, 0) ∗ Φ (1, 0, 1) ∗ Φ (1, 1, 0) ∗ Φ (1, 1, 1) ∗ Φ (1, 2, 0) ∗ Φ (1, 2, 1) ∗ Φ (1, 3, 0) ∗ Φ (1, 3, 1) ∗ Φ (1, 4, 0) ∗ Φ (1, 4, 1) ∗ Φ (1, 5, 0) ∗ Φ (1, 5, 1)) := by
  rw [bigSep_univ_eq_bigSepL [(0, 0, 0), (0, 0, 1), (0, 1, 0), (0, 1, 1), (0, 2, 0), (0, 2, 1), (0, 3, 0), (0, 3, 1), (0, 4, 0), (0, 4, 1), (0, 5, 0), (0, 5, 1), (1, 0, 0), (1, 0, 1), (1, 1, 0), (1, 1, 1), (1, 2, 0), (1, 2, 1), (1, 3, 0), (1, 3, 1), (1, 4, 0), (1, 4, 1), (1, 5, 0), (1, 5, 1)] (by decide) (by decide)]
  simp only [bigSepL_cons_cons, bigSepL_singleton]
  rfl

omit [FloatOps F] in
theorem bigSep_blocks16 (Φ : Fin 2 × Fin 4 × Fin 2 → sProp 𝕄) :
    bigSep Finset.univ Φ = iprop(Φ (0, 0, 0) ∗ Φ (0, 0, 1) ∗ Φ (0, 1, 0) ∗ Φ (0, 1, 1) ∗ Φ (0, 2, 0) ∗ Φ (0, 2, 1) ∗ Φ (0, 3, 0) ∗ Φ (0, 3, 1) ∗ Φ (1, 0, 0) ∗ Φ (1, 0, 1) ∗ Φ (1, 1, 0) ∗ Φ (1, 1, 1) ∗ Φ (1, 2, 0) ∗ Φ (1, 2, 1) ∗ Φ (1, 3, 0) ∗ Φ (1, 3, 1)) := by
  rw [bigSep_univ_eq_bigSepL [(0, 0, 0), (0, 0, 1), (0, 1, 0), (0, 1, 1), (0, 2, 0), (0, 2, 1), (0, 3, 0), (0, 3, 1), (1, 0, 0), (1, 0, 1), (1, 1, 0), (1, 1, 1), (1, 2, 0), (1, 2, 1), (1, 3, 0), (1, 3, 1)] (by decide) (by decide)]
  simp only [bigSepL_cons_cons, bigSepL_singleton]
  rfl

omit [FloatOps F] in
theorem bigSep_slots6 (Φ : Fin 3 × Fin 2 → sProp 𝕄) :
    bigSep Finset.univ Φ = iprop(Φ (0, 0) ∗ Φ (0, 1) ∗ Φ (1, 0) ∗ Φ (1, 1) ∗ Φ (2, 0) ∗ Φ (2, 1)) := by
  rw [bigSep_univ_eq_bigSepL [(0, 0), (0, 1), (1, 0), (1, 1), (2, 0), (2, 1)] (by decide) (by decide)]
  simp only [bigSepL_cons_cons, bigSepL_singleton]
  rfl

omit [FloatOps F] in

theorem bigSep_cellIx (Φ : CellIx → sProp 𝕄) :
    bigSep Finset.univ Φ = iprop(Φ none ∗ (bigSep Finset.univ fun t : Lane => Φ (some (false, t))) ∗ (bigSep Finset.univ fun t : Lane => Φ (some (true, t)))) := by
  have e : (Finset.univ : Finset CellIx) = insert none ((Finset.univ : Finset (Bool × Lane)).map ⟨some, Option.some_injective _⟩) := by
    ext x; cases x <;> simp
  rw [e, bigSep_insert (by simp), bigSep_map, bigSep_univ_prod, bigSep_univ_eq_bigSepL [false, true] (by decide) (by decide),
    bigSepL_cons_cons, bigSepL_singleton]
  rfl

def chkOffEquiv (c : Dev nD) : Fin 4 ≃ Fin 4 where
  toFun := chkOff c
  invFun ch := ⟨(ch.val + 4 - c.val) % 4, Nat.mod_lt _ (by decide)⟩
  left_inv := by revert c; decide
  right_inv := by revert c; decide

end Cert.KernelIdealProof

end
-- ==== Proof.KernelIdealRules.lean ====
import proofs.«900326_g7700000000000327_dist_treered_v7x_i4_m2048_n1024_bf16_1_alg».proof.Proof.KernelIdealGhost

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem ownsTc_of_pointsTo (c : Dev nD) (mr : Memref sig .tc .vmem S128x1024 .bf16) (f : mr.view.ty.Contents (Elt F))
    (v : Vec F S128x1024 .bf16) (h : mr.view.read (Elt F) f = v) :
    (mr.view.loc (c : Thread nD τ) ↦[mr.view.set]{fullShare} f : sProp 𝕄) ⊢ ownsTc c mr fullShare v := by
  subst h; exact owns_intro (c : Thread nD τ) mr fullShare f

/-- A transfer of steps 0 to 2: the source block travels on to the receiver together with what lands. -/
theorem wp_send_land (K : Dev nD × CellIx → ℕ) (c : Dev nD) (d : Fin 2) (k : Fin 6) (j : Fin 2) (n : Dev nD) (hn : n = dn d c)
    (srcM dstM : Memref sig .tc .vmem S128x1024 .bf16) (hcred : dstM.view.dmaCredit = N)
    {hsc : (dstM : Memref sig (Dev.tc n : Thread nD τ).2.kind .vmem S128x1024 .bf16).view.ref.isScScratch = false}
    {hsrc : srcM.view.WordExact} {hdst : dstM.view.WordExact}
    {hsem : DmaTarget.Typed .vmem (.dma (recvS d k j).sem) (.remote (Dev.tc n : Thread nD τ) dstM (.dma (sendS d k j).sem) hsc)}
    {α : Type} {Q : α → sProp 𝕄} {kk : PUnit → Prog (TpuEff nD τ sig (Elt F) Λ₀ .tc) α}
    (v v₀ : Vec F S128x1024 .bf16) (T : sProp 𝕄) (O : CellTallies nD τ sig Unit) (W : Waits sig Unit)
    (hpay : iprop((ownsTc (dn d c) dstM fullShare v ∗ T) ∗ ownsTc c srcM fullShare v) ⊢ recvPay m ρ (dn d c) d k j)
    (hsp : (emp : sProp 𝕄) ⊢ sendPay m ρ c d k j) :
    iprop(records m ρ K ∗ ownsTc c srcM fullShare v ∗ ownsTc (dn d c) dstM fullShare v₀ ∗ T
        ∗ owes (c : Thread nD τ) (O + tallyAt (recvCell (dn d c) d k j) () N) W
        ∗ dutyTok ER (sendCell c d k j) 0 false ∗ dutyTok ER (recvCell (dn d c) d k j) 0 false)
      ⊢ iprop(((cred (tallyAt (sendCell c d k j) () N) ∗ owes (c : Thread nD τ) O W) -∗ WP c (kk ⟨⟩) Q)
          -∗ WP c (.op (.enqueueDma srcM (.remote (Dev.tc n : Thread nD τ) dstM (.dma (sendS d k j).sem) hsc) (.dma (recvS d k j).sem) hsrc hdst hsem) kk) Q) := by
  subst hn
  iintro ⟨#Hrec, Hs, Hd, HT, HO, Ht1, Ht2⟩
  ihave Hs' := (show ownsTc c srcM fullShare v ⊢ iprop(∃ f, ⌜srcM.view.read (Elt F) f = v⌝ ∗ (srcM.view.loc (c : Thread nD τ) ↦[srcM.view.set]{fullShare} f)) from .rfl) $$ Hs
  icases Hs' with ⟨%fs, %hfs, Hs⟩
  ihave Hd' := (show ownsTc (dn d c) dstM fullShare v₀ ⊢ iprop(∃ f, ⌜dstM.view.read (Elt F) f = v₀⌝ ∗ (dstM.view.loc (dn d c : Thread nD τ) ↦[dstM.view.set]{fullShare} f)) from .rfl) $$ Hd
  icases Hd' with ⟨%fd, %hfd, Hd⟩
  iapply (Rounds.wp_send_landing_pointsTo_with 𝒱₀ ER (ringRd m ρ) (c : Thread nD τ) none (κ₁ := K (c, some (false, d, k, j))) (κ₂ := K (dn d c, some (true, d, k, j)))
      (c' := (dn d c : Thread nD τ)) (src := srcM) (dst := dstM) (sS := .dma (sendS d k j).sem) (sem := .dma (recvS d k j).sem)
      (r₁ := 0) (r₂ := 0) (d₁ := false) (d₂ := false) (q := fullShare) (fs := fs) (fd := fd) (F := T)
      (by rw [duties_send]; exact Finset.mem_singleton_self _) (by rw [duties_recv]; exact Finset.mem_singleton_self _)
      () () N (by exact hcred) (amount_send m ρ c d k j false) (amount_recv m ρ (dn d c) d k j false) O rfl (W := W)
      (by rw [payload_send]; exact hsp)
      (by
        rw [payload_recv]
        refine BIBase.Entails.trans ?_ hpay
        refine sep_mono (sep_mono_left ?_) ?_
        · exact ownsTc_of_pointsTo (dn d c) dstM _ v (by rw [View.read_write_univ, hfs])
        · exact ownsTc_of_pointsTo c srcM fs v hfs)) $$ [Hs Hd HT HO Ht1 Ht2]
  isplitr; · (iapply (inv_at m ρ K (c, some (false, d, k, j))); iexact Hrec)
  isplitr; · (iapply (inv_at m ρ K (dn d c, some (true, d, k, j))); iexact Hrec)
  isplitl [Hs]; · iexact Hs
  isplitl [Hd HT]
  · isplitl [Hd]; · iexact Hd
    iexact HT
  isplitl [HO]; · iexact HO
  isplitl [Ht1]; · iexact Ht1
  isplitr; · (iapply (rch_at m ρ K (c, some (false, d, k, j))); iexact Hrec)
  isplitl [Ht2]; · iexact Ht2
  iapply (rch_at m ρ K (dn d c, some (true, d, k, j))); iexact Hrec

/-- A transfer of steps 3 to 5: the source block comes back to the sender on its own cell. -/
theorem wp_send_ret (K : Dev nD × CellIx → ℕ) (c : Dev nD) (d : Fin 2) (k : Fin 6) (j : Fin 2) (n : Dev nD) (hn : n = dn d c)
    (srcM dstM : Memref sig .tc .vmem S128x1024 .bf16) (hcred : dstM.view.dmaCredit = N)
    {hsc : (dstM : Memref sig (Dev.tc n : Thread nD τ).2.kind .vmem S128x1024 .bf16).view.ref.isScScratch = false}
    {hsrc : srcM.view.WordExact} {hdst : dstM.view.WordExact}
    {hsem : DmaTarget.Typed .vmem (.dma (recvS d k j).sem) (.remote (Dev.tc n : Thread nD τ) dstM (.dma (sendS d k j).sem) hsc)}
    {α : Type} {Q : α → sProp 𝕄} {kk : PUnit → Prog (TpuEff nD τ sig (Elt F) Λ₀ .tc) α}
    (v v₀ : Vec F S128x1024 .bf16) (T : sProp 𝕄) (O : CellTallies nD τ sig Unit) (W : Waits sig Unit)
    (hpay : iprop(ownsTc (dn d c) dstM fullShare v ∗ T) ⊢ recvPay m ρ (dn d c) d k j)
    (hsp : ownsTc c srcM fullShare v ⊢ sendPay m ρ c d k j) :
    iprop(records m ρ K ∗ ownsTc c srcM fullShare v ∗ ownsTc (dn d c) dstM fullShare v₀ ∗ T
        ∗ owes (c : Thread nD τ) (O + tallyAt (recvCell (dn d c) d k j) () N) W
        ∗ dutyTok ER (sendCell c d k j) 0 false ∗ dutyTok ER (recvCell (dn d c) d k j) 0 false)
      ⊢ iprop(((cred (tallyAt (sendCell c d k j) () N) ∗ owes (c : Thread nD τ) O W) -∗ WP c (kk ⟨⟩) Q)
          -∗ WP c (.op (.enqueueDma srcM (.remote (Dev.tc n : Thread nD τ) dstM (.dma (sendS d k j).sem) hsc) (.dma (recvS d k j).sem) hsrc hdst hsem) kk) Q) := by
  subst hn
  iintro ⟨#Hrec, Hs, Hd, HT, HO, Ht1, Ht2⟩
  ihave Hs' := (show ownsTc c srcM fullShare v ⊢ iprop(∃ f, ⌜srcM.view.read (Elt F) f = v⌝ ∗ (srcM.view.loc (c : Thread nD τ) ↦[srcM.view.set]{fullShare} f)) from .rfl) $$ Hs
  icases Hs' with ⟨%fs, %hfs, Hs⟩
  ihave Hd' := (show ownsTc (dn d c) dstM fullShare v₀ ⊢ iprop(∃ f, ⌜dstM.view.read (Elt F) f = v₀⌝ ∗ (dstM.view.loc (dn d c : Thread nD τ) ↦[dstM.view.set]{fullShare} f)) from .rfl) $$ Hd
  icases Hd' with ⟨%fd, %hfd, Hd⟩
  iapply (Rounds.wp_send_pointsTo_with 𝒱₀ ER (ringRd m ρ) (c : Thread nD τ) none (κ₁ := K (c, some (false, d, k, j))) (κ₂ := K (dn d c, some (true, d, k, j)))
      (c' := (dn d c : Thread nD τ)) (src := srcM) (dst := dstM) (sS := .dma (sendS d k j).sem) (sem := .dma (recvS d k j).sem)
      (r₁ := 0) (r₂ := 0) (d₁ := false) (d₂ := false) (q := fullShare) (fs := fs) (fd := fd) (F := T)
      (by rw [duties_send]; exact Finset.mem_singleton_self _) (by rw [duties_recv]; exact Finset.mem_singleton_self _)
      () () N (by exact hcred) (amount_send m ρ c d k j false) (amount_recv m ρ (dn d c) d k j false) O rfl (W := W)
      (by
        rw [payload_send]
        refine BIBase.Entails.trans ?_ hsp
        exact ownsTc_of_pointsTo c srcM fs v hfs)
      (by
        rw [payload_recv]
        refine BIBase.Entails.trans ?_ hpay
        refine sep_mono_left ?_
        exact ownsTc_of_pointsTo (dn d c) dstM _ v (by rw [View.read_write_univ, hfs]))) $$ [Hs Hd HT HO Ht1 Ht2]
  isplitr; · (iapply (inv_at m ρ K (c, some (false, d, k, j))); iexact Hrec)
  isplitr; · (iapply (inv_at m ρ K (dn d c, some (true, d, k, j))); iexact Hrec)
  isplitl [Hs]; · iexact Hs
  isplitl [Hd HT]
  · isplitl [Hd]; · iexact Hd
    iexact HT
  isplitl [HO]; · iexact HO
  isplitl [Ht1]; · iexact Ht1
  isplitr; · (iapply (rch_at m ρ K (c, some (false, d, k, j))); iexact Hrec)
  isplitl [Ht2]; · iexact Ht2
  iapply (rch_at m ρ K (dn d c, some (true, d, k, j))); iexact Hrec

/-- The same, the source given by an offset equal to that of block (d, ch, j). -/
theorem wp_send_land_sub (K : Dev nD × CellIx → ℕ) (c : Dev nD) (d : Fin 2) (k : Fin 6) (j : Fin 2) (n : Dev nD) (hn : n = dn d c) (ch : Fin 4)
    {off : Fin 2 → ℕ} {inb : ∀ a, off a + S128x1024.size a ≤ S2048x1024.size a} (hoff : off = subOff d ch j)
    (dstM : Memref sig .tc .vmem S128x1024 .bf16) (hcred : dstM.view.dmaCredit = N)
    {hsc : (dstM : Memref sig (Dev.tc n : Thread nD τ).2.kind .vmem S128x1024 .bf16).view.ref.isScScratch = false}
    {hsrc : (oM.slice (Rect.unit (s := S2048x1024) off S128x1024.size inb) (fun _ => rfl)).view.WordExact} {hdst : dstM.view.WordExact}
    {hsem : DmaTarget.Typed .vmem (.dma (recvS d k j).sem) (.remote (Dev.tc n : Thread nD τ) dstM (.dma (sendS d k j).sem) hsc)}
    {α : Type} {Q : α → sProp 𝕄} {kk : PUnit → Prog (TpuEff nD τ sig (Elt F) Λ₀ .tc) α}
    (v v₀ : Vec F S128x1024 .bf16) (T : sProp 𝕄) (O : CellTallies nD τ sig Unit) (W : Waits sig Unit)
    (hpay : iprop((ownsTc (dn d c) dstM fullShare v ∗ T) ∗ ownsTc c (sub d ch j) fullShare v) ⊢ recvPay m ρ (dn d c) d k j)
    (hsp : (emp : sProp 𝕄) ⊢ sendPay m ρ c d k j) :
    iprop(records m ρ K ∗ ownsTc c (sub d ch j) fullShare v ∗ ownsTc (dn d c) dstM fullShare v₀ ∗ T
        ∗ owes (c : Thread nD τ) (O + tallyAt (recvCell (dn d c) d k j) () N) W
        ∗ dutyTok ER (sendCell c d k j) 0 false ∗ dutyTok ER (recvCell (dn d c) d k j) 0 false)
      ⊢ iprop(((cred (tallyAt (sendCell c d k j) () N) ∗ owes (c : Thread nD τ) O W) -∗ WP c (kk ⟨⟩) Q)
          -∗ WP c (.op (.enqueueDma (oM.slice (Rect.unit (s := S2048x1024) off S128x1024.size inb) (fun _ => rfl))
              (.remote (Dev.tc n : Thread nD τ) dstM (.dma (sendS d k j).sem) hsc) (.dma (recvS d k j).sem) hsrc hdst hsem) kk) Q) := by
  subst hoff
  exact wp_send_land m ρ K c d k j n hn (sub d ch j) dstM hcred v v₀ T O W hpay hsp

/-- The same, source and destination given by one offset equal to that of block (d, ch, j). -/
theorem wp_send_ret_sub (K : Dev nD × CellIx → ℕ) (c : Dev nD) (d : Fin 2) (k : Fin 6) (j : Fin 2) (n : Dev nD) (hn : n = dn d c) (ch : Fin 4)
    {off : Fin 2 → ℕ} {inb inb' : ∀ a, off a + S128x1024.size a ≤ S2048x1024.size a} (hoff : off = subOff d ch j)
    {hsc : ((oM.slice (Rect.unit (s := S2048x1024) off S128x1024.size inb') (fun _ => rfl)) : Memref sig (Dev.tc n : Thread nD τ).2.kind .vmem S128x1024 .bf16).view.ref.isScScratch = false}
    {hsrc : (oM.slice (Rect.unit (s := S2048x1024) off S128x1024.size inb) (fun _ => rfl)).view.WordExact}
    {hdst : (oM.slice (Rect.unit (s := S2048x1024) off S128x1024.size inb') (fun _ => rfl)).view.WordExact}
    {hsem : DmaTarget.Typed .vmem (.dma (recvS d k j).sem) (.remote (Dev.tc n : Thread nD τ) (oM.slice (Rect.unit (s := S2048x1024) off S128x1024.size inb') (fun _ => rfl)) (.dma (sendS d k j).sem) hsc)}
    {α : Type} {Q : α → sProp 𝕄} {kk : PUnit → Prog (TpuEff nD τ sig (Elt F) Λ₀ .tc) α}
    (v v₀ : Vec F S128x1024 .bf16) (T : sProp 𝕄) (O : CellTallies nD τ sig Unit) (W : Waits sig Unit)
    (hpay : iprop(ownsTc (dn d c) (sub d ch j) fullShare v ∗ T) ⊢ recvPay m ρ (dn d c) d k j)
    (hsp : ownsTc c (sub d ch j) fullShare v ⊢ sendPay m ρ c d k j) :
    iprop(records m ρ K ∗ ownsTc c (sub d ch j) fullShare v ∗ ownsTc (dn d c) (sub d ch j) fullShare v₀ ∗ T
        ∗ owes (c : Thread nD τ) (O + tallyAt (recvCell (dn d c) d k j) () N) W
        ∗ dutyTok ER (sendCell c d k j) 0 false ∗ dutyTok ER (recvCell (dn d c) d k j) 0 false)
      ⊢ iprop(((cred (tallyAt (sendCell c d k j) () N) ∗ owes (c : Thread nD τ) O W) -∗ WP c (kk ⟨⟩) Q)
          -∗ WP c (.op (.enqueueDma (oM.slice (Rect.unit (s := S2048x1024) off S128x1024.size inb) (fun _ => rfl))
              (.remote (Dev.tc n : Thread nD τ) (oM.slice (Rect.unit (s := S2048x1024) off S128x1024.size inb') (fun _ => rfl)) (.dma (sendS d k j).sem) hsc)
              (.dma (recvS d k j).sem) hsrc hdst hsem) kk) Q) := by
  subst hoff
  exact wp_send_ret m ρ K c d k j n hn (sub d ch j) (sub d ch j) rfl v v₀ T O W hpay hsp

/-- Waiting on a receive cell hands over what the landing carried. -/
theorem wp_wait_recv (K : Dev nD × CellIx → ℕ) (c : Dev nD) (d : Fin 2) (k : Fin 6) (j : Fin 2)
    {srcM dstM : Memref sig .tc .vmem S128x1024 .bf16} (hcred : dstM.view.dmaCredit = N)
    {h1 : srcM.view.WordExact} {h2 : dstM.view.WordExact}
    {α : Type} {Q : α → sProp 𝕄} {kk : PUnit → Prog (TpuEff nD τ sig (Elt F) Λ₀ .tc) α}
    (O : CellTallies nD τ sig Unit) (W : Waits sig Unit) :
    iprop(records m ρ K ∗ cred (tallyAt (recvCell c d k j) () N) ∗ owes (c : Thread nD τ) O W
        ∗ MayWait (c : Thread nD τ) (.dma (recvS d k j).sem) () O ∗ atPos ER (recvCell c d k j) 0 ∅ 0)
      ⊢ iprop(((owes (c : Thread nD τ) O (insert (SemLoc.dma (recvS d k j).sem, ()) W) ∗ atPos ER (recvCell c d k j) 1 ∅ 0 ∗ recvPay m ρ c d k j)
            -∗ WP c (kk ⟨⟩) Q)
          -∗ WP c (.op (.waitDma2 (recvS d k j).sem srcM dstM h1 h2) kk) Q) := by
  iintro ⟨#Hrec, Hc, HO, HM, Hat⟩ Hk
  iapply (Rounds.wp_wait_rest_token 𝒱₀ ER (ringRd m ρ) (c : Thread nD τ) none (κ := K (c, some (true, d, k, j)))
      (k' := dstM.view.dmaCredit) (wpE_waitDma2_eq 𝒱₀ (c : Thread nD τ) none Set.univ) (Set.mem_univ _) () (O := O) (W := W) (R := 0) (m := 0) (T := ∅)
      (by rw [Nat.zero_add, expect_recv, hcred])) $$ [Hc HO HM Hat]
  · isplitr; · (iapply (inv_at m ρ K (c, some (true, d, k, j))); iexact Hrec)
    isplitl [Hc]; · rw [hcred]; iexact Hc
    isplitl [HO]; · iexact HO
    isplitl [HM]; · iexact HM
    iexact Hat
  iintro ⟨HO, Hat, -, Hpay⟩
  iapply Hk
  isplitl [HO]; · iexact HO
  isplitl [Hat]; · iexact Hat
  iapply (Entails.of_eq (rest_recv m ρ c d k j)); iexact Hpay

/-- Waiting on a send cell, nothing owed, hands back what the sender is due. -/
theorem wp_wait_send (K : Dev nD × CellIx → ℕ) (c : Dev nD) (d : Fin 2) (k : Fin 6) (j : Fin 2)
    {srcM dstM : Memref sig .tc .vmem S128x1024 .bf16} (hcred : dstM.view.dmaCredit = N)
    {h1 : srcM.view.WordExact} {h2 : dstM.view.WordExact}
    {α : Type} {Q : α → sProp 𝕄} {kk : PUnit → Prog (TpuEff nD τ sig (Elt F) Λ₀ .tc) α}
    (W : Waits sig Unit) :
    iprop(records m ρ K ∗ cred (tallyAt (sendCell c d k j) () N) ∗ owes (c : Thread nD τ) 0 W
        ∗ atPos ER (sendCell c d k j) 0 ∅ 0)
      ⊢ iprop(((owes (c : Thread nD τ) 0 (insert (SemLoc.dma (sendS d k j).sem, ()) W) ∗ atPos ER (sendCell c d k j) 1 ∅ 0 ∗ sendPay m ρ c d k j)
            -∗ WP c (kk ⟨⟩) Q)
          -∗ WP c (.op (.waitDma2 (sendS d k j).sem srcM dstM h1 h2) kk) Q) := by
  iintro ⟨#Hrec, Hc, HO, Hat⟩ Hk
  iapply (Rounds.wp_wait_rest_token 𝒱₀ ER (ringRd m ρ) (c : Thread nD τ) none (κ := K (c, some (false, d, k, j)))
      (k' := dstM.view.dmaCredit) (wpE_waitDma2_eq 𝒱₀ (c : Thread nD τ) none Set.univ) (Set.mem_univ _) () (O := 0) (W := W) (R := 0) (m := 0) (T := ∅)
      (by rw [Nat.zero_add, expect_send, hcred])) $$ [Hc HO Hat]
  · isplitr; · (iapply (inv_at m ρ K (c, some (false, d, k, j))); iexact Hrec)
    isplitl [Hc]; · rw [hcred]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_send m ρ c d k j)); iexact Hpay

end Cert.KernelIdealProof

end
-- ==== Proof.KernelIdealSteps.lean ====
import proofs.«900326_g7700000000000327_dist_treered_v7x_i4_m2048_n1024_bf16_1_alg».proof.Proof.KernelIdealRules

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem wp_load_sub (c : Dev nD) (d : Fin 2) (ch : Fin 4) (j : Fin 2) {off : Fin 2 → ℕ}
    {inb : ∀ a, off a + S128x1024.size a ≤ S2048x1024.size a} (hoff : off = subOff d ch j)
    {hl : oM.view.LoadsAt (Rect.unit (s := S2048x1024) off S128x1024.size inb).toLoadRect}
    {α : Type} {Q : α → sProp 𝕄} {k : Vec F S128x1024 .bf16 → Prog (TpuEff nD τ sig (Elt F) Λ₀ .tc) α}
    (q : PosShare TreeShare) (v : Vec F S128x1024 .bf16) :
    iprop(owns (c : Thread nD τ) (sub d ch j) q v ∗ (owns (c : Thread nD τ) (sub d ch j) q v -∗ WP c (k v) Q))
      ⊢ WP c (.op (.load oM (Rect.unit (s := S2048x1024) off S128x1024.size inb).toLoadRect hl) k) Q := by
  subst hoff
  unfold owns
  iintro ⟨⟨%f, %hf, H⟩, Hk⟩
  subst hf
  iapply (wp_load_rect 𝒱₀ (c : Thread nD τ) none Set.univ (m := oM) (r := subR d ch j) (Finset.Subset.refl _)) $$ H
  iintro H
  iapply Hk
  iexists f
  isplitr
  · ipureintro; rfl
  · iexact H

theorem wp_store_sub (c : Dev nD) (d : Fin 2) (ch : Fin 4) (j : Fin 2) {off : Fin 2 → ℕ}
    {inb : ∀ a, off a + S128x1024.size a ≤ S2048x1024.size a} (hoff : off = subOff d ch j)
    {hx : (oM.access (Rect.unit (s := S2048x1024) off S128x1024.size inb)).Stores Finset.univ}
    {hm : (Finset.univ : Finset (Rect.unit (s := S2048x1024) off S128x1024.size inb).shape.Idx) = Finset.univ
            ∨ ∀ a, (Rect.unit (s := S2048x1024) off S128x1024.size inb).stride a = 1}
    {α : Type} {Q : α → sProp 𝕄} {k : PUnit → Prog (TpuEff nD τ sig (Elt F) Λ₀ .tc) α}
    (v w : Vec F S128x1024 .bf16) :
    iprop(owns (c : Thread nD τ) (sub d ch j) fullShare v ∗ (owns (c : Thread nD τ) (sub d ch j) fullShare w -∗ WP c (k ⟨⟩) Q))
      ⊢ WP c (.op (.store oM (Rect.unit (s := S2048x1024) off S128x1024.size inb) w Finset.univ hx hm) k) Q := by
  subst hoff
  unfold owns
  iintro ⟨⟨%f, %hf, H⟩, Hk⟩
  iapply (wp_store 𝒱₀ (c : Thread nD τ) none Set.univ (m := oM) (r := subR d ch j) (Mk := Finset.univ)
    (S := (sub d ch j).view.set) (Finset.Subset.refl _)) $$ H
  iintro H
  iapply Hk
  iexists _
  isplitr
  · ipureintro; exact View.read_write_univ f w
  · iexact H

theorem read_rb (d : Fin 2) (s : Fin 3) (j : Fin 2) (f : rM.view.ty.Contents (Elt F)) :
    (rM.access (rbR d s j)).read (Elt F) f = slotRead ((rb d s j).view.read (Elt F) f) := by
  funext i
  unfold slotRead
  rw [View.read_apply, View.read_apply]
  simp only [Memref.view_squeeze, Memref.view_slice, View.emb_reshape, Function.Embedding.trans_apply,
    Equiv.coe_toEmbedding, Equiv.apply_symm_apply]

theorem wp_load_rb (c : Dev nD) (d : Fin 2) (s : Fin 3) (j : Fin 2) {off : Fin 5 → ℕ}
    {inb : ∀ a, off a + S1x1x1x128x1024.size a ≤ S2x3x2x128x1024.size a} (hoff : off = rbOff d s j)
    {hl : rM.view.LoadsAt (Rect.unit (s := S2x3x2x128x1024) off S1x1x1x128x1024.size inb).toLoadRect}
    {α : Type} {Q : α → sProp 𝕄} {k : Vec F S1x1x1x128x1024 .bf16 → Prog (TpuEff nD τ sig (Elt F) Λ₀ .tc) α}
    (q : PosShare TreeShare) (v : Vec F S128x1024 .bf16) :
    iprop(owns (c : Thread nD τ) (rb d s j) q v ∗ (owns (c : Thread nD τ) (rb d s j) q v -∗ WP c (k (slotRead v)) Q))
      ⊢ WP c (.op (.load rM (Rect.unit (s := S2x3x2x128x1024) off S1x1x1x128x1024.size inb).toLoadRect hl) k) Q := by
  subst hoff
  unfold owns
  iintro ⟨⟨%f, %hf, H⟩, Hk⟩
  subst hf
  iapply (wp_load_rect 𝒱₀ (c : Thread nD τ) none Set.univ (m := rM) (r := rbR d s j)
    (S := (rb d s j).view.set)
    (View.set_reshape (rM.view.slice (rbR d s j)) squeezes_S1x1x1x128x1024_S128x1024.numel_eq).ge) $$ H
  iintro H
  rw [read_rb]
  iapply Hk
  iexists f
  isplitr
  · ipureintro; rfl
  · iexact H

theorem wp_load_x (c : Dev nD) (d : Fin 2) (ch : Fin 4) {off : Fin 3 → ℕ}
    {inb : ∀ a, off a + S1x256x1024.size a ≤ S1x2048x1024.size a} (hoff : off = xOff d ch)
    {hl : xM.view.LoadsAt (Rect.unit (s := S1x2048x1024) off S1x256x1024.size inb).toLoadRect}
    {α : Type} {Q : α → sProp 𝕄} {k : Vec F S1x256x1024 .f32 → Prog (TpuEff nD τ sig (Elt F) Λ₀ .tc) α}
    (q : PosShare TreeShare) (f : (cc0_stg0_0 : Ref sig .tc).ty.Contents (Elt F)) :
    iprop((((c : Thread nD τ).loc cc0_stg0_0) ↦{q} f)
        ∗ ((((c : Thread nD τ).loc cc0_stg0_0) ↦{q} f) -∗ WP c (k (xM.view.readAt (Elt F) (xR d ch).toLoadRect f)) Q))
      ⊢ WP c (.op (.load xM (Rect.unit (s := S1x2048x1024) off S1x256x1024.size inb).toLoadRect hl) k) Q := by
  subst hoff
  iintro ⟨H, Hk⟩
  iapply (wp_load 𝒱₀ (c : Thread nD τ) none Set.univ (m := xM) (r := (xR d ch).toLoadRect) (S := Finset.univ)
    (Finset.subset_univ _)) $$ H
  iintro H
  iapply Hk
  iexact H

theorem sub_set_disjoint (d : Fin 2) (ch : Fin 4) : Disjoint (sub d ch 0).view.set (sub d ch 1).view.set := by
  change Disjoint (oM.view.slice (subR d ch 0)).set (oM.view.slice (subR d ch 1)).set
  rw [View.set_slice, View.set_slice]
  exact (Finset.disjoint_map _).mpr (Rect.unit_disjoint 0 (Or.inl (by revert d ch; decide)))

theorem oR256_set (d : Fin 2) (ch : Fin 4) : (oR256 d ch).set = (subR d ch 0).set ∪ (subR d ch 1).set := by
  ext x
  simp only [Finset.mem_union, Rect.mem_set_unit]
  have e0 : ∀ j : Fin 2, subOff d ch j 0 = oOff256 d ch 0 + 128 * j.val := fun j => by
    simp [subOff, oOff256] <;> omega
  have e1 : ∀ j : Fin 2, subOff d ch j 1 = 0 := fun j => rfl
  have e1' : oOff256 d ch 1 = 0 := rfl
  have s0 : S128x1024.size 0 = 128 := rfl
  have s1 : S128x1024.size 1 = 1024 := rfl
  have t0 : S256x1024.size 0 = 256 := rfl
  have t1 : S256x1024.size 1 = 1024 := rfl
  rw [show (∀ a : Fin S2048x1024.rank, oOff256 d ch a ≤ x a ∧ (x a : ℕ) < oOff256 d ch a + S256x1024.size a)
        ↔ (oOff256 d ch 0 ≤ x 0 ∧ (x 0 : ℕ) < oOff256 d ch 0 + S256x1024.size 0)
          ∧ (oOff256 d ch 1 ≤ x 1 ∧ (x 1 : ℕ) < oOff256 d ch 1 + S256x1024.size 1) from Fin.forall_fin_two,
    show (∀ a : Fin S2048x1024.rank, subOff d ch 0 a ≤ x a ∧ (x a : ℕ) < subOff d ch 0 a + S128x1024.size a)
        ↔ (subOff d ch 0 0 ≤ x 0 ∧ (x 0 : ℕ) < subOff d ch 0 0 + S128x1024.size 0)
          ∧ (subOff d ch 0 1 ≤ x 1 ∧ (x 1 : ℕ) < subOff d ch 0 1 + S128x1024.size 1) from Fin.forall_fin_two,
    show (∀ a : Fin S2048x1024.rank, subOff d ch 1 a ≤ x a ∧ (x a : ℕ) < subOff d ch 1 a + S128x1024.size a)
        ↔ (subOff d ch 1 0 ≤ x 0 ∧ (x 0 : ℕ) < subOff d ch 1 0 + S128x1024.size 0)
          ∧ (subOff d ch 1 1 ≤ x 1 ∧ (x 1 : ℕ) < subOff d ch 1 1 + S128x1024.size 1) from Fin.forall_fin_two]
  rw [e0 0, e0 1, e1 0, e1 1, e1', s0, s1, t0, t1]
  simp only [Fin.val_zero, Fin.val_one]
  omega

theorem access256_set (d : Fin 2) (ch : Fin 4) :
    (oM.access (oR256 d ch)).set = (sub d ch 0).view.set ∪ (sub d ch 1).view.set := by
  change (oM.view.slice (oR256 d ch)).set = (oM.view.slice (subR d ch 0)).set ∪ (oM.view.slice (subR d ch 1)).set
  rw [View.set_slice, View.set_slice, View.set_slice, oR256_set, Finset.map_union]

theorem subR_emb (d : Fin 2) (ch : Fin 4) (j : Fin 2) (i : S128x1024.Idx) :
    (subR d ch j).emb i = (oR256 d ch).emb ((halfR j).emb i) := by
  funext a
  apply Fin.ext
  simp only [Rect.emb_apply, Rect.off_unit, Rect.stride_unit, Nat.one_mul]
  revert a
  rw [show (∀ a : Fin S2048x1024.rank, subOff d ch j a + (i a : ℕ) = oOff256 d ch a + (halfOff j a + (i a : ℕ)))
        ↔ (subOff d ch j 0 + (i 0 : ℕ) = oOff256 d ch 0 + (halfOff j 0 + (i 0 : ℕ)))
          ∧ (subOff d ch j 1 + (i 1 : ℕ) = oOff256 d ch 1 + (halfOff j 1 + (i 1 : ℕ))) from Fin.forall_fin_two]
  constructor
  · simp [subOff, oOff256, halfOff] <;> omega
  · simp [subOff, oOff256, halfOff]

theorem read_sub_write256 (d : Fin 2) (ch : Fin 4) (j : Fin 2) (f : oM.view.ty.Contents (Elt F)) (w : Vec F S256x1024 .bf16) :
    (sub d ch j).view.read (Elt F) ((oM.access (oR256 d ch)).write (Elt F) f w Finset.univ) = fun i => w ((halfR j).emb i) := by
  funext i
  have he : (sub d ch j).view.emb i = (oM.access (oR256 d ch)).emb ((halfR j).emb i) := by
    show oM.view.emb ((subR d ch j).emb i) = oM.view.emb ((oR256 d ch).emb ((halfR j).emb i))
    rw [subR_emb]
  rw [View.read_apply, he, View.write_emb_of_mem _ _ (Finset.mem_univ _), cast_cast, cast_eq]

theorem wp_load_256 (c : Dev nD) (d : Fin 2) (ch : Fin 4) {off : Fin 2 → ℕ}
    {inb : ∀ a, off a + S256x1024.size a ≤ S2048x1024.size a} (hoff : off = oOff256 d ch)
    {hl : oM.view.LoadsAt (Rect.unit (s := S2048x1024) off S256x1024.size inb).toLoadRect}
    {α : Type} {Q : α → sProp 𝕄} {k : Vec F S256x1024 .bf16 → Prog (TpuEff nD τ sig (Elt F) Λ₀ .tc) α}
    (v0 v1 : Vec F S128x1024 .bf16) :
    iprop(owns (c : Thread nD τ) (sub d ch 0) fullShare v0 ∗ owns (c : Thread nD τ) (sub d ch 1) fullShare v1
        ∗ (∀ u, (owns (c : Thread nD τ) (sub d ch 0) fullShare v0 ∗ owns (c : Thread nD τ) (sub d ch 1) fullShare v1) -∗ WP c (k u) Q))
      ⊢ WP c (.op (.load oM (Rect.unit (s := S2048x1024) off S256x1024.size inb).toLoadRect hl) k) Q := by
  subst hoff
  unfold owns
  iintro ⟨⟨%f0, %h0, H0⟩, ⟨%f1, %h1, H1⟩, Hk⟩
  ihave H := (pointsTo_join (ℓ := oM.view.loc (c : Thread nD τ)) (I := (sub d ch 0).view.set) (J := (sub d ch 1).view.set)
    (q := fullShare) (f := f0) (g := f1) (sub_set_disjoint d ch)) $$ [H0 H1]
  · isplitl [H0]
    · iexact H0
    · iexact H1
  iapply (wp_load_rect 𝒱₀ (c : Thread nD τ) none Set.univ (m := oM) (r := oR256 d ch)
    (S := (sub d ch 0).view.set ∪ (sub d ch 1).view.set) (access256_set d ch).subset) $$ H
  iintro H
  ihave H' := (pointsTo_union (ℓ := oM.view.loc (c : Thread nD τ)) (I := (sub d ch 0).view.set) (J := (sub d ch 1).view.set)
    (sub_set_disjoint d ch)).1 $$ H
  icases H' with ⟨H0, H1⟩
  iapply Hk
  isplitl [H0]
  · iexists _
    isplitr
    rotate_left
    · iexact H0
    · ipureintro
      refine Eq.trans (View.read_congr fun i hi => ?_) h0
      exact Finset.piecewise_eq_of_notMem _ _ _ (Finset.disjoint_left.mp (sub_set_disjoint d ch) hi)
  · iexists _
    isplitr
    rotate_left
    · iexact H1
    · ipureintro
      refine Eq.trans (View.read_congr fun i hi => ?_) h1
      exact Finset.piecewise_eq_of_mem _ _ _ hi

theorem wp_store_256 (c : Dev nD) (d : Fin 2) (ch : Fin 4) {off : Fin 2 → ℕ}
    {inb : ∀ a, off a + S256x1024.size a ≤ S2048x1024.size a} (hoff : off = oOff256 d ch)
    {hx : (oM.access (Rect.unit (s := S2048x1024) off S256x1024.size inb)).Stores Finset.univ}
    {hm : (Finset.univ : Finset (Rect.unit (s := S2048x1024) off S256x1024.size inb).shape.Idx) = Finset.univ
            ∨ ∀ a, (Rect.unit (s := S2048x1024) off S256x1024.size inb).stride a = 1}
    {α : Type} {Q : α → sProp 𝕄} {k : PUnit → Prog (TpuEff nD τ sig (Elt F) Λ₀ .tc) α}
    (v0 v1 : Vec F S128x1024 .bf16) (w : Vec F S256x1024 .bf16) :
    iprop(owns (c : Thread nD τ) (sub d ch 0) fullShare v0 ∗ owns (c : Thread nD τ) (sub d ch 1) fullShare v1
        ∗ ((owns (c : Thread nD τ) (sub d ch 0) fullShare (fun i => w ((halfR 0).emb i))
              ∗ owns (c : Thread nD τ) (sub d ch 1) fullShare (fun i => w ((halfR 1).emb i))) -∗ WP c (k ⟨⟩) Q))
      ⊢ WP c (.op (.store oM (Rect.unit (s := S2048x1024) off S256x1024.size inb) w Finset.univ hx hm) k) Q := by
  subst hoff
  unfold owns
  iintro ⟨⟨%f0, %h0, H0⟩, ⟨%f1, %h1, H1⟩, Hk⟩
  ihave H := (pointsTo_join (ℓ := oM.view.loc (c : Thread nD τ)) (I := (sub d ch 0).view.set) (J := (sub d ch 1).view.set)
    (q := fullShare) (f := f0) (g := f1) (sub_set_disjoint d ch)) $$ [H0 H1]
  · isplitl [H0]
    · iexact H0
    · iexact H1
  iapply (wp_store 𝒱₀ (c : Thread nD τ) none Set.univ (m := oM) (r := oR256 d ch) (Mk := Finset.univ)
    (S := (sub d ch 0).view.set ∪ (sub d ch 1).view.set) (access256_set d ch).subset) $$ H
  iintro H
  ihave H' := (pointsTo_union (ℓ := oM.view.loc (c : Thread nD τ)) (I := (sub d ch 0).view.set) (J := (sub d ch 1).view.set)
    (sub_set_disjoint d ch)).1 $$ H
  icases H' with ⟨H0, H1⟩
  iapply Hk
  isplitl [H0]
  · iexists _
    isplitr
    rotate_left
    · iexact H0
    · ipureintro; exact read_sub_write256 d ch 0 _ w
  · iexists _
    isplitr
    rotate_left
    · iexact H1
    · ipureintro; exact read_sub_write256 d ch 1 _ w

theorem elt_nonempty (e : EltTy) : Nonempty (Elt F e) := by
  cases e <;> first | exact ⟨(0 : BitVec _)⟩ | exact ⟨FloatOps.ofBits _ 0⟩

theorem subR_disjoint (t t' : Fin 2 × Fin 4 × Fin 2) (h : t ≠ t') :
    Disjoint (subR t.1 t.2.1 t.2.2).set (subR t'.1 t'.2.1 t'.2.2).set := by
  refine Rect.unit_disjoint 0 ?_
  revert t t'
  decide +kernel

theorem subR_cover :
    (Finset.univ : Finset (Fin 2 × Fin 4 × Fin 2)).biUnion (fun t => (subR t.1 t.2.1 t.2.2).set) = Finset.univ := by
  ext x
  simp only [Finset.mem_biUnion, Finset.mem_univ, true_and, iff_true]
  have hx0 : (x 0 : ℕ) < 2048 := (x 0).isLt
  have hx1 : (x 1 : ℕ) < 1024 := (x 1).isLt
  refine ⟨(⟨(x 0 : ℕ) / 1024, by omega⟩, ⟨((x 0 : ℕ) % 1024) / 256, by omega⟩, ⟨((x 0 : ℕ) % 256) / 128, by omega⟩), ?_⟩
  rw [Rect.mem_set_unit]
  refine Fin.forall_fin_two.mpr ⟨?_, ?_⟩
  · show 1024 * ((x 0 : ℕ) / 1024) + 256 * (((x 0 : ℕ) % 1024) / 256) + 128 * (((x 0 : ℕ) % 256) / 128) ≤ (x 0 : ℕ)
      ∧ (x 0 : ℕ) < 1024 * ((x 0 : ℕ) / 1024) + 256 * (((x 0 : ℕ) % 1024) / 256) + 128 * (((x 0 : ℕ) % 256) / 128) + 128
    omega
  · show 0 ≤ (x 1 : ℕ) ∧ (x 1 : ℕ) < 0 + 1024
    omega

theorem owns_out_split (c : Dev nD) (X : Vec F S2048x1024 .bf16) :
    (owns (c : Thread nD τ) oM fullShare X : sProp 𝕄)
      ⊢ bigSep Finset.univ fun t : Fin 2 × Fin 4 × Fin 2 =>
          owns (c : Thread nD τ) (sub t.1 t.2.1 t.2.2) fullShare (fun i => X ((subR t.1 t.2.1 t.2.2).emb i)) :=
  owns_rects (c : Thread nD τ) oM fullShare (fun t : Fin 2 × Fin 4 × Fin 2 => subR t.1 t.2.1 t.2.2) (fun _ _ => rfl)
    subR_disjoint subR_cover X

theorem owns_out_join (c : Dev nD) (X : Vec F S2048x1024 .bf16) :
    (bigSep Finset.univ fun t : Fin 2 × Fin 4 × Fin 2 =>
        owns (c : Thread nD τ) (sub t.1 t.2.1 t.2.2) fullShare (fun i => X ((subR t.1 t.2.1 t.2.2).emb i)))
      ⊢ (owns (c : Thread nD τ) oM fullShare X : sProp 𝕄) :=
  haveI : ∀ e, Nonempty (Elt F e) := elt_nonempty
  owns_of_rects (c : Thread nD τ) oM fullShare (fun t : Fin 2 × Fin 4 × Fin 2 => subR t.1 t.2.1 t.2.2) (fun _ _ => rfl)
    subR_disjoint subR_cover X

theorem rbR_disjoint (t t' : Fin 2 × Fin 3 × Fin 2) (h : t ≠ t') :
    Disjoint (rbR t.1 t.2.1 t.2.2).set (rbR t'.1 t'.2.1 t'.2.2).set := by
  have hsep : ∃ a : Fin 5, rbOff t.1 t.2.1 t.2.2 a + S1x1x1x128x1024.size a ≤ rbOff t'.1 t'.2.1 t'.2.2 a
      ∨ rbOff t'.1 t'.2.1 t'.2.2 a + S1x1x1x128x1024.size a ≤ rbOff t.1 t.2.1 t.2.2 a := by
    revert t t'
    decide +kernel
  obtain ⟨a, ha⟩ := hsep
  exact Rect.unit_disjoint a ha

theorem rbR_cover :
    (Finset.univ : Finset (Fin 2 × Fin 3 × Fin 2)).biUnion (fun t => (rbR t.1 t.2.1 t.2.2).set) = Finset.univ := by
  ext x
  simp only [Finset.mem_biUnion, Finset.mem_univ, true_and, iff_true]
  have hx3 : (x 3 : ℕ) < 128 := (x 3).isLt
  have hx4 : (x 4 : ℕ) < 1024 := (x 4).isLt
  refine ⟨(⟨(x 0 : ℕ), (x 0).isLt⟩, ⟨(x 1 : ℕ), (x 1).isLt⟩, ⟨(x 2 : ℕ), (x 2).isLt⟩), ?_⟩
  rw [Rect.mem_set_unit]
  refine Fin.forall_fin_succ.mpr ⟨?_, Fin.forall_fin_succ.mpr ⟨?_, Fin.forall_fin_succ.mpr ⟨?_, Fin.forall_fin_two.mpr ⟨?_, ?_⟩⟩⟩⟩
  · show (x 0 : ℕ) ≤ (x 0 : ℕ) ∧ (x 0 : ℕ) < (x 0 : ℕ) + 1
    omega
  · show (x 1 : ℕ) ≤ (x 1 : ℕ) ∧ (x 1 : ℕ) < (x 1 : ℕ) + 1
    omega
  · show (x 2 : ℕ) ≤ (x 2 : ℕ) ∧ (x 2 : ℕ) < (x 2 : ℕ) + 1
    omega
  · show 0 ≤ (x 3 : ℕ) ∧ (x 3 : ℕ) < 0 + 128
    omega
  · show 0 ≤ (x 4 : ℕ) ∧ (x 4 : ℕ) < 0 + 1024
    omega

theorem owns_rb (c : Dev nD) (d : Fin 2) (s : Fin 3) (j : Fin 2) (q : PosShare TreeShare) (v : Vec F S128x1024 .bf16) :
    (owns (c : Thread nD τ) (rb d s j) q v : sProp 𝕄)
      = owns (c : Thread nD τ) (rM.slice (rbR d s j) (fun _ => rfl)) q (slotRead v) := by
  have hset : (rb d s j).view.set = (rM.view.slice (rbR d s j)).set :=
    View.set_reshape (rM.view.slice (rbR d s j)) squeezes_S1x1x1x128x1024_S128x1024.numel_eq
  have hpt (f : rM.view.ty.Contents (Elt F)) :
      ((rM.view.loc (c : Thread nD τ)) ↦[(rb d s j).view.set]{q} f : sProp 𝕄)
        = (rM.view.loc (c : Thread nD τ)) ↦[(rM.view.slice (rbR d s j)).set]{q} f :=
    congrArg (fun S => ((rM.view.loc (c : Thread nD τ)) ↦[S]{q} f : sProp 𝕄)) hset
  have h₁ : (owns (c : Thread nD τ) (rb d s j) q v : sProp 𝕄)
      ⊢ owns (c : Thread nD τ) (rM.slice (rbR d s j) (fun _ => rfl)) q (slotRead v) := by
    unfold owns
    iintro ⟨%f, %hf, H⟩
    iexists f
    isplitr
    · ipureintro
      rw [← hf]
      exact read_rb d s j f
    · iapply (Entails.of_eq (hpt f))
      iexact H
  have h₂ : (owns (c : Thread nD τ) (rM.slice (rbR d s j) (fun _ => rfl)) q (slotRead v) : sProp 𝕄)
      ⊢ owns (c : Thread nD τ) (rb d s j) q v := by
    unfold owns
    iintro ⟨%f, %hf, H⟩
    iexists f
    isplitr
    · ipureintro
      funext x
      have h := congrFun ((read_rb d s j f).symm.trans hf) (Shape.reshapeEquiv squeezes_S1x1x1x128x1024_S128x1024.numel_eq x)
      simpa only [slotRead, Equiv.symm_apply_apply] using h
    · iapply (Entails.of_eq (hpt f).symm)
      iexact H
  exact BI.equiv_iff.mp ⟨h₁, h₂⟩

def slotOf (X : Vec F S2x3x2x128x1024 .bf16) (t : Fin 2 × Fin 3 × Fin 2) : Vec F S128x1024 .bf16 :=
  fun i => X ((rbR t.1 t.2.1 t.2.2).emb (Shape.reshapeEquiv squeezes_S1x1x1x128x1024_S128x1024.numel_eq i))

theorem slotRead_slotOf (X : Vec F S2x3x2x128x1024 .bf16) (t : Fin 2 × Fin 3 × Fin 2) :
    slotRead (slotOf X t) = fun i => X ((rbR t.1 t.2.1 t.2.2).emb i) := by
  funext i
  simp only [slotRead, slotOf, Equiv.apply_symm_apply]

theorem owns_rbuf_split (c : Dev nD) (X : Vec F S2x3x2x128x1024 .bf16) :
    (owns (c : Thread nD τ) rM fullShare X : sProp 𝕄)
      ⊢ bigSep Finset.univ fun t : Fin 2 × Fin 3 × Fin 2 => owns (c : Thread nD τ) (rb t.1 t.2.1 t.2.2) fullShare (slotOf X t) := by
  rw [bigSep_congr (fun t _ => by rw [owns_rb, slotRead_slotOf])]
  exact owns_rects (c : Thread nD τ) rM fullShare (fun t : Fin 2 × Fin 3 × Fin 2 => rbR t.1 t.2.1 t.2.2) (fun _ _ => rfl)
    rbR_disjoint rbR_cover X

end Cert.KernelIdealProof

end
-- ==== Proof.KernelIdealFinish.lean ====
import proofs.«900326_g7700000000000327_dist_treered_v7x_i4_m2048_n1024_bf16_1_alg».proof.Proof.KernelIdealSteps
import proofs.«900326_g7700000000000327_dist_treered_v7x_i4_m2048_n1024_bf16_1_alg».proof.Proof.KernelIdealGhost
import Idealize.ShloMosaic.Lib.Rounds
import Idealize.ShloMosaic.Lib.Memref

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem close_cell (κ : ℕ) (g : GSem nD τ sig) :
    iprop(cellInv ER (ringRd m ρ) κ g ∗ atPos ER g 1 ∅ 0) ⊢ (iprop(|={Set.univ}=> semVal g 0) : sProp 𝕄) :=
  Rounds.cell_close ER (ringRd m ρ) (Set.mem_univ κ) (fun h => h) (R := 1) (duties_later m ρ g)

def lateEquiv (c : Dev nD) : (Fin 2 × Fin 4 × Fin 2) ≃ (Fin 2 × Fin 4 × Fin 2) where
  toFun t := (t.1, chk t.1 c (3 + t.2.1.val), t.2.2)
  invFun t := (t.1, ⟨(stepOf t.1 c t.2.1 - 3) % 4, Nat.mod_lt _ (by decide)⟩, t.2.2)
  left_inv := by revert c; decide
  right_inv := by revert c; decide

theorem out_join (c : Dev nD) :
    (bigSep Finset.univ fun t : Fin 2 × Fin 4 × Fin 2 => srcBlk m ρ c t.1 (3 + t.2.1.val) t.2.2 : sProp 𝕄)
      ⊢ (((c : Thread nD τ).loc cc0_stg1_0) ↦{fullShare} outFinal m ρ c) := by
  have hwhole : (owns (c : Thread nD τ) oM fullShare (outFinal m ρ c) : sProp 𝕄)
      = (((c : Thread nD τ).loc cc0_stg1_0) ↦{fullShare} outFinal m ρ c) :=
    owns_whole (c : Thread nD τ) cc0_stg1_0 fullShare (outFinal m ρ c)

  let G : Fin 2 × Fin 4 × Fin 2 → sProp 𝕄 := fun t =>
    owns (c : Thread nD τ) (sub t.1 t.2.1 t.2.2) fullShare (fun i => outFinal m ρ c ((subR t.1 t.2.1 t.2.2).emb i))
  have hstep : ∀ t : Fin 2 × Fin 4 × Fin 2, srcBlk m ρ c t.1 (3 + t.2.1.val) t.2.2 = G (lateEquiv c t) := fun t =>
    congrArg (owns (c : Thread nD τ) (sub t.1 (chk t.1 c (3 + t.2.1.val)) t.2.2) fullShare)
      (outFinal_step m ρ c t.1 t.2.1 t.2.2).symm
  refine (bigSep_mono fun t _ => Entails.of_eq (hstep t)).trans ?_
  rw [← bigSep_univ_equiv (lateEquiv c) G]
  exact (owns_out_join c (outFinal m ρ c)).trans (Entails.of_eq hwhole)

theorem slot_elements (c : Dev nD) (d : Fin 2) (s : Fin 3) (j : Fin 2) :
    (iprop(∃ v, slot (F := F) c d s j v) : sProp 𝕄)
      ⊢ iprop(∃ f : rM.view.ty.Contents (Elt F), (rM.view.loc (c : Thread nD τ)) ↦[(rM.view.slice (rbR d s j)).set]{fullShare} f) := by
  have hset : (rb d s j).view.set = (rM.view.slice (rbR d s j)).set :=
    View.set_reshape (rM.view.slice (rbR d s j)) squeezes_S1x1x1x128x1024_S128x1024.numel_eq
  have hpt (f : rM.view.ty.Contents (Elt F)) :
      ((rM.view.loc (c : Thread nD τ)) ↦[(rb d s j).view.set]{fullShare} f : sProp 𝕄)
        = (rM.view.loc (c : Thread nD τ)) ↦[(rM.view.slice (rbR d s j)).set]{fullShare} f :=
    congrArg (fun S => ((rM.view.loc (c : Thread nD τ)) ↦[S]{fullShare} f : sProp 𝕄)) hset
  unfold slot
  iintro ⟨%v, H⟩
  ihave H' := (show ownsTc c (rb d s j) fullShare v
      ⊢ iprop(∃ f, ⌜(rb d s j).view.read (Elt F) f = v⌝ ∗ ((rb d s j).view.loc (c : Thread nD τ) ↦[(rb d s j).view.set]{fullShare} f)) from .rfl) $$ H
  icases H' with ⟨%f, %hf, H⟩
  iexists f
  iapply (Entails.of_eq (hpt f))
  iexact H

theorem rbuf_join (c : Dev nD) :
    (bigSep Finset.univ fun t : Fin 2 × Fin 3 × Fin 2 => iprop(∃ v, slot (F := F) c t.1 t.2.1 t.2.2 v) : sProp 𝕄)
      ⊢ iprop(∃ f, scr c f) := by
  classical
  haveI : ∀ e, Nonempty (Elt F e) := elt_nonempty
  have hdisj : ∀ t ∈ (Finset.univ : Finset (Fin 2 × Fin 3 × Fin 2)), ∀ t' ∈ (Finset.univ : Finset (Fin 2 × Fin 3 × Fin 2)), t ≠ t' →
      Disjoint (rM.view.slice (rbR t.1 t.2.1 t.2.2)).set (rM.view.slice (rbR t'.1 t'.2.1 t'.2.2)).set := fun t _ t' _ htt => by
    rw [View.set_slice, View.set_slice]; exact (Finset.disjoint_map _).mpr (rbR_disjoint t t' htt)
  refine (bigSep_mono fun t _ => slot_elements c t.1 t.2.1 t.2.2).trans ?_
  refine (bigSep_exists_pi Finset.univ (fun (t : Fin 2 × Fin 3 × Fin 2) (f : rM.view.ty.Contents (Elt F)) =>
    ((rM.view.loc (c : Thread nD τ)) ↦[(rM.view.slice (rbR t.1 t.2.1 t.2.2)).set]{fullShare} f : sProp 𝕄))).trans ?_
  iintro ⟨%fs, H⟩
  ihave H' := (pointsTo_biUnion_join (ℓ := rM.view.loc (c : Thread nD τ)) (q := fullShare) Finset.univ (fun t : Fin 2 × Fin 3 × Fin 2 => (rM.view.slice (rbR t.1 t.2.1 t.2.2)).set) fs
    (fs (0, 0, 0)) hdisj) $$ H
  icases H' with ⟨%g, %hg, H⟩
  iexists g

  have e₁ : ((rM.view.loc (c : Thread nD τ)) ↦[(Finset.univ : Finset (Fin 2 × Fin 3 × Fin 2)).biUnion fun t => (rM.view.slice (rbR t.1 t.2.1 t.2.2)).set]{fullShare} g : sProp 𝕄)
      = bigSep Finset.univ fun t : Fin 2 × Fin 3 × Fin 2 => (rM.view.loc (c : Thread nD τ)) ↦[(rM.view.slice (rbR t.1 t.2.1 t.2.2)).set]{fullShare} g :=
    pointsTo_biUnion (ℓ := rM.view.loc (c : Thread nD τ)) (q := fullShare) (f := g) Finset.univ (fun t : Fin 2 × Fin 3 × Fin 2 => (rM.view.slice (rbR t.1 t.2.1 t.2.2)).set) hdisj
  have e₂ : ((rM.view.loc (c : Thread nD τ)) ↦[rM.view.set]{fullShare} g : sProp 𝕄)
      = bigSep Finset.univ fun t : Fin 2 × Fin 3 × Fin 2 => (rM.view.loc (c : Thread nD τ)) ↦[(rM.view.slice (rbR t.1 t.2.1 t.2.2)).set]{fullShare} g :=
    (pointsTo_rects (c : Thread nD τ) rM fullShare (fun t : Fin 2 × Fin 3 × Fin 2 => rbR t.1 t.2.1 t.2.2) (fun _ _ => rfl)
      rbR_disjoint rbR_cover g).trans
      (bigSep_congr (fun t _ => owns_slice_read (c : Thread nD τ) rM fullShare (rbR t.1 t.2.1 t.2.2) (fun _ => rfl) g))
  unfold scr
  have e₃ : ((rM.view.loc (c : Thread nD τ)) ↦[rM.view.set]{fullShare} g : sProp 𝕄)
      = (((c : Thread nD τ).loc cc0_scratch0) ↦{fullShare} g) := by
    simp only [Memref.view_whole, View.set_whole]
  iapply (Entails.of_eq e₃)
  iapply (Entails.of_eq e₂.symm)
  iapply (Entails.of_eq e₁)
  iexact H

theorem own_zero (K : Dev nD × CellIx → ℕ) (c : Dev nD) :
    iprop(records m ρ K ∗ bigSep Finset.univ fun t : Lane =>
        iprop(atPos ER (sendCell c t.1 t.2.1 t.2.2) 1 ∅ 0 ∗ atPos ER (recvCell c t.1 t.2.1 t.2.2) 1 ∅ 0))
      ⊢ (iprop(|={Set.univ}=> ownZero (F := F) c) : sProp 𝕄) := by
  unfold ownZero
  refine (bigSep_with_persistent (R := records m ρ K)
    (Ψ := fun t : Lane => iprop(|={Set.univ}=> (semVal (sendCell c t.1 t.2.1 t.2.2) 0 ∗ semVal (recvCell c t.1 t.2.1 t.2.2) 0)))
    fun t _ => ?_).trans (bigSep_fupd Finset.univ _)
  have hs : (bigSep Finset.univ fun ck : Dev nD × CellIx => cellInv ER (ringRd m ρ) (K ck) (kcell ck) : sProp 𝕄)
      ⊢ cellInv ER (ringRd m ρ) (K (c, some (false, t))) (sendCell c t.1 t.2.1 t.2.2) :=
    bigSep_elim (i := (c, some (false, t))) (Finset.mem_univ _)
  have hr : (bigSep Finset.univ fun ck : Dev nD × CellIx => cellInv ER (ringRd m ρ) (K ck) (kcell ck) : sProp 𝕄)
      ⊢ cellInv ER (ringRd m ρ) (K (c, some (true, t))) (recvCell c t.1 t.2.1 t.2.2) :=
    bigSep_elim (i := (c, some (true, t))) (Finset.mem_univ _)
  unfold records
  iintro ⟨⟨#HI, -⟩, Hs, Hr⟩
  imod (close_cell m ρ (K (c, some (false, t))) (sendCell c t.1 t.2.1 t.2.2)) $$ [Hs] with Hzs
  · isplitr; · iapply hs; iexact HI
    iexact Hs
  imod (close_cell m ρ (K (c, some (true, t))) (recvCell c t.1 t.2.1 t.2.2)) $$ [Hr] with Hzr
  · isplitr; · iapply hr; iexact HI
    iexact Hr
  imodintro
  isplitl [Hzs]; · iexact Hzs
  iexact Hzr

end Cert.KernelIdealProof

end
-- ==== Proof.KernelIdealGather.lean ====
import proofs.«900326_g7700000000000327_dist_treered_v7x_i4_m2048_n1024_bf16_1_alg».proof.Proof.KernelIdealSteps
import proofs.«900326_g7700000000000327_dist_treered_v7x_i4_m2048_n1024_bf16_1_alg».proof.Proof.KernelIdealOffs
import proofs.«900326_g7700000000000327_dist_treered_v7x_i4_m2048_n1024_bf16_1_alg».proof.Proof.KernelIdealLevels

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem chk_dn_1_4 : ∀ (d : Fin 2) (c : Dev nD), chk d (dn d c) 1 = chk d c 4 := by decide
theorem chk_dn_5_4 : ∀ (d : Fin 2) (c : Dev nD), chk d (dn d c) 5 = chk d c 4 := by decide

theorem chk_dn_2_5 : ∀ (d : Fin 2) (c : Dev nD), chk d (dn d c) 2 = chk d c 5 := by decide
theorem chk_dn_6_5 : ∀ (d : Fin 2) (c : Dev nD), chk d (dn d c) 6 = chk d c 5 := by decide

theorem recvPay_three (c : Dev nD) (d j : Fin 2) :
    recvPay m ρ c d 3 j
      = iprop(srcBlk m ρ c d 4 j ∗ srcBlk m ρ (up d (up d c)) d 2 j ∗ srcBlk m ρ (up d (up d (up d c))) d 1 j) := rfl
theorem recvPay_four (c : Dev nD) (d j : Fin 2) :
    recvPay m ρ c d 4 j = iprop(srcBlk m ρ c d 5 j ∗ srcBlk m ρ (up d (up d (up d c))) d 2 j) := rfl
theorem recvPay_five (c : Dev nD) (d j : Fin 2) : recvPay m ρ c d 5 j = srcBlk m ρ c d 6 j := rfl

theorem srcBlk_dst4 (c : Dev nD) (d j : Fin 2) :
    srcBlk m ρ (up d (up d (up d c))) d 1 j
      = ownsTc (dn d c) (sub d (chk d c 4) j) fullShare (val m ρ 1 (dn d c) d j) := by
  unfold srcBlk; rw [up_up_up, chk_dn_1_4]

theorem srcBlk_dst5 (c : Dev nD) (d j : Fin 2) :
    srcBlk m ρ (up d (up d (up d c))) d 2 j
      = ownsTc (dn d c) (sub d (chk d c 5) j) fullShare (val m ρ 2 (dn d c) d j) := by
  unfold srcBlk; rw [up_up_up, chk_dn_2_5]

theorem recvPay_of_fwd4 (c : Dev nD) (d j : Fin 2) :
    iprop(ownsTc (dn d c) (sub d (chk d c 4) j) fullShare (val m ρ 4 c d j) ∗ srcBlk m ρ (up d (up d c)) d 2 j)
      ⊢ recvPay m ρ (dn d c) d 4 j := by
  rw [recvPay_four]
  unfold srcBlk
  have h : val m ρ 5 (dn d c) d j = val m ρ 4 (up d (dn d c)) d j := val_fwd m ρ 4 (by decide) (dn d c) d j
  rw [h, chk_dn_5_4, up_dn]

theorem recvPay_of_fwd5 (c : Dev nD) (d j : Fin 2) :
    iprop(ownsTc (dn d c) (sub d (chk d c 5) j) fullShare (val m ρ 5 c d j) ∗ emp) ⊢ recvPay m ρ (dn d c) d 5 j := by
  rw [recvPay_five]
  unfold srcBlk
  have h : val m ρ 6 (dn d c) d j = val m ρ 5 (up d (dn d c)) d j := val_fwd m ρ 5 (by decide) (dn d c) d j
  rw [h, chk_dn_6_5, up_dn]
  exact Laws.sep_emp.1

theorem sendPay_of_fwd4 (c : Dev nD) (d j : Fin 2) :
    ownsTc c (sub d (chk d c 4) j) fullShare (val m ρ 4 c d j) ⊢ sendPay m ρ c d 4 j := by
  unfold sendPay srcBlk; rw [if_neg (by decide)]; exact .rfl
theorem sendPay_of_fwd5 (c : Dev nD) (d j : Fin 2) :
    ownsTc c (sub d (chk d c 5) j) fullShare (val m ρ 5 c d j) ⊢ sendPay m ρ c d 5 j := by
  unfold sendPay srcBlk; rw [if_neg (by decide)]; exact .rfl

theorem credit_rows (off : Fin 2 → ℕ) (inb : ∀ a, off a + S128x1024.size a ≤ S2048x1024.size a) :
    (oM.slice (Rect.unit (s := S2048x1024) off S128x1024.size inb) (fun _ => rfl)).view.dmaCredit = N := rfl

theorem chk_dn_zero (d : Fin 2) (c : Dev nD) : chk d (dn d c) 0 = chk d c 3 := by revert d c; decide

/-- Own rows plus what arrived at step 2 is the value sent at step 3: the finished sum. -/
theorem acc3 (c : Dev nD) (d j : Fin 2) :
    acc (xb m ρ c d (chk d c 3) j) (val m ρ 2 (up d c) d j) = val m ρ 3 c d j :=
  (val_acc m ρ 2 (by decide) c d j).symm

theorem src_of_sum (c : Dev nD) (d j : Fin 2) :
    (ownsTc c (sub d (chk d c 3) j) fullShare (acc (xb m ρ c d (chk d c 3) j) (val m ρ 2 (up d c) d j)) : sProp 𝕄)
      ⊢ ownsTc c (sub d (chk d c 3) j) fullShare (val m ρ 3 c d j) := by
  rw [acc3]

theorem srcBlk_of_sum (c : Dev nD) (d j : Fin 2) :
    ownsTc c (sub d (chk d c 3) j) fullShare (acc (xb m ρ c d (chk d c 3) j) (val m ρ 2 (up d c) d j)) ⊢ srcBlk m ρ c d 3 j :=
  src_of_sum m ρ c d j

/-- After three hops a block is the downstream device's step-0 block: the rows the step-3 transfer writes. -/
theorem dst_of_blk0 (c : Dev nD) (d j : Fin 2) :
    srcBlk m ρ (up d (up d (up d c))) d 0 j ⊢ ownsTc (dn d c) (sub d (chk d c 3) j) fullShare (val m ρ 0 (dn d c) d j) := by
  unfold srcBlk
  rw [up_up_up, chk_dn_zero]

/-- What the step-3 landing hands downstream: the finished sum in place and the two blocks still travelling. -/
theorem recvPay3_intro (c : Dev nD) (d j : Fin 2) :
    iprop(ownsTc (dn d c) (sub d (chk d c 3) j) fullShare (val m ρ 3 c d j)
        ∗ (srcBlk m ρ (up d c) d 2 j ∗ srcBlk m ρ (up d (up d c)) d 1 j)) ⊢ recvPay m ρ (dn d c) d 3 j := by
  have e : srcBlk m ρ (dn d c) d 4 j = ownsTc (dn d c) (sub d (chk d c 3) j) fullShare (val m ρ 3 c d j) := by
    unfold srcBlk
    rw [show chk d (dn d c) 4 = chk d c 3 from chk_dn d c 3,
      show val m ρ 4 (dn d c) d j = val m ρ 3 c d j from (val_fwd m ρ 3 (by decide) (dn d c) d j).trans (by rw [up_dn])]
  show iprop(ownsTc (dn d c) (sub d (chk d c 3) j) fullShare (val m ρ 3 c d j)
        ∗ (srcBlk m ρ (up d c) d 2 j ∗ srcBlk m ρ (up d (up d c)) d 1 j))
      ⊢ iprop(srcBlk m ρ (dn d c) d 4 j ∗ srcBlk m ρ (up d (up d (dn d c))) d 2 j ∗ srcBlk m ρ (up d (up d (up d (dn d c)))) d 1 j)
  rw [up_dn, e]

theorem sendPay3_intro (c : Dev nD) (d j : Fin 2) :
    ownsTc c (sub d (chk d c 3) j) fullShare (val m ρ 3 c d j) ⊢ sendPay m ρ c d 3 j := by
  unfold sendPay; rw [if_neg (by decide)]; exact .rfl

theorem src_blk3 (c : Dev nD) (d j : Fin 2) :
    srcBlk m ρ c d 3 j ⊢ ownsTc c (sub d (chk d c 3) j) fullShare (val m ρ 3 c d j) := .rfl

end Cert.KernelIdealProof

end
-- ==== Proof.KernelIdealPart01.lean ====
import proofs.«900326_g7700000000000327_dist_treered_v7x_i4_m2048_n1024_bf16_1_alg».proof.Proof.KernelIdealGather

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part01 (c : Dev nD) (κb κn κp : ℕ) (W : Waits sig Unit)
    {Φ : (Σ' (d0 : Dev nD) (v2 : BitVec 32) (v13 : BitVec 32) (v24 : BitVec 32), BitVec 32) → sProp 𝕄} :
    iprop(cellInv ER (ringRd m ρ) κb (barCell c) ∗ cellInv ER (ringRd m ρ) κn (barCell (nxt c)) ∗ cellInv ER (ringRd m ρ) κp (barCell (prv c))
        ∗ reached ER (barCell (nxt c)) 0 ∗ reached ER (barCell (prv c)) 0 ∗ levAts L lv
        ∗ dutyTok ER (barCell (prv c)) 0 true ∗ dutyTok ER (barCell (nxt c)) 0 false
        ∗ owes (c : Thread nD τ) (O₀ c) W ∗ slots (F := F) c 0 ∗ slots (F := F) c 1
        ∗ cred (tallyAt (barCell c) () 2) ∗ atPos ER (barCell c) 0 ∅ 0
        ∗ (∀ a b e f, (owes (c : Thread nD τ) (owedFrom c 24) (insert (SemLoc.reg barS, ()) W) ∗ atPos ER (barCell c) 1 ∅ 0
              ∗ slots (F := F) (prv c) 1 ∗ slots (F := F) (nxt c) 0) -∗ Φ ⟨c, a, b, e, f⟩))
      ⊢ WP c (atBufs k0_part1) Φ := by
  simp only [atBufs, k0_part1_eq_skeleton]; unfold k0_part1_skel
  simp only [WP, semSignalWord, semWaitWord, Prog.lift, Prog.bind_op, Prog.bind_ret, Prog.pure_eq_ret, wp_deviceId]
  iintro ⟨#HIb, #HIn, #HIp, #HRn, #HRp, #Hlev, Htp, Htn, HO, Hs0, Hs1, Hcr, Hat, Hk⟩
  simp only [dev1_eq c, dev2_eq c]

  iapply (Rounds.wp_signal 𝒱₀ ER (ringRd m ρ) (c : Thread nD τ) none (dst := (prv c : Thread nD τ)) (κ := κp)
      (d := true) (by rw [duties_bar]; exact Finset.mem_univ _) ((amount_bar m ρ (prv c) true).trans (by decide)) () (O₁ c) rfl)
    $$ [HO Htp Hs0]
  · isplitr; · iexact HIp
    isplitl [HO]; · iexact HO
    isplitl [Htp]; · iexact Htp
    isplitl [Hs0]
    · rw [payload_bar]; unfold barPay; rw [if_pos rfl, nxt_prv]; iexact Hs0
    · iexact HRp
  iintro HO

  iapply (Rounds.wp_signal 𝒱₀ ER (ringRd m ρ) (c : Thread nD τ) none (dst := (nxt c : Thread nD τ)) (κ := κn)
      (d := false) (by rw [duties_bar]; exact Finset.mem_univ _) ((amount_bar m ρ (nxt c) false).trans (by decide)) () (owedFrom c 24) rfl)
    $$ [HO Htn Hs1]
  · isplitr; · iexact HIn
    isplitl [HO]; · iexact HO
    isplitl [Htn]; · iexact Htn
    isplitl [Hs1]
    · rw [payload_bar]; unfold barPay; rw [if_neg Bool.false_ne_true, prv_nxt]; iexact Hs1
    · iexact HRn
  iintro HO

  iapply (Rounds.wp_wait_rest_token 𝒱₀ ER (ringRd m ρ) (c : Thread nD τ) none (κ := κb)
      (wpE_semWait_eq 𝒱₀ (c : Thread nD τ) none Set.univ) (Set.mem_univ _) () (O := owedFrom c 24) (W := W) (R := 0) (m := 0) (T := ∅)
      (by rw [expect_bar]; decide)) $$ [Hcr HO Hat]
  · isplitr; · iexact HIb
    isplitl [Hcr]; · iexact Hcr
    isplitl [HO]; · iexact HO
    isplitr; · iapply (mayWait_bar c); iexact Hlev
    iexact Hat
  iintro ⟨HO, Hat, -, Hpay⟩
  ihave Hp := (Entails.of_eq (rest_bar m ρ c)) $$ Hpay
  icases Hp with ⟨Hsp, Hsn⟩
  rw [wp_ret]; imodintro
  iapply Hk $$ %_ %_ %_ %_
  isplitl [HO]; · iexact HO
  isplitl [Hat]; · iexact Hat
  isplitl [Hsp]; · iexact Hsp
  iexact Hsn

end Cert.KernelIdealProof

end
-- ==== Proof.KernelIdealPart02.lean ====
import proofs.«900326_g7700000000000327_dist_treered_v7x_i4_m2048_n1024_bf16_1_alg».proof.Proof.KernelIdealGather

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part02 (c : Dev nD) (v2 v30 : BitVec 32) (u000 u001 u100 u101 : Vec F S128x1024 .bf16) {Φ : BitVec 32 → sProp 𝕄} :
    iprop((((c : Thread nD τ).loc cc0_stg0_0) ↦{fullShare} xstg m ρ c)
        ∗ ownsTc c (sub 0 (chkOff c 0) 0) fullShare u000 ∗ ownsTc c (sub 0 (chkOff c 0) 1) fullShare u001
        ∗ ownsTc c (sub 1 (chkOff c 0) 0) fullShare u100 ∗ ownsTc c (sub 1 (chkOff c 0) 1) fullShare u101
        ∗ (((((c : Thread nD τ).loc cc0_stg0_0) ↦{fullShare} xstg m ρ c)
            ∗ ownsTc c (sub 0 (chkOff c 0) 0) fullShare (xb m ρ c 0 (chkOff c 0) 0) ∗ ownsTc c (sub 0 (chkOff c 0) 1) fullShare (xb m ρ c 0 (chkOff c 0) 1)
            ∗ ownsTc c (sub 1 (chkOff c 0) 0) fullShare (xb m ρ c 1 (chkOff c 0) 0) ∗ ownsTc c (sub 1 (chkOff c 0) 1) fullShare (xb m ρ c 1 (chkOff c 0) 1)) -∗ Φ 1#32))
      ⊢ WP c (atBufs k0_part2 c v2 v30) Φ := by
  simp only [atBufs, k0_part2_eq_skeleton]; unfold k0_part2_skel
  simp only [Prog.lift, Prog.bind_op, Prog.bind_ret, Prog.pure_eq_ret]
  iintro ⟨Hx, H000, H001, H100, H101, Hk⟩

  iapply (wp_load_x c 0 (chkOff c 0) (off1_x c 0 0) fullShare (xstg m ρ c))
  isplitl [Hx]; · iexact Hx
  iintro Hx
  iapply (wp_load_256 c 0 (chkOff c 0) (off2_o c 0 0) u000 u001)
  isplitl [H000]; · iexact H000
  isplitl [H001]; · iexact H001
  iintro %w00 ⟨H000, H001⟩
  iapply (wp_store_256 c 0 (chkOff c 0) (off2_o c 0 0) u000 u001 (x256 m ρ c 0 (chkOff c 0)))
  isplitl [H000]; · iexact H000
  isplitl [H001]; · iexact H001
  iintro ⟨H000, H001⟩

  iapply (wp_load_x c 1 (chkOff c 0) (off1_x c 1 0) fullShare (xstg m ρ c))
  isplitl [Hx]; · iexact Hx
  iintro Hx
  iapply (wp_load_256 c 1 (chkOff c 0) (off2_o c 1 0) u100 u101)
  isplitl [H100]; · iexact H100
  isplitl [H101]; · iexact H101
  iintro %w10 ⟨H100, H101⟩
  iapply (wp_store_256 c 1 (chkOff c 0) (off2_o c 1 0) u100 u101 (x256 m ρ c 1 (chkOff c 0)))
  isplitl [H100]; · iexact H100
  isplitl [H101]; · iexact H101
  iintro ⟨H100, H101⟩
  unfold WP; rw [wp_ret]; imodintro
  iapply Hk
  isplitl [Hx]; · iexact Hx
  isplitl [H000]; · iexact H000
  isplitl [H001]; · iexact H001
  isplitl [H100]; · iexact H100
  iexact H101

end Cert.KernelIdealProof

end
-- ==== Proof.KernelIdealPart03.lean ====
import proofs.«900326_g7700000000000327_dist_treered_v7x_i4_m2048_n1024_bf16_1_alg».proof.Proof.KernelIdealGather

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part03 (K : Dev nD × CellIx → ℕ) (c : Dev nD) (v2 v13 v24 c1 : BitVec 32) (W : Waits sig Unit)
    (u0 u1 : Vec F S128x1024 .bf16) {Φ : BitVec 32 → sProp 𝕄} :
    iprop(records m ρ K ∗ dutyTok ER (sendCell c 0 0 0) 0 false ∗ dutyTok ER (recvCell (nxt c) 0 0 0) 0 false
        ∗ dutyTok ER (sendCell c 1 0 0) 0 false ∗ dutyTok ER (recvCell (prv c) 1 0 0) 0 false
        ∗ owes (c : Thread nD τ) (owedFrom c 24) W ∗ srcBlk m ρ c 0 0 0 ∗ slot (nxt c) 0 0 0 u0 ∗ srcBlk m ρ c 1 0 0
        ∗ slot (prv c) 1 0 0 u1
        ∗ ((cred (tallyAt (sendCell c 0 0 0) () N) ∗ cred (tallyAt (sendCell c 1 0 0) () N) ∗ owes (c : Thread nD τ) (owedFrom c 22) W) -∗ Φ 1#32))
      ⊢ WP c (atBufs k0_part3 c v2 v13 v24 c1) Φ := by
  simp only [atBufs, k0_part3_eq_skeleton]; unfold k0_part3_skel
  simp only [Prog.lift, Prog.bind_op, Prog.bind_ret, Prog.pure_eq_ret]
  iintro ⟨#Hrec, Hts0, Htr0, Hts1, Htr1, HO, Hsrc0, Hdst0, Hsrc1, Hdst1, Hk⟩
  unfold srcBlk slot

  iapply (wp_send_land_sub m ρ K c 0 0 0 _ (dev3_eq c) (chk 0 c 0) (off3_sub c 0 0) (rb 0 0 0) rfl (val m ρ 0 c 0 0) u0 iprop(emp) (owedFrom c 23) W
      (by
        unfold recvPay slot srcBlk
        rw [show up 0 (dn 0 c) = c from up_dn 0 c]
        iintro ⟨⟨H1, -⟩, H2⟩
        isplitl [H1] <;> iassumption)
      (by unfold sendPay; rw [if_pos (by decide)])) $$ [Hts0 Htr0 HO Hsrc0 Hdst0]
  · isplitr; · iexact Hrec
    isplitl [Hsrc0]; · iexact Hsrc0
    isplitl [Hdst0]; · iexact Hdst0
    isplitr; · iempintro
    isplitl [HO]; · iexact HO
    isplitl [Hts0]; · iexact Hts0
    iexact Htr0
  iintro ⟨Hc0, HO⟩

  iapply (wp_send_land_sub m ρ K c 1 0 0 _ (dev4_eq c) (chk 1 c 0) (off3_sub c 1 0) (rb 1 0 0) rfl (val m ρ 0 c 1 0) u1 iprop(emp) (owedFrom c 22) W
      (by
        unfold recvPay slot srcBlk
        rw [show up 1 (dn 1 c) = c from up_dn 1 c]
        iintro ⟨⟨H1, -⟩, H2⟩
        isplitl [H1] <;> iassumption)
      (by unfold sendPay; rw [if_pos (by decide)])) $$ [Hts1 Htr1 HO Hsrc1 Hdst1]
  · isplitr; · iexact Hrec
    isplitl [Hsrc1]; · iexact Hsrc1
    isplitl [Hdst1]; · iexact Hdst1
    isplitr; · iempintro
    isplitl [HO]; · iexact HO
    isplitl [Hts1]; · iexact Hts1
    iexact Htr1
  iintro ⟨Hc1, HO⟩
  unfold WP; rw [wp_ret]; imodintro
  iapply Hk
  isplitl [Hc0]; · iexact Hc0
  isplitl [Hc1]; · iexact Hc1
  iexact HO

end Cert.KernelIdealProof

end
-- ==== Proof.KernelIdealPart04.lean ====
import proofs.«900326_g7700000000000327_dist_treered_v7x_i4_m2048_n1024_bf16_1_alg».proof.Proof.KernelIdealGather

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part04 (K : Dev nD × CellIx → ℕ) (c : Dev nD) (v2 v13 v24 c1 : BitVec 32) (W : Waits sig Unit)
    (u0 u1 : Vec F S128x1024 .bf16) {Φ : (Σ' (v107 : BitVec 32) (v108 : BitVec 32), BitVec 1) → sProp 𝕄} :
    iprop(records m ρ K ∗ dutyTok ER (sendCell c 0 0 1) 0 false ∗ dutyTok ER (recvCell (nxt c) 0 0 1) 0 false
        ∗ dutyTok ER (sendCell c 1 0 1) 0 false ∗ dutyTok ER (recvCell (prv c) 1 0 1) 0 false
        ∗ owes (c : Thread nD τ) (owedFrom c 22) W ∗ srcBlk m ρ c 0 0 1 ∗ slot (nxt c) 0 0 1 u0 ∗ srcBlk m ρ c 1 0 1
        ∗ slot (prv c) 1 0 1 u1
        ∗ (∀ r, (cred (tallyAt (sendCell c 0 0 1) () N) ∗ cred (tallyAt (sendCell c 1 0 1) () N) ∗ owes (c : Thread nD τ) (owedFrom c 20) W) -∗ Φ r))
      ⊢ WP c (atBufs k0_part4 c v2 v13 v24 c1) Φ := by
  simp only [atBufs, k0_part4_eq_skeleton]; unfold k0_part4_skel
  simp only [Prog.lift, Prog.bind_op, Prog.bind_ret, Prog.pure_eq_ret]
  iintro ⟨#Hrec, Hts0, Htr0, Hts1, Htr1, HO, Hsrc0, Hdst0, Hsrc1, Hdst1, Hk⟩
  unfold srcBlk slot

  iapply (wp_send_land_sub m ρ K c 0 0 1 _ (dev5_eq c) (chk 0 c 0) (off3_sub c 0 1) (rb 0 0 1) rfl (val m ρ 0 c 0 1) u0 iprop(emp) (owedFrom c 21) W
      (by
        unfold recvPay slot srcBlk
        rw [show up 0 (dn 0 c) = c from up_dn 0 c]
        iintro ⟨⟨H1, -⟩, H2⟩
        isplitl [H1] <;> iassumption)
      (by unfold sendPay; rw [if_pos (by decide)])) $$ [Hts0 Htr0 HO Hsrc0 Hdst0]
  · isplitr; · iexact Hrec
    isplitl [Hsrc0]; · iexact Hsrc0
    isplitl [Hdst0]; · iexact Hdst0
    isplitr; · iempintro
    isplitl [HO]; · iexact HO
    isplitl [Hts0]; · iexact Hts0
    iexact Htr0
  iintro ⟨Hc0, HO⟩

  iapply (wp_send_land_sub m ρ K c 1 0 1 _ (dev6_eq c) (chk 1 c 0) (off3_sub c 1 1) (rb 1 0 1) rfl (val m ρ 0 c 1 1) u1 iprop(emp) (owedFrom c 20) W
      (by
        unfold recvPay slot srcBlk
        rw [show up 1 (dn 1 c) = c from up_dn 1 c]
        iintro ⟨⟨H1, -⟩, H2⟩
        isplitl [H1] <;> iassumption)
      (by unfold sendPay; rw [if_pos (by decide)])) $$ [Hts1 Htr1 HO Hsrc1 Hdst1]
  · isplitr; · iexact Hrec
    isplitl [Hsrc1]; · iexact Hsrc1
    isplitl [Hdst1]; · iexact Hdst1
    isplitr; · iempintro
    isplitl [HO]; · iexact HO
    isplitl [Hts1]; · iexact Hts1
    iexact Htr1
  iintro ⟨Hc1, HO⟩
  unfold WP; rw [wp_ret]; imodintro
  iapply Hk $$ %_
  isplitl [Hc0]; · iexact Hc0
  isplitl [Hc1]; · iexact Hc1
  iexact HO

end Cert.KernelIdealProof

end
-- ==== Proof.KernelIdealPart05.lean ====
import proofs.«900326_g7700000000000327_dist_treered_v7x_i4_m2048_n1024_bf16_1_alg».proof.Proof.KernelIdealGather

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part05_ret (c : Dev nD) (ch : Fin 4) :
    k0_pay5 (xM.view.readAt (Elt F) (xR 0 ch).toLoadRect (xstg m ρ c)) = x256 m ρ c 0 ch := rfl

theorem part05 (c : Dev nD) (v2 v107 v108 : BitVec 32) (v113 : BitVec 1) (u010 u011 u110 u111 : Vec F S128x1024 .bf16)
    {Φ : (Σ' (v142 : BitVec 32), FVec F S256x1024 .bf16) → sProp 𝕄} :
    iprop((((c : Thread nD τ).loc cc0_stg0_0) ↦{fullShare} xstg m ρ c)
        ∗ ownsTc c (sub 0 (chkOff c 1) 0) fullShare u010 ∗ ownsTc c (sub 0 (chkOff c 1) 1) fullShare u011
        ∗ ownsTc c (sub 1 (chkOff c 1) 0) fullShare u110 ∗ ownsTc c (sub 1 (chkOff c 1) 1) fullShare u111
        ∗ (∀ a, ((((c : Thread nD τ).loc cc0_stg0_0) ↦{fullShare} xstg m ρ c)
            ∗ ownsTc c (sub 0 (chkOff c 1) 0) fullShare (xb m ρ c 0 (chkOff c 1) 0) ∗ ownsTc c (sub 0 (chkOff c 1) 1) fullShare (xb m ρ c 0 (chkOff c 1) 1)
            ∗ ownsTc c (sub 1 (chkOff c 1) 0) fullShare (xb m ρ c 1 (chkOff c 1) 0) ∗ ownsTc c (sub 1 (chkOff c 1) 1) fullShare (xb m ρ c 1 (chkOff c 1) 1)) -∗ Φ ⟨a, x256 m ρ c 0 (chkOff c 2)⟩))
      ⊢ WP c (atBufs k0_part5 c v2 v107 v108 v113) Φ := by
  simp only [atBufs, k0_part5_eq_skeleton]; unfold k0_part5_skel
  simp only [Prog.lift, Prog.bind_op, Prog.bind_ret, Prog.pure_eq_ret]
  iintro ⟨Hx, H010, H011, H110, H111, Hk⟩

  iapply (wp_load_x c 0 (chkOff c 1) (off1_x c 0 1) fullShare (xstg m ρ c))
  isplitl [Hx]; · iexact Hx
  iintro Hx
  iapply (wp_load_256 c 0 (chkOff c 1) (off2_o c 0 1) u010 u011)
  isplitl [H010]; · iexact H010
  isplitl [H011]; · iexact H011
  iintro %w01 ⟨H010, H011⟩
  iapply (wp_store_256 c 0 (chkOff c 1) (off2_o c 0 1) u010 u011 (x256 m ρ c 0 (chkOff c 1)))
  isplitl [H010]; · iexact H010
  isplitl [H011]; · iexact H011
  iintro ⟨H010, H011⟩

  iapply (wp_load_x c 1 (chkOff c 1) (off1_x c 1 1) fullShare (xstg m ρ c))
  isplitl [Hx]; · iexact Hx
  iintro Hx
  iapply (wp_load_256 c 1 (chkOff c 1) (off2_o c 1 1) u110 u111)
  isplitl [H110]; · iexact H110
  isplitl [H111]; · iexact H111
  iintro %w11 ⟨H110, H111⟩
  iapply (wp_store_256 c 1 (chkOff c 1) (off2_o c 1 1) u110 u111 (x256 m ρ c 1 (chkOff c 1)))
  isplitl [H110]; · iexact H110
  isplitl [H111]; · iexact H111
  iintro ⟨H110, H111⟩

  iapply (wp_load_x c 0 (chkOff c 2) (off1_x c 0 2) fullShare (xstg m ρ c))
  isplitl [Hx]; · iexact Hx
  iintro Hx
  unfold WP; rw [wp_ret, part05_ret m ρ c]; imodintro
  iapply Hk
  isplitl [Hx]; · iexact Hx
  isplitl [H010]; · iexact H010
  isplitl [H011]; · iexact H011
  isplitl [H110]; · iexact H110
  iexact H111

end Cert.KernelIdealProof

end
-- ==== Proof.KernelIdealPart06.lean ====
import proofs.«900326_g7700000000000327_dist_treered_v7x_i4_m2048_n1024_bf16_1_alg».proof.Proof.KernelIdealGather

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part06_ret (c : Dev nD) (ch : Fin 4) :
    k0_pay8 (xM.view.readAt (Elt F) (xR 1 ch).toLoadRect (xstg m ρ c)) = x256 m ρ c 1 ch := rfl

theorem part06 (c : Dev nD) (v2 v142 : BitVec 32) (u020 u021 u120 u121 u030 u031 : Vec F S128x1024 .bf16)
    {Φ : FVec F S256x1024 .bf16 → sProp 𝕄} :
    iprop(ownsTc c (sub 0 (chkOff c 2) 0) fullShare u020 ∗ ownsTc c (sub 0 (chkOff c 2) 1) fullShare u021
        ∗ (((c : Thread nD τ).loc cc0_stg0_0) ↦{fullShare} xstg m ρ c)
        ∗ ownsTc c (sub 1 (chkOff c 2) 0) fullShare u120 ∗ ownsTc c (sub 1 (chkOff c 2) 1) fullShare u121
        ∗ ownsTc c (sub 0 (chkOff c 3) 0) fullShare u030 ∗ ownsTc c (sub 0 (chkOff c 3) 1) fullShare u031
        ∗ ((ownsTc c (sub 0 (chkOff c 2) 0) fullShare (xb m ρ c 0 (chkOff c 2) 0) ∗ ownsTc c (sub 0 (chkOff c 2) 1) fullShare (xb m ρ c 0 (chkOff c 2) 1)
            ∗ (((c : Thread nD τ).loc cc0_stg0_0) ↦{fullShare} xstg m ρ c)
            ∗ ownsTc c (sub 1 (chkOff c 2) 0) fullShare (xb m ρ c 1 (chkOff c 2) 0) ∗ ownsTc c (sub 1 (chkOff c 2) 1) fullShare (xb m ρ c 1 (chkOff c 2) 1)
            ∗ ownsTc c (sub 0 (chkOff c 3) 0) fullShare (xb m ρ c 0 (chkOff c 3) 0) ∗ ownsTc c (sub 0 (chkOff c 3) 1) fullShare (xb m ρ c 0 (chkOff c 3) 1)) -∗ Φ (x256 m ρ c 1 (chkOff c 3))))
      ⊢ WP c (atBufs k0_part6 c v2 v142 (x256 m ρ c 0 (chkOff c 2))) Φ := by
  simp only [atBufs, k0_part6_eq_skeleton]; unfold k0_part6_skel
  simp only [Prog.lift, Prog.bind_op, Prog.bind_ret, Prog.pure_eq_ret]
  iintro ⟨H020, H021, Hx, H120, H121, H030, H031, Hk⟩
  iapply (wp_load_256 c 0 (chkOff c 2) (off2_o c 0 2) u020 u021)
  isplitl [H020]; · iexact H020
  isplitl [H021]; · iexact H021
  iintro %w02 ⟨H020, H021⟩
  iapply (wp_store_256 c 0 (chkOff c 2) (off2_o c 0 2) u020 u021 (x256 m ρ c 0 (chkOff c 2)))
  isplitl [H020]; · iexact H020
  isplitl [H021]; · iexact H021
  iintro ⟨H020, H021⟩

  iapply (wp_load_x c 1 (chkOff c 2) (off1_x c 1 2) fullShare (xstg m ρ c))
  isplitl [Hx]; · iexact Hx
  iintro Hx
  iapply (wp_load_256 c 1 (chkOff c 2) (off2_o c 1 2) u120 u121)
  isplitl [H120]; · iexact H120
  isplitl [H121]; · iexact H121
  iintro %w12 ⟨H120, H121⟩
  iapply (wp_store_256 c 1 (chkOff c 2) (off2_o c 1 2) u120 u121 (x256 m ρ c 1 (chkOff c 2)))
  isplitl [H120]; · iexact H120
  isplitl [H121]; · iexact H121
  iintro ⟨H120, H121⟩

  iapply (wp_load_x c 0 (chkOff c 3) (off1_x c 0 3) fullShare (xstg m ρ c))
  isplitl [Hx]; · iexact Hx
  iintro Hx
  iapply (wp_load_256 c 0 (chkOff c 3) (off2_o c 0 3) u030 u031)
  isplitl [H030]; · iexact H030
  isplitl [H031]; · iexact H031
  iintro %w03 ⟨H030, H031⟩
  iapply (wp_store_256 c 0 (chkOff c 3) (off2_o c 0 3) u030 u031 (x256 m ρ c 0 (chkOff c 3)))
  isplitl [H030]; · iexact H030
  isplitl [H031]; · iexact H031
  iintro ⟨H030, H031⟩

  iapply (wp_load_x c 1 (chkOff c 3) (off1_x c 1 3) fullShare (xstg m ρ c))
  isplitl [Hx]; · iexact Hx
  iintro Hx
  unfold WP; rw [wp_ret, part06_ret m ρ c]; imodintro
  iapply Hk
  isplitl [H020]; · iexact H020
  isplitl [H021]; · iexact H021
  isplitl [Hx]; · iexact Hx
  isplitl [H120]; · iexact H120
  isplitl [H121]; · iexact H121
  isplitl [H030]; · iexact H030
  iexact H031

end Cert.KernelIdealProof

end
-- ==== Proof.KernelIdealPart07.lean ====
import proofs.«900326_g7700000000000327_dist_treered_v7x_i4_m2048_n1024_bf16_1_alg».proof.Proof.KernelIdealGather

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part07 (K : Dev nD × CellIx → ℕ) (c : Dev nD) (v2 v13 : BitVec 32) (W : Waits sig Unit)
    (w0 w1 : Vec F S128x1024 .bf16) {Φ : (Σ' (v203 : BitVec 32) (v206 : BitVec 32), FVec F S128x1024 .bf16) → sProp 𝕄} :
    iprop(records m ρ K ∗ (levAts L lv : sProp 𝕄) ∗ ownsTc c (sub 1 (chkOff c 3) 0) fullShare w0
        ∗ ownsTc c (sub 1 (chkOff c 3) 1) fullShare w1 ∗ cred (tallyAt (recvCell c 0 0 0) () N)
        ∗ owes (c : Thread nD τ) (owedFrom c 20) W ∗ atPos ER (recvCell c 0 0 0) 0 ∅ 0
        ∗ ownsTc c (sub 0 (chk 0 c 1) 0) fullShare (xb m ρ c 0 (chk 0 c 1) 0)
        ∗ (∀ a b, (ownsTc c (sub 1 (chkOff c 3) 0) fullShare (xb m ρ c 1 (chkOff c 3) 0)
              ∗ ownsTc c (sub 1 (chkOff c 3) 1) fullShare (xb m ρ c 1 (chkOff c 3) 1)
              ∗ owes (c : Thread nD τ) (owedFrom c 20) (insert (SemLoc.dma (recvS 0 0 0).sem, ()) W)
              ∗ atPos ER (recvCell c 0 0 0) 1 ∅ 0
              ∗ slot c 0 0 0 (val m ρ 0 (up 0 c) 0 0) ∗ srcBlk m ρ (up 0 c) 0 0 0
              ∗ ownsTc c (sub 0 (chk 0 c 1) 0) fullShare (xb m ρ c 0 (chk 0 c 1) 0))
            -∗ Φ ⟨a, b, acc (xb m ρ c 0 (chk 0 c 1) 0) (val m ρ 0 (up 0 c) 0 0)⟩))
      ⊢ WP c (atBufs k0_part7 c v2 v13 (x256 m ρ c 1 (chkOff c 3))) Φ := by
  simp only [atBufs, k0_part7_eq_skeleton]; unfold k0_part7_skel
  simp only [Prog.lift, Prog.bind_op, Prog.bind_ret, Prog.pure_eq_ret]
  iintro ⟨#Hrec, #HL, Hb0, Hb1, Hc, HO, Hat, Hown, Hk⟩

  iapply (wp_load_256 c 1 (chkOff c 3) (off2_o c 1 3) w0 w1)
  isplitl [Hb0]; · iexact Hb0
  isplitl [Hb1]; · iexact Hb1
  iintro %u185 ⟨Hb0, Hb1⟩

  iapply (wp_store_256 c 1 (chkOff c 3) (off2_o c 1 3) w0 w1 (x256 m ρ c 1 (chkOff c 3)))
  isplitl [Hb0]; · iexact Hb0
  isplitl [Hb1]; · iexact Hb1
  iintro ⟨Hb0, Hb1⟩

  iapply (wp_wait_recv m ρ K c 0 0 0 (dstM := rb 0 0 0) (rb_credit 0 0 0) (owedFrom c 20) W) $$ [Hc HO Hat]
  · isplitr; · iexact Hrec
    isplitl [Hc]; · iexact Hc
    isplitl [HO]; · iexact HO
    isplitr; · iapply (mayWait_recv c 0 0 0 20 (by decide)); iexact HL
    iexact Hat
  iintro ⟨HO, Hat, Hpay⟩
  ihave Hpay' := (show recvPay m ρ c 0 0 0 ⊢ iprop(slot c 0 0 0 (val m ρ 0 (up 0 c) 0 0) ∗ srcBlk m ρ (up 0 c) 0 0 0) from .rfl) $$ Hpay
  icases Hpay' with ⟨Hslot, Hsrc⟩
  unfold slot

  iapply (wp_load_sub c 0 (chk 0 c 1) 0 (off4_sub c 0 0) fullShare (xb m ρ c 0 (chk 0 c 1) 0))
  isplitl [Hown]; · iexact Hown
  iintro Hown
  iapply (wp_load_rb c 0 0 0 rfl fullShare (val m ρ 0 (up 0 c) 0 0))
  isplitl [Hslot]; · iexact Hslot
  iintro Hslot
  unfold WP; rw [wp_ret]; imodintro
  rw [show k0_pay9 (xb m ρ c 0 (chk 0 c 1) 0) (slotRead (val m ρ 0 (up 0 c) 0 0))
      = acc (xb m ρ c 0 (chk 0 c 1) 0) (val m ρ 0 (up 0 c) 0 0) from rfl]
  iapply Hk
  isplitl [Hb0]; · iexact Hb0
  isplitl [Hb1]; · iexact Hb1
  isplitl [HO]; · iexact HO
  isplitl [Hat]; · iexact Hat
  isplitl [Hslot]; · iexact Hslot
  isplitl [Hsrc]; · iexact Hsrc
  iexact Hown

end Cert.KernelIdealProof

end
-- ==== Proof.KernelIdealPart08.lean ====
import proofs.«900326_g7700000000000327_dist_treered_v7x_i4_m2048_n1024_bf16_1_alg».proof.Proof.KernelIdealGather

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part08 (K : Dev nD × CellIx → ℕ) (c : Dev nD) (v2 v13 v24 v203 v206 : BitVec 32) (W : Waits sig Unit)
    (u : Vec F S128x1024 .bf16) {Φ : (Σ' (v234 : BitVec 32) (c4_i32_213 : BitVec 32), BitVec 32) → sProp 𝕄} :
    iprop(records m ρ K ∗ (levAts L lv : sProp 𝕄) ∗ ownsTc c (sub 0 (chk 0 c 1) 0) fullShare (xb m ρ c 0 (chk 0 c 1) 0)
        ∗ dutyTok ER (sendCell c 0 1 0) 0 false ∗ dutyTok ER (recvCell (nxt c) 0 1 0) 0 false
        ∗ owes (c : Thread nD τ) (owedFrom c 20) W ∗ slot (nxt c) 0 1 0 u ∗ srcBlk m ρ (up 0 c) 0 0 0
        ∗ cred (tallyAt (recvCell c 1 0 0) () N) ∗ atPos ER (recvCell c 1 0 0) 0 ∅ 0
        ∗ (∀ a b e, (cred (tallyAt (sendCell c 0 1 0) () N)
              ∗ owes (c : Thread nD τ) (owedFrom c 19) (insert (SemLoc.dma (recvS 1 0 0).sem, ()) W)
              ∗ atPos ER (recvCell c 1 0 0) 1 ∅ 0
              ∗ slot c 1 0 0 (val m ρ 0 (up 1 c) 1 0) ∗ srcBlk m ρ (up 1 c) 1 0 0)
            -∗ Φ ⟨a, b, e⟩))
      ⊢ WP c (atBufs k0_part8 c v2 v13 v24 v203 v206 (acc (xb m ρ c 0 (chk 0 c 1) 0) (val m ρ 0 (up 0 c) 0 0))) Φ := by
  simp only [atBufs, k0_part8_eq_skeleton]; unfold k0_part8_skel
  simp only [Prog.lift, Prog.bind_op, Prog.bind_ret, Prog.pure_eq_ret]
  iintro ⟨#Hrec, #HL, Hown, Hts, Htr, HO, Hdst, Hrid, Hc, Hat, Hk⟩

  iapply (wp_load_sub c 0 (chk 0 c 1) 0 (off4_sub c 0 0) fullShare (xb m ρ c 0 (chk 0 c 1) 0))
  isplitl [Hown]; · iexact Hown
  iintro Hown
  iapply (wp_store_sub c 0 (chk 0 c 1) 0 (off4_sub c 0 0) (xb m ρ c 0 (chk 0 c 1) 0)
      (acc (xb m ρ c 0 (chk 0 c 1) 0) (val m ρ 0 (up 0 c) 0 0)))
  isplitl [Hown]; · iexact Hown
  iintro Hown
  unfold slot

  iapply (wp_send_land_sub m ρ K c 0 1 0 _ (dev7_eq c) (chk 0 c 1) (off5_sub c 0 0) (rb 0 1 0) rfl
      (acc (xb m ρ c 0 (chk 0 c 1) 0) (val m ρ 0 (up 0 c) 0 0)) u (srcBlk m ρ (up 0 c) 0 0 0) (owedFrom c 19) W
      (by
        unfold recvPay slot srcBlk
        rw [show up 0 (dn 0 c) = c from up_dn 0 c,
          show val m ρ 1 c 0 0 = acc (xb m ρ c 0 (chk 0 c 1) 0) (val m ρ 0 (up 0 c) 0 0) from val_acc m ρ 0 (by decide) c 0 0]
        iintro ⟨⟨H1, HT⟩, H2⟩
        isplitl [H1]; · iexact H1
        isplitl [H2]; · iexact H2
        iexact HT)
      (by unfold sendPay; rw [if_pos (by decide)])) $$ [Hts Htr HO Hown Hdst Hrid]
  · isplitr; · iexact Hrec
    isplitl [Hown]; · iexact Hown
    isplitl [Hdst]; · iexact Hdst
    isplitl [Hrid]; · iexact Hrid
    isplitl [HO]; · iexact HO
    isplitl [Hts]; · iexact Hts
    iexact Htr
  iintro ⟨Hcs, HO⟩

  iapply (wp_wait_recv m ρ K c 1 0 0 (dstM := rb 1 0 0) (rb_credit 1 0 0) (owedFrom c 19) W) $$ [Hc HO Hat]
  · isplitr; · iexact Hrec
    isplitl [Hc]; · iexact Hc
    isplitl [HO]; · iexact HO
    isplitr; · iapply (mayWait_recv c 1 0 0 19 (by decide)); iexact HL
    iexact Hat
  iintro ⟨HO, Hat, Hpay⟩
  ihave Hpay' := (show recvPay m ρ c 1 0 0 ⊢ iprop(slot c 1 0 0 (val m ρ 0 (up 1 c) 1 0) ∗ srcBlk m ρ (up 1 c) 1 0 0) from .rfl) $$ Hpay
  icases Hpay' with ⟨Hslot, Hsrc⟩
  unfold slot
  unfold WP; rw [wp_ret]; imodintro
  iapply Hk
  isplitl [Hcs]; · iexact Hcs
  isplitl [HO]; · iexact HO
  isplitl [Hat]; · iexact Hat
  isplitl [Hslot]; · iexact Hslot
  iexact Hsrc

end Cert.KernelIdealProof

end
-- ==== Proof.KernelIdealPart09.lean ====
import proofs.«900326_g7700000000000327_dist_treered_v7x_i4_m2048_n1024_bf16_1_alg».proof.Proof.KernelIdealGather

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem pay10_eq_acc (a w : Vec F S128x1024 .bf16) : k0_pay10 a (slotRead w) = acc a w := rfl

theorem part09 (c : Dev nD) (v24 v234 c4 c0 : BitVec 32) {Φ : PUnit → sProp 𝕄} :
    iprop(ownsTc c (sub 1 (chk 1 c 1) 0) fullShare (xb m ρ c 1 (chk 1 c 1) 0)
        ∗ slot c 1 0 0 (val m ρ 0 (up 1 c) 1 0)
        ∗ ((slot c 1 0 0 (val m ρ 0 (up 1 c) 1 0) ∗ srcBlk m ρ c 1 1 0) -∗ Φ ⟨⟩))
      ⊢ WP c (atBufs k0_part9 c v24 v234 c4 c0) Φ := by
  simp only [atBufs, k0_part9_eq_skeleton]; unfold k0_part9_skel
  simp only [Prog.lift, Prog.bind_op, Prog.bind_ret, Prog.pure_eq_ret]
  iintro ⟨Hown, Hslot, Hk⟩
  unfold srcBlk slot

  iapply (wp_load_sub c 1 (chk 1 c 1) 0 (off6_sub c 0) fullShare (xb m ρ c 1 (chk 1 c 1) 0))
  isplitl [Hown]; · iexact Hown
  iintro Hown

  iapply (wp_load_rb c 1 0 0 rfl fullShare (val m ρ 0 (up 1 c) 1 0))
  isplitl [Hslot]; · iexact Hslot
  iintro Hslot

  iapply (wp_load_sub c 1 (chk 1 c 1) 0 (off6_sub c 0) fullShare (xb m ρ c 1 (chk 1 c 1) 0))
  isplitl [Hown]; · iexact Hown
  iintro Hown

  iapply (wp_store_sub c 1 (chk 1 c 1) 0 (off6_sub c 0) (xb m ρ c 1 (chk 1 c 1) 0) _)
  isplitl [Hown]; · iexact Hown
  iintro Hown
  unfold WP; rw [wp_ret]; imodintro
  iapply Hk
  isplitl [Hslot]; · iexact Hslot
  rw [show val m ρ 1 c 1 0 = acc (xb m ρ c 1 (chk 1 c 1) 0) (val m ρ 0 (up 1 c) 1 0) from val_acc m ρ 0 (by decide) c 1 0,
    ← pay10_eq_acc]
  iexact Hown

end Cert.KernelIdealProof

end
-- ==== Proof.KernelIdealPart10.lean ====
import proofs.«900326_g7700000000000327_dist_treered_v7x_i4_m2048_n1024_bf16_1_alg».proof.Proof.KernelIdealGather

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part10 (K : Dev nD × CellIx → ℕ) (c : Dev nD) (v2 v13 : BitVec 32) (W : Waits sig Unit)
    (u : Vec F S128x1024 .bf16) {Φ : (Σ' (v285 : BitVec 32) (v288 : BitVec 32), FVec F S128x1024 .bf16) → sProp 𝕄} :
    iprop(records m ρ K ∗ (levAts L lv : sProp 𝕄) ∗ dutyTok ER (sendCell c 1 1 0) 0 false
        ∗ dutyTok ER (recvCell (prv c) 1 1 0) 0 false ∗ owes (c : Thread nD τ) (owedFrom c 19) W ∗ srcBlk m ρ c 1 1 0
        ∗ slot (prv c) 1 1 0 u ∗ srcBlk m ρ (up 1 c) 1 0 0 ∗ cred (tallyAt (recvCell c 0 0 1) () N)
        ∗ atPos ER (recvCell c 0 0 1) 0 ∅ 0 ∗ ownsTc c (sub 0 (chk 0 c 1) 1) fullShare (xb m ρ c 0 (chk 0 c 1) 1)
        ∗ (∀ a b, (cred (tallyAt (sendCell c 1 1 0) () N)
              ∗ owes (c : Thread nD τ) (owedFrom c 18) (insert (SemLoc.dma (recvS 0 0 1).sem, ()) W)
              ∗ atPos ER (recvCell c 0 0 1) 1 ∅ 0
              ∗ slot c 0 0 1 (val m ρ 0 (up 0 c) 0 1) ∗ srcBlk m ρ (up 0 c) 0 0 1
              ∗ ownsTc c (sub 0 (chk 0 c 1) 1) fullShare (xb m ρ c 0 (chk 0 c 1) 1))
            -∗ Φ ⟨a, b, k0_pay11 (xb m ρ c 0 (chk 0 c 1) 1)⟩))
      ⊢ WP c (atBufs k0_part10 c v2 v13) Φ := by
  simp only [atBufs, k0_part10_eq_skeleton]; unfold k0_part10_skel
  simp only [Prog.lift, Prog.bind_op, Prog.bind_ret, Prog.pure_eq_ret]
  iintro ⟨#Hrec, #HL, Hts, Htr, HO, Hblk, Hdst, Hrid, Hc, Hat, Hown, Hk⟩
  unfold slot
  ihave Hblk' := (show srcBlk m ρ c 1 1 0 ⊢ ownsTc c (sub 1 (chk 1 c 1) 0) fullShare (val m ρ 1 c 1 0) from .rfl) $$ Hblk

  iapply (wp_send_land_sub m ρ K c 1 1 0 _ (dev8_eq c) (chk 1 c 1) (off7_sub c 0) (rb 1 1 0) rfl
      (val m ρ 1 c 1 0) u (srcBlk m ρ (up 1 c) 1 0 0) (owedFrom c 18) W
      (by
        unfold recvPay slot srcBlk
        rw [show up 1 (dn 1 c) = c from up_dn 1 c]
        iintro ⟨⟨H1, HT⟩, H2⟩
        isplitl [H1]; · iexact H1
        isplitl [H2]; · iexact H2
        iexact HT)
      (by unfold sendPay; rw [if_pos (by decide)])) $$ [Hts Htr HO Hblk' Hdst Hrid]
  · isplitr; · iexact Hrec
    isplitl [Hblk']; · iexact Hblk'
    isplitl [Hdst]; · iexact Hdst
    isplitl [Hrid]; · iexact Hrid
    isplitl [HO]; · iexact HO
    isplitl [Hts]; · iexact Hts
    iexact Htr
  iintro ⟨Hcs, HO⟩

  iapply (wp_wait_recv m ρ K c 0 0 1 (dstM := rb 0 0 1) (rb_credit 0 0 1) (owedFrom c 18) W) $$ [Hc HO Hat]
  · isplitr; · iexact Hrec
    isplitl [Hc]; · iexact Hc
    isplitl [HO]; · iexact HO
    isplitr; · iapply (mayWait_recv c 0 0 1 18 (by decide)); iexact HL
    iexact Hat
  iintro ⟨HO, Hat, Hpay⟩
  ihave Hpay' := (show recvPay m ρ c 0 0 1 ⊢ iprop(slot c 0 0 1 (val m ρ 0 (up 0 c) 0 1) ∗ srcBlk m ρ (up 0 c) 0 0 1) from .rfl) $$ Hpay
  icases Hpay' with ⟨Hslot, Hsrc⟩
  unfold slot

  iapply (wp_load_sub c 0 (chk 0 c 1) 1 (off4_sub c 0 1) fullShare (xb m ρ c 0 (chk 0 c 1) 1))
  isplitl [Hown]; · iexact Hown
  iintro Hown
  unfold WP; rw [wp_ret]; imodintro
  iapply Hk
  isplitl [Hcs]; · iexact Hcs
  isplitl [HO]; · iexact HO
  isplitl [Hat]; · iexact Hat
  isplitl [Hslot]; · iexact Hslot
  isplitl [Hsrc]; · iexact Hsrc
  iexact Hown

end Cert.KernelIdealProof

end
-- ==== Proof.KernelIdealPart11.lean ====
import proofs.«900326_g7700000000000327_dist_treered_v7x_i4_m2048_n1024_bf16_1_alg».proof.Proof.KernelIdealGather

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem pay12_eq_acc (a w : Vec F S128x1024 .bf16) : k0_pay12 (k0_pay11 a) (slotRead w) = acc a w := rfl

theorem part11 (K : Dev nD × CellIx → ℕ) (c : Dev nD) (v13 v24 v285 v288 : BitVec 32) (W : Waits sig Unit)
    (u : Vec F S128x1024 .bf16) {Φ : PUnit → sProp 𝕄} :
    iprop(records m ρ K ∗ (levAts L lv : sProp 𝕄) ∗ slot c 0 0 1 (val m ρ 0 (up 0 c) 0 1)
        ∗ ownsTc c (sub 0 (chk 0 c 1) 1) fullShare (xb m ρ c 0 (chk 0 c 1) 1) ∗ dutyTok ER (sendCell c 0 1 1) 0 false
        ∗ dutyTok ER (recvCell (nxt c) 0 1 1) 0 false ∗ owes (c : Thread nD τ) (owedFrom c 18) W
        ∗ slot (nxt c) 0 1 1 u ∗ srcBlk m ρ (up 0 c) 0 0 1 ∗ cred (tallyAt (recvCell c 1 0 1) () N)
        ∗ atPos ER (recvCell c 1 0 1) 0 ∅ 0
        ∗ ((slot c 0 0 1 (val m ρ 0 (up 0 c) 0 1)
              ∗ cred (tallyAt (sendCell c 0 1 1) () N)
              ∗ owes (c : Thread nD τ) (owedFrom c 17) (insert (SemLoc.dma (recvS 1 0 1).sem, ()) W)
              ∗ atPos ER (recvCell c 1 0 1) 1 ∅ 0
              ∗ slot c 1 0 1 (val m ρ 0 (up 1 c) 1 1) ∗ srcBlk m ρ (up 1 c) 1 0 1)
            -∗ Φ ⟨⟩))
      ⊢ WP c (atBufs k0_part11 c v13 v24 v285 v288 (k0_pay11 (xb m ρ c 0 (chk 0 c 1) 1))) Φ := by
  simp only [atBufs, k0_part11_eq_skeleton]; unfold k0_part11_skel
  simp only [Prog.lift, Prog.bind_op, Prog.bind_ret, Prog.pure_eq_ret]
  iintro ⟨#Hrec, #HL, Hslot0, Hown, Hts, Htr, HO, Hdst, Hrid, Hc, Hat, Hk⟩
  unfold slot

  iapply (wp_load_rb c 0 0 1 rfl fullShare (val m ρ 0 (up 0 c) 0 1))
  isplitl [Hslot0]; · iexact Hslot0
  iintro Hslot0
  iapply (wp_load_sub c 0 (chk 0 c 1) 1 (off4_sub c 0 1) fullShare (xb m ρ c 0 (chk 0 c 1) 1))
  isplitl [Hown]; · iexact Hown
  iintro Hown
  iapply (wp_store_sub c 0 (chk 0 c 1) 1 (off4_sub c 0 1) (xb m ρ c 0 (chk 0 c 1) 1) _)
  isplitl [Hown]; · iexact Hown
  iintro Hown
  rw [pay12_eq_acc]

  iapply (wp_send_land_sub m ρ K c 0 1 1 _ (dev9_eq c) (chk 0 c 1) (off5_sub c 0 1) (rb 0 1 1) rfl
      (acc (xb m ρ c 0 (chk 0 c 1) 1) (val m ρ 0 (up 0 c) 0 1)) u (srcBlk m ρ (up 0 c) 0 0 1) (owedFrom c 17) W
      (by
        unfold recvPay slot srcBlk
        rw [show up 0 (dn 0 c) = c from up_dn 0 c,
          show val m ρ 1 c 0 1 = acc (xb m ρ c 0 (chk 0 c 1) 1) (val m ρ 0 (up 0 c) 0 1) from val_acc m ρ 0 (by decide) c 0 1]
        iintro ⟨⟨H1, HT⟩, H2⟩
        isplitl [H1]; · iexact H1
        isplitl [H2]; · iexact H2
        iexact HT)
      (by unfold sendPay; rw [if_pos (by decide)])) $$ [Hts Htr HO Hown Hdst Hrid]
  · isplitr; · iexact Hrec
    isplitl [Hown]; · iexact Hown
    isplitl [Hdst]; · iexact Hdst
    isplitl [Hrid]; · iexact Hrid
    isplitl [HO]; · iexact HO
    isplitl [Hts]; · iexact Hts
    iexact Htr
  iintro ⟨Hcs, HO⟩

  iapply (wp_wait_recv m ρ K c 1 0 1 (dstM := rb 1 0 1) (rb_credit 1 0 1) (owedFrom c 17) W) $$ [Hc HO Hat]
  · isplitr; · iexact Hrec
    isplitl [Hc]; · iexact Hc
    isplitl [HO]; · iexact HO
    isplitr; · iapply (mayWait_recv c 1 0 1 17 (by decide)); iexact HL
    iexact Hat
  iintro ⟨HO, Hat, Hpay⟩
  ihave Hpay' := (show recvPay m ρ c 1 0 1 ⊢ iprop(slot c 1 0 1 (val m ρ 0 (up 1 c) 1 1) ∗ srcBlk m ρ (up 1 c) 1 0 1) from .rfl) $$ Hpay
  icases Hpay' with ⟨Hslot, Hsrc⟩
  unfold slot
  unfold WP; rw [wp_ret]; imodintro
  iapply Hk
  isplitl [Hslot0]; · iexact Hslot0
  isplitl [Hcs]; · iexact Hcs
  isplitl [HO]; · iexact HO
  isplitl [Hat]; · iexact Hat
  isplitl [Hslot]; · iexact Hslot
  iexact Hsrc

end Cert.KernelIdealProof

end
-- ==== Proof.KernelIdealPart12.lean ====
import proofs.«900326_g7700000000000327_dist_treered_v7x_i4_m2048_n1024_bf16_1_alg».proof.Proof.KernelIdealGather

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem pay13_eq_acc (a w : Vec F S128x1024 .bf16) : k0_pay13 a (slotRead w) = acc a w := rfl

theorem part12 (c : Dev nD) (v2 v24 : BitVec 32) {Φ : PUnit → sProp 𝕄} :
    iprop(ownsTc c (sub 1 (chk 1 c 1) 1) fullShare (xb m ρ c 1 (chk 1 c 1) 1)
        ∗ slot c 1 0 1 (val m ρ 0 (up 1 c) 1 1)
        ∗ ((slot c 1 0 1 (val m ρ 0 (up 1 c) 1 1) ∗ srcBlk m ρ c 1 1 1) -∗ Φ ⟨⟩))
      ⊢ WP c (atBufs k0_part12 c v2 v24) Φ := by
  simp only [atBufs, k0_part12_eq_skeleton]; unfold k0_part12_skel
  simp only [Prog.lift, Prog.bind_op, Prog.bind_ret, Prog.pure_eq_ret]
  iintro ⟨Hown, Hslot, Hk⟩
  unfold srcBlk slot

  iapply (wp_load_sub c 1 (chk 1 c 1) 1 (off6_sub c 1) fullShare (xb m ρ c 1 (chk 1 c 1) 1))
  isplitl [Hown]; · iexact Hown
  iintro Hown

  iapply (wp_load_rb c 1 0 1 rfl fullShare (val m ρ 0 (up 1 c) 1 1))
  isplitl [Hslot]; · iexact Hslot
  iintro Hslot

  iapply (wp_load_sub c 1 (chk 1 c 1) 1 (off6_sub c 1) fullShare (xb m ρ c 1 (chk 1 c 1) 1))
  isplitl [Hown]; · iexact Hown
  iintro Hown

  iapply (wp_store_sub c 1 (chk 1 c 1) 1 (off6_sub c 1) (xb m ρ c 1 (chk 1 c 1) 1) _)
  isplitl [Hown]; · iexact Hown
  iintro Hown
  unfold WP; rw [wp_ret]; imodintro
  iapply Hk
  isplitl [Hslot]; · iexact Hslot
  rw [show val m ρ 1 c 1 1 = acc (xb m ρ c 1 (chk 1 c 1) 1) (val m ρ 0 (up 1 c) 1 1) from val_acc m ρ 0 (by decide) c 1 1,
    ← pay13_eq_acc]
  iexact Hown

end Cert.KernelIdealProof

end
-- ==== Proof.KernelIdealPart13.lean ====
import proofs.«900326_g7700000000000327_dist_treered_v7x_i4_m2048_n1024_bf16_1_alg».proof.Proof.KernelIdealGather

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part13 (K : Dev nD × CellIx → ℕ) (c : Dev nD) (v2 v13 : BitVec 32) (W : Waits sig Unit)
    (u : Vec F S128x1024 .bf16) {Φ : (Σ' (_ : BitVec 32) (_ : BitVec 32), FVec F S128x1024 .bf16) → sProp 𝕄} :
    iprop(records m ρ K ∗ (levAts L lv : sProp 𝕄) ∗ dutyTok ER (sendCell c 1 1 1) 0 false
        ∗ dutyTok ER (recvCell (prv c) 1 1 1) 0 false ∗ owes (c : Thread nD τ) (owedFrom c 17) W ∗ srcBlk m ρ c 1 1 1
        ∗ slot (prv c) 1 1 1 u ∗ srcBlk m ρ (up 1 c) 1 0 1 ∗ cred (tallyAt (recvCell c 0 1 0) () N)
        ∗ atPos ER (recvCell c 0 1 0) 0 ∅ 0 ∗ ownsTc c (sub 0 (chk 0 c 2) 0) fullShare (xb m ρ c 0 (chk 0 c 2) 0)
        ∗ (∀ (a b : BitVec 32), ((cred (tallyAt (sendCell c 1 1 1) () N)
              ∗ owes (c : Thread nD τ) (owedFrom c 16) (insert (SemLoc.dma (recvS 0 1 0).sem, ()) W)
              ∗ atPos ER (recvCell c 0 1 0) 1 ∅ 0
              ∗ slot c 0 1 0 (val m ρ 1 (up 0 c) 0 0) ∗ srcBlk m ρ (up 0 c) 0 1 0 ∗ srcBlk m ρ (up 0 (up 0 c)) 0 0 0
              ∗ ownsTc c (sub 0 (chk 0 c 2) 0) fullShare (xb m ρ c 0 (chk 0 c 2) 0))
            -∗ Φ ⟨a, b, k0_pay14 (xb m ρ c 0 (chk 0 c 2) 0)⟩)))
      ⊢ WP c (atBufs k0_part13 c v2 v13) Φ := by
  simp only [atBufs, k0_part13_eq_skeleton]; unfold k0_part13_skel
  simp only [Prog.lift, Prog.bind_op, Prog.bind_ret, Prog.pure_eq_ret]
  iintro ⟨#Hrec, #HL, Hts, Htr, HO, Hsrc, Hdst, Hr0, Hcw, Hat, Hown, Hk⟩
  unfold srcBlk slot
  have h7 : k0_off7 c 1024#32 1#32 128#32 = subOff 1 (chk 1 c 1) 1 := off7_sub c 1
  have h4 : k0_off4 c 2#32 0#32 = subOff 0 (chk 0 c 2) 0 := off4_sub c 1 0

  iapply (wp_send_land_sub m ρ K c 1 1 1 _ (dev10_eq c) (chk 1 c 1) h7 (rb 1 1 1) rfl (val m ρ 1 c 1 1) u
      (srcBlk m ρ (up 1 c) 1 0 1) (owedFrom c 16) W
      (by
        unfold recvPay slot srcBlk
        rw [show up 1 (dn 1 c) = c from up_dn 1 c]
        iintro ⟨⟨H1, H2⟩, H4⟩
        isplitl [H1]; · iexact H1
        isplitl [H4]; · iexact H4
        iexact H2)
      (by unfold sendPay; rw [if_pos (by decide)])) $$ [Hts Htr HO Hsrc Hdst Hr0]
  · isplitr; · iexact Hrec
    isplitl [Hsrc]; · iexact Hsrc
    isplitl [Hdst]; · iexact Hdst
    isplitl [Hr0]; · unfold srcBlk; iexact Hr0
    isplitl [HO]; · iexact HO
    isplitl [Hts]; · iexact Hts
    iexact Htr
  iintro ⟨Hcs, HO⟩

  iapply (wp_wait_recv m ρ K c 0 1 0 (rb_credit 0 1 0) (owedFrom c 16) W) $$ [Hcw HO Hat]
  · isplitr; · iexact Hrec
    isplitl [Hcw]; · iexact Hcw
    isplitl [HO]; · iexact HO
    isplitr
    · iapply (mayWait_recv c 0 1 0 16 (by decide)); iexact HL
    iexact Hat
  unfold recvPay slot srcBlk
  iintro ⟨HO, Hat, Hslot, Hs1, Hs0⟩

  iapply (wp_load_sub c 0 (chk 0 c 2) 0 h4 fullShare (xb m ρ c 0 (chk 0 c 2) 0))
  isplitl [Hown]; · iexact Hown
  iintro Hown
  unfold WP; rw [wp_ret]; imodintro
  iapply Hk
  isplitl [Hcs]; · iexact Hcs
  isplitl [HO]; · iexact HO
  isplitl [Hat]; · iexact Hat
  isplitl [Hslot]; · iexact Hslot
  isplitl [Hs1]; · iexact Hs1
  isplitl [Hs0]; · iexact Hs0
  iexact Hown

end Cert.KernelIdealProof

end
-- ==== Proof.KernelIdealPart14.lean ====
import proofs.«900326_g7700000000000327_dist_treered_v7x_i4_m2048_n1024_bf16_1_alg».proof.Proof.KernelIdealGather

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part14 (K : Dev nD × CellIx → ℕ) (c : Dev nD) (v13 v24 v367 v370 : BitVec 32) (W : Waits sig Unit)
    (u : Vec F S128x1024 .bf16) {Φ : PUnit → sProp 𝕄} :
    iprop(records m ρ K ∗ dutyTok ER (sendCell c 0 2 0) 0 false ∗ dutyTok ER (recvCell (nxt c) 0 2 0) 0 false
        ∗ owes (c : Thread nD τ) (owedFrom c 16) W ∗ slot c 0 1 0 (val m ρ 1 (up 0 c) 0 0)
        ∗ ownsTc c (sub 0 (chk 0 c 2) 0) fullShare (xb m ρ c 0 (chk 0 c 2) 0) ∗ slot (nxt c) 0 2 0 u
        ∗ srcBlk m ρ (up 0 c) 0 1 0 ∗ srcBlk m ρ (up 0 (up 0 c)) 0 0 0
        ∗ ((slot c 0 1 0 (val m ρ 1 (up 0 c) 0 0) ∗ cred (tallyAt (sendCell c 0 2 0) () N)
              ∗ owes (c : Thread nD τ) (owedFrom c 15) W) -∗ Φ ⟨⟩))
      ⊢ WP c (atBufs k0_part14 c v13 v24 v367 v370 (k0_pay14 (xb m ρ c 0 (chk 0 c 2) 0))) Φ := by
  simp only [atBufs, k0_part14_eq_skeleton]; unfold k0_part14_skel
  simp only [Prog.lift, Prog.bind_op, Prog.bind_ret, Prog.pure_eq_ret]
  iintro ⟨#Hrec, Hts, Htr, HO, Hslot, Hown, Hdst, Hr1, Hr0, Hk⟩
  unfold srcBlk slot
  have h4 : k0_off4 c 2#32 0#32 = subOff 0 (chk 0 c 2) 0 := off4_sub c 1 0
  have h5 : k0_off5 c 2#32 0#32 = subOff 0 (chk 0 c 2) 0 := off5_sub c 1 0

  iapply (wp_load_rb c 0 1 0 rfl fullShare (val m ρ 1 (up 0 c) 0 0))
  isplitl [Hslot]; · iexact Hslot
  iintro Hslot

  iapply (wp_load_sub c 0 (chk 0 c 2) 0 h4 fullShare (xb m ρ c 0 (chk 0 c 2) 0))
  isplitl [Hown]; · iexact Hown
  iintro Hown

  iapply (wp_store_sub c 0 (chk 0 c 2) 0 h4 (xb m ρ c 0 (chk 0 c 2) 0) _)
  isplitl [Hown]; · iexact Hown
  iintro Hown

  iapply (wp_send_land_sub m ρ K c 0 2 0 _ (dev11_eq c) (chk 0 c 2) h5 (rb 0 2 0) rfl (val m ρ 2 c 0 0) u
      iprop(srcBlk m ρ (up 0 c) 0 1 0 ∗ srcBlk m ρ (up 0 (up 0 c)) 0 0 0) (owedFrom c 15) W
      (by
        unfold recvPay slot srcBlk
        rw [show up 0 (dn 0 c) = c from up_dn 0 c]
        iintro ⟨⟨H1, H2, H3⟩, H4⟩
        isplitl [H1]; · iexact H1
        isplitl [H4]; · iexact H4
        isplitl [H2]; · iexact H2
        iexact H3)
      (by unfold sendPay; rw [if_pos (by decide)])) $$ [Hts Htr HO Hown Hdst Hr1 Hr0]
  · isplitr; · iexact Hrec
    isplitl [Hown]
    ·
      rw [show val m ρ 2 c 0 0 = k0_pay15 (k0_pay14 (xb m ρ c 0 (chk 0 c 2) 0)) (slotRead (val m ρ 1 (up 0 c) 0 0))
        from val_acc m ρ 1 (by decide) c 0 0]
      iexact Hown
    isplitl [Hdst]; · iexact Hdst
    isplitl [Hr1 Hr0]
    · unfold srcBlk
      isplitl [Hr1]; · iexact Hr1
      iexact Hr0
    isplitl [HO]; · iexact HO
    isplitl [Hts]; · iexact Hts
    iexact Htr
  iintro ⟨Hcs, HO⟩
  unfold WP; rw [wp_ret]; imodintro
  iapply Hk
  isplitl [Hslot]; · iexact Hslot
  isplitl [Hcs]; · iexact Hcs
  iexact HO

end Cert.KernelIdealProof

end
-- ==== Proof.KernelIdealPart15.lean ====
import proofs.«900326_g7700000000000327_dist_treered_v7x_i4_m2048_n1024_bf16_1_alg».proof.Proof.KernelIdealGather

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part15 (K : Dev nD × CellIx → ℕ) (c : Dev nD) (v2 : BitVec 32) (W : Waits sig Unit) {Φ : BitVec 32 → sProp 𝕄} :
    iprop(records m ρ K ∗ (levAts L lv : sProp 𝕄) ∗ owes (c : Thread nD τ) (owedFrom c 15) W
        ∗ cred (tallyAt (recvCell c 1 1 0) () N) ∗ atPos ER (recvCell c 1 1 0) 0 ∅ 0
        ∗ ownsTc c (sub 1 (chk 1 c 2) 0) fullShare (xb m ρ c 1 (chk 1 c 2) 0)
        ∗ ((owes (c : Thread nD τ) (owedFrom c 15) (insert (SemLoc.dma (recvS 1 1 0).sem, ()) W)
              ∗ atPos ER (recvCell c 1 1 0) 1 ∅ 0
              ∗ slot c 1 1 0 (val m ρ 1 (up 1 c) 1 0) ∗ srcBlk m ρ (up 1 c) 1 1 0 ∗ srcBlk m ρ (up 1 (up 1 c)) 1 0 0
              ∗ srcBlk m ρ c 1 2 0) -∗ Φ 1#32))
      ⊢ WP c (atBufs k0_part15 c v2) Φ := by
  simp only [atBufs, k0_part15_eq_skeleton]; unfold k0_part15_skel
  simp only [Prog.lift, Prog.bind_op, Prog.bind_ret, Prog.pure_eq_ret]
  iintro ⟨#Hrec, #HL, HO, Hcw, Hat, Hown, Hk⟩
  unfold srcBlk slot
  have h6 : k0_off6 c 1024#32 2#32 0#32 = subOff 1 (chk 1 c 2) 0 := off6_sub c 2

  iapply (wp_wait_recv m ρ K c 1 1 0 (rb_credit 1 1 0) (owedFrom c 15) W) $$ [Hcw HO Hat]
  · isplitr; · iexact Hrec
    isplitl [Hcw]; · iexact Hcw
    isplitl [HO]; · iexact HO
    isplitr
    · iapply (mayWait_recv c 1 1 0 15 (by decide)); iexact HL
    iexact Hat
  unfold recvPay slot srcBlk
  iintro ⟨HO, Hat, Hslot, Hs1, Hs0⟩

  iapply (wp_load_sub c 1 (chk 1 c 2) 0 h6 fullShare (xb m ρ c 1 (chk 1 c 2) 0))
  isplitl [Hown]; · iexact Hown
  iintro Hown

  iapply (wp_load_rb c 1 1 0 rfl fullShare (val m ρ 1 (up 1 c) 1 0))
  isplitl [Hslot]; · iexact Hslot
  iintro Hslot
  iapply (wp_load_sub c 1 (chk 1 c 2) 0 h6 fullShare (xb m ρ c 1 (chk 1 c 2) 0))
  isplitl [Hown]; · iexact Hown
  iintro Hown

  iapply (wp_store_sub c 1 (chk 1 c 2) 0 h6 (xb m ρ c 1 (chk 1 c 2) 0) _)
  isplitl [Hown]; · iexact Hown
  iintro Hown
  unfold WP; rw [wp_ret]; imodintro
  iapply Hk
  isplitl [HO]; · iexact HO
  isplitl [Hat]; · iexact Hat
  isplitl [Hslot]; · iexact Hslot
  isplitl [Hs1]; · iexact Hs1
  isplitl [Hs0]; · iexact Hs0

  rw [show val m ρ 2 c 1 0 = k0_pay16 (xb m ρ c 1 (chk 1 c 2) 0) (slotRead (val m ρ 1 (up 1 c) 1 0))
    from val_acc m ρ 1 (by decide) c 1 0]
  iexact Hown

end Cert.KernelIdealProof

end
-- ==== Proof.KernelIdealPart16.lean ====
import proofs.«900326_g7700000000000327_dist_treered_v7x_i4_m2048_n1024_bf16_1_alg».proof.Proof.KernelIdealGather

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part16 (K : Dev nD × CellIx → ℕ) (c : Dev nD) (v2 v13 v24 c1 : BitVec 32) (W : Waits sig Unit)
    (u : Vec F S128x1024 .bf16) {Φ : (Σ' (_ : BitVec 32), BitVec 32) → sProp 𝕄} :
    iprop(records m ρ K ∗ (levAts L lv : sProp 𝕄) ∗ dutyTok ER (sendCell c 1 2 0) 0 false
        ∗ dutyTok ER (recvCell (prv c) 1 2 0) 0 false ∗ owes (c : Thread nD τ) (owedFrom c 15) W ∗ srcBlk m ρ c 1 2 0
        ∗ slot (prv c) 1 2 0 u ∗ srcBlk m ρ (up 1 c) 1 1 0 ∗ srcBlk m ρ (up 1 (up 1 c)) 1 0 0
        ∗ cred (tallyAt (recvCell c 0 1 1) () N) ∗ atPos ER (recvCell c 0 1 1) 0 ∅ 0
        ∗ (∀ (a b : BitVec 32), ((cred (tallyAt (sendCell c 1 2 0) () N)
              ∗ owes (c : Thread nD τ) (owedFrom c 14) (insert (SemLoc.dma (recvS 0 1 1).sem, ()) W)
              ∗ atPos ER (recvCell c 0 1 1) 1 ∅ 0
              ∗ slot c 0 1 1 (val m ρ 1 (up 0 c) 0 1) ∗ srcBlk m ρ (up 0 c) 0 1 1 ∗ srcBlk m ρ (up 0 (up 0 c)) 0 0 1)
            -∗ Φ ⟨a, b⟩)))
      ⊢ WP c (atBufs k0_part16 c v2 v13 v24 c1) Φ := by
  simp only [atBufs, k0_part16_eq_skeleton]; unfold k0_part16_skel
  simp only [Prog.lift, Prog.bind_op, Prog.bind_ret, Prog.pure_eq_ret]
  iintro ⟨#Hrec, #HL, Hts, Htr, HO, Hsrc, Hdst, Hr1, Hr0, Hcw, Hat, Hk⟩
  unfold srcBlk slot
  have h7 : k0_off7 c 1024#32 2#32 0#32 = subOff 1 (chk 1 c 2) 0 := off7_sub c 2

  iapply (wp_send_land_sub m ρ K c 1 2 0 _ (dev12_eq c) (chk 1 c 2) h7 (rb 1 2 0) rfl (val m ρ 2 c 1 0) u
      iprop(srcBlk m ρ (up 1 c) 1 1 0 ∗ srcBlk m ρ (up 1 (up 1 c)) 1 0 0) (owedFrom c 14) W
      (by
        unfold recvPay slot srcBlk
        rw [show up 1 (dn 1 c) = c from up_dn 1 c]
        iintro ⟨⟨H1, H2, H3⟩, H4⟩
        isplitl [H1]; · iexact H1
        isplitl [H4]; · iexact H4
        isplitl [H2]; · iexact H2
        iexact H3)
      (by unfold sendPay; rw [if_pos (by decide)])) $$ [Hts Htr HO Hsrc Hdst Hr1 Hr0]
  · isplitr; · iexact Hrec
    isplitl [Hsrc]; · iexact Hsrc
    isplitl [Hdst]; · iexact Hdst
    isplitl [Hr1 Hr0]
    · unfold srcBlk
      isplitl [Hr1]; · iexact Hr1
      iexact Hr0
    isplitl [HO]; · iexact HO
    isplitl [Hts]; · iexact Hts
    iexact Htr
  iintro ⟨Hcs, HO⟩

  iapply (wp_wait_recv m ρ K c 0 1 1 (rb_credit 0 1 1) (owedFrom c 14) W) $$ [Hcw HO Hat]
  · isplitr; · iexact Hrec
    isplitl [Hcw]; · iexact Hcw
    isplitl [HO]; · iexact HO
    isplitr
    · iapply (mayWait_recv c 0 1 1 14 (by decide)); iexact HL
    iexact Hat
  unfold recvPay slot srcBlk
  iintro ⟨HO, Hat, Hslot, Hs1, Hs0⟩
  unfold WP; rw [wp_ret]; imodintro
  iapply Hk
  isplitl [Hcs]; · iexact Hcs
  isplitl [HO]; · iexact HO
  isplitl [Hat]; · iexact Hat
  isplitl [Hslot]; · iexact Hslot
  isplitl [Hs1]; · iexact Hs1
  iexact Hs0

end Cert.KernelIdealProof

end
-- ==== Proof.KernelIdealPart17.lean ====
import proofs.«900326_g7700000000000327_dist_treered_v7x_i4_m2048_n1024_bf16_1_alg».proof.Proof.KernelIdealGather

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part17 (K : Dev nD × CellIx → ℕ) (c : Dev nD) (v13 v24 v449 v452 : BitVec 32) (W : Waits sig Unit)
    (u : Vec F S128x1024 .bf16) {Φ : PUnit → sProp 𝕄} :
    iprop(records m ρ K ∗ dutyTok ER (sendCell c 0 2 1) 0 false ∗ dutyTok ER (recvCell (nxt c) 0 2 1) 0 false
        ∗ owes (c : Thread nD τ) (owedFrom c 14) W
        ∗ ownsTc c (sub 0 (chk 0 c 2) 1) fullShare (xb m ρ c 0 (chk 0 c 2) 1) ∗ slot c 0 1 1 (val m ρ 1 (up 0 c) 0 1)
        ∗ slot (nxt c) 0 2 1 u ∗ srcBlk m ρ (up 0 c) 0 1 1 ∗ srcBlk m ρ (up 0 (up 0 c)) 0 0 1
        ∗ ((slot c 0 1 1 (val m ρ 1 (up 0 c) 0 1) ∗ cred (tallyAt (sendCell c 0 2 1) () N)
              ∗ owes (c : Thread nD τ) (owedFrom c 13) W) -∗ Φ ⟨⟩))
      ⊢ WP c (atBufs k0_part17 c v13 v24 v449 v452) Φ := by
  simp only [atBufs, k0_part17_eq_skeleton]; unfold k0_part17_skel
  simp only [Prog.lift, Prog.bind_op, Prog.bind_ret, Prog.pure_eq_ret]
  iintro ⟨#Hrec, Hts, Htr, HO, Hown, Hslot, Hdst, Hr1, Hr0, Hk⟩
  unfold srcBlk slot
  have h4 : k0_off4 c 2#32 128#32 = subOff 0 (chk 0 c 2) 1 := off4_sub c 1 1
  have h5 : k0_off5 c 2#32 128#32 = subOff 0 (chk 0 c 2) 1 := off5_sub c 1 1

  iapply (wp_load_sub c 0 (chk 0 c 2) 1 h4 fullShare (xb m ρ c 0 (chk 0 c 2) 1))
  isplitl [Hown]; · iexact Hown
  iintro Hown

  iapply (wp_load_rb c 0 1 1 rfl fullShare (val m ρ 1 (up 0 c) 0 1))
  isplitl [Hslot]; · iexact Hslot
  iintro Hslot
  iapply (wp_load_sub c 0 (chk 0 c 2) 1 h4 fullShare (xb m ρ c 0 (chk 0 c 2) 1))
  isplitl [Hown]; · iexact Hown
  iintro Hown

  iapply (wp_store_sub c 0 (chk 0 c 2) 1 h4 (xb m ρ c 0 (chk 0 c 2) 1) _)
  isplitl [Hown]; · iexact Hown
  iintro Hown

  iapply (wp_send_land_sub m ρ K c 0 2 1 _ (dev13_eq c) (chk 0 c 2) h5 (rb 0 2 1) rfl (val m ρ 2 c 0 1) u
      iprop(srcBlk m ρ (up 0 c) 0 1 1 ∗ srcBlk m ρ (up 0 (up 0 c)) 0 0 1) (owedFrom c 13) W
      (by
        unfold recvPay slot srcBlk
        rw [show up 0 (dn 0 c) = c from up_dn 0 c]
        iintro ⟨⟨H1, H2, H3⟩, H4⟩
        isplitl [H1]; · iexact H1
        isplitl [H4]; · iexact H4
        isplitl [H2]; · iexact H2
        iexact H3)
      (by unfold sendPay; rw [if_pos (by decide)])) $$ [Hts Htr HO Hown Hdst Hr1 Hr0]
  · isplitr; · iexact Hrec
    isplitl [Hown]
    ·
      rw [show val m ρ 2 c 0 1 = k0_pay17 (xb m ρ c 0 (chk 0 c 2) 1) (slotRead (val m ρ 1 (up 0 c) 0 1))
        from val_acc m ρ 1 (by decide) c 0 1]
      iexact Hown
    isplitl [Hdst]; · iexact Hdst
    isplitl [Hr1 Hr0]
    · unfold srcBlk
      isplitl [Hr1]; · iexact Hr1
      iexact Hr0
    isplitl [HO]; · iexact HO
    isplitl [Hts]; · iexact Hts
    iexact Htr
  iintro ⟨Hcs, HO⟩
  unfold WP; rw [wp_ret]; imodintro
  iapply Hk
  isplitl [Hslot]; · iexact Hslot
  isplitl [Hcs]; · iexact Hcs
  iexact HO

end Cert.KernelIdealProof

end
-- ==== Proof.KernelIdealPart18.lean ====
import proofs.«900326_g7700000000000327_dist_treered_v7x_i4_m2048_n1024_bf16_1_alg».proof.Proof.KernelIdealGather

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part18 (K : Dev nD × CellIx → ℕ) (c : Dev nD) (v2 : BitVec 32) (W : Waits sig Unit) {Φ : PUnit → sProp 𝕄} :
    iprop(records m ρ K ∗ (levAts L lv : sProp 𝕄) ∗ owes (c : Thread nD τ) (owedFrom c 13) W
        ∗ cred (tallyAt (recvCell c 1 1 1) () N) ∗ atPos ER (recvCell c 1 1 1) 0 ∅ 0
        ∗ ownsTc c (sub 1 (chk 1 c 2) 1) fullShare (xb m ρ c 1 (chk 1 c 2) 1)
        ∗ ((owes (c : Thread nD τ) (owedFrom c 13) (insert (SemLoc.dma (recvS 1 1 1).sem, ()) W)
              ∗ atPos ER (recvCell c 1 1 1) 1 ∅ 0
              ∗ slot c 1 1 1 (val m ρ 1 (up 1 c) 1 1) ∗ srcBlk m ρ (up 1 c) 1 1 1 ∗ srcBlk m ρ (up 1 (up 1 c)) 1 0 1
              ∗ srcBlk m ρ c 1 2 1) -∗ Φ ⟨⟩))
      ⊢ WP c (atBufs k0_part18 c v2) Φ := by
  simp only [atBufs, k0_part18_eq_skeleton]; unfold k0_part18_skel
  simp only [Prog.lift, Prog.bind_op, Prog.bind_ret, Prog.pure_eq_ret]
  iintro ⟨#Hrec, #HL, HO, Hcw, Hat, Hown, Hk⟩
  unfold srcBlk slot
  have h6 : k0_off6 c 1024#32 2#32 128#32 = subOff 1 (chk 1 c 2) 1 := off6_sub c 3

  iapply (wp_wait_recv m ρ K c 1 1 1 (rb_credit 1 1 1) (owedFrom c 13) W) $$ [Hcw HO Hat]
  · isplitr; · iexact Hrec
    isplitl [Hcw]; · iexact Hcw
    isplitl [HO]; · iexact HO
    isplitr
    · iapply (mayWait_recv c 1 1 1 13 (by decide)); iexact HL
    iexact Hat
  unfold recvPay slot srcBlk
  iintro ⟨HO, Hat, Hslot, Hs1, Hs0⟩

  iapply (wp_load_sub c 1 (chk 1 c 2) 1 h6 fullShare (xb m ρ c 1 (chk 1 c 2) 1))
  isplitl [Hown]; · iexact Hown
  iintro Hown

  iapply (wp_load_rb c 1 1 1 rfl fullShare (val m ρ 1 (up 1 c) 1 1))
  isplitl [Hslot]; · iexact Hslot
  iintro Hslot
  iapply (wp_load_sub c 1 (chk 1 c 2) 1 h6 fullShare (xb m ρ c 1 (chk 1 c 2) 1))
  isplitl [Hown]; · iexact Hown
  iintro Hown

  iapply (wp_store_sub c 1 (chk 1 c 2) 1 h6 (xb m ρ c 1 (chk 1 c 2) 1) _)
  isplitl [Hown]; · iexact Hown
  iintro Hown
  unfold WP; rw [wp_ret]; imodintro
  iapply Hk
  isplitl [HO]; · iexact HO
  isplitl [Hat]; · iexact Hat
  isplitl [Hslot]; · iexact Hslot
  isplitl [Hs1]; · iexact Hs1
  isplitl [Hs0]; · iexact Hs0

  rw [show val m ρ 2 c 1 1 = k0_pay18 (xb m ρ c 1 (chk 1 c 2) 1) (slotRead (val m ρ 1 (up 1 c) 1 1))
    from val_acc m ρ 1 (by decide) c 1 1]
  iexact Hown

end Cert.KernelIdealProof

end
-- ==== Proof.KernelIdealPart19.lean ====
import proofs.«900326_g7700000000000327_dist_treered_v7x_i4_m2048_n1024_bf16_1_alg».proof.Proof.KernelIdealGather

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part19 (K : Dev nD × CellIx → ℕ) (c : Dev nD) (v2 v13 v24 : BitVec 32) (W : Waits sig Unit)
    (u : Vec F S128x1024 .bf16) {Φ : (Σ' (_ : BitVec 32), BitVec 32) → sProp 𝕄} :
    iprop(records m ρ K ∗ (levAts L lv : sProp 𝕄) ∗ dutyTok ER (sendCell c 1 2 1) 0 false
        ∗ dutyTok ER (recvCell (prv c) 1 2 1) 0 false ∗ owes (c : Thread nD τ) (owedFrom c 13) W ∗ srcBlk m ρ c 1 2 1
        ∗ slot (prv c) 1 2 1 u ∗ srcBlk m ρ (up 1 c) 1 1 1 ∗ srcBlk m ρ (up 1 (up 1 c)) 1 0 1
        ∗ cred (tallyAt (recvCell c 0 2 0) () N) ∗ atPos ER (recvCell c 0 2 0) 0 ∅ 0
        ∗ (∀ (a b : BitVec 32), ((cred (tallyAt (sendCell c 1 2 1) () N)
              ∗ owes (c : Thread nD τ) (owedFrom c 12) (insert (SemLoc.dma (recvS 0 2 0).sem, ()) W)
              ∗ atPos ER (recvCell c 0 2 0) 1 ∅ 0
              ∗ slot c 0 2 0 (val m ρ 2 (up 0 c) 0 0) ∗ srcBlk m ρ (up 0 c) 0 2 0 ∗ srcBlk m ρ (up 0 (up 0 c)) 0 1 0
              ∗ srcBlk m ρ (up 0 (up 0 (up 0 c))) 0 0 0)
            -∗ Φ ⟨a, b⟩)))
      ⊢ WP c (atBufs k0_part19 c v2 v13 v24) Φ := by
  simp only [atBufs, k0_part19_eq_skeleton]; unfold k0_part19_skel
  simp only [Prog.lift, Prog.bind_op, Prog.bind_ret, Prog.pure_eq_ret]
  iintro ⟨#Hrec, #HL, Hts, Htr, HO, Hsrc, Hdst, Hr1, Hr0, Hcw, Hat, Hk⟩
  unfold srcBlk slot
  have h7 : k0_off7 c 1024#32 2#32 128#32 = subOff 1 (chk 1 c 2) 1 := off7_sub c 3

  iapply (wp_send_land_sub m ρ K c 1 2 1 _ (dev14_eq c) (chk 1 c 2) h7 (rb 1 2 1) rfl (val m ρ 2 c 1 1) u
      iprop(srcBlk m ρ (up 1 c) 1 1 1 ∗ srcBlk m ρ (up 1 (up 1 c)) 1 0 1) (owedFrom c 12) W
      (by
        unfold recvPay slot srcBlk
        rw [show up 1 (dn 1 c) = c from up_dn 1 c]
        iintro ⟨⟨H1, H2, H3⟩, H4⟩
        isplitl [H1]; · iexact H1
        isplitl [H4]; · iexact H4
        isplitl [H2]; · iexact H2
        iexact H3)
      (by unfold sendPay; rw [if_pos (by decide)])) $$ [Hts Htr HO Hsrc Hdst Hr1 Hr0]
  · isplitr; · iexact Hrec
    isplitl [Hsrc]; · iexact Hsrc
    isplitl [Hdst]; · iexact Hdst
    isplitl [Hr1 Hr0]
    · unfold srcBlk
      isplitl [Hr1]; · iexact Hr1
      iexact Hr0
    isplitl [HO]; · iexact HO
    isplitl [Hts]; · iexact Hts
    iexact Htr
  iintro ⟨Hcs, HO⟩

  iapply (wp_wait_recv m ρ K c 0 2 0 (rb_credit 0 2 0) (owedFrom c 12) W) $$ [Hcw HO Hat]
  · isplitr; · iexact Hrec
    isplitl [Hcw]; · iexact Hcw
    isplitl [HO]; · iexact HO
    isplitr
    · iapply (mayWait_recv c 0 2 0 12 (by decide)); iexact HL
    iexact Hat
  unfold recvPay slot srcBlk
  iintro ⟨HO, Hat, Hslot, Hs2, Hs1, Hs0⟩
  unfold WP; rw [wp_ret]; imodintro
  iapply Hk
  isplitl [Hcs]; · iexact Hcs
  isplitl [HO]; · iexact HO
  isplitl [Hat]; · iexact Hat
  isplitl [Hslot]; · iexact Hslot
  isplitl [Hs2]; · iexact Hs2
  isplitl [Hs1]; · iexact Hs1
  iexact Hs0

end Cert.KernelIdealProof

end
-- ==== Proof.KernelIdealPart20.lean ====
import proofs.«900326_g7700000000000327_dist_treered_v7x_i4_m2048_n1024_bf16_1_alg».proof.Proof.KernelIdealGather

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part20 (K : Dev nD × CellIx → ℕ) (c : Dev nD) (v13 v24 v531 v532 : BitVec 32) (W : Waits sig Unit) {Φ : PUnit → sProp 𝕄} :
    iprop(records m ρ K ∗ ownsTc c (sub 0 (chk 0 c 3) 0) fullShare (xb m ρ c 0 (chk 0 c 3) 0)
        ∗ slot c 0 2 0 (val m ρ 2 (up 0 c) 0 0) ∗ dutyTok ER (sendCell c 0 3 0) 0 false
        ∗ dutyTok ER (recvCell (nxt c) 0 3 0) 0 false ∗ owes (c : Thread nD τ) (owedFrom c 12) W
        ∗ srcBlk m ρ (up 0 c) 0 2 0 ∗ srcBlk m ρ (up 0 (up 0 c)) 0 1 0 ∗ srcBlk m ρ (up 0 (up 0 (up 0 c))) 0 0 0
        ∗ ((slot c 0 2 0 (val m ρ 2 (up 0 c) 0 0) ∗ cred (tallyAt (sendCell c 0 3 0) () N)
              ∗ owes (c : Thread nD τ) (owedFrom c 11) W) -∗ Φ ⟨⟩))
      ⊢ WP c (atBufs k0_part20 c v13 v24 v531 v532) Φ := by
  simp only [atBufs, k0_part20_eq_skeleton]; unfold k0_part20_skel
  simp only [Prog.lift, Prog.bind_op, Prog.bind_ret, Prog.pure_eq_ret]
  iintro ⟨#Hrec, Hown, Hslot, Hts, Htr, HO, Hr2, Hr1, Hdst, Hk⟩
  have h6 : k0_off6 c 0#32 1#32 0#32 = subOff 0 (chk 0 c 3) 0 := off6_sub c 4
  have h7 : k0_off7 c 0#32 1#32 0#32 = subOff 0 (chk 0 c 3) 0 := off7_sub c 4
  unfold slot

  iapply (wp_load_sub c 0 (chk 0 c 3) 0 h6 fullShare (xb m ρ c 0 (chk 0 c 3) 0))
  isplitl [Hown]; · iexact Hown
  iintro Hown
  iapply (wp_load_rb c 0 2 0 rfl fullShare (val m ρ 2 (up 0 c) 0 0))
  isplitl [Hslot]; · iexact Hslot
  iintro Hslot
  iapply (wp_load_sub c 0 (chk 0 c 3) 0 h6 fullShare (xb m ρ c 0 (chk 0 c 3) 0))
  isplitl [Hown]; · iexact Hown
  iintro Hown

  iapply (wp_store_sub c 0 (chk 0 c 3) 0 h6 (xb m ρ c 0 (chk 0 c 3) 0)
      (acc (xb m ρ c 0 (chk 0 c 3) 0) (val m ρ 2 (up 0 c) 0 0)))
  isplitl [Hown]; · iexact Hown
  iintro Hown

  iapply (wp_send_ret_sub m ρ K c 0 3 0 _ (dev15_eq c) (chk 0 c 3) h7 (val m ρ 3 c 0 0) (val m ρ 0 (dn 0 c) 0 0)
      iprop(srcBlk m ρ (up 0 c) 0 2 0 ∗ srcBlk m ρ (up 0 (up 0 c)) 0 1 0) (owedFrom c 11) W
      (recvPay3_intro m ρ c 0 0) (sendPay3_intro m ρ c 0 0)) $$ [Hts Htr HO Hown Hdst Hr2 Hr1]
  · isplitr; · iexact Hrec
    isplitl [Hown]; · iapply (src_of_sum m ρ c 0 0); iexact Hown
    isplitl [Hdst]; · iapply (dst_of_blk0 m ρ c 0 0); iexact Hdst
    isplitl [Hr2 Hr1]
    · isplitl [Hr2]; · iexact Hr2
      iexact Hr1
    isplitl [HO]; · iexact HO
    isplitl [Hts]; · iexact Hts
    iexact Htr
  iintro ⟨Hc, HO⟩
  unfold WP; rw [wp_ret]; imodintro
  iapply Hk
  isplitl [Hslot]; · iexact Hslot
  isplitl [Hc]; · iexact Hc
  iexact HO

end Cert.KernelIdealProof

end
-- ==== Proof.KernelIdealPart21.lean ====
import proofs.«900326_g7700000000000327_dist_treered_v7x_i4_m2048_n1024_bf16_1_alg».proof.Proof.KernelIdealGather

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part21 (K : Dev nD × CellIx → ℕ) (c : Dev nD) (v2 : BitVec 32) (W : Waits sig Unit) {Φ : BitVec 32 → sProp 𝕄} :
    iprop(records m ρ K ∗ (levAts L lv : sProp 𝕄) ∗ cred (tallyAt (recvCell c 1 2 0) () N)
        ∗ owes (c : Thread nD τ) (owedFrom c 11) W ∗ atPos ER (recvCell c 1 2 0) 0 ∅ 0
        ∗ ownsTc c (sub 1 (chk 1 c 3) 0) fullShare (xb m ρ c 1 (chk 1 c 3) 0)
        ∗ ((owes (c : Thread nD τ) (owedFrom c 11) (insert (SemLoc.dma (recvS 1 2 0).sem, ()) W)
              ∗ atPos ER (recvCell c 1 2 0) 1 ∅ 0
              ∗ slot c 1 2 0 (val m ρ 2 (up 1 c) 1 0)
              ∗ srcBlk m ρ (up 1 c) 1 2 0 ∗ srcBlk m ρ (up 1 (up 1 c)) 1 1 0 ∗ srcBlk m ρ (up 1 (up 1 (up 1 c))) 1 0 0
              ∗ srcBlk m ρ c 1 3 0) -∗ Φ 1#32))
      ⊢ WP c (atBufs k0_part21 c v2) Φ := by
  simp only [atBufs, k0_part21_eq_skeleton]; unfold k0_part21_skel
  simp only [Prog.lift, Prog.bind_op, Prog.bind_ret, Prog.pure_eq_ret]
  iintro ⟨#Hrec, #HL, Hcr, HO, Hat, Hown, Hk⟩
  have h6 : k0_off6 c 1024#32 3#32 0#32 = subOff 1 (chk 1 c 3) 0 := off6_sub c 5
  unfold slot

  iapply (wp_wait_recv m ρ K c 1 2 0 (rb_credit 1 2 0) (owedFrom c 11) W) $$ [Hcr HO Hat]
  · isplitr; · iexact Hrec
    isplitl [Hcr]; · iexact Hcr
    isplitl [HO]; · iexact HO
    isplitr; · iapply (mayWait_recv c 1 2 0 11 (by decide)); iexact HL
    iexact Hat
  iintro ⟨HO, Hat, Hpay⟩
  ihave Hpay' := (show recvPay m ρ c 1 2 0 ⊢ iprop(ownsTc c (rb 1 2 0) fullShare (val m ρ 2 (up 1 c) 1 0)
      ∗ srcBlk m ρ (up 1 c) 1 2 0 ∗ srcBlk m ρ (up 1 (up 1 c)) 1 1 0 ∗ srcBlk m ρ (up 1 (up 1 (up 1 c))) 1 0 0) from .rfl) $$ Hpay
  icases Hpay' with ⟨Hslot, Hr2, Hr1, Hr0⟩

  iapply (wp_load_sub c 1 (chk 1 c 3) 0 h6 fullShare (xb m ρ c 1 (chk 1 c 3) 0))
  isplitl [Hown]; · iexact Hown
  iintro Hown
  iapply (wp_load_rb c 1 2 0 rfl fullShare (val m ρ 2 (up 1 c) 1 0))
  isplitl [Hslot]; · iexact Hslot
  iintro Hslot
  iapply (wp_load_sub c 1 (chk 1 c 3) 0 h6 fullShare (xb m ρ c 1 (chk 1 c 3) 0))
  isplitl [Hown]; · iexact Hown
  iintro Hown

  iapply (wp_store_sub c 1 (chk 1 c 3) 0 h6 (xb m ρ c 1 (chk 1 c 3) 0)
      (acc (xb m ρ c 1 (chk 1 c 3) 0) (val m ρ 2 (up 1 c) 1 0)))
  isplitl [Hown]; · iexact Hown
  iintro Hown
  unfold WP; rw [wp_ret]; imodintro
  iapply Hk
  isplitl [HO]; · iexact HO
  isplitl [Hat]; · iexact Hat
  isplitl [Hslot]; · iexact Hslot
  isplitl [Hr2]; · iexact Hr2
  isplitl [Hr1]; · iexact Hr1
  isplitl [Hr0]; · iexact Hr0
  iapply (srcBlk_of_sum m ρ c 1 0); iexact Hown

end Cert.KernelIdealProof

end
-- ==== Proof.KernelIdealPart22.lean ====
import proofs.«900326_g7700000000000327_dist_treered_v7x_i4_m2048_n1024_bf16_1_alg».proof.Proof.KernelIdealGather

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part22 (K : Dev nD × CellIx → ℕ) (c : Dev nD) (v2 v13 v24 c1 : BitVec 32) (W : Waits sig Unit) {Φ : (Σ' (v611 : BitVec 32), BitVec 32) → sProp 𝕄} :
    iprop(records m ρ K ∗ (levAts L lv : sProp 𝕄) ∗ dutyTok ER (sendCell c 1 3 0) 0 false
        ∗ dutyTok ER (recvCell (prv c) 1 3 0) 0 false ∗ owes (c : Thread nD τ) (owedFrom c 11) W ∗ srcBlk m ρ c 1 3 0
        ∗ srcBlk m ρ (up 1 c) 1 2 0 ∗ srcBlk m ρ (up 1 (up 1 c)) 1 1 0 ∗ srcBlk m ρ (up 1 (up 1 (up 1 c))) 1 0 0
        ∗ cred (tallyAt (recvCell c 0 2 1) () N) ∗ atPos ER (recvCell c 0 2 1) 0 ∅ 0
        ∗ (∀ a b, (cred (tallyAt (sendCell c 1 3 0) () N)
              ∗ owes (c : Thread nD τ) (owedFrom c 10) (insert (SemLoc.dma (recvS 0 2 1).sem, ()) W)
              ∗ atPos ER (recvCell c 0 2 1) 1 ∅ 0
              ∗ slot c 0 2 1 (val m ρ 2 (up 0 c) 0 1)
              ∗ srcBlk m ρ (up 0 c) 0 2 1 ∗ srcBlk m ρ (up 0 (up 0 c)) 0 1 1 ∗ srcBlk m ρ (up 0 (up 0 (up 0 c))) 0 0 1) -∗ Φ ⟨a, b⟩))
      ⊢ WP c (atBufs k0_part22 c v2 v13 v24 c1) Φ := by
  simp only [atBufs, k0_part22_eq_skeleton]; unfold k0_part22_skel
  simp only [Prog.lift, Prog.bind_op, Prog.bind_ret, Prog.pure_eq_ret]
  iintro ⟨#Hrec, #HL, Hts, Htr, HO, Hsrc, Hr2, Hr1, Hdst, Hcr, Hat, Hk⟩
  have h7 : k0_off7 c 1024#32 3#32 0#32 = subOff 1 (chk 1 c 3) 0 := off7_sub c 5

  iapply (wp_send_ret_sub m ρ K c 1 3 0 _ (dev16_eq c) (chk 1 c 3) h7 (val m ρ 3 c 1 0) (val m ρ 0 (dn 1 c) 1 0)
      iprop(srcBlk m ρ (up 1 c) 1 2 0 ∗ srcBlk m ρ (up 1 (up 1 c)) 1 1 0) (owedFrom c 10) W
      (recvPay3_intro m ρ c 1 0) (sendPay3_intro m ρ c 1 0)) $$ [Hts Htr HO Hsrc Hdst Hr2 Hr1]
  · isplitr; · iexact Hrec
    isplitl [Hsrc]; · iapply (src_blk3 m ρ c 1 0); iexact Hsrc
    isplitl [Hdst]; · iapply (dst_of_blk0 m ρ c 1 0); iexact Hdst
    isplitl [Hr2 Hr1]
    · isplitl [Hr2]; · iexact Hr2
      iexact Hr1
    isplitl [HO]; · iexact HO
    isplitl [Hts]; · iexact Hts
    iexact Htr
  iintro ⟨Hc, HO⟩

  iapply (wp_wait_recv m ρ K c 0 2 1 (rb_credit 0 2 1) (owedFrom c 10) W) $$ [Hcr HO Hat]
  · isplitr; · iexact Hrec
    isplitl [Hcr]; · iexact Hcr
    isplitl [HO]; · iexact HO
    isplitr; · iapply (mayWait_recv c 0 2 1 10 (by decide)); iexact HL
    iexact Hat
  iintro ⟨HO, Hat, Hpay⟩
  ihave Hpay' := (show recvPay m ρ c 0 2 1 ⊢ iprop(slot c 0 2 1 (val m ρ 2 (up 0 c) 0 1) ∗ srcBlk m ρ (up 0 c) 0 2 1 ∗ srcBlk m ρ (up 0 (up 0 c)) 0 1 1 ∗ srcBlk m ρ (up 0 (up 0 (up 0 c))) 0 0 1) from .rfl) $$ Hpay
  icases Hpay' with ⟨Hp0, Hp1, Hp2, Hp3⟩
  unfold WP; rw [wp_ret]; imodintro
  iapply Hk
  isplitl [Hc]; · iexact Hc
  isplitl [HO]; · iexact HO
  isplitl [Hat]; · iexact Hat
  isplitl [Hp0]; · iexact Hp0
  isplitl [Hp1]; · iexact Hp1
  isplitl [Hp2]; · iexact Hp2
  iexact Hp3

end Cert.KernelIdealProof

end
-- ==== Proof.KernelIdealPart23.lean ====
import proofs.«900326_g7700000000000327_dist_treered_v7x_i4_m2048_n1024_bf16_1_alg».proof.Proof.KernelIdealGather

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part23 (K : Dev nD × CellIx → ℕ) (c : Dev nD) (v13 v24 v611 v614 : BitVec 32) (W : Waits sig Unit) {Φ : PUnit → sProp 𝕄} :
    iprop(records m ρ K ∗ ownsTc c (sub 0 (chk 0 c 3) 1) fullShare (xb m ρ c 0 (chk 0 c 3) 1)
        ∗ slot c 0 2 1 (val m ρ 2 (up 0 c) 0 1) ∗ dutyTok ER (sendCell c 0 3 1) 0 false
        ∗ dutyTok ER (recvCell (nxt c) 0 3 1) 0 false ∗ owes (c : Thread nD τ) (owedFrom c 10) W
        ∗ srcBlk m ρ (up 0 c) 0 2 1 ∗ srcBlk m ρ (up 0 (up 0 c)) 0 1 1 ∗ srcBlk m ρ (up 0 (up 0 (up 0 c))) 0 0 1
        ∗ ((slot c 0 2 1 (val m ρ 2 (up 0 c) 0 1) ∗ cred (tallyAt (sendCell c 0 3 1) () N)
              ∗ owes (c : Thread nD τ) (owedFrom c 9) W) -∗ Φ ⟨⟩))
      ⊢ WP c (atBufs k0_part23 c v13 v24 v611 v614) Φ := by
  simp only [atBufs, k0_part23_eq_skeleton]; unfold k0_part23_skel
  simp only [Prog.lift, Prog.bind_op, Prog.bind_ret, Prog.pure_eq_ret]
  iintro ⟨#Hrec, Hown, Hslot, Hts, Htr, HO, Hr2, Hr1, Hdst, Hk⟩
  have h6 : k0_off6 c 0#32 1#32 128#32 = subOff 0 (chk 0 c 3) 1 := off6_sub c 6
  have h7 : k0_off7 c 0#32 1#32 128#32 = subOff 0 (chk 0 c 3) 1 := off7_sub c 6
  unfold slot

  iapply (wp_load_sub c 0 (chk 0 c 3) 1 h6 fullShare (xb m ρ c 0 (chk 0 c 3) 1))
  isplitl [Hown]; · iexact Hown
  iintro Hown
  iapply (wp_load_rb c 0 2 1 rfl fullShare (val m ρ 2 (up 0 c) 0 1))
  isplitl [Hslot]; · iexact Hslot
  iintro Hslot
  iapply (wp_load_sub c 0 (chk 0 c 3) 1 h6 fullShare (xb m ρ c 0 (chk 0 c 3) 1))
  isplitl [Hown]; · iexact Hown
  iintro Hown

  iapply (wp_store_sub c 0 (chk 0 c 3) 1 h6 (xb m ρ c 0 (chk 0 c 3) 1)
      (acc (xb m ρ c 0 (chk 0 c 3) 1) (val m ρ 2 (up 0 c) 0 1)))
  isplitl [Hown]; · iexact Hown
  iintro Hown

  iapply (wp_send_ret_sub m ρ K c 0 3 1 _ (dev17_eq c) (chk 0 c 3) h7 (val m ρ 3 c 0 1) (val m ρ 0 (dn 0 c) 0 1)
      iprop(srcBlk m ρ (up 0 c) 0 2 1 ∗ srcBlk m ρ (up 0 (up 0 c)) 0 1 1) (owedFrom c 9) W
      (recvPay3_intro m ρ c 0 1) (sendPay3_intro m ρ c 0 1)) $$ [Hts Htr HO Hown Hdst Hr2 Hr1]
  · isplitr; · iexact Hrec
    isplitl [Hown]; · iapply (src_of_sum m ρ c 0 1); iexact Hown
    isplitl [Hdst]; · iapply (dst_of_blk0 m ρ c 0 1); iexact Hdst
    isplitl [Hr2 Hr1]
    · isplitl [Hr2]; · iexact Hr2
      iexact Hr1
    isplitl [HO]; · iexact HO
    isplitl [Hts]; · iexact Hts
    iexact Htr
  iintro ⟨Hc, HO⟩
  unfold WP; rw [wp_ret]; imodintro
  iapply Hk
  isplitl [Hslot]; · iexact Hslot
  isplitl [Hc]; · iexact Hc
  iexact HO

end Cert.KernelIdealProof

end
-- ==== Proof.KernelIdealPart24.lean ====
import proofs.«900326_g7700000000000327_dist_treered_v7x_i4_m2048_n1024_bf16_1_alg».proof.Proof.KernelIdealGather

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part24 (K : Dev nD × CellIx → ℕ) (c : Dev nD) (v2 v24 : BitVec 32) (W : Waits sig Unit) {Φ : PUnit → sProp 𝕄} :
    iprop(records m ρ K ∗ (levAts L lv : sProp 𝕄) ∗ cred (tallyAt (recvCell c 1 2 1) () N)
        ∗ owes (c : Thread nD τ) (owedFrom c 9) W ∗ atPos ER (recvCell c 1 2 1) 0 ∅ 0
        ∗ ownsTc c (sub 1 (chk 1 c 3) 1) fullShare (xb m ρ c 1 (chk 1 c 3) 1)
        ∗ ((owes (c : Thread nD τ) (owedFrom c 9) (insert (SemLoc.dma (recvS 1 2 1).sem, ()) W)
              ∗ atPos ER (recvCell c 1 2 1) 1 ∅ 0
              ∗ slot c 1 2 1 (val m ρ 2 (up 1 c) 1 1)
              ∗ srcBlk m ρ (up 1 c) 1 2 1 ∗ srcBlk m ρ (up 1 (up 1 c)) 1 1 1 ∗ srcBlk m ρ (up 1 (up 1 (up 1 c))) 1 0 1
              ∗ srcBlk m ρ c 1 3 1) -∗ Φ ⟨⟩))
      ⊢ WP c (atBufs k0_part24 c v2 v24) Φ := by
  simp only [atBufs, k0_part24_eq_skeleton]; unfold k0_part24_skel
  simp only [Prog.lift, Prog.bind_op, Prog.bind_ret, Prog.pure_eq_ret]
  iintro ⟨#Hrec, #HL, Hcr, HO, Hat, Hown, Hk⟩
  have h6 : k0_off6 c 1024#32 3#32 128#32 = subOff 1 (chk 1 c 3) 1 := off6_sub c 7
  unfold slot

  iapply (wp_wait_recv m ρ K c 1 2 1 (rb_credit 1 2 1) (owedFrom c 9) W) $$ [Hcr HO Hat]
  · isplitr; · iexact Hrec
    isplitl [Hcr]; · iexact Hcr
    isplitl [HO]; · iexact HO
    isplitr; · iapply (mayWait_recv c 1 2 1 9 (by decide)); iexact HL
    iexact Hat
  iintro ⟨HO, Hat, Hpay⟩
  ihave Hpay' := (show recvPay m ρ c 1 2 1 ⊢ iprop(ownsTc c (rb 1 2 1) fullShare (val m ρ 2 (up 1 c) 1 1)
      ∗ srcBlk m ρ (up 1 c) 1 2 1 ∗ srcBlk m ρ (up 1 (up 1 c)) 1 1 1 ∗ srcBlk m ρ (up 1 (up 1 (up 1 c))) 1 0 1) from .rfl) $$ Hpay
  icases Hpay' with ⟨Hslot, Hr2, Hr1, Hr0⟩

  iapply (wp_load_sub c 1 (chk 1 c 3) 1 h6 fullShare (xb m ρ c 1 (chk 1 c 3) 1))
  isplitl [Hown]; · iexact Hown
  iintro Hown
  iapply (wp_load_rb c 1 2 1 rfl fullShare (val m ρ 2 (up 1 c) 1 1))
  isplitl [Hslot]; · iexact Hslot
  iintro Hslot
  iapply (wp_load_sub c 1 (chk 1 c 3) 1 h6 fullShare (xb m ρ c 1 (chk 1 c 3) 1))
  isplitl [Hown]; · iexact Hown
  iintro Hown

  iapply (wp_store_sub c 1 (chk 1 c 3) 1 h6 (xb m ρ c 1 (chk 1 c 3) 1)
      (acc (xb m ρ c 1 (chk 1 c 3) 1) (val m ρ 2 (up 1 c) 1 1)))
  isplitl [Hown]; · iexact Hown
  iintro Hown
  unfold WP; rw [wp_ret]; imodintro
  iapply Hk
  isplitl [HO]; · iexact HO
  isplitl [Hat]; · iexact Hat
  isplitl [Hslot]; · iexact Hslot
  isplitl [Hr2]; · iexact Hr2
  isplitl [Hr1]; · iexact Hr1
  isplitl [Hr0]; · iexact Hr0
  iapply (srcBlk_of_sum m ρ c 1 1); iexact Hown

end Cert.KernelIdealProof

end
-- ==== Proof.KernelIdealPart25.lean ====
import proofs.«900326_g7700000000000327_dist_treered_v7x_i4_m2048_n1024_bf16_1_alg».proof.Proof.KernelIdealGather

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part25 (K : Dev nD × CellIx → ℕ) (c : Dev nD) (v2 v13 : BitVec 32) (W : Waits sig Unit) {Φ : PUnit → sProp 𝕄} :
    iprop(records m ρ K ∗ (levAts L lv : sProp 𝕄) ∗ dutyTok ER (sendCell c 1 3 1) 0 false
        ∗ dutyTok ER (recvCell (prv c) 1 3 1) 0 false ∗ owes (c : Thread nD τ) (owedFrom c 9) W ∗ srcBlk m ρ c 1 3 1
        ∗ srcBlk m ρ (up 1 c) 1 2 1 ∗ srcBlk m ρ (up 1 (up 1 c)) 1 1 1 ∗ srcBlk m ρ (up 1 (up 1 (up 1 c))) 1 0 1
        ∗ cred (tallyAt (recvCell c 0 3 0) () N) ∗ atPos ER (recvCell c 0 3 0) 0 ∅ 0
        ∗ ((cred (tallyAt (sendCell c 1 3 1) () N)
              ∗ owes (c : Thread nD τ) (owedFrom c 8) (insert (SemLoc.dma (recvS 0 3 0).sem, ()) W)
              ∗ atPos ER (recvCell c 0 3 0) 1 ∅ 0
              ∗ srcBlk m ρ c 0 4 0 ∗ srcBlk m ρ (up 0 (up 0 c)) 0 2 0 ∗ srcBlk m ρ (up 0 (up 0 (up 0 c))) 0 1 0) -∗ Φ ⟨⟩))
      ⊢ WP c (atBufs k0_part25 c v2 v13) Φ := by
  simp only [atBufs, k0_part25_eq_skeleton]; unfold k0_part25_skel
  simp only [Prog.lift, Prog.bind_op, Prog.bind_ret, Prog.pure_eq_ret]
  iintro ⟨#Hrec, #HL, Hts, Htr, HO, Hsrc, Hr2, Hr1, Hdst, Hcr, Hat, Hk⟩
  have h7 : k0_off7 c 1024#32 3#32 128#32 = subOff 1 (chk 1 c 3) 1 := off7_sub c 7

  iapply (wp_send_ret_sub m ρ K c 1 3 1 _ (dev18_eq c) (chk 1 c 3) h7 (val m ρ 3 c 1 1) (val m ρ 0 (dn 1 c) 1 1)
      iprop(srcBlk m ρ (up 1 c) 1 2 1 ∗ srcBlk m ρ (up 1 (up 1 c)) 1 1 1) (owedFrom c 8) W
      (recvPay3_intro m ρ c 1 1) (sendPay3_intro m ρ c 1 1)) $$ [Hts Htr HO Hsrc Hdst Hr2 Hr1]
  · isplitr; · iexact Hrec
    isplitl [Hsrc]; · iapply (src_blk3 m ρ c 1 1); iexact Hsrc
    isplitl [Hdst]; · iapply (dst_of_blk0 m ρ c 1 1); iexact Hdst
    isplitl [Hr2 Hr1]
    · isplitl [Hr2]; · iexact Hr2
      iexact Hr1
    isplitl [HO]; · iexact HO
    isplitl [Hts]; · iexact Hts
    iexact Htr
  iintro ⟨Hc, HO⟩

  iapply (wp_wait_recv m ρ K c 0 3 0 (dstM := oM.slice (Rect.unit (s := S2048x1024) (k0_off7 c 0#32 1#32 0#32) S128x1024.size (k0_off7_inb c 4)) (fun _ => rfl)) rfl (owedFrom c 8) W) $$ [Hcr HO Hat]
  · isplitr; · iexact Hrec
    isplitl [Hcr]; · iexact Hcr
    isplitl [HO]; · iexact HO
    isplitr; · iapply (mayWait_recv c 0 3 0 8 (by decide)); iexact HL
    iexact Hat
  iintro ⟨HO, Hat, Hpay⟩
  ihave Hpay' := (show recvPay m ρ c 0 3 0 ⊢ iprop(srcBlk m ρ c 0 4 0 ∗ srcBlk m ρ (up 0 (up 0 c)) 0 2 0 ∗ srcBlk m ρ (up 0 (up 0 (up 0 c))) 0 1 0) from .rfl) $$ Hpay
  icases Hpay' with ⟨Hp0, Hp1, Hp2⟩
  unfold WP; rw [wp_ret]; imodintro
  iapply Hk
  isplitl [Hc]; · iexact Hc
  isplitl [HO]; · iexact HO
  isplitl [Hat]; · iexact Hat
  isplitl [Hp0]; · iexact Hp0
  isplitl [Hp1]; · iexact Hp1
  iexact Hp2

end Cert.KernelIdealProof

end
-- ==== Proof.KernelIdealPart26.lean ====
import proofs.«900326_g7700000000000327_dist_treered_v7x_i4_m2048_n1024_bf16_1_alg».proof.Proof.KernelIdealGather

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part26 (K : Dev nD × CellIx → ℕ) (c : Dev nD) (v2 v24 : BitVec 32) (W : Waits sig Unit)
    {Φ : (Σ' (_ : BitVec 32), BitVec 32) → sProp 𝕄} :
    iprop(records m ρ K ∗ (levAts L lv : sProp 𝕄) ∗ dutyTok ER (sendCell c 0 4 0) 0 false
        ∗ dutyTok ER (recvCell (nxt c) 0 4 0) 0 false ∗ owes (c : Thread nD τ) (owedFrom c 8) W ∗ srcBlk m ρ c 0 4 0
        ∗ srcBlk m ρ (up 0 (up 0 c)) 0 2 0 ∗ srcBlk m ρ (up 0 (up 0 (up 0 c))) 0 1 0
        ∗ cred (tallyAt (recvCell c 1 3 0) () N) ∗ atPos ER (recvCell c 1 3 0) 0 ∅ 0
        ∗ (∀ (a b : BitVec 32), (cred (tallyAt (sendCell c 0 4 0) () N)
            ∗ owes (c : Thread nD τ) (owedFrom c 7) (insert (SemLoc.dma (recvS 1 3 0).sem, ()) W)
            ∗ atPos ER (recvCell c 1 3 0) 1 ∅ 0
            ∗ srcBlk m ρ c 1 4 0
            ∗ srcBlk m ρ (up 1 (up 1 c)) 1 2 0
            ∗ srcBlk m ρ (up 1 (up 1 (up 1 c))) 1 1 0)
          -∗ Φ ⟨a, b⟩))
      ⊢ WP c (atBufs k0_part26 c v2 v24) Φ := by
  simp only [atBufs, k0_part26_eq_skeleton]; unfold k0_part26_skel
  simp only [Prog.lift, Prog.bind_op, Prog.bind_ret, Prog.pure_eq_ret]
  rw [srcBlk_dst4 m ρ c 0 0,
    show srcBlk m ρ c 0 4 0 = ownsTc c (sub 0 (chk 0 c 4) 0) fullShare (val m ρ 4 c 0 0) from rfl]
  iintro ⟨#Hrec, #HL, Hts, Htr, HO, Hsrc, HT, Hdst, Hcr0, Hat0, Hk⟩

  iapply (wp_send_ret_sub m ρ K c 0 4 0 _ (dev19_eq c) (chk 0 c 4) (off8_sub c 0 0) (val m ρ 4 c 0 0) (val m ρ 1 (dn 0 c) 0 0)
      (srcBlk m ρ (up 0 (up 0 c)) 0 2 0) (owedFrom c 7) W (recvPay_of_fwd4 m ρ c 0 0) (sendPay_of_fwd4 m ρ c 0 0)) $$ [Hts Htr HO Hsrc HT Hdst]
  · isplitr; · iexact Hrec
    isplitl [Hsrc]; · iexact Hsrc
    isplitl [Hdst]; · iexact Hdst
    isplitl [HT]; · iexact HT
    isplitl [HO]; · iexact HO
    isplitl [Hts]; · iexact Hts
    iexact Htr
  iintro ⟨Hc, HO⟩

  iapply (wp_wait_recv m ρ K c 1 3 0 (srcM := (oM.slice (Rect.unit (s := S2048x1024) (k0_off7 c 1024#32 3#32 0#32) S128x1024.size (k0_off7_inb c 5)) (fun _ => rfl)))
      (dstM := (oM.slice (Rect.unit (s := S2048x1024) (k0_off7 c 1024#32 3#32 0#32) S128x1024.size (k0_off7_inb c 5)) (fun _ => rfl))) rfl (owedFrom c 7) W) $$ [Hcr0 HO Hat0]
  · isplitr; · iexact Hrec
    isplitl [Hcr0]; · iexact Hcr0
    isplitl [HO]; · iexact HO
    isplitr; · iapply (mayWait_recv c 1 3 0 7 (by decide)); iexact HL
    iexact Hat0
  iintro ⟨HO, Hat0, Hpay0⟩
  unfold WP; rw [wp_ret]; imodintro
  iapply Hk
  isplitl [Hc]; · iexact Hc
  isplitl [HO]; · iexact HO
  isplitl [Hat0]; · iexact Hat0
  iapply (Entails.of_eq (recvPay_three m ρ c 1 0)); iexact Hpay0

end Cert.KernelIdealProof

end
-- ==== Proof.KernelIdealPart27.lean ====
import proofs.«900326_g7700000000000327_dist_treered_v7x_i4_m2048_n1024_bf16_1_alg».proof.Proof.KernelIdealGather

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part27 (K : Dev nD × CellIx → ℕ) (c : Dev nD) (v2 v13 v724 c0 : BitVec 32) (W : Waits sig Unit)
    {Φ : BitVec 32 → sProp 𝕄} :
    iprop(records m ρ K ∗ (levAts L lv : sProp 𝕄) ∗ dutyTok ER (sendCell c 1 4 0) 0 false
        ∗ dutyTok ER (recvCell (prv c) 1 4 0) 0 false ∗ owes (c : Thread nD τ) (owedFrom c 7) W ∗ srcBlk m ρ c 1 4 0
        ∗ srcBlk m ρ (up 1 (up 1 c)) 1 2 0 ∗ srcBlk m ρ (up 1 (up 1 (up 1 c))) 1 1 0
        ∗ cred (tallyAt (recvCell c 0 3 1) () N) ∗ atPos ER (recvCell c 0 3 1) 0 ∅ 0
        ∗ ((cred (tallyAt (sendCell c 1 4 0) () N)
            ∗ owes (c : Thread nD τ) (owedFrom c 6) (insert (SemLoc.dma (recvS 0 3 1).sem, ()) W)
            ∗ atPos ER (recvCell c 0 3 1) 1 ∅ 0
            ∗ srcBlk m ρ c 0 4 1
            ∗ srcBlk m ρ (up 0 (up 0 c)) 0 2 1
            ∗ srcBlk m ρ (up 0 (up 0 (up 0 c))) 0 1 1)
          -∗ Φ 1#32))
      ⊢ WP c (atBufs k0_part27 c v2 v13 v724 c0) Φ := by
  simp only [atBufs, k0_part27_eq_skeleton]; unfold k0_part27_skel
  simp only [Prog.lift, Prog.bind_op, Prog.bind_ret, Prog.pure_eq_ret]
  rw [srcBlk_dst4 m ρ c 1 0,
    show srcBlk m ρ c 1 4 0 = ownsTc c (sub 1 (chk 1 c 4) 0) fullShare (val m ρ 4 c 1 0) from rfl]
  iintro ⟨#Hrec, #HL, Hts, Htr, HO, Hsrc, HT, Hdst, Hcr0, Hat0, Hk⟩

  iapply (wp_send_ret_sub m ρ K c 1 4 0 _ (dev20_eq c) (chk 1 c 4) (off9_sub c 0 0) (val m ρ 4 c 1 0) (val m ρ 1 (dn 1 c) 1 0)
      (srcBlk m ρ (up 1 (up 1 c)) 1 2 0) (owedFrom c 6) W (recvPay_of_fwd4 m ρ c 1 0) (sendPay_of_fwd4 m ρ c 1 0)) $$ [Hts Htr HO Hsrc HT Hdst]
  · isplitr; · iexact Hrec
    isplitl [Hsrc]; · iexact Hsrc
    isplitl [Hdst]; · iexact Hdst
    isplitl [HT]; · iexact HT
    isplitl [HO]; · iexact HO
    isplitl [Hts]; · iexact Hts
    iexact Htr
  iintro ⟨Hc, HO⟩

  iapply (wp_wait_recv m ρ K c 0 3 1 (srcM := (oM.slice (Rect.unit (s := S2048x1024) (k0_off7 c 0#32 1#32 128#32) S128x1024.size (k0_off7_inb c 6)) (fun _ => rfl)))
      (dstM := (oM.slice (Rect.unit (s := S2048x1024) (k0_off7 c 0#32 1#32 128#32) S128x1024.size (k0_off7_inb c 6)) (fun _ => rfl))) rfl (owedFrom c 6) W) $$ [Hcr0 HO Hat0]
  · isplitr; · iexact Hrec
    isplitl [Hcr0]; · iexact Hcr0
    isplitl [HO]; · iexact HO
    isplitr; · iapply (mayWait_recv c 0 3 1 6 (by decide)); iexact HL
    iexact Hat0
  iintro ⟨HO, Hat0, Hpay0⟩
  unfold WP; rw [wp_ret]; imodintro
  iapply Hk
  isplitl [Hc]; · iexact Hc
  isplitl [HO]; · iexact HO
  isplitl [Hat0]; · iexact Hat0
  iapply (Entails.of_eq (recvPay_three m ρ c 0 1)); iexact Hpay0

end Cert.KernelIdealProof

end
-- ==== Proof.KernelIdealPart28.lean ====
import proofs.«900326_g7700000000000327_dist_treered_v7x_i4_m2048_n1024_bf16_1_alg».proof.Proof.KernelIdealGather

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part28 (K : Dev nD × CellIx → ℕ) (c : Dev nD) (v2 v13 v24 c1 : BitVec 32) (W : Waits sig Unit)
    {Φ : PUnit → sProp 𝕄} :
    iprop(records m ρ K ∗ (levAts L lv : sProp 𝕄) ∗ dutyTok ER (sendCell c 0 4 1) 0 false
        ∗ dutyTok ER (recvCell (nxt c) 0 4 1) 0 false ∗ owes (c : Thread nD τ) (owedFrom c 6) W ∗ srcBlk m ρ c 0 4 1
        ∗ srcBlk m ρ (up 0 (up 0 c)) 0 2 1 ∗ srcBlk m ρ (up 0 (up 0 (up 0 c))) 0 1 1
        ∗ cred (tallyAt (recvCell c 1 3 1) () N) ∗ atPos ER (recvCell c 1 3 1) 0 ∅ 0
        ∗ ((cred (tallyAt (sendCell c 0 4 1) () N)
            ∗ owes (c : Thread nD τ) (owedFrom c 5) (insert (SemLoc.dma (recvS 1 3 1).sem, ()) W)
            ∗ atPos ER (recvCell c 1 3 1) 1 ∅ 0
            ∗ srcBlk m ρ c 1 4 1
            ∗ srcBlk m ρ (up 1 (up 1 c)) 1 2 1
            ∗ srcBlk m ρ (up 1 (up 1 (up 1 c))) 1 1 1)
          -∗ Φ ⟨⟩))
      ⊢ WP c (atBufs k0_part28 c v2 v13 v24 c1) Φ := by
  simp only [atBufs, k0_part28_eq_skeleton]; unfold k0_part28_skel
  simp only [Prog.lift, Prog.bind_op, Prog.bind_ret, Prog.pure_eq_ret]
  rw [srcBlk_dst4 m ρ c 0 1,
    show srcBlk m ρ c 0 4 1 = ownsTc c (sub 0 (chk 0 c 4) 1) fullShare (val m ρ 4 c 0 1) from rfl]
  iintro ⟨#Hrec, #HL, Hts, Htr, HO, Hsrc, HT, Hdst, Hcr0, Hat0, Hk⟩

  iapply (wp_send_ret_sub m ρ K c 0 4 1 _ (dev21_eq c) (chk 0 c 4) (off8_sub c 0 1) (val m ρ 4 c 0 1) (val m ρ 1 (dn 0 c) 0 1)
      (srcBlk m ρ (up 0 (up 0 c)) 0 2 1) (owedFrom c 5) W (recvPay_of_fwd4 m ρ c 0 1) (sendPay_of_fwd4 m ρ c 0 1)) $$ [Hts Htr HO Hsrc HT Hdst]
  · isplitr; · iexact Hrec
    isplitl [Hsrc]; · iexact Hsrc
    isplitl [Hdst]; · iexact Hdst
    isplitl [HT]; · iexact HT
    isplitl [HO]; · iexact HO
    isplitl [Hts]; · iexact Hts
    iexact Htr
  iintro ⟨Hc, HO⟩

  iapply (wp_wait_recv m ρ K c 1 3 1 (srcM := (oM.slice (Rect.unit (s := S2048x1024) (k0_off7 c 1024#32 3#32 128#32) S128x1024.size (k0_off7_inb c 7)) (fun _ => rfl)))
      (dstM := (oM.slice (Rect.unit (s := S2048x1024) (k0_off7 c 1024#32 3#32 128#32) S128x1024.size (k0_off7_inb c 7)) (fun _ => rfl))) rfl (owedFrom c 5) W) $$ [Hcr0 HO Hat0]
  · isplitr; · iexact Hrec
    isplitl [Hcr0]; · iexact Hcr0
    isplitl [HO]; · iexact HO
    isplitr; · iapply (mayWait_recv c 1 3 1 5 (by decide)); iexact HL
    iexact Hat0
  iintro ⟨HO, Hat0, Hpay0⟩
  unfold WP; rw [wp_ret]; imodintro
  iapply Hk
  isplitl [Hc]; · iexact Hc
  isplitl [HO]; · iexact HO
  isplitl [Hat0]; · iexact Hat0
  iapply (Entails.of_eq (recvPay_three m ρ c 1 1)); iexact Hpay0

end Cert.KernelIdealProof

end
-- ==== Proof.KernelIdealPart29.lean ====
import proofs.«900326_g7700000000000327_dist_treered_v7x_i4_m2048_n1024_bf16_1_alg».proof.Proof.KernelIdealGather

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part29 (K : Dev nD × CellIx → ℕ) (c : Dev nD) (v2 v13 v24 : BitVec 32) (W : Waits sig Unit)
    {Φ : PUnit → sProp 𝕄} :
    iprop(records m ρ K ∗ (levAts L lv : sProp 𝕄) ∗ dutyTok ER (sendCell c 1 4 1) 0 false
        ∗ dutyTok ER (recvCell (prv c) 1 4 1) 0 false ∗ owes (c : Thread nD τ) (owedFrom c 5) W ∗ srcBlk m ρ c 1 4 1
        ∗ srcBlk m ρ (up 1 (up 1 c)) 1 2 1 ∗ srcBlk m ρ (up 1 (up 1 (up 1 c))) 1 1 1
        ∗ cred (tallyAt (recvCell c 0 4 0) () N) ∗ atPos ER (recvCell c 0 4 0) 0 ∅ 0
        ∗ ((cred (tallyAt (sendCell c 1 4 1) () N)
            ∗ owes (c : Thread nD τ) (owedFrom c 4) (insert (SemLoc.dma (recvS 0 4 0).sem, ()) W)
            ∗ atPos ER (recvCell c 0 4 0) 1 ∅ 0
            ∗ srcBlk m ρ c 0 5 0
            ∗ srcBlk m ρ (up 0 (up 0 (up 0 c))) 0 2 0)
          -∗ Φ ⟨⟩))
      ⊢ WP c (atBufs k0_part29 c v2 v13 v24) Φ := by
  simp only [atBufs, k0_part29_eq_skeleton]; unfold k0_part29_skel
  simp only [Prog.lift, Prog.bind_op, Prog.bind_ret, Prog.pure_eq_ret]
  rw [srcBlk_dst4 m ρ c 1 1,
    show srcBlk m ρ c 1 4 1 = ownsTc c (sub 1 (chk 1 c 4) 1) fullShare (val m ρ 4 c 1 1) from rfl]
  iintro ⟨#Hrec, #HL, Hts, Htr, HO, Hsrc, HT, Hdst, Hcr0, Hat0, Hk⟩

  iapply (wp_send_ret_sub m ρ K c 1 4 1 _ (dev22_eq c) (chk 1 c 4) (off9_sub c 0 1) (val m ρ 4 c 1 1) (val m ρ 1 (dn 1 c) 1 1)
      (srcBlk m ρ (up 1 (up 1 c)) 1 2 1) (owedFrom c 4) W (recvPay_of_fwd4 m ρ c 1 1) (sendPay_of_fwd4 m ρ c 1 1)) $$ [Hts Htr HO Hsrc HT Hdst]
  · isplitr; · iexact Hrec
    isplitl [Hsrc]; · iexact Hsrc
    isplitl [Hdst]; · iexact Hdst
    isplitl [HT]; · iexact HT
    isplitl [HO]; · iexact HO
    isplitl [Hts]; · iexact Hts
    iexact Htr
  iintro ⟨Hc, HO⟩

  iapply (wp_wait_recv m ρ K c 0 4 0 (srcM := (oM.slice (Rect.unit (s := S2048x1024) (k0_off8 c 1#32 0#32) S128x1024.size (k0_off8_inb c 0 0)) (fun _ => rfl)))
      (dstM := (oM.slice (Rect.unit (s := S2048x1024) (k0_off8 c 1#32 0#32) S128x1024.size (k0_off8_inb c 0 0)) (fun _ => rfl))) rfl (owedFrom c 4) W) $$ [Hcr0 HO Hat0]
  · isplitr; · iexact Hrec
    isplitl [Hcr0]; · iexact Hcr0
    isplitl [HO]; · iexact HO
    isplitr; · iapply (mayWait_recv c 0 4 0 4 (by decide)); iexact HL
    iexact Hat0
  iintro ⟨HO, Hat0, Hpay0⟩
  unfold WP; rw [wp_ret]; imodintro
  iapply Hk
  isplitl [Hc]; · iexact Hc
  isplitl [HO]; · iexact HO
  isplitl [Hat0]; · iexact Hat0
  iapply (Entails.of_eq (recvPay_four m ρ c 0 0)); iexact Hpay0

end Cert.KernelIdealProof

end
-- ==== Proof.KernelIdealPart30.lean ====
import proofs.«900326_g7700000000000327_dist_treered_v7x_i4_m2048_n1024_bf16_1_alg».proof.Proof.KernelIdealGather

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part30 (K : Dev nD × CellIx → ℕ) (c : Dev nD) (v2 v13 v24 : BitVec 32) (W : Waits sig Unit)
    {Φ : PUnit → sProp 𝕄} :
    iprop(records m ρ K ∗ (levAts L lv : sProp 𝕄) ∗ dutyTok ER (sendCell c 0 5 0) 0 false
        ∗ dutyTok ER (recvCell (nxt c) 0 5 0) 0 false ∗ owes (c : Thread nD τ) (owedFrom c 4) W ∗ srcBlk m ρ c 0 5 0
        ∗ srcBlk m ρ (up 0 (up 0 (up 0 c))) 0 2 0 ∗ cred (tallyAt (recvCell c 1 4 0) () N)
        ∗ atPos ER (recvCell c 1 4 0) 0 ∅ 0
        ∗ ((cred (tallyAt (sendCell c 0 5 0) () N)
            ∗ owes (c : Thread nD τ) (owedFrom c 3) (insert (SemLoc.dma (recvS 1 4 0).sem, ()) W)
            ∗ atPos ER (recvCell c 1 4 0) 1 ∅ 0
            ∗ srcBlk m ρ c 1 5 0
            ∗ srcBlk m ρ (up 1 (up 1 (up 1 c))) 1 2 0)
          -∗ Φ ⟨⟩))
      ⊢ WP c (atBufs k0_part30 c v2 v13 v24) Φ := by
  simp only [atBufs, k0_part30_eq_skeleton]; unfold k0_part30_skel
  simp only [Prog.lift, Prog.bind_op, Prog.bind_ret, Prog.pure_eq_ret]
  rw [srcBlk_dst5 m ρ c 0 0,
    show srcBlk m ρ c 0 5 0 = ownsTc c (sub 0 (chk 0 c 5) 0) fullShare (val m ρ 5 c 0 0) from rfl]
  iintro ⟨#Hrec, #HL, Hts, Htr, HO, Hsrc, Hdst, Hcr0, Hat0, Hk⟩

  iapply (wp_send_ret_sub m ρ K c 0 5 0 _ (dev23_eq c) (chk 0 c 5) (off8_sub c 1 0) (val m ρ 5 c 0 0) (val m ρ 2 (dn 0 c) 0 0)
      iprop(emp) (owedFrom c 3) W (recvPay_of_fwd5 m ρ c 0 0) (sendPay_of_fwd5 m ρ c 0 0)) $$ [Hts Htr HO Hsrc Hdst]
  · isplitr; · iexact Hrec
    isplitl [Hsrc]; · iexact Hsrc
    isplitl [Hdst]; · iexact Hdst
    isplitr; · iempintro
    isplitl [HO]; · iexact HO
    isplitl [Hts]; · iexact Hts
    iexact Htr
  iintro ⟨Hc, HO⟩

  iapply (wp_wait_recv m ρ K c 1 4 0 (srcM := (oM.slice (Rect.unit (s := S2048x1024) (k0_off9 c 1#32 0#32) S128x1024.size (k0_off9_inb c 0 0)) (fun _ => rfl)))
      (dstM := (oM.slice (Rect.unit (s := S2048x1024) (k0_off9 c 1#32 0#32) S128x1024.size (k0_off9_inb c 0 0)) (fun _ => rfl))) rfl (owedFrom c 3) W) $$ [Hcr0 HO Hat0]
  · isplitr; · iexact Hrec
    isplitl [Hcr0]; · iexact Hcr0
    isplitl [HO]; · iexact HO
    isplitr; · iapply (mayWait_recv c 1 4 0 3 (by decide)); iexact HL
    iexact Hat0
  iintro ⟨HO, Hat0, Hpay0⟩
  unfold WP; rw [wp_ret]; imodintro
  iapply Hk
  isplitl [Hc]; · iexact Hc
  isplitl [HO]; · iexact HO
  isplitl [Hat0]; · iexact Hat0
  iapply (Entails.of_eq (recvPay_four m ρ c 1 0)); iexact Hpay0

end Cert.KernelIdealProof

end
-- ==== Proof.KernelIdealPart31.lean ====
import proofs.«900326_g7700000000000327_dist_treered_v7x_i4_m2048_n1024_bf16_1_alg».proof.Proof.KernelIdealGather

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part31 (K : Dev nD × CellIx → ℕ) (c : Dev nD) (v2 v13 v24 : BitVec 32) (W : Waits sig Unit)
    {Φ : (Σ' (_ : BitVec 32), BitVec 32) → sProp 𝕄} :
    iprop(records m ρ K ∗ (levAts L lv : sProp 𝕄) ∗ dutyTok ER (sendCell c 1 5 0) 0 false
        ∗ dutyTok ER (recvCell (prv c) 1 5 0) 0 false ∗ owes (c : Thread nD τ) (owedFrom c 3) W ∗ srcBlk m ρ c 1 5 0
        ∗ srcBlk m ρ (up 1 (up 1 (up 1 c))) 1 2 0 ∗ cred (tallyAt (recvCell c 0 4 1) () N)
        ∗ atPos ER (recvCell c 0 4 1) 0 ∅ 0
        ∗ (∀ (a b : BitVec 32), (cred (tallyAt (sendCell c 1 5 0) () N)
            ∗ owes (c : Thread nD τ) (owedFrom c 2) (insert (SemLoc.dma (recvS 0 4 1).sem, ()) W)
            ∗ atPos ER (recvCell c 0 4 1) 1 ∅ 0
            ∗ srcBlk m ρ c 0 5 1
            ∗ srcBlk m ρ (up 0 (up 0 (up 0 c))) 0 2 1)
          -∗ Φ ⟨a, b⟩))
      ⊢ WP c (atBufs k0_part31 c v2 v13 v24) Φ := by
  simp only [atBufs, k0_part31_eq_skeleton]; unfold k0_part31_skel
  simp only [Prog.lift, Prog.bind_op, Prog.bind_ret, Prog.pure_eq_ret]
  rw [srcBlk_dst5 m ρ c 1 0,
    show srcBlk m ρ c 1 5 0 = ownsTc c (sub 1 (chk 1 c 5) 0) fullShare (val m ρ 5 c 1 0) from rfl]
  iintro ⟨#Hrec, #HL, Hts, Htr, HO, Hsrc, Hdst, Hcr0, Hat0, Hk⟩

  iapply (wp_send_ret_sub m ρ K c 1 5 0 _ (dev24_eq c) (chk 1 c 5) (off9_sub c 1 0) (val m ρ 5 c 1 0) (val m ρ 2 (dn 1 c) 1 0)
      iprop(emp) (owedFrom c 2) W (recvPay_of_fwd5 m ρ c 1 0) (sendPay_of_fwd5 m ρ c 1 0)) $$ [Hts Htr HO Hsrc Hdst]
  · isplitr; · iexact Hrec
    isplitl [Hsrc]; · iexact Hsrc
    isplitl [Hdst]; · iexact Hdst
    isplitr; · iempintro
    isplitl [HO]; · iexact HO
    isplitl [Hts]; · iexact Hts
    iexact Htr
  iintro ⟨Hc, HO⟩

  iapply (wp_wait_recv m ρ K c 0 4 1 (srcM := (oM.slice (Rect.unit (s := S2048x1024) (k0_off8 c 1#32 128#32) S128x1024.size (k0_off8_inb c 0 1)) (fun _ => rfl)))
      (dstM := (oM.slice (Rect.unit (s := S2048x1024) (k0_off8 c 1#32 128#32) S128x1024.size (k0_off8_inb c 0 1)) (fun _ => rfl))) rfl (owedFrom c 2) W) $$ [Hcr0 HO Hat0]
  · isplitr; · iexact Hrec
    isplitl [Hcr0]; · iexact Hcr0
    isplitl [HO]; · iexact HO
    isplitr; · iapply (mayWait_recv c 0 4 1 2 (by decide)); iexact HL
    iexact Hat0
  iintro ⟨HO, Hat0, Hpay0⟩
  unfold WP; rw [wp_ret]; imodintro
  iapply Hk
  isplitl [Hc]; · iexact Hc
  isplitl [HO]; · iexact HO
  isplitl [Hat0]; · iexact Hat0
  iapply (Entails.of_eq (recvPay_four m ρ c 0 1)); iexact Hpay0

end Cert.KernelIdealProof

end
-- ==== Proof.KernelIdealPart32.lean ====
import proofs.«900326_g7700000000000327_dist_treered_v7x_i4_m2048_n1024_bf16_1_alg».proof.Proof.KernelIdealGather

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part32 (K : Dev nD × CellIx → ℕ) (c : Dev nD) (v2 v13 v24 v867 c128 : BitVec 32) (W : Waits sig Unit)
    {Φ : (Σ' (_ : BitVec 32), BitVec 32) → sProp 𝕄} :
    iprop(records m ρ K ∗ (levAts L lv : sProp 𝕄) ∗ dutyTok ER (sendCell c 0 5 1) 0 false
        ∗ dutyTok ER (recvCell (nxt c) 0 5 1) 0 false ∗ owes (c : Thread nD τ) (owedFrom c 2) W ∗ srcBlk m ρ c 0 5 1
        ∗ srcBlk m ρ (up 0 (up 0 (up 0 c))) 0 2 1 ∗ cred (tallyAt (recvCell c 1 4 1) () N)
        ∗ atPos ER (recvCell c 1 4 1) 0 ∅ 0
        ∗ (∀ (a b : BitVec 32), (cred (tallyAt (sendCell c 0 5 1) () N)
            ∗ owes (c : Thread nD τ) (owedFrom c 1) (insert (SemLoc.dma (recvS 1 4 1).sem, ()) W)
            ∗ atPos ER (recvCell c 1 4 1) 1 ∅ 0
            ∗ srcBlk m ρ c 1 5 1
            ∗ srcBlk m ρ (up 1 (up 1 (up 1 c))) 1 2 1)
          -∗ Φ ⟨a, b⟩))
      ⊢ WP c (atBufs k0_part32 c v2 v13 v24 v867 c128) Φ := by
  simp only [atBufs, k0_part32_eq_skeleton]; unfold k0_part32_skel
  simp only [Prog.lift, Prog.bind_op, Prog.bind_ret, Prog.pure_eq_ret]
  rw [srcBlk_dst5 m ρ c 0 1,
    show srcBlk m ρ c 0 5 1 = ownsTc c (sub 0 (chk 0 c 5) 1) fullShare (val m ρ 5 c 0 1) from rfl]
  iintro ⟨#Hrec, #HL, Hts, Htr, HO, Hsrc, Hdst, Hcr0, Hat0, Hk⟩

  iapply (wp_send_ret_sub m ρ K c 0 5 1 _ (dev25_eq c) (chk 0 c 5) (off8_sub c 1 1) (val m ρ 5 c 0 1) (val m ρ 2 (dn 0 c) 0 1)
      iprop(emp) (owedFrom c 1) W (recvPay_of_fwd5 m ρ c 0 1) (sendPay_of_fwd5 m ρ c 0 1)) $$ [Hts Htr HO Hsrc Hdst]
  · isplitr; · iexact Hrec
    isplitl [Hsrc]; · iexact Hsrc
    isplitl [Hdst]; · iexact Hdst
    isplitr; · iempintro
    isplitl [HO]; · iexact HO
    isplitl [Hts]; · iexact Hts
    iexact Htr
  iintro ⟨Hc, HO⟩

  iapply (wp_wait_recv m ρ K c 1 4 1 (srcM := (oM.slice (Rect.unit (s := S2048x1024) (k0_off9 c 1#32 128#32) S128x1024.size (k0_off9_inb c 0 1)) (fun _ => rfl)))
      (dstM := (oM.slice (Rect.unit (s := S2048x1024) (k0_off9 c 1#32 128#32) S128x1024.size (k0_off9_inb c 0 1)) (fun _ => rfl))) rfl (owedFrom c 1) W) $$ [Hcr0 HO Hat0]
  · isplitr; · iexact Hrec
    isplitl [Hcr0]; · iexact Hcr0
    isplitl [HO]; · iexact HO
    isplitr; · iapply (mayWait_recv c 1 4 1 1 (by decide)); iexact HL
    iexact Hat0
  iintro ⟨HO, Hat0, Hpay0⟩
  unfold WP; rw [wp_ret]; imodintro
  iapply Hk
  isplitl [Hc]; · iexact Hc
  isplitl [HO]; · iexact HO
  isplitl [Hat0]; · iexact Hat0
  iapply (Entails.of_eq (recvPay_four m ρ c 1 1)); iexact Hpay0

end Cert.KernelIdealProof

end
-- ==== Proof.KernelIdealPart33.lean ====
import proofs.«900326_g7700000000000327_dist_treered_v7x_i4_m2048_n1024_bf16_1_alg».proof.Proof.KernelIdealGather

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem part33 (K : Dev nD × CellIx → ℕ) (c : Dev nD) (v13 v24 v895 c1024 : BitVec 32) (W : Waits sig Unit)
    {Φ : PUnit → sProp 𝕄} :
    iprop(records m ρ K ∗ (levAts L lv : sProp 𝕄) ∗ dutyTok ER (sendCell c 1 5 1) 0 false
        ∗ dutyTok ER (recvCell (prv c) 1 5 1) 0 false ∗ owes (c : Thread nD τ) (owedFrom c 1) W ∗ srcBlk m ρ c 1 5 1
        ∗ srcBlk m ρ (up 1 (up 1 (up 1 c))) 1 2 1 ∗ cred (tallyAt (recvCell c 0 5 0) () N)
        ∗ atPos ER (recvCell c 0 5 0) 0 ∅ 0 ∗ cred (tallyAt (recvCell c 1 5 0) () N)
        ∗ atPos ER (recvCell c 1 5 0) 0 ∅ 0
        ∗ ((cred (tallyAt (sendCell c 1 5 1) () N)
            ∗ owes (c : Thread nD τ) (owedFrom c 0) (insert (SemLoc.dma (recvS 1 5 0).sem, ()) (insert (SemLoc.dma (recvS 0 5 0).sem, ()) W))
            ∗ atPos ER (recvCell c 0 5 0) 1 ∅ 0
            ∗ srcBlk m ρ c 0 6 0
            ∗ atPos ER (recvCell c 1 5 0) 1 ∅ 0
            ∗ srcBlk m ρ c 1 6 0)
          -∗ Φ ⟨⟩))
      ⊢ WP c (atBufs k0_part33 c v13 v24 v895 c1024) Φ := by
  simp only [atBufs, k0_part33_eq_skeleton]; unfold k0_part33_skel
  simp only [Prog.lift, Prog.bind_op, Prog.bind_ret, Prog.pure_eq_ret]
  rw [srcBlk_dst5 m ρ c 1 1,
    show srcBlk m ρ c 1 5 1 = ownsTc c (sub 1 (chk 1 c 5) 1) fullShare (val m ρ 5 c 1 1) from rfl]
  iintro ⟨#Hrec, #HL, Hts, Htr, HO, Hsrc, Hdst, Hcr0, Hat0, Hcr1, Hat1, Hk⟩

  iapply (wp_send_ret_sub m ρ K c 1 5 1 _ (dev26_eq c) (chk 1 c 5) (off9_sub c 1 1) (val m ρ 5 c 1 1) (val m ρ 2 (dn 1 c) 1 1)
      iprop(emp) (owedFrom c 0) W (recvPay_of_fwd5 m ρ c 1 1) (sendPay_of_fwd5 m ρ c 1 1)) $$ [Hts Htr HO Hsrc Hdst]
  · isplitr; · iexact Hrec
    isplitl [Hsrc]; · iexact Hsrc
    isplitl [Hdst]; · iexact Hdst
    isplitr; · iempintro
    isplitl [HO]; · iexact HO
    isplitl [Hts]; · iexact Hts
    iexact Htr
  iintro ⟨Hc, HO⟩

  iapply (wp_wait_recv m ρ K c 0 5 0 (srcM := (oM.slice (Rect.unit (s := S2048x1024) (k0_off8 c 2#32 0#32) S128x1024.size (k0_off8_inb c 1 0)) (fun _ => rfl)))
      (dstM := (oM.slice (Rect.unit (s := S2048x1024) (k0_off8 c 2#32 0#32) S128x1024.size (k0_off8_inb c 1 0)) (fun _ => rfl))) rfl (owedFrom c 0) W) $$ [Hcr0 HO Hat0]
  · isplitr; · iexact Hrec
    isplitl [Hcr0]; · iexact Hcr0
    isplitl [HO]; · iexact HO
    isplitr; · iapply (mayWait_recv c 0 5 0 0 (by decide)); iexact HL
    iexact Hat0
  iintro ⟨HO, Hat0, Hpay0⟩

  iapply (wp_wait_recv m ρ K c 1 5 0 (srcM := (oM.slice (Rect.unit (s := S2048x1024) (k0_off9 c 2#32 0#32) S128x1024.size (k0_off9_inb c 1 0)) (fun _ => rfl)))
      (dstM := (oM.slice (Rect.unit (s := S2048x1024) (k0_off9 c 2#32 0#32) S128x1024.size (k0_off9_inb c 1 0)) (fun _ => rfl))) rfl (owedFrom c 0) (insert (SemLoc.dma (recvS 0 5 0).sem, ()) W)) $$ [Hcr1 HO Hat1]
  · isplitr; · iexact Hrec
    isplitl [Hcr1]; · iexact Hcr1
    isplitl [HO]; · iexact HO
    isplitr; · iapply (mayWait_recv c 1 5 0 0 (by decide)); iexact HL
    iexact Hat1
  iintro ⟨HO, Hat1, Hpay1⟩
  unfold WP; rw [wp_ret]; imodintro
  iapply Hk
  isplitl [Hc]; · iexact Hc
  isplitl [HO]; · iexact HO
  isplitl [Hat0]; · iexact Hat0
  isplitl [Hpay0]; · iapply (Entails.of_eq (recvPay_five m ρ c 0 0)); iexact Hpay0
  isplitl [Hat1]; · iexact Hat1
  iapply (Entails.of_eq (recvPay_five m ρ c 1 0)); iexact Hpay1

end Cert.KernelIdealProof

end
-- ==== Proof.KernelIdealBody.lean ====
import proofs.«900326_g7700000000000327_dist_treered_v7x_i4_m2048_n1024_bf16_1_alg».proof.Proof.KernelIdealBig
import proofs.«900326_g7700000000000327_dist_treered_v7x_i4_m2048_n1024_bf16_1_alg».proof.Proof.KernelIdealFinish
import proofs.«900326_g7700000000000327_dist_treered_v7x_i4_m2048_n1024_bf16_1_alg».proof.Proof.KernelIdealPart01
import proofs.«900326_g7700000000000327_dist_treered_v7x_i4_m2048_n1024_bf16_1_alg».proof.Proof.KernelIdealPart02
import proofs.«900326_g7700000000000327_dist_treered_v7x_i4_m2048_n1024_bf16_1_alg».proof.Proof.KernelIdealPart03
import proofs.«900326_g7700000000000327_dist_treered_v7x_i4_m2048_n1024_bf16_1_alg».proof.Proof.KernelIdealPart04
import proofs.«900326_g7700000000000327_dist_treered_v7x_i4_m2048_n1024_bf16_1_alg».proof.Proof.KernelIdealPart05
import proofs.«900326_g7700000000000327_dist_treered_v7x_i4_m2048_n1024_bf16_1_alg».proof.Proof.KernelIdealPart06
import proofs.«900326_g7700000000000327_dist_treered_v7x_i4_m2048_n1024_bf16_1_alg».proof.Proof.KernelIdealPart07
import proofs.«900326_g7700000000000327_dist_treered_v7x_i4_m2048_n1024_bf16_1_alg».proof.Proof.KernelIdealPart08
import proofs.«900326_g7700000000000327_dist_treered_v7x_i4_m2048_n1024_bf16_1_alg».proof.Proof.KernelIdealPart09
import proofs.«900326_g7700000000000327_dist_treered_v7x_i4_m2048_n1024_bf16_1_alg».proof.Proof.KernelIdealPart10
import proofs.«900326_g7700000000000327_dist_treered_v7x_i4_m2048_n1024_bf16_1_alg».proof.Proof.KernelIdealPart11
import proofs.«900326_g7700000000000327_dist_treered_v7x_i4_m2048_n1024_bf16_1_alg».proof.Proof.KernelIdealPart12
import proofs.«900326_g7700000000000327_dist_treered_v7x_i4_m2048_n1024_bf16_1_alg».proof.Proof.KernelIdealPart13
import proofs.«900326_g7700000000000327_dist_treered_v7x_i4_m2048_n1024_bf16_1_alg».proof.Proof.KernelIdealPart14
import proofs.«900326_g7700000000000327_dist_treered_v7x_i4_m2048_n1024_bf16_1_alg».proof.Proof.KernelIdealPart15
import proofs.«900326_g7700000000000327_dist_treered_v7x_i4_m2048_n1024_bf16_1_alg».proof.Proof.KernelIdealPart16
import proofs.«900326_g7700000000000327_dist_treered_v7x_i4_m2048_n1024_bf16_1_alg».proof.Proof.KernelIdealPart17
import proofs.«900326_g7700000000000327_dist_treered_v7x_i4_m2048_n1024_bf16_1_alg».proof.Proof.KernelIdealPart18
import proofs.«900326_g7700000000000327_dist_treered_v7x_i4_m2048_n1024_bf16_1_alg».proof.Proof.KernelIdealPart19
import proofs.«900326_g7700000000000327_dist_treered_v7x_i4_m2048_n1024_bf16_1_alg».proof.Proof.KernelIdealPart20
import proofs.«900326_g7700000000000327_dist_treered_v7x_i4_m2048_n1024_bf16_1_alg».proof.Proof.KernelIdealPart21
import proofs.«900326_g7700000000000327_dist_treered_v7x_i4_m2048_n1024_bf16_1_alg».proof.Proof.KernelIdealPart22
import proofs.«900326_g7700000000000327_dist_treered_v7x_i4_m2048_n1024_bf16_1_alg».proof.Proof.KernelIdealPart23
import proofs.«900326_g7700000000000327_dist_treered_v7x_i4_m2048_n1024_bf16_1_alg».proof.Proof.KernelIdealPart24
import proofs.«900326_g7700000000000327_dist_treered_v7x_i4_m2048_n1024_bf16_1_alg».proof.Proof.KernelIdealPart25
import proofs.«900326_g7700000000000327_dist_treered_v7x_i4_m2048_n1024_bf16_1_alg».proof.Proof.KernelIdealPart26
import proofs.«900326_g7700000000000327_dist_treered_v7x_i4_m2048_n1024_bf16_1_alg».proof.Proof.KernelIdealPart27
import proofs.«900326_g7700000000000327_dist_treered_v7x_i4_m2048_n1024_bf16_1_alg».proof.Proof.KernelIdealPart28
import proofs.«900326_g7700000000000327_dist_treered_v7x_i4_m2048_n1024_bf16_1_alg».proof.Proof.KernelIdealPart29
import proofs.«900326_g7700000000000327_dist_treered_v7x_i4_m2048_n1024_bf16_1_alg».proof.Proof.KernelIdealPart30
import proofs.«900326_g7700000000000327_dist_treered_v7x_i4_m2048_n1024_bf16_1_alg».proof.Proof.KernelIdealPart31
import proofs.«900326_g7700000000000327_dist_treered_v7x_i4_m2048_n1024_bf16_1_alg».proof.Proof.KernelIdealPart32
import proofs.«900326_g7700000000000327_dist_treered_v7x_i4_m2048_n1024_bf16_1_alg».proof.Proof.KernelIdealPart33

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem ex_slot (c : Dev nD) (d : Fin 2) (s : Fin 3) (j : Fin 2) (v : Vec F S128x1024 .bf16) :
    (owns (c : Thread nD τ) (rb d s j) fullShare v : sProp 𝕄) ⊢ iprop(∃ v, slot c d s j v) := by
  unfold slot; iintro H; iexists v; iexact H

theorem scr_slots (c : Dev nD) (f : Buf (Elt F) ((c : Thread nD τ).loc cc0_scratch0)) :
    scr c f ⊢ iprop(slots (F := F) c 0 ∗ slots (F := F) c 1) := by
  unfold scr slots
  rw [← owns_whole (c : Thread nD τ) cc0_scratch0 fullShare f]
  refine BIBase.Entails.trans (owns_rbuf_split c f) ?_
  rw [bigSep_univ_prod, bigSep_univ_two]
  refine BIClass.sep_mono ?_ ?_
  · exact bigSep_mono fun sj _ => ex_slot c 0 sj.1 sj.2 _
  · exact bigSep_mono fun sj _ => ex_slot c 1 sj.1 sj.2 _

theorem out_blocks (c : Dev nD) (f : Buf (Elt F) ((c : Thread nD τ).loc cc0_stg1_0)) :
    ((((c : Thread nD τ).loc cc0_stg1_0) ↦{fullShare} f) : sProp 𝕄)
      ⊢ bigSep Finset.univ fun t : Fin 2 × Fin 4 × Fin 2 =>
          ownsTc c (sub t.1 (chkOff c t.2.1) t.2.2) fullShare (fun i => f ((subR t.1 (chkOff c t.2.1) t.2.2).emb i)) := by
  rw [← owns_whole (c : Thread nD τ) cc0_stg1_0 fullShare f]
  refine BIBase.Entails.trans (owns_out_split c f) (Entails.of_eq ?_)
  rw [bigSep_univ_equiv (Equiv.prodCongr (Equiv.refl (Fin 2)) (Equiv.prodCongr (chkOffEquiv c) (Equiv.refl (Fin 2))))]
  rfl

theorem blk_conv (c : Dev nD) (d : Fin 2) (r : Fin 4) (s : ℕ) (h : chkOff c r = chk d c s) (j : Fin 2) :
    (ownsTc c (sub d (chkOff c r) j) fullShare (xb m ρ c d (chkOff c r) j) : sProp 𝕄)
      ⊢ ownsTc c (sub d (chk d c s) j) fullShare (xb m ρ c d (chk d c s) j) := by rw [h]
theorem srcBlk0_intro (c : Dev nD) (d j : Fin 2) :
    (ownsTc c (sub d (chk d c 0) j) fullShare (xb m ρ c d (chk d c 0) j) : sProp 𝕄) ⊢ srcBlk m ρ c d 0 j := .rfl

theorem chkOff0_0 (c : Dev nD) : chkOff c 0 = chk 0 c 0 := by revert c; decide
theorem chkOff3_0 (c : Dev nD) : chkOff c 3 = chk 0 c 1 := by revert c; decide
theorem chkOff2_0 (c : Dev nD) : chkOff c 2 = chk 0 c 2 := by revert c; decide
theorem chkOff1_0 (c : Dev nD) : chkOff c 1 = chk 0 c 3 := by revert c; decide
theorem chkOff0_1 (c : Dev nD) : chkOff c 0 = chk 1 c 0 := by revert c; decide
theorem chkOff1_1 (c : Dev nD) : chkOff c 1 = chk 1 c 1 := by revert c; decide
theorem chkOff2_1 (c : Dev nD) : chkOff c 2 = chk 1 c 2 := by revert c; decide
theorem chkOff3_1 (c : Dev nD) : chkOff c 3 = chk 1 c 3 := by revert c; decide

theorem toks24 (c : Dev nD) :
    (bigSep Finset.univ fun t : Lane =>
        (iprop(dutyTok ER (sendCell c t.1 t.2.1 t.2.2) 0 false ∗ dutyTok ER (recvCell (dn t.1 c) t.1 t.2.1 t.2.2) 0 false) : sProp 𝕄))
      ⊢ iprop((dutyTok ER (sendCell c 0 0 0) 0 false ∗ dutyTok ER (recvCell (nxt c) 0 0 0) 0 false) ∗ (dutyTok ER (sendCell c 0 0 1) 0 false ∗ dutyTok ER (recvCell (nxt c) 0 0 1) 0 false) ∗ (dutyTok ER (sendCell c 0 1 0) 0 false ∗ dutyTok ER (recvCell (nxt c) 0 1 0) 0 false) ∗ (dutyTok ER (sendCell c 0 1 1) 0 false ∗ dutyTok ER (recvCell (nxt c) 0 1 1) 0 false) ∗ (dutyTok ER (sendCell c 0 2 0) 0 false ∗ dutyTok ER (recvCell (nxt c) 0 2 0) 0 false) ∗ (dutyTok ER (sendCell c 0 2 1) 0 false ∗ dutyTok ER (recvCell (nxt c) 0 2 1) 0 false) ∗ (dutyTok ER (sendCell c 0 3 0) 0 false ∗ dutyTok ER (recvCell (nxt c) 0 3 0) 0 false) ∗ (dutyTok ER (sendCell c 0 3 1) 0 false ∗ dutyTok ER (recvCell (nxt c) 0 3 1) 0 false) ∗ (dutyTok ER (sendCell c 0 4 0) 0 false ∗ dutyTok ER (recvCell (nxt c) 0 4 0) 0 false) ∗ (dutyTok ER (sendCell c 0 4 1) 0 false ∗ dutyTok ER (recvCell (nxt c) 0 4 1) 0 false) ∗ (dutyTok ER (sendCell c 0 5 0) 0 false ∗ dutyTok ER (recvCell (nxt c) 0 5 0) 0 false) ∗ (dutyTok ER (sendCell c 0 5 1) 0 false ∗ dutyTok ER (recvCell (nxt c) 0 5 1) 0 false) ∗ (dutyTok ER (sendCell c 1 0 0) 0 false ∗ dutyTok ER (recvCell (prv c) 1 0 0) 0 false) ∗ (dutyTok ER (sendCell c 1 0 1) 0 false ∗ dutyTok ER (recvCell (prv c) 1 0 1) 0 false) ∗ (dutyTok ER (sendCell c 1 1 0) 0 false ∗ dutyTok ER (recvCell (prv c) 1 1 0) 0 false) ∗ (dutyTok ER (sendCell c 1 1 1) 0 false ∗ dutyTok ER (recvCell (prv c) 1 1 1) 0 false) ∗ (dutyTok ER (sendCell c 1 2 0) 0 false ∗ dutyTok ER (recvCell (prv c) 1 2 0) 0 false) ∗ (dutyTok ER (sendCell c 1 2 1) 0 false ∗ dutyTok ER (recvCell (prv c) 1 2 1) 0 false) ∗ (dutyTok ER (sendCell c 1 3 0) 0 false ∗ dutyTok ER (recvCell (prv c) 1 3 0) 0 false) ∗ (dutyTok ER (sendCell c 1 3 1) 0 false ∗ dutyTok ER (recvCell (prv c) 1 3 1) 0 false) ∗ (dutyTok ER (sendCell c 1 4 0) 0 false ∗ dutyTok ER (recvCell (prv c) 1 4 0) 0 false) ∗ (dutyTok ER (sendCell c 1 4 1) 0 false ∗ dutyTok ER (recvCell (prv c) 1 4 1) 0 false) ∗ (dutyTok ER (sendCell c 1 5 0) 0 false ∗ dutyTok ER (recvCell (prv c) 1 5 0) 0 false) ∗ (dutyTok ER (sendCell c 1 5 1) 0 false ∗ dutyTok ER (recvCell (prv c) 1 5 1) 0 false)) :=
  Entails.of_eq (bigSep_lane24 _)
theorem slots_six (c' : Dev nD) (d : Fin 2) :
    slots (F := F) c' d ⊢ iprop((∃ v, slot c' d 0 0 v) ∗ (∃ v, slot c' d 0 1 v) ∗ (∃ v, slot c' d 1 0 v) ∗ (∃ v, slot c' d 1 1 v) ∗ (∃ v, slot c' d 2 0 v) ∗ (∃ v, slot c' d 2 1 v)) := by
  unfold slots; exact Entails.of_eq (bigSep_slots6 _)
theorem blocks16 (c : Dev nD) (f : Buf (Elt F) ((c : Thread nD τ).loc cc0_stg1_0)) :
    (bigSep Finset.univ fun t : Fin 2 × Fin 4 × Fin 2 =>
        (ownsTc c (sub t.1 (chkOff c t.2.1) t.2.2) fullShare (fun i => f ((subR t.1 (chkOff c t.2.1) t.2.2).emb i)) : sProp 𝕄))
      ⊢ iprop((∃ v, ownsTc c (sub 0 (chkOff c 0) 0) fullShare v) ∗ (∃ v, ownsTc c (sub 0 (chkOff c 0) 1) fullShare v) ∗ (∃ v, ownsTc c (sub 0 (chkOff c 1) 0) fullShare v) ∗ (∃ v, ownsTc c (sub 0 (chkOff c 1) 1) fullShare v) ∗ (∃ v, ownsTc c (sub 0 (chkOff c 2) 0) fullShare v) ∗ (∃ v, ownsTc c (sub 0 (chkOff c 2) 1) fullShare v) ∗ (∃ v, ownsTc c (sub 0 (chkOff c 3) 0) fullShare v) ∗ (∃ v, ownsTc c (sub 0 (chkOff c 3) 1) fullShare v) ∗ (∃ v, ownsTc c (sub 1 (chkOff c 0) 0) fullShare v) ∗ (∃ v, ownsTc c (sub 1 (chkOff c 0) 1) fullShare v) ∗ (∃ v, ownsTc c (sub 1 (chkOff c 1) 0) fullShare v) ∗ (∃ v, ownsTc c (sub 1 (chkOff c 1) 1) fullShare v) ∗ (∃ v, ownsTc c (sub 1 (chkOff c 2) 0) fullShare v) ∗ (∃ v, ownsTc c (sub 1 (chkOff c 2) 1) fullShare v) ∗ (∃ v, ownsTc c (sub 1 (chkOff c 3) 0) fullShare v) ∗ (∃ v, ownsTc c (sub 1 (chkOff c 3) 1) fullShare v)) := by
  refine BIBase.Entails.trans (Entails.of_eq (bigSep_blocks16 _)) ?_
  iintro ⟨H000, H001, H010, H011, H020, H021, H030, H031, H100, H101, H110, H111, H120, H121, H130, H131⟩
  isplitl [H000]; · (iexists _; iexact H000)
  isplitl [H001]; · (iexists _; iexact H001)
  isplitl [H010]; · (iexists _; iexact H010)
  isplitl [H011]; · (iexists _; iexact H011)
  isplitl [H020]; · (iexists _; iexact H020)
  isplitl [H021]; · (iexists _; iexact H021)
  isplitl [H030]; · (iexists _; iexact H030)
  isplitl [H031]; · (iexists _; iexact H031)
  isplitl [H100]; · (iexists _; iexact H100)
  isplitl [H101]; · (iexists _; iexact H101)
  isplitl [H110]; · (iexists _; iexact H110)
  isplitl [H111]; · (iexists _; iexact H111)
  isplitl [H120]; · (iexists _; iexact H120)
  isplitl [H121]; · (iexists _; iexact H121)
  isplitl [H130]; · (iexists _; iexact H130)
  iexists _; iexact H131

theorem out_join16 (c : Dev nD) :
    (iprop(srcBlk m ρ c 0 3 0 ∗ srcBlk m ρ c 0 3 1 ∗ srcBlk m ρ c 0 4 0 ∗ srcBlk m ρ c 0 4 1 ∗ srcBlk m ρ c 0 5 0 ∗ srcBlk m ρ c 0 5 1 ∗ srcBlk m ρ c 0 6 0 ∗ srcBlk m ρ c 0 6 1 ∗ srcBlk m ρ c 1 3 0 ∗ srcBlk m ρ c 1 3 1 ∗ srcBlk m ρ c 1 4 0 ∗ srcBlk m ρ c 1 4 1 ∗ srcBlk m ρ c 1 5 0 ∗ srcBlk m ρ c 1 5 1 ∗ srcBlk m ρ c 1 6 0 ∗ srcBlk m ρ c 1 6 1) : sProp 𝕄)
      ⊢ (((c : Thread nD τ).loc cc0_stg1_0) ↦{fullShare} outFinal m ρ c) :=
  BIBase.Entails.trans (Entails.of_eq (bigSep_blocks16 (fun t : Fin 2 × Fin 4 × Fin 2 => srcBlk m ρ c t.1 (3 + t.2.1.val) t.2.2)).symm) (out_join m ρ c)

theorem rbuf12 (c : Dev nD) (v000 v001 v010 v011 v020 v021 v100 v101 v110 v111 v120 v121 : Vec F S128x1024 .bf16) :
    (iprop(slot c 0 0 0 v000 ∗ slot c 0 0 1 v001 ∗ slot c 0 1 0 v010 ∗ slot c 0 1 1 v011 ∗ slot c 0 2 0 v020 ∗ slot c 0 2 1 v021 ∗ slot c 1 0 0 v100 ∗ slot c 1 0 1 v101 ∗ slot c 1 1 0 v110 ∗ slot c 1 1 1 v111 ∗ slot c 1 2 0 v120 ∗ slot c 1 2 1 v121) : sProp 𝕄)
      ⊢ iprop(∃ f, scr c f) := by
  refine BIBase.Entails.trans ?_ (rbuf_join c)
  have e : (bigSep Finset.univ fun t : Fin 2 × Fin 3 × Fin 2 => (iprop(∃ v, slot (F := F) c t.1 t.2.1 t.2.2 v) : sProp 𝕄))
      = iprop(((∃ v, slot (F := F) c 0 0 0 v) ∗ (∃ v, slot (F := F) c 0 0 1 v) ∗ (∃ v, slot (F := F) c 0 1 0 v) ∗ (∃ v, slot (F := F) c 0 1 1 v) ∗ (∃ v, slot (F := F) c 0 2 0 v) ∗ (∃ v, slot (F := F) c 0 2 1 v)) ∗ ((∃ v, slot (F := F) c 1 0 0 v) ∗ (∃ v, slot (F := F) c 1 0 1 v) ∗ (∃ v, slot (F := F) c 1 1 0 v) ∗ (∃ v, slot (F := F) c 1 1 1 v) ∗ (∃ v, slot (F := F) c 1 2 0 v) ∗ (∃ v, slot (F := F) c 1 2 1 v))) := by
    rw [bigSep_univ_prod, bigSep_univ_two, bigSep_slots6, bigSep_slots6]
  rw [e]
  iintro ⟨H000, H001, H010, H011, H020, H021, H100, H101, H110, H111, H120, H121⟩
  isplitl [H000 H001 H010 H011 H020 H021]
  · isplitl [H000]; · (iexists _; iexact H000)
    isplitl [H001]; · (iexists _; iexact H001)
    isplitl [H010]; · (iexists _; iexact H010)
    isplitl [H011]; · (iexists _; iexact H011)
    isplitl [H020]; · (iexists _; iexact H020)
    iexists _; iexact H021
  isplitl [H100]; · (iexists _; iexact H100)
  isplitl [H101]; · (iexists _; iexact H101)
  isplitl [H110]; · (iexists _; iexact H110)
  isplitl [H111]; · (iexists _; iexact H111)
  isplitl [H120]; · (iexists _; iexact H120)
  iexists _; iexact H121

theorem sendPay_late (c : Dev nD) (d : Fin 2) (k : Fin 6) (j : Fin 2) (h : ¬ k.val ≤ 2) : sendPay m ρ c d k j = srcBlk m ρ c d k.val j := by
  unfold sendPay; rw [if_neg h]

/-- From step 3 on, the wait on a send cell returns the block that was sent. -/
theorem wp_wait_send_late (K : Dev nD × CellIx → ℕ) (c : Dev nD) (d : Fin 2) (k : Fin 6) (j : Fin 2) (s : ℕ) (hs : k.val = s)
    (hk : ¬ k.val ≤ 2) {srcM dstM : Memref sig .tc .vmem S128x1024 .bf16} (hcred : dstM.view.dmaCredit = N)
    {h1 : srcM.view.WordExact} {h2 : dstM.view.WordExact}
    {α : Type} {Q : α → sProp 𝕄} {kk : PUnit → Prog (TpuEff nD τ sig (Elt F) Λ₀ .tc) α} (W : Waits sig Unit) :
    iprop(records m ρ K ∗ cred (tallyAt (sendCell c d k j) () N) ∗ owes (c : Thread nD τ) 0 W
        ∗ atPos ER (sendCell c d k j) 0 ∅ 0)
      ⊢ iprop(((owes (c : Thread nD τ) 0 (insert (SemLoc.dma (sendS d k j).sem, ()) W) ∗ atPos ER (sendCell c d k j) 1 ∅ 0
              ∗ srcBlk m ρ c d s j) -∗ WP c (kk ⟨⟩) Q)
          -∗ WP c (.op (.waitDma2 (sendS d k j).sem srcM dstM h1 h2) kk) Q) := by
  subst hs; rw [← sendPay_late m ρ c d k j hk]; exact wp_wait_send m ρ K c d k j hcred W

set_option maxHeartbeats 0 in

theorem sound_body (K : Dev nD × CellIx → ℕ) (c : Dev nD) (Kt : PUnit → sProp 𝕄) (W : Waits sig Unit)
    (f0 : Buf (Elt F) ((c : Thread nD τ).loc cc0_scratch0)) (fo : Buf (Elt F) ((c : Thread nD τ).loc cc0_stg1_0)) :
    iprop(bodyIn m ρ K c W f0 fo ∗ (∀ W', bodyOut m ρ c W' -∗ Kt ⟨⟩))
      ⊢ WP c (atBufs cc0_body) Kt := by
  rw [cc0_body_eq_skeleton]; unfold cc0_body_skel
  unfold bodyIn ghost positions payToks credsOf WP
  iintro ⟨⟨⟨#Hrec, Hpos, HtBN, HtBP, Htoks⟩, ⟨HcB, HcR⟩, #Hlev, Hscr, HO, Hx, Hout⟩, Hk⟩

  ihave Hp := (Entails.of_eq (bigSep_cellIx (fun ix : CellIx => (atPos ER (kcell (c, ix)) 0 ∅ 0 : sProp 𝕄)))) $$ Hpos
  icases Hp with ⟨HaB, HpS, HpR⟩
  ihave HpS' := (Entails.of_eq (bigSep_lane24 _)) $$ HpS
  icases HpS' with ⟨HaS000, HaS001, HaS010, HaS011, HaS020, HaS021, HaS030, HaS031, HaS040, HaS041, HaS050, HaS051, HaS100, HaS101, HaS110, HaS111, HaS120, HaS121, HaS130, HaS131, HaS140, HaS141, HaS150, HaS151⟩
  ihave HpR' := (Entails.of_eq (bigSep_lane24 _)) $$ HpR
  icases HpR' with ⟨HaR000, HaR001, HaR010, HaR011, HaR020, HaR021, HaR030, HaR031, HaR040, HaR041, HaR050, HaR051, HaR100, HaR101, HaR110, HaR111, HaR120, HaR121, HaR130, HaR131, HaR140, HaR141, HaR150, HaR151⟩
  ihave Htk := (toks24 c) $$ Htoks
  icases Htk with ⟨⟨HtS000, HtR000⟩, ⟨HtS001, HtR001⟩, ⟨HtS010, HtR010⟩, ⟨HtS011, HtR011⟩, ⟨HtS020, HtR020⟩, ⟨HtS021, HtR021⟩, ⟨HtS030, HtR030⟩, ⟨HtS031, HtR031⟩, ⟨HtS040, HtR040⟩, ⟨HtS041, HtR041⟩, ⟨HtS050, HtR050⟩, ⟨HtS051, HtR051⟩, ⟨HtS100, HtR100⟩, ⟨HtS101, HtR101⟩, ⟨HtS110, HtR110⟩, ⟨HtS111, HtR111⟩, ⟨HtS120, HtR120⟩, ⟨HtS121, HtR121⟩, ⟨HtS130, HtR130⟩, ⟨HtS131, HtR131⟩, ⟨HtS140, HtR140⟩, ⟨HtS141, HtR141⟩, ⟨HtS150, HtR150⟩, ⟨HtS151, HtR151⟩⟩
  ihave Hcr := (Entails.of_eq (bigSep_lane24 _)) $$ HcR
  icases Hcr with ⟨HcR000, HcR001, HcR010, HcR011, HcR020, HcR021, HcR030, HcR031, HcR040, HcR041, HcR050, HcR051, HcR100, HcR101, HcR110, HcR111, HcR120, HcR121, HcR130, HcR131, HcR140, HcR141, HcR150, HcR151⟩

  ihave Hsl := (scr_slots c f0) $$ Hscr
  icases Hsl with ⟨Hsl0, Hsl1⟩
  ihave Hbl := (out_blocks c fo) $$ Hout
  ihave Hbl' := (blocks16 c fo) $$ Hbl
  icases Hbl' with ⟨⟨%w000, Hb000⟩, ⟨%w001, Hb001⟩, ⟨%w010, Hb010⟩, ⟨%w011, Hb011⟩, ⟨%w020, Hb020⟩, ⟨%w021, Hb021⟩, ⟨%w030, Hb030⟩, ⟨%w031, Hb031⟩, ⟨%w100, Hb100⟩, ⟨%w101, Hb101⟩, ⟨%w110, Hb110⟩, ⟨%w111, Hb111⟩, ⟨%w120, Hb120⟩, ⟨%w121, Hb121⟩, ⟨%w130, Hb130⟩, ⟨%w131, Hb131⟩⟩

  rw [wp_bind]
  iapply (part01 m ρ c (K (c, none)) (K (nxt c, none)) (K (prv c, none)) W)
  isplitr; · (iapply (inv_at m ρ K (c, none)); iexact Hrec)
  isplitr; · (iapply (inv_at m ρ K (nxt c, none)); iexact Hrec)
  isplitr; · (iapply (inv_at m ρ K (prv c, none)); iexact Hrec)
  isplitr; · (iapply (rch_at m ρ K (nxt c, none)); iexact Hrec)
  isplitr; · (iapply (rch_at m ρ K (prv c, none)); iexact Hrec)
  isplitr; · iexact Hlev
  iframe
  iintro %a1 %b1 %e1 %f1 ⟨HO, HaB, Hslp, Hsln⟩
  try dsimp only
  ihave Hslp' := (slots_six (prv c) 1) $$ Hslp
  icases Hslp' with ⟨⟨%up00, Hsp00⟩, ⟨%up01, Hsp01⟩, ⟨%up10, Hsp10⟩, ⟨%up11, Hsp11⟩, ⟨%up20, Hsp20⟩, ⟨%up21, Hsp21⟩⟩
  ihave Hsln' := (slots_six (nxt c) 0) $$ Hsln
  icases Hsln' with ⟨⟨%un00, Hsn00⟩, ⟨%un01, Hsn01⟩, ⟨%un10, Hsn10⟩, ⟨%un11, Hsn11⟩, ⟨%un20, Hsn20⟩, ⟨%un21, Hsn21⟩⟩

  rw [wp_bind]
  iapply (part02 m ρ c _ _ _ _ _ _)
  iframe
  iintro ⟨Hx, Hb000, Hb001, Hb100, Hb101⟩
  try dsimp only
  ihave Hb000 := (BIBase.Entails.trans (blk_conv m ρ c 0 0 0 (chkOff0_0 c) 0) (srcBlk0_intro m ρ c 0 0)) $$ Hb000
  ihave Hb001 := (BIBase.Entails.trans (blk_conv m ρ c 0 0 0 (chkOff0_0 c) 1) (srcBlk0_intro m ρ c 0 1)) $$ Hb001
  ihave Hb100 := (BIBase.Entails.trans (blk_conv m ρ c 1 0 0 (chkOff0_1 c) 0) (srcBlk0_intro m ρ c 1 0)) $$ Hb100
  ihave Hb101 := (BIBase.Entails.trans (blk_conv m ρ c 1 0 0 (chkOff0_1 c) 1) (srcBlk0_intro m ρ c 1 1)) $$ Hb101

  rw [wp_bind]
  iapply (part03 m ρ K c _ _ _ _ _ _ _)
  isplitr; · iexact Hrec
  iframe
  iintro ⟨HcS000, HcS100, HO⟩
  try dsimp only

  rw [wp_bind]
  iapply (part04 m ρ K c _ _ _ _ _ _ _)
  isplitr; · iexact Hrec
  iframe
  iintro %r4 ⟨HcS001, HcS101, HO⟩
  try dsimp only

  rw [wp_bind]
  iapply (part05 m ρ c _ _ _ _ _ _ _ _)
  iframe
  iintro %a5 ⟨Hx, Hb010, Hb011, Hb110, Hb111⟩
  try dsimp only

  rw [wp_bind]
  iapply (part06 m ρ c _ _ _ _ _ _ _ _)
  iframe
  iintro ⟨Hb020, Hb021, Hx, Hb120, Hb121, Hb030, Hb031⟩
  try dsimp only
  ihave Hb030 := (blk_conv m ρ c 0 3 1 (chkOff3_0 c) 0) $$ Hb030

  rw [wp_bind]
  iapply (part07 m ρ K c _ _ _ _ _)
  isplitr; · iexact Hrec
  isplitr; · iexact Hlev
  iframe
  iintro %a7 %b7 ⟨Hb130, Hb131, HO, HaR000, Hsl000, Htr000, Hb030⟩
  try dsimp only
  ihave Hb031 := (blk_conv m ρ c 0 3 1 (chkOff3_0 c) 1) $$ Hb031
  ihave Hb110 := (blk_conv m ρ c 1 1 1 (chkOff1_1 c) 0) $$ Hb110
  ihave Hb111 := (blk_conv m ρ c 1 1 1 (chkOff1_1 c) 1) $$ Hb111
  ihave Hb020 := (blk_conv m ρ c 0 2 2 (chkOff2_0 c) 0) $$ Hb020
  ihave Hb021 := (blk_conv m ρ c 0 2 2 (chkOff2_0 c) 1) $$ Hb021
  ihave Hb120 := (blk_conv m ρ c 1 2 2 (chkOff2_1 c) 0) $$ Hb120
  ihave Hb121 := (blk_conv m ρ c 1 2 2 (chkOff2_1 c) 1) $$ Hb121
  ihave Hb010 := (blk_conv m ρ c 0 1 3 (chkOff1_0 c) 0) $$ Hb010
  ihave Hb011 := (blk_conv m ρ c 0 1 3 (chkOff1_0 c) 1) $$ Hb011
  ihave Hb130 := (blk_conv m ρ c 1 3 3 (chkOff3_1 c) 0) $$ Hb130
  ihave Hb131 := (blk_conv m ρ c 1 3 3 (chkOff3_1 c) 1) $$ Hb131

  rw [wp_bind]
  iapply (part08 m ρ K c _ _ _ _ _ _ _)
  isplitr; · iexact Hrec
  isplitr; · iexact Hlev
  iframe
  iintro %a8 %b8 %e8 ⟨HcS010, HO, HaR100, Hsl100, Htr100⟩
  try dsimp only

  rw [wp_bind]
  iapply (part09 m ρ c _ _ _ _)
  iframe
  iintro ⟨Hsl100, Hs110⟩
  try dsimp only

  rw [wp_bind]
  iapply (part10 m ρ K c _ _ _ _)
  isplitr; · iexact Hrec
  isplitr; · iexact Hlev
  iframe
  iintro %a10 %b10 ⟨HcS110, HO, HaR001, Hsl001, Htr001, Hb031⟩
  try dsimp only

  rw [wp_bind]
  iapply (part11 m ρ K c _ _ _ _ _ _)
  isplitr; · iexact Hrec
  isplitr; · iexact Hlev
  iframe
  iintro ⟨Hsl001, HcS011, HO, HaR101, Hsl101, Htr101⟩
  try dsimp only

  rw [wp_bind]
  iapply (part12 m ρ c _ _)
  iframe
  iintro ⟨Hsl101, Hs111⟩
  try dsimp only

  rw [wp_bind]
  iapply (part13 m ρ K c _ _ _ _)
  isplitr; · iexact Hrec
  isplitr; · iexact Hlev
  iframe
  iintro %a13 %b13 ⟨HcS111, HO, HaR010, Hsl010, Htr010a, Htr010b, Hb020⟩
  try dsimp only

  rw [wp_bind]
  iapply (part14 m ρ K c _ _ _ _ _ _)
  isplitr; · iexact Hrec
  iframe
  iintro ⟨Hsl010, HcS020, HO⟩
  try dsimp only

  rw [wp_bind]
  iapply (part15 m ρ K c _ _)
  isplitr; · iexact Hrec
  isplitr; · iexact Hlev
  iframe
  iintro ⟨HO, HaR110, Hsl110, Htr110a, Htr110b, Hs120⟩
  try dsimp only

  rw [wp_bind]
  iapply (part16 m ρ K c _ _ _ _ _ _)
  isplitr; · iexact Hrec
  isplitr; · iexact Hlev
  iframe
  iintro %a16 %b16 ⟨HcS120, HO, HaR011, Hsl011, Htr011a, Htr011b⟩
  try dsimp only

  rw [wp_bind]
  iapply (part17 m ρ K c _ _ _ _ _ _)
  isplitr; · iexact Hrec
  iframe
  iintro ⟨Hsl011, HcS021, HO⟩
  try dsimp only

  rw [wp_bind]
  iapply (part18 m ρ K c _ _)
  isplitr; · iexact Hrec
  isplitr; · iexact Hlev
  iframe
  iintro ⟨HO, HaR111, Hsl111, Htr111a, Htr111b, Hs121⟩
  try dsimp only

  rw [wp_bind]
  iapply (part19 m ρ K c _ _ _ _ _)
  isplitr; · iexact Hrec
  isplitr; · iexact Hlev
  iframe
  iintro %a19 %b19 ⟨HcS121, HO, HaR020, Hsl020, Htr020a, Htr020b, Htr020c⟩
  try dsimp only

  rw [wp_bind]
  iapply (part20 m ρ K c _ _ _ _ _)
  isplitr; · iexact Hrec
  iframe
  iintro ⟨Hsl020, HcS030, HO⟩
  try dsimp only

  rw [wp_bind]
  iapply (part21 m ρ K c _ _)
  isplitr; · iexact Hrec
  isplitr; · iexact Hlev
  iframe
  iintro ⟨HO, HaR120, Hsl120, Htr120a, Htr120b, Htr120c, Hs130⟩
  try dsimp only

  rw [wp_bind]
  iapply (part22 m ρ K c _ _ _ _ _)
  isplitr; · iexact Hrec
  isplitr; · iexact Hlev
  iframe
  iintro %a22 %b22 ⟨HcS130, HO, HaR021, Hsl021, Htr021a, Htr021b, Htr021c⟩
  try dsimp only

  rw [wp_bind]
  iapply (part23 m ρ K c _ _ _ _ _)
  isplitr; · iexact Hrec
  iframe
  iintro ⟨Hsl021, HcS031, HO⟩
  try dsimp only

  rw [wp_bind]
  iapply (part24 m ρ K c _ _ _)
  isplitr; · iexact Hrec
  isplitr; · iexact Hlev
  iframe
  iintro ⟨HO, HaR121, Hsl121, Htr121a, Htr121b, Htr121c, Hs131⟩
  try dsimp only

  rw [wp_bind]
  iapply (part25 m ρ K c _ _ _)
  isplitr; · iexact Hrec
  isplitr; · iexact Hlev
  iframe
  iintro ⟨HcS131, HO, HaR030, Hg0400, Htr030a, Htr030b⟩
  try dsimp only

  rw [wp_bind]
  iapply (part26 m ρ K c _ _ _)
  isplitr; · iexact Hrec
  isplitr; · iexact Hlev
  iframe
  iintro %a26 %b26 ⟨HcS040, HO, HaR130, Hg1400, Htr130a, Htr130b⟩
  try dsimp only

  rw [wp_bind]
  iapply (part27 m ρ K c _ _ _ _ _)
  isplitr; · iexact Hrec
  isplitr; · iexact Hlev
  iframe
  iintro ⟨HcS140, HO, HaR031, Hg0401, Htr031a, Htr031b⟩
  try dsimp only

  rw [wp_bind]
  iapply (part28 m ρ K c _ _ _ _ _)
  isplitr; · iexact Hrec
  isplitr; · iexact Hlev
  iframe
  iintro ⟨HcS041, HO, HaR131, Hg1401, Htr131a, Htr131b⟩
  try dsimp only

  rw [wp_bind]
  iapply (part29 m ρ K c _ _ _ _)
  isplitr; · iexact Hrec
  isplitr; · iexact Hlev
  iframe
  iintro ⟨HcS141, HO, HaR040, Hg0500, Htr040a⟩
  try dsimp only

  rw [wp_bind]
  iapply (part30 m ρ K c _ _ _ _)
  isplitr; · iexact Hrec
  isplitr; · iexact Hlev
  iframe
  iintro ⟨HcS050, HO, HaR140, Hg1500, Htr140a⟩
  try dsimp only

  rw [wp_bind]
  iapply (part31 m ρ K c _ _ _ _)
  isplitr; · iexact Hrec
  isplitr; · iexact Hlev
  iframe
  iintro %a31 %b31 ⟨HcS150, HO, HaR041, Hg0501, Htr041a⟩
  try dsimp only

  rw [wp_bind]
  iapply (part32 m ρ K c _ _ _ _ _ _)
  isplitr; · iexact Hrec
  isplitr; · iexact Hlev
  iframe
  iintro %a32 %b32 ⟨HcS051, HO, HaR141, Hg1501, Htr141a⟩
  try dsimp only

  rw [wp_bind]
  iapply (part33 m ρ K c _ _ _ _ _)
  isplitr; · iexact Hrec
  isplitr; · iexact Hlev
  iframe
  iintro ⟨HcS151, HO, HaR050, Hg0600, HaR150, Hg1600⟩
  try dsimp only

  simp only [k0_part34_eq_skeleton, k0_part35_eq_skeleton, k0_part36_eq_skeleton, k0_part37_eq_skeleton, k0_part38_eq_skeleton, k0_part39_eq_skeleton, k0_part40_eq_skeleton]
  unfold k0_part34_skel k0_part35_skel k0_part36_skel k0_part37_skel k0_part38_skel k0_part39_skel k0_part40_skel
  simp only [Prog.lift, Prog.bind_op, Prog.bind_ret, Prog.pure_eq_ret]
  iapply (wp_wait_recv m ρ K c 0 5 1 (credit_rows _ _) (owedFrom c 0) _) $$ [HO HcR051 HaR051]
  · isplitr; · iexact Hrec
    isplitl [HcR051]; · iexact HcR051
    isplitl [HO]; · iexact HO
    isplitr; · iapply (mayWait_recv c 0 5 1 0 (by decide)); iexact Hlev
    iexact HaR051
  iintro ⟨HO, HaR051, Hg0601⟩
  ihave Hg0601 := (Entails.of_eq (recvPay_five m ρ c 0 1)) $$ Hg0601
  iapply (wp_wait_recv m ρ K c 1 5 1 (credit_rows _ _) (owedFrom c 0) _) $$ [HO HcR151 HaR151]
  · isplitr; · iexact Hrec
    isplitl [HcR151]; · iexact HcR151
    isplitl [HO]; · iexact HO
    isplitr; · iapply (mayWait_recv c 1 5 1 0 (by decide)); iexact Hlev
    iexact HaR151
  iintro ⟨HO, HaR151, Hg1601⟩
  ihave Hg1601 := (Entails.of_eq (recvPay_five m ρ c 1 1)) $$ Hg1601
  ihave HO := (show (owes (c : Thread nD τ) (owedFrom c 0) _ : sProp 𝕄) ⊢ owes (c : Thread nD τ) 0 _ from .rfl) $$ HO
  iapply (wp_wait_send m ρ K c 0 0 0 (credit_rows _ _) _) $$ [HcS000 HO HaS000]
  · isplitr; · iexact Hrec
    iframe
  iintro ⟨HO, HaS000, -⟩
  iapply (wp_wait_send m ρ K c 1 0 0 (credit_rows _ _) _) $$ [HcS100 HO HaS100]
  · isplitr; · iexact Hrec
    iframe
  iintro ⟨HO, HaS100, -⟩
  iapply (wp_wait_send m ρ K c 0 0 1 (credit_rows _ _) _) $$ [HcS001 HO HaS001]
  · isplitr; · iexact Hrec
    iframe
  iintro ⟨HO, HaS001, -⟩
  iapply (wp_wait_send m ρ K c 1 0 1 (credit_rows _ _) _) $$ [HcS101 HO HaS101]
  · isplitr; · iexact Hrec
    iframe
  iintro ⟨HO, HaS101, -⟩
  iapply (wp_wait_send m ρ K c 0 1 0 (credit_rows _ _) _) $$ [HcS010 HO HaS010]
  · isplitr; · iexact Hrec
    iframe
  iintro ⟨HO, HaS010, -⟩
  iapply (wp_wait_send m ρ K c 1 1 0 (credit_rows _ _) _) $$ [HcS110 HO HaS110]
  · isplitr; · iexact Hrec
    iframe
  iintro ⟨HO, HaS110, -⟩
  iapply (wp_wait_send m ρ K c 0 1 1 (credit_rows _ _) _) $$ [HcS011 HO HaS011]
  · isplitr; · iexact Hrec
    iframe
  iintro ⟨HO, HaS011, -⟩
  iapply (wp_wait_send m ρ K c 1 1 1 (credit_rows _ _) _) $$ [HcS111 HO HaS111]
  · isplitr; · iexact Hrec
    iframe
  iintro ⟨HO, HaS111, -⟩
  iapply (wp_wait_send m ρ K c 0 2 0 (credit_rows _ _) _) $$ [HcS020 HO HaS020]
  · isplitr; · iexact Hrec
    iframe
  iintro ⟨HO, HaS020, -⟩
  iapply (wp_wait_send m ρ K c 1 2 0 (credit_rows _ _) _) $$ [HcS120 HO HaS120]
  · isplitr; · iexact Hrec
    iframe
  iintro ⟨HO, HaS120, -⟩
  iapply (wp_wait_send m ρ K c 0 2 1 (credit_rows _ _) _) $$ [HcS021 HO HaS021]
  · isplitr; · iexact Hrec
    iframe
  iintro ⟨HO, HaS021, -⟩
  iapply (wp_wait_send m ρ K c 1 2 1 (credit_rows _ _) _) $$ [HcS121 HO HaS121]
  · isplitr; · iexact Hrec
    iframe
  iintro ⟨HO, HaS121, -⟩
  iapply (wp_wait_send_late m ρ K c 0 3 0 3 rfl (by decide) (credit_rows _ _) _) $$ [HcS030 HO HaS030]
  · isplitr; · iexact Hrec
    iframe
  iintro ⟨HO, HaS030, Hg0300⟩
  iapply (wp_wait_send_late m ρ K c 1 3 0 3 rfl (by decide) (credit_rows _ _) _) $$ [HcS130 HO HaS130]
  · isplitr; · iexact Hrec
    iframe
  iintro ⟨HO, HaS130, Hg1300⟩
  iapply (wp_wait_send_late m ρ K c 0 3 1 3 rfl (by decide) (credit_rows _ _) _) $$ [HcS031 HO HaS031]
  · isplitr; · iexact Hrec
    iframe
  iintro ⟨HO, HaS031, Hg0301⟩
  iapply (wp_wait_send_late m ρ K c 1 3 1 3 rfl (by decide) (credit_rows _ _) _) $$ [HcS131 HO HaS131]
  · isplitr; · iexact Hrec
    iframe
  iintro ⟨HO, HaS131, Hg1301⟩
  iapply (wp_wait_send_late m ρ K c 0 4 0 4 rfl (by decide) (credit_rows _ _) _) $$ [HcS040 HO HaS040]
  · isplitr; · iexact Hrec
    iframe
  iintro ⟨HO, HaS040, Hf0400⟩
  iapply (wp_wait_send_late m ρ K c 1 4 0 4 rfl (by decide) (credit_rows _ _) _) $$ [HcS140 HO HaS140]
  · isplitr; · iexact Hrec
    iframe
  iintro ⟨HO, HaS140, Hf1400⟩
  iapply (wp_wait_send_late m ρ K c 0 4 1 4 rfl (by decide) (credit_rows _ _) _) $$ [HcS041 HO HaS041]
  · isplitr; · iexact Hrec
    iframe
  iintro ⟨HO, HaS041, Hf0401⟩
  iapply (wp_wait_send_late m ρ K c 1 4 1 4 rfl (by decide) (credit_rows _ _) _) $$ [HcS141 HO HaS141]
  · isplitr; · iexact Hrec
    iframe
  iintro ⟨HO, HaS141, Hf1401⟩
  iapply (wp_wait_send_late m ρ K c 0 5 0 5 rfl (by decide) (credit_rows _ _) _) $$ [HcS050 HO HaS050]
  · isplitr; · iexact Hrec
    iframe
  iintro ⟨HO, HaS050, Hf0500⟩
  iapply (wp_wait_send_late m ρ K c 1 5 0 5 rfl (by decide) (credit_rows _ _) _) $$ [HcS150 HO HaS150]
  · isplitr; · iexact Hrec
    iframe
  iintro ⟨HO, HaS150, Hf1500⟩
  iapply (wp_wait_send_late m ρ K c 0 5 1 5 rfl (by decide) (credit_rows _ _) _) $$ [HcS051 HO HaS051]
  · isplitr; · iexact Hrec
    iframe
  iintro ⟨HO, HaS051, Hf0501⟩
  iapply (wp_wait_send_late m ρ K c 1 5 1 5 rfl (by decide) (credit_rows _ _) _) $$ [HcS151 HO HaS151]
  · isplitr; · iexact Hrec
    iframe
  iintro ⟨HO, HaS151, Hf1501⟩

  imod (own_zero m ρ K c) $$ [HaS000 HaR000 HaS001 HaR001 HaS010 HaR010 HaS011 HaR011 HaS020 HaR020 HaS021 HaR021 HaS030 HaR030 HaS031 HaR031 HaS040 HaR040 HaS041 HaR041 HaS050 HaR050 HaS051 HaR051 HaS100 HaR100 HaS101 HaR101 HaS110 HaR110 HaS111 HaR111 HaS120 HaR120 HaS121 HaR121 HaS130 HaR130 HaS131 HaR131 HaS140 HaR140 HaS141 HaR141 HaS150 HaR150 HaS151 HaR151] with Hz
  · isplitr; · iexact Hrec
    simp only [bigSep_lane24]; iframe
  ihave Hout := (out_join16 m ρ c) $$ [Hg0300 Hg0301 Hf0400 Hf0401 Hf0500 Hf0501 Hg0600 Hg0601 Hg1300 Hg1301 Hf1400 Hf1401 Hf1500 Hf1501 Hg1600 Hg1601]
  · iframe
  ihave Hscr := (rbuf12 c _ _ _ _ _ _ _ _ _ _ _ _) $$ [Hsl000 Hsl001 Hsl010 Hsl011 Hsl020 Hsl021 Hsl100 Hsl101 Hsl110 Hsl111 Hsl120 Hsl121]
  · iframe
  rw [wp_ret]; imodintro
  iapply Hk $$ %_
  unfold bodyOut Φ₁
  iframe

end Cert.KernelIdealProof

end
-- ==== Proof.KernelIdealLaunch.lean ====
import proofs.«900326_g7700000000000327_dist_treered_v7x_i4_m2048_n1024_bf16_1_alg».proof.Proof.KernelIdealBody
import proofs.«900326_g7700000000000327_dist_treered_v7x_i4_m2048_n1024_bf16_1_alg».proof.Proof.Gen.KernelIdeal.Points
import Idealize.ShloMosaic.Lib.Pipeline.Launch
import Idealize.ShloMosaic.Lib.Pipeline.Kit
import Idealize.ShloMosaic.Lib.Pipeline.Cells
import Idealize.ShloMosaic.Lib.Rounds
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outFinal m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stgAt (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre' (c : Dev nD) : sProp 𝕄 :=
  iprop(Φ₀ m ρ c ∗ (dats m ρ 0 c).owesAt () t₀.castSucc
    ∗ (∃ d, stgAt c cc0_stg0_0 ((dats m ρ 0 c).before (0 : Fin 2) t₀ d))
    ∗ (∃ d, stgAt c cc0_stg1_0 ((dats m ρ 0 c).before (1 : Fin 2) t₀ d)))

def bodyPost (c : Dev nD) : sProp 𝕄 :=
  iprop(Φ₁ (F := F) c ∗ (dats m ρ 0 c).owesAt () t₀.succ ∗ stgAt c cc0_stg0_0 (xstg m ρ c) ∗ stgAt c cc0_stg1_0 (outFinal m ρ c))

theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (atBufs cc0_body) (fun _ => bodyPost m ρ c)
  unfold bodyPre' Φ₀ start
  iintro ⟨⟨⟨⟨%K, Hg⟩, Hcr, Hlev⟩, ⟨%f0, Hscr⟩⟩, Ho, ⟨%d0, %g0, %hg0, Hx⟩, ⟨%d1, %g1, %hg1, Hout⟩⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  iapply (sound_body m ρ K c (fun _ => bodyPost m ρ c) W f0 g1)
  isplitl
  · unfold bodyIn
    isplitl [Hg]; · iexact Hg
    isplitl [Hcr]; · iexact Hcr
    isplitl [Hlev]; · iexact Hlev
    isplitl [Hscr]; · iexact Hscr
    isplitl [HO]; · iexact HO
    isplitl [Hx]; · iexact Hx
    iexact Hout
  · iintro %W' H
    unfold bodyOut bodyPost
    icases H with ⟨H1, HO, Hx, Hout⟩
    isplitl [H1]; · iexact H1
    isplitl [HO]
    · iexists W'
      isplitr; · ipureintro; exact fun _ _ => Or.inl trivial
      rw [show (dats m ρ 0 c).owed t₀.succ = 0 from rfl]; iexact HO
    isplitl [Hx]
    · iexists _; isplitr; · (ipureintro; rfl)
      iexact Hx
    iexists _; isplitr; · (ipureintro; rfl)
    iexact Hout

abbrev osem (bt : Bool × Lane) : SemLoc sig := csem (some bt)

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : CellIx → SemLoc sig) := by
  intro a b h
  rcases a with _ | ⟨_ | _, d, k, j⟩ <;> rcases b with _ | ⟨_ | _, d', k', j'⟩
  · rfl
  · exact absurd h (fun h => by cases h)
  · exact absurd h (fun h => by cases h)
  · exact absurd h (fun h => by cases h)
  · have hv := congrArg (fun q : DmaSem sig => q.val) (SemLoc.dma.inj h)
    simp only [sendS_val] at hv
    have := d.isLt; have := k.isLt; have := j.isLt; have := d'.isLt; have := k'.isLt; have := j'.isLt
    have hd : d = d' := Fin.ext (by omega)
    have hk : k = k' := Fin.ext (by omega)
    have hj : j = j' := Fin.ext (by omega)
    subst hd hk hj; rfl
  · have hv := congrArg (fun q : DmaSem sig => q.val) (SemLoc.dma.inj h)
    simp only [sendS_val, recvS_val] at hv
    have := d.isLt; have := k.isLt; have := j.isLt; have := d'.isLt; have := k'.isLt; have := j'.isLt
    omega
  · exact absurd h (fun h => by cases h)
  · have hv := congrArg (fun q : DmaSem sig => q.val) (SemLoc.dma.inj h)
    simp only [sendS_val, recvS_val] at hv
    have := d.isLt; have := k.isLt; have := j.isLt; have := d'.isLt; have := k'.isLt; have := j'.isLt
    omega
  · have hv := congrArg (fun q : DmaSem sig => q.val) (SemLoc.dma.inj h)
    simp only [recvS_val] at hv
    have := d.isLt; have := k.isLt; have := j.isLt; have := d'.isLt; have := k'.isLt; have := j'.isLt
    have hd : d = d' := Fin.ext (by omega)
    have hk : k = k' := Fin.ext (by omega)
    have hj : j = j' := Fin.ext (by omega)
    subst hd hk hj; rfl

theorem kcell_injective : Function.Injective (kcell : Dev nD × CellIx → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def ringCells : Finset (GSem nD τ sig) := Finset.univ.map ⟨kcell, kcell_injective⟩

abbrev TokIx : Type := Bool ⊕ (Bool × Lane)
abbrev tokOf (cj : Dev nD × TokIx) : GSem nD τ sig × ℕ × Bool := match cj.2 with
  | .inl b => (barCell cj.1, 0, b)
  | .inr bt => (kcell (cj.1, some bt), 0, false)
theorem tokOf_injective : Function.Injective (tokOf : Dev nD × TokIx → GSem nD τ sig × ℕ × Bool) := by
  rintro ⟨c, j⟩ ⟨c', j'⟩ h
  rcases j with b | bt <;> rcases j' with b' | bt'
  · have h1 := kcell_injective (a₁ := (c, none)) (a₂ := (c', none)) (congrArg (fun x : GSem nD τ sig × ℕ × Bool => x.1) h)
    have h2 : b = b' := congrArg (fun x : GSem nD τ sig × ℕ × Bool => x.2.2) h
    rw [(Prod.mk.inj h1).1, h2]
  · have h1 := kcell_injective (a₁ := (c, none)) (a₂ := (c', some bt')) (congrArg (fun x : GSem nD τ sig × ℕ × Bool => x.1) h)
    exact absurd (Prod.mk.inj h1).2 (fun h => by cases h)
  · have h1 := kcell_injective (a₁ := (c, some bt)) (a₂ := (c', none)) (congrArg (fun x : GSem nD τ sig × ℕ × Bool => x.1) h)
    exact absurd (Prod.mk.inj h1).2 (fun h => by cases h)
  · have h1 := kcell_injective (a₁ := (c, some bt)) (a₂ := (c', some bt')) (congrArg (fun x : GSem nD τ sig × ℕ × Bool => x.1) h)
    rw [(Prod.mk.inj h1).1, Option.some.inj (Prod.mk.inj h1).2]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  bigSep Finset.univ fun j : TokIx => dutyTok ER (tokOf (c, j)).1 (tokOf (c, j)).2.1 (tokOf (c, j)).2.2

def G (c : Dev nD) : sProp 𝕄 :=
  iprop((bigSep Finset.univ fun ix : CellIx => roundState ER (ringRd m ρ) (kcell (c, ix)) 0)
    ∗ (bigSep Finset.univ fun ix : CellIx => iprop(atPos ER (kcell (c, ix)) 0 ∅ 0 ∗ reached ER (kcell (c, ix)) 0)) ∗ toks c)

def G' (c : Dev nD) : sProp 𝕄 := iprop(∃ K, ghost m ρ K c)

omit [FloatOps F] in
theorem bigSep_univ_bool (Ψ : Bool → sProp 𝕄) : bigSep Finset.univ Ψ = iprop(Ψ false ∗ Ψ true) :=
  bigSep_univ_eq_bigSepL [false, true] (by decide) (by decide) Ψ

omit [FloatOps F] in
theorem bigSep_sendRecv (Ψ : Bool × Lane → sProp 𝕄) :
    bigSep Finset.univ Ψ = bigSep Finset.univ fun t : Lane => iprop(Ψ (false, t) ∗ Ψ (true, t)) := by
  rw [bigSep_univ_prod Ψ, bigSep_univ_bool, ← bigSep_sep']

omit [FloatOps F] in

theorem bigSep_cells49 (Φ : CellIx → sProp 𝕄) :
    bigSep Finset.univ Φ = iprop(Φ none ∗ bigSep Finset.univ fun t : Lane => iprop(Φ (some (false, t)) ∗ Φ (some (true, t)))) := by
  rw [bigSep_univ_equiv (Equiv.optionEquivSumPUnit (Bool × Lane)).symm Φ,
    bigSep_univ_sum (fun a : (Bool × Lane) ⊕ PUnit.{1} => Φ ((Equiv.optionEquivSumPUnit (Bool × Lane)).symm a)),
    bigSep_univ_of_subsingleton PUnit.unit, bigSep_sendRecv]
  exact BI.Entails.antisymm _root_.Idealize.SL.BI.sep_comm _root_.Idealize.SL.BI.sep_comm

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun ix : CellIx => Φ (kcell (c, ix)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in

theorem ownSems0_eq (c : Dev nD) : (Pipeline.ownSems0 (Ix := Unit) (Name := ℕ) (U := UU) (Lvl := ℕ) (Val := Elt F) (τ := τ) osem c : sProp 𝕄)
    = ownZero c := by
  unfold Pipeline.ownSems0 ownZero
  rw [bigSep_sendRecv]
omit [FloatOps F] in

theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun ix : CellIx => semVal (kcell (c, ix)) 0 : sProp 𝕄) := by
  rw [ownSems0_eq, unscopedSems0_eq, bigSep_cells49]
  unfold ownZero
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun ix : CellIx => iprop(∃ κ : ℕ, cellInv ER (ringRd m ρ) κ (kcell (c, ix))))
          ∗ (bigSep Finset.univ fun ix : CellIx => iprop(atPos ER (kcell (c, ix)) 0 ∅ 0 ∗ reached ER (kcell (c, ix)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun ix : CellIx => semVal (kcell (c, ix)) 0) ∗ bigSep Finset.univ fun ix : CellIx => roundState ER (ringRd m ρ) (kcell (c, ix)) 0)
      ⊢ (|={Set.univ}=> bigSep Finset.univ fun ix : CellIx => iprop(∃ κ : ℕ, cellInv ER (ringRd m ρ) κ (kcell (c, ix))) : sProp 𝕄) from by
        rw [← bigSep_sep']
        exact (bigSep_mono fun ix _ => (Rounds.body_intro ER (ringRd m ρ) (kcell (c, ix))).trans inv_alloc).trans (bigSep_fupd _ _)) $$ [Hv Hst] with Hinv
  · isplitl [Hv] <;> iassumption
  imodintro
  isplitl [Hinv]; · iexact Hinv
  isplitl [Hat]; · iexact Hat
  iexact Htok

def ringRot : Dev nD ≃ Dev nD := ⟨nxt, prv, prv_nxt, nxt_prv⟩

def laneShift : Dev nD × Lane ≃ Dev nD × Lane :=
  ⟨fun p => (dn p.2.1 p.1, p.2), fun p => (up p.2.1 p.1, p.2), fun p => by simp only [up_dn], fun p => by simp only [dn_up]⟩

omit [FloatOps F] in
theorem toks_eq (c : Dev nD) : toks (F := F) c
    = iprop((dutyTok ER (barCell c) 0 false ∗ dutyTok ER (barCell c) 0 true)
        ∗ (bigSep Finset.univ fun t : Lane => dutyTok ER (sendCell c t.1 t.2.1 t.2.2) 0 false)
        ∗ bigSep Finset.univ fun t : Lane => dutyTok ER (recvCell c t.1 t.2.1 t.2.2) 0 false) := by
  unfold toks
  rw [bigSep_univ_sum (fun j : TokIx => (dutyTok ER (tokOf (c, j)).1 (tokOf (c, j)).2.1 (tokOf (c, j)).2.2 : sProp 𝕄)),
    bigSep_univ_bool, bigSep_sendRecv, bigSep_sep']
  rfl

omit [FloatOps F] in
theorem payToks_eq (c : Dev nD) : payToks (F := F) c
    = iprop(dutyTok ER (barCell (nxt c)) 0 false ∗ dutyTok ER (barCell (prv c)) 0 true
        ∗ (bigSep Finset.univ fun t : Lane => dutyTok ER (sendCell c t.1 t.2.1 t.2.2) 0 false)
        ∗ bigSep Finset.univ fun t : Lane => dutyTok ER (recvCell (dn t.1 c) t.1 t.2.1 t.2.2) 0 false) := by
  unfold payToks; rw [bigSep_sep']

omit [FloatOps F] in

theorem toks_around : (bigSep Finset.univ fun c : Dev nD => (toks c : sProp 𝕄)) ⊢ bigSep Finset.univ fun c : Dev nD => payToks c := by
  have hrecv : (bigSep Finset.univ fun c : Dev nD => bigSep Finset.univ fun t : Lane => (dutyTok ER (recvCell c t.1 t.2.1 t.2.2) 0 false : sProp 𝕄))
      = bigSep Finset.univ fun c : Dev nD => bigSep Finset.univ fun t : Lane => (dutyTok ER (recvCell (dn t.1 c) t.1 t.2.1 t.2.2) 0 false : sProp 𝕄) := by
    rw [← bigSep_univ_prod (fun p : Dev nD × Lane => (dutyTok ER (recvCell p.1 p.2.1 p.2.2.1 p.2.2.2) 0 false : sProp 𝕄)),
      bigSep_univ_equiv laneShift, bigSep_univ_prod]
    rfl
  rw [bigSep_congr (s := Finset.univ) (fun (c : Dev nD) _ => toks_eq (F := F) c),
    bigSep_congr (s := Finset.univ) (fun (c : Dev nD) _ => payToks_eq (F := F) c)]
  rw [bigSep_sep', bigSep_sep', bigSep_sep', bigSep_sep', bigSep_sep', bigSep_sep', hrecv,
    bigSep_univ_equiv ringRot (fun c : Dev nD => (dutyTok ER (barCell c) 0 false : sProp 𝕄)),
    bigSep_univ_equiv ringRot.symm (fun c : Dev nD => (dutyTok ER (barCell c) 0 true : sProp 𝕄))]
  iintro ⟨⟨H1, H2⟩, H3, H4⟩
  isplitl [H1]; · iexact H1
  isplitl [H2]; · iexact H2
  isplitl [H3]; · iexact H3
  iexact H4

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CellIx → ℕ) (c : Dev nD) :
    iprop(records m ρ K ∗ (positions (F := F) c ∗ payToks (F := F) c)) ⊢ G' m ρ c := by
  unfold G' ghost
  iintro ⟨HR, HL⟩
  iexists K
  isplitl [HR]; · iexact HR
  iexact HL

theorem regroup :
    (bigSep Finset.univ fun c => iprop((bigSep Finset.univ fun ix : CellIx => iprop(∃ κ : ℕ, cellInv ER (ringRd m ρ) κ (kcell (c, ix))))
          ∗ (bigSep Finset.univ fun ix : CellIx => iprop(atPos ER (kcell (c, ix)) 0 ∅ 0 ∗ reached ER (kcell (c, ix)) 0)) ∗ toks c) : sProp 𝕄)
      ⊢ bigSep Finset.univ (G' m ρ) := by
  rw [bigSep_sep', bigSep_sep', ← bigSep_univ_prod (fun ck : Dev nD × CellIx => iprop(∃ κ : ℕ, cellInv ER (ringRd m ρ) κ (kcell ck))),
    bigSep_congr (s := Finset.univ) (fun (c : Dev nD) _ => bigSep_sep' Finset.univ (fun ix : CellIx => (atPos ER (kcell (c, ix)) 0 ∅ 0 : sProp 𝕄)) (fun ix => reached ER (kcell (c, ix)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · rw [bigSep_sep']
    isplitl [Hat]; · (unfold positions; iexact Hat)
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G' credsOf
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ scr
  iintro ⟨⟨%f, Hr⟩, Hz⟩
  isplitr; · iempintro
  isplitl [Hz]; · iexact Hz
  iexists f; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

theorem finalA_x (c : Dev nD) : finalA m ρ c (0 : Fin 2) = (s₀ m ρ).mem (win0_0.arr.view.loc (c : Thread nD τ)) :=
  (dats (F := F) m ρ 0 c).arrAt_in (0 : Fin 2) rfl _

theorem finalA_out (c : Dev nD) : finalA m ρ c (1 : Fin 2) = outFinal m ρ c := by
  have hstep : finalA m ρ c (1 : Fin 2)
      = ((cfg0.win (1 : Fin 2)).blk t₀).view.write (Elt F) ((dats m ρ 0 c).arrAt (1 : Fin 2) t₀.val)
          ((dats m ρ 0 c).flushed (1 : Fin 2) t₀) Finset.univ := by
    have h := (dats m ρ 0 c).arrAt_succ (1 : Fin 2) t₀
    rw [if_pos (flush0_1 t₀)] at h
    exact h
  have hwhole : ∀ X : Buf (Elt F) ((cfg0.win (1 : Fin 2)).arr.view.loc (c : Thread nD τ)),
      ((cfg0.win (1 : Fin 2)).blk t₀).view.read (Elt F) X = X := fun X =>
    Memref.read_access_unit_zero (Elt F) main_v1 (funext fun a => by fin_cases a <;> decide) (fun a => by fin_cases a <;> decide) X
  rw [← hwhole (finalA m ρ c (1 : Fin 2)), hstep, View.read_write_univ]
  rfl

theorem run_value : θ_run defs (onTc (τ := τ) (main (F := F))) ⟨m, fun _ => 0, ρ⟩ (fun r => ∀ c : Dev nD,
    r.2.mem ((c.tc : Thread nD τ).loc main_v1) = outFinal m ρ c
      ∧ r.2.mem ((c.tc : Thread nD τ).loc main_arg0) = m ((c.tc : Thread nD τ).loc main_arg0)) :=
  (θ_run defs _ _).mono (fun _ h c => ⟨(h c (1 : Fin 2)).trans (finalA_out m ρ c), (h c (0 : Fin 2)).trans (finalA_x m ρ c)⟩) (run_main m ρ)

theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)) :=
  (θ_run defs _ _).mono (fun _ h c => (h c).2) (run_value m ρ)

end Cert.KernelIdealProof

end
-- ==== Proof.RefSide.lean ====
import proofs.«900326_g7700000000000327_dist_treered_v7x_i4_m2048_n1024_bf16_1_alg».proof.Defs

import proofs.«900326_g7700000000000327_dist_treered_v7x_i4_m2048_n1024_bf16_1_alg».proof.Proof.Gen.ReferenceIdeal.Read
import proofs.«900326_g7700000000000327_dist_treered_v7x_i4_m2048_n1024_bf16_1_alg».proof.Proof.Gen.Pre_finite_inputs_ReferenceIdeal
import Idealize.ShloMosaic.Lib.ValueIdx
import Idealize.ShloMosaic.Lib.Layout
import Idealize.ShloMosaic.PureOps.Ideal.Laws

noncomputable section

namespace Cert.RefSide

open Idealize.ShloMosaic Idealize.ShloMosaic.TcCoe Idealize.SL.Sem
open Idealize.ShloMosaic.ValueIdx

def refVal (X : Buf (Elt Ideal) (((0 : Dev Cert.ReferenceIdeal.nD).tc : Thread Cert.ReferenceIdeal.nD Cert.ReferenceIdeal.τ).loc Cert.ReferenceIdeal.main_arg0)) :
    Buf (Elt Ideal) (((0 : Dev Cert.ReferenceIdeal.nD).tc : Thread Cert.ReferenceIdeal.nD Cert.ReferenceIdeal.τ).loc Cert.ReferenceIdeal.main_v1) :=
  Cert.ReferenceIdeal.Read.val_main_v1 (F := Ideal) X

theorem run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r =>
      r.2.mem (((0 : Dev Cert.ReferenceIdeal.nD).tc : Thread Cert.ReferenceIdeal.nD Cert.ReferenceIdeal.τ).loc Cert.ReferenceIdeal.main_v1) = refVal (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)) :=
  (θ_run Cert.ReferenceIdeal.defs _ _).mono
    (fun _ h => ⟨(h 0).1.trans (Cert.ReferenceIdeal.Read.val_main_v1_eq _), (h 0).2⟩)
    (Cert.ReferenceIdeal.Value.run (F := Ideal) m' ρ')

theorem idx_main_v0_ix (r : Fin 2048) (q : Fin 1024) (k : Fin 4) :
    Cert.ReferenceIdeal.Read.idx_main_v0 (ix2 r q) k = ix3 k r q :=
  funext fun a => Fin.ext (by match a with | ⟨0, _⟩ => rfl | ⟨1, _⟩ => rfl | ⟨2, _⟩ => rfl)

theorem refVal_apply (X : (⟨3, ![4, 2048, 1024]⟩ : Shape).Idx → EReal) (r : Fin 2048) (q : Fin 1024) :
    refVal X (ix2 r q)
      = ((X (ix3 (0 : Fin 4) r q) + X (ix3 (1 : Fin 4) r q)) + X (ix3 (2 : Fin 4) r q)) + X (ix3 (3 : Fin 4) r q) := by
  unfold refVal
  rw [Cert.ReferenceIdeal.Read.val_main_v1_apply, Cert.ReferenceIdeal.Read.val_main_v0_apply,
    Cert.ReferenceIdeal.Read.val_main_cst_apply]
  simp only [Ideal.truncf_def, Ideal.ofBits_def, Ideal.ofBits_zero_f32, zero_add, Fin.sum_univ_four, idx_main_v0_ix]

theorem frame : Cert.frame_ReferenceIdeal := fun m g _ =>
  (θ_run Cert.ReferenceIdeal.defs _ _).mono (fun _ h c => (h c).2) (Cert.ReferenceIdeal.Value.run (F := Ideal) m g)

theorem block_apply (X : Buf (Elt Ideal) (((0 : Dev Cert.ReferenceIdeal.nD).tc : Thread Cert.ReferenceIdeal.nD Cert.ReferenceIdeal.τ).loc Cert.ReferenceIdeal.main_arg0))
    (c : Dev 4) (r : Fin 2048) (q : Fin 1024) :
    (Layout.block ⟨3, ![1, 2048, 1024]⟩ ⟨3, ![4, 2048, 1024]⟩ 0 4 c X) (ix3 (0 : Fin 1) r q) = X (ix3 c r q) := by
  rw [Layout.block_apply]
  refine congrArg X (funext fun a => Fin.ext ?_)
  match a with
  | ⟨0, _⟩ => show c.val * 1 + 0 = c.val; omega
  | ⟨1, _⟩ => rfl
  | ⟨2, _⟩ => rfl

end Cert.RefSide

end
-- ==== Proof.ValueBridge.lean ====
import proofs.«900326_g7700000000000327_dist_treered_v7x_i4_m2048_n1024_bf16_1_alg».proof.Proof.KernelIdealOut
import proofs.«900326_g7700000000000327_dist_treered_v7x_i4_m2048_n1024_bf16_1_alg».proof.Proof.RefSide
import Idealize.ShloMosaic.Lib.ValueIdx
import Idealize.ShloMosaic.Lib.ValueLayout
import Idealize.ShloMosaic.Lib.Pipeline.Value
import Idealize.ShloMosaic.Lib.Layout
import Idealize.ShloMosaic.PureOps.Ideal.Laws

noncomputable section

namespace Cert.ValueBridge

open Cert.KernelIdeal Cert.KernelIdeal.Gen Cert.KernelIdealProof
open Idealize.ShloMosaic Idealize.ShloMosaic.TcCoe Idealize.SL.Sem
open Idealize.ShloMosaic.ValueIdx

theorem acc_eq {F : FTy → Type} [FloatOps F] (a w : Vec F S128x1024 .bf16) : acc a w = addf a w := by
  unfold acc k0_pay9
  show addf (shapeCast S128x1024 a _) (shapeCast S128x1024 (slotRead w) _) = addf a w
  rw [shapeCast_self]
  congr 1
  funext j
  unfold shapeCast slotRead
  exact congrArg w (Equiv.symm_apply_apply _ _)

variable (m : (ℓ : Loc nD τ sig) → Buf (Elt Ideal) ℓ) (ρ : Dev nD → PrngReg)

theorem xstg_eq (c : Dev nD) : xstg m ρ c = m ((c : Thread nD τ).loc main_arg0) := by
  unfold xstg Cert.KernelIdealProof.s₀
  exact Memref.read_access_unit_zero (Elt Ideal) main_arg0 (off := fun a => win0_0.index (0 : Fin 1) a * win0_0.size a)
    (funext fun a => Nat.zero_mul _) _ _

theorem half_emb (j : Fin 2) (p : Fin 128) (q : Fin 1024) :
    (halfR j).emb (ix2 p q) = ix2 (⟨128 * j.val + p.val, by omega⟩ : Fin 256) q := by
  funext a; refine Fin.ext ?_
  match a with
  | ⟨0, _⟩ => show halfOff j 0 + 1 * p.val = 128 * j.val + p.val; simp only [halfOff, Matrix.cons_val_zero]; omega
  | ⟨1, _⟩ => show halfOff j 1 + 1 * q.val = q.val; simp only [halfOff, Matrix.cons_val_one, Matrix.cons_val_zero]; omega

theorem x256_apply (c : Dev nD) (d : Fin 2) (ch : Fin 4) (a : Fin 256) (q : Fin 1024) :
    x256 m ρ c d ch (ix2 a q)
      = m ((c : Thread nD τ).loc main_arg0) (ix3 (0 : Fin 1) (⟨1024 * d.val + 256 * ch.val + a.val, by omega⟩ : Fin 2048) q) := by
  unfold x256 k0_pay1
  show shapeCast S256x1024 (xM.view.readAt (Elt Ideal) (xR d ch).toLoadRect (xstg m ρ c)) _ (ix2 a q) = _
  rw [shapeCast_1ab_ab_apply, xstg_eq]
  show m ((c : Thread nD τ).loc main_arg0) ((xR d ch).toLoadRect.idx (ix3 (0 : Fin 1) a q)) = _
  refine congrArg _ (funext fun b => Fin.ext ?_)
  match b with
  | ⟨0, _⟩ => show xOff d ch 0 + 1 * 0 = 0; simp only [xOff, Matrix.cons_val_zero]
  | ⟨1, _⟩ => show xOff d ch 1 + 1 * a.val = _; simp only [xOff, Matrix.cons_val_one, Matrix.cons_val_zero]; omega
  | ⟨2, _⟩ => show xOff d ch 2 + 1 * q.val = q.val; simp [xOff]

theorem xb_apply (c : Dev nD) (d : Fin 2) (ch : Fin 4) (j : Fin 2) (p : Fin 128) (q : Fin 1024) :
    xb m ρ c d ch j (ix2 p q)
      = m ((c : Thread nD τ).loc main_arg0)
          (ix3 (0 : Fin 1) (⟨1024 * d.val + 256 * ch.val + 128 * j.val + p.val, by omega⟩ : Fin 2048) q) := by
  show x256 m ρ c d ch ((halfR j).emb (ix2 p q)) = _
  rw [half_emb, x256_apply]
  exact congrArg _ (congrArg (fun r => ix3 (0 : Fin 1) r q) (Fin.ext (by
    show 1024 * d.val + 256 * ch.val + (128 * j.val + p.val) = 1024 * d.val + 256 * ch.val + 128 * j.val + p.val
    omega)))

theorem chk_up2 : ∀ (d : Fin 2) (c : Dev nD), chk d (up d c) 2 = chk d c 3 := by decide
theorem chk_up1 : ∀ (d : Fin 2) (c : Dev nD), chk d (up d (up d c)) 1 = chk d c 3 := by decide
theorem chk_up0 : ∀ (d : Fin 2) (c : Dev nD), chk d (up d (up d (up d c))) 0 = chk d c 3 := by decide

theorem chk_fwd1 : ∀ (d : Fin 2) (c : Dev nD), chk d (up d c) 3 = chk d c 4 := by decide
theorem chk_fwd2 : ∀ (d : Fin 2) (c : Dev nD), chk d (up d (up d c)) 3 = chk d c 5 := by decide
theorem chk_fwd3 : ∀ (d : Fin 2) (c : Dev nD), chk d (up d (up d (up d c))) 3 = chk d c 6 := by decide

theorem val_three (c : Dev nD) (d j : Fin 2) (i : S128x1024.Idx) :
    val m ρ 3 c d j i
      = xb m ρ c d (chk d c 3) j i + (xb m ρ (up d c) d (chk d c 3) j i
          + (xb m ρ (up d (up d c)) d (chk d c 3) j i + xb m ρ (up d (up d (up d c))) d (chk d c 3) j i)) := by
  have h3 : val m ρ 3 c d j = acc (xb m ρ c d (chk d c 3) j) (val m ρ 2 (up d c) d j) := val_acc m ρ 2 (by decide) c d j
  have h2 : val m ρ 2 (up d c) d j = acc (xb m ρ (up d c) d (chk d (up d c) 2) j) (val m ρ 1 (up d (up d c)) d j) :=
    val_acc m ρ 1 (by decide) (up d c) d j
  have h1 : val m ρ 1 (up d (up d c)) d j
      = acc (xb m ρ (up d (up d c)) d (chk d (up d (up d c)) 1) j) (val m ρ 0 (up d (up d (up d c))) d j) :=
    val_acc m ρ 0 (by decide) (up d (up d c)) d j
  rw [h3, h2, h1, val_zero, acc_eq, acc_eq, acc_eq, chk_up2, chk_up1, chk_up0]
  rfl

theorem val_four (c : Dev nD) (d j : Fin 2) : val m ρ 4 c d j = val m ρ 3 (up d c) d j := val_fwd m ρ 3 (by decide) c d j
theorem val_five (c : Dev nD) (d j : Fin 2) : val m ρ 5 c d j = val m ρ 3 (up d (up d c)) d j :=
  (val_fwd m ρ 4 (by decide) c d j).trans (val_four m ρ (up d c) d j)
theorem val_six (c : Dev nD) (d j : Fin 2) : val m ρ 6 c d j = val m ρ 3 (up d (up d (up d c))) d j :=
  (val_fwd m ρ 5 (by decide) c d j).trans (val_five m ρ (up d c) d j)

def orb (d : Fin 2) (c : Dev nD) : Fin 4 → Dev nD := ![c, up d c, up d (up d c), up d (up d (up d c))]

theorem orb_bij : ∀ (d : Fin 2) (c : Dev nD), Function.Bijective (orb d c) := by decide

theorem sum_orbit (G : Dev nD → EReal) (d : Fin 2) (c : Dev nD) :
    G c + (G (up d c) + (G (up d (up d c)) + G (up d (up d (up d c))))) = G 0 + G 1 + G 2 + G 3 := by
  have h := Fintype.sum_bijective (orb d c) (orb_bij d c) (fun t => G (orb d c t)) G (fun _ => rfl)
  rw [Fin.sum_univ_four, Fin.sum_univ_four] at h
  rw [← h]
  show _ = G c + G (up d c) + G (up d (up d c)) + G (up d (up d (up d c)))
  simp only [add_assoc]

theorem val_final (d : Fin 2) (c : Dev nD) (ch : Fin 4) (j : Fin 2) (i : S128x1024.Idx) :
    val m ρ (stepOf d c ch) c d j i
      = xb m ρ 0 d ch j i + xb m ρ 1 d ch j i + xb m ρ 2 d ch j i + xb m ρ 3 d ch j i := by
  have hs : stepOf d c ch = 3 ∨ stepOf d c ch = 4 ∨ stepOf d c ch = 5 ∨ stepOf d c ch = 6 := by
    revert d c ch; decide
  have hch := chk_stepOf d c ch
  rcases hs with hs | hs | hs | hs <;> rw [hs] at hch ⊢
  · rw [val_three, hch]
    exact sum_orbit (fun c' => xb m ρ c' d ch j i) d c
  · rw [val_four, val_three, chk_fwd1, hch]
    exact sum_orbit (fun c' => xb m ρ c' d ch j i) d (up d c)
  · rw [val_five, val_three, chk_fwd2, hch]
    exact sum_orbit (fun c' => xb m ρ c' d ch j i) d (up d (up d c))
  · rw [val_six, val_three, chk_fwd3, hch]
    exact sum_orbit (fun c' => xb m ρ c' d ch j i) d (up d (up d (up d c)))

variable (m' : (ℓ : Loc Cert.ReferenceIdeal.nD Cert.ReferenceIdeal.τ Cert.ReferenceIdeal.sig) → Buf (Elt Ideal) ℓ)

theorem xb_ref (hagree : ∀ c : Dev Cert.KernelIdeal.nD,
      m ((c.tc : Thread Cert.KernelIdeal.nD Cert.KernelIdeal.τ).loc Cert.KernelIdeal.main_arg0)
        = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0)))
    (c : Dev nD) (d : Fin 2) (ch : Fin 4) (j : Fin 2) (p : Fin 128) (q : Fin 1024) :
    xb m ρ c d ch j (ix2 p q)
      = (m' (((0 : Dev Cert.ReferenceIdeal.nD).tc : Thread Cert.ReferenceIdeal.nD Cert.ReferenceIdeal.τ).loc Cert.ReferenceIdeal.main_arg0))
          (ix3 c (⟨1024 * d.val + 256 * ch.val + 128 * j.val + p.val, by omega⟩ : Fin 2048) q) := by
  rw [xb_apply, hagree c, Cert.RefSide.block_apply]

theorem row_join (r : Fin 2048) :
    (⟨1024 * (rowHalf r).val + 256 * (rowChunk r).val + 128 * (rowSub r).val + (rowIn r).val, by omega⟩ : Fin 2048) = r :=
  Fin.ext (by simp only [rowHalf, rowChunk, rowSub, rowIn]; omega)

theorem out_value_apply (hagree : ∀ c : Dev Cert.KernelIdeal.nD,
      m ((c.tc : Thread Cert.KernelIdeal.nD Cert.KernelIdeal.τ).loc Cert.KernelIdeal.main_arg0)
        = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0)))
    (c : Dev Cert.KernelIdeal.nD) (r : Fin 2048) (q : Fin 1024) :
    Cert.KernelIdealProof.outFinal (F := Ideal) m ρ c (ix2 r q)
      = Cert.RefSide.refVal (m' (((0 : Dev Cert.ReferenceIdeal.nD).tc : Thread Cert.ReferenceIdeal.nD Cert.ReferenceIdeal.τ).loc Cert.ReferenceIdeal.main_arg0)) (ix2 r q) := by
  rw [Cert.RefSide.refVal_apply]
  show val m ρ (stepOf (rowHalf r) c (rowChunk r)) c (rowHalf r) (rowSub r) (ix2 (rowIn r) q) = _
  rw [val_final, xb_ref m ρ m' hagree 0, xb_ref m ρ m' hagree 1, xb_ref m ρ m' hagree 2, xb_ref m ρ m' hagree 3, row_join]

theorem out_value (hagree : ∀ c : Dev Cert.KernelIdeal.nD,
      m ((c.tc : Thread Cert.KernelIdeal.nD Cert.KernelIdeal.τ).loc Cert.KernelIdeal.main_arg0)
        = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0)))
    (c : Dev Cert.KernelIdeal.nD) :
    Cert.KernelIdealProof.outFinal (F := Ideal) m ρ c
      = Cert.RefSide.refVal (m' (((0 : Dev Cert.ReferenceIdeal.nD).tc : Thread Cert.ReferenceIdeal.nD Cert.ReferenceIdeal.τ).loc Cert.ReferenceIdeal.main_arg0)) := by
  funext i
  rw [eq_ix2 i]
  exact out_value_apply m ρ m' hagree c (i 0) (i 1)

end Cert.ValueBridge

end
-- ==== Proof.lean ====
/- Four devices reduce their blocks round a ring in both directions and gather the sums; one device sums the four slices.
   Over the extended reals the sum that has travelled the ring is the reference's sum, block by block. -/
import proofs.«900326_g7700000000000327_dist_treered_v7x_i4_m2048_n1024_bf16_1_alg».proof.Defs
import proofs.«900326_g7700000000000327_dist_treered_v7x_i4_m2048_n1024_bf16_1_alg».proof.Proof.Gen.Kernel.Frame

import proofs.«900326_g7700000000000327_dist_treered_v7x_i4_m2048_n1024_bf16_1_alg».proof.Proof.Gen.KernelIdeal.Frame

import proofs.«900326_g7700000000000327_dist_treered_v7x_i4_m2048_n1024_bf16_1_alg».proof.Proof.Gen.Pre_finite_inputs_Kernel

import proofs.«900326_g7700000000000327_dist_treered_v7x_i4_m2048_n1024_bf16_1_alg».proof.Proof.KernelLaunch
import proofs.«900326_g7700000000000327_dist_treered_v7x_i4_m2048_n1024_bf16_1_alg».proof.Proof.KernelIdealLaunch

import proofs.«900326_g7700000000000327_dist_treered_v7x_i4_m2048_n1024_bf16_1_alg».proof.Proof.ValueBridge
import Idealize.ShloMosaic.Adequacy
import Idealize.ShloMosaic.Init

noncomputable section

namespace Cert.Proof

open Idealize.ShloMosaic Idealize.SL.Sem

theorem frame_kernel : Cert.frame_Kernel := fun m ρ _ => Cert.KernelProof.frame (F := Bits) m ρ

theorem frame_kernelIdeal : Cert.frame_KernelIdeal := fun m ρ _ => Cert.KernelIdealProof.frame (F := Ideal) m ρ

theorem algebraic : Cert.algebraic_KernelIdeal_ReferenceIdeal := by
  intro m ρ m' ρ' _ hagree
  refine ⟨Cert.RefSide.refVal (m' (((0 : Dev Cert.ReferenceIdeal.nD).tc : Thread Cert.ReferenceIdeal.nD Cert.ReferenceIdeal.τ).loc Cert.ReferenceIdeal.main_arg0)),
    ?_, Cert.RefSide.run m' ρ'⟩
  exact (θ_run Cert.KernelIdeal.defs _ _).mono
    (fun _ h c => ⟨(h c).1.trans (Cert.ValueBridge.out_value m ρ m' hagree c), (h c).2⟩)
    (Cert.KernelIdealProof.run_value (F := Ideal) m ρ)

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frame_kernel, frame_kernelIdeal, Cert.RefSide.frame, trivial, algebraic⟩

end Cert.Proof

end
